-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)
  ∧ IdealRules.named_const.Statement Cert.KernelIdeal.κ "inv_15" .f32 0x3D888889#32 ((1 / 15 : ℝ) : EReal)
  ∧ IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S15x8 : Shape := ⟨2, ![15, 8]⟩
abbrev S9x8 : Shape := ⟨2, ![9, 8]⟩
abbrev S50x128 : Shape := ⟨2, ![50, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S15x8 : S_.BroadcastsInDim S15x8 (![] : Fin 0 → Fin S15x8.rank)
  reducesTo_S15x8_S_d0_1 : S15x8.ReducesTo [0, 1] S_
  bcast_S_S9x8 : S_.BroadcastsInDim S9x8 (![] : Fin 0 → Fin S9x8.rank)
  reducesTo_S9x8_S_d0_1 : S9x8.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg10 : IVec S1048576 32) (main_v132 : IVec S_ 1) (main_v134 : IVec S1048576 1) : IVec S_ 1 :=
  let main_c_55 : IVec S_ 1 := constantI S_ 1 1#1
  let main_v135 : IVec S_ 1 := (fun x v => Host.reduce IntOp.andi x v reducesTo_S1048576_S_d0 h_S_) main_v134 main_c_55
  let main_v136 : IVec S_ 1 := andi main_v132 main_v135
  let main_c_56 : IVec S_ 32 := constantI S_ 32 9#32
  let main_v137 : IVec S1048576 32 := broadcastInDim S1048576 ![] bcast_S_S1048576 main_c_56
  let main_v138 : IVec S1048576 1 := cmpi .slt main_arg10 main_v137
  let main_c_57 : IVec S_ 1 := constantI S_ 1 1#1
  let main_v139 : IVec S_ 1 := (fun x v => Host.reduce IntOp.andi x v reducesTo_S1048576_S_d0 h_S_) main_v138 main_c_57
  let main_v140 : IVec S_ 1 := andi main_v136 main_v139
  main_v140

def fn_part7 {F : FTy → Type} [FloatOps F] (main_arg3 : IVec S1048576 32) (main_arg7 : IVec S1048576 32) (main_arg10 : IVec S1048576 32) (main_v116 : IVec S_ 1) (main_v118 : IVec S1048576 1) : IVec S_ 1 :=
  let main_c_47 : IVec S_ 1 := constantI S_ 1 1#1
  let main_v119 : IVec S_ 1 := (fun x v => Host.reduce IntOp.andi x v reducesTo_S1048576_S_d0 h_S_) main_v118 main_c_47
  let main_v120 : IVec S_ 1 := andi main_v116 main_v119
  let main_c_48 : IVec S_ 32 := constantI S_ 32 9#32
  let main_v121 : IVec S1048576 32 := broadcastInDim S1048576 ![] bcast_S_S1048576 main_c_48
  let main_v122 : IVec S1048576 1 := cmpi .slt main_arg3 main_v121
  let main_c_49 : IVec S_ 1 := constantI S_ 1 1#1
  let main_v123 : IVec S_ 1 := (fun x v => Host.reduce IntOp.andi x v reducesTo_S1048576_S_d0 h_S_) main_v122 main_c_49
  let main_v124 : IVec S_ 1 := andi main_v120 main_v123
  let main_c_50 : IVec S_ 32 := constantI S_ 32 0#32
  let main_v125 : IVec S1048576 32 := broadcastInDim S1048576 ![] bcast_S_S1048576 main_c_50
  let main_v126 : IVec S1048576 1 := cmpi .sge main_arg7 main_v125
  let main_c_51 : IVec S_ 1 := constantI S_ 1 1#1
  let main_v127 : IVec S_ 1 := (fun x v => Host.reduce IntOp.andi x v reducesTo_S1048576_S_d0 h_S_) main_v126 main_c_51
  let main_v128 : IVec S_ 1 := andi main_v124 main_v127
  let main_c_52 : IVec S_ 32 := constantI S_ 32 15#32
  let main_v129 : IVec S1048576 32 := broadcastInDim S1048576 ![] bcast_S_S1048576 main_c_52
  let main_v130 : IVec S1048576 1 := cmpi .slt main_arg7 main_v129
  let main_c_53 : IVec S_ 1 := constantI S_ 1 1#1
  let main_v131 : IVec S_ 1 := (fun x v => Host.reduce IntOp.andi x v reducesTo_S1048576_S_d0 h_S_) main_v130 main_c_53
  let main_v132 : IVec S_ 1 := andi main_v128 main_v131
  let main_c_54 : IVec S_ 32 := constantI S_ 32 0#32
  let main_v133 : IVec S1048576 32 := broadcastInDim S1048576 ![] bcast_S_S1048576 main_c_54
  let main_v134 : IVec S1048576 1 := cmpi .sge main_arg10 main_v133
  fn_part8 (F := F) main_arg10 main_v132 main_v134

def fn_part6 {F : FTy → Type} [FloatOps F] (main_arg0 : IVec S1048576 32) (main_arg3 : IVec S1048576 32) (main_arg7 : IVec S1048576 32) (main_arg10 : IVec S1048576 32) (main_arg29 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg29
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S1048576 32 := broadcastInDim S1048576 ![] bcast_S_S1048576 main_c_42
  let main_v110 : IVec S1048576 1 := cmpi .sge main_arg0 main_v109
  let main_c_43 : IVec S_ 1 := constantI S_ 1 1#1
  let main_v111 : IVec S_ 1 := (fun x v => Host.reduce IntOp.andi x v reducesTo_S1048576_S_d0 h_S_) main_v110 main_c_43
  let main_v112 : IVec S_ 1 := andi main_v108 main_v111
  let main_c_44 : IVec S_ 32 := constantI S_ 32 15#32
  let main_v113 : IVec S1048576 32 := broadcastInDim S1048576 ![] bcast_S_S1048576 main_c_44
  let main_v114 : IVec S1048576 1 := cmpi .slt main_arg0 main_v113
  let main_c_45 : IVec S_ 1 := constantI S_ 1 1#1
  let main_v115 : IVec S_ 1 := (fun x v => Host.reduce IntOp.andi x v reducesTo_S1048576_S_d0 h_S_) main_v114 main_c_45
  let main_v116 : IVec S_ 1 := andi main_v112 main_v115
  let main_c_46 : IVec S_ 32 := constantI S_ 32 0#32
  let main_v117 : IVec S1048576 32 := broadcastInDim S1048576 ![] bcast_S_S1048576 main_c_46
  let main_v118 : IVec S1048576 1 := cmpi .sge main_arg3 main_v117
  fn_part7 (F := F) main_arg3 main_arg7 main_arg10 main_v116 main_v118

def fn_part5 {F : FTy → Type} [FloatOps F] (main_arg0 : IVec S1048576 32) (main_arg3 : IVec S1048576 32) (main_arg7 : IVec S1048576 32) (main_arg10 : IVec S1048576 32) (main_arg26 : FVec F S32 .f32) (main_arg27 : FVec F S32 .f32) (main_arg28 : FVec F S32x1 .f32) (main_arg29 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg26
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg27
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x1 .f32 := Host.absf main_arg28
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg0 main_arg3 main_arg7 main_arg10 main_arg29 main_v98 main_v101 main_c_39

def fn_part4 {F : FTy → Type} [FloatOps F] (main_arg0 : IVec S1048576 32) (main_arg3 : IVec S1048576 32) (main_arg7 : IVec S1048576 32) (main_arg10 : IVec S1048576 32) (main_arg22 : FVec F S64 .f32) (main_arg23 : FVec F S64 .f32) (main_arg24 : FVec F S64x32 .f32) (main_arg25 : FVec F S32 .f32) (main_arg26 : FVec F S32 .f32) (main_arg27 : FVec F S32 .f32) (main_arg28 : FVec F S32x1 .f32) (main_arg29 : FVec F S1 .f32) (main_v63 : IVec S_ 1) (main_v67 : IVec S_ 1) : IVec S_ 1 :=
  let main_v68 : IVec S_ 1 := andi main_v63 main_v67
  let main_v69 : FVec F S64 .f32 := Host.absf main_arg22
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg23
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x32 .f32 := Host.absf main_arg24
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg25
  let main_cst_32 : FVec F S_ .f32 := constant S_ .f32 0x7F800000#32
  fn_part5 (F := F) main_arg0 main_arg3 main_arg7 main_arg10 main_arg26 main_arg27 main_arg28 main_arg29 main_v83 main_v84 main_cst_32

def fn_part3 {F : FTy → Type} [FloatOps F] (main_arg0 : IVec S1048576 32) (main_arg3 : IVec S1048576 32) (main_arg7 : IVec S1048576 32) (main_arg10 : IVec S1048576 32) (main_arg19 : FVec F S128 .f32) (main_arg20 : FVec F S128x64 .f32) (main_arg21 : FVec F S64 .f32) (main_arg22 : FVec F S64 .f32) (main_arg23 : FVec F S64 .f32) (main_arg24 : FVec F S64x32 .f32) (main_arg25 : FVec F S32 .f32) (main_arg26 : FVec F S32 .f32) (main_arg27 : FVec F S32 .f32) (main_arg28 : FVec F S32x1 .f32) (main_arg29 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg20
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg21
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg3 main_arg7 main_arg10 main_arg22 main_arg23 main_arg24 main_arg25 main_arg26 main_arg27 main_arg28 main_arg29 main_v63 main_v67

def fn_part2 {F : FTy → Type} [FloatOps F] (main_arg0 : IVec S1048576 32) (main_arg3 : IVec S1048576 32) (main_arg7 : IVec S1048576 32) (main_arg10 : IVec S1048576 32) (main_arg15 : FVec F S9x8 .f32) (main_arg16 : FVec F S50x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x32 .f32) (main_arg25 : FVec F S32 .f32) (main_arg26 : FVec F S32 .f32) (main_arg27 : FVec F S32 .f32) (main_arg28 : FVec F S32x1 .f32) (main_arg29 : FVec F S1 .f32) (main_v33 : IVec S_ 1) : IVec S_ 1 :=
  let main_v34 : FVec F S9x8 .f32 := Host.absf main_arg15
  let main_cst_12 : FVec F S_ .f32 := constant S_ .f32 0x7F800000#32
  let main_v35 : FVec F S9x8 .f32 := broadcastInDim S9x8 ![] bcast_S_S9x8 main_cst_12
  let main_v36 : IVec S9x8 1 := cmpf .olt main_v34 main_v35
  let main_c_13 : IVec S_ 1 := constantI S_ 1 1#1
  let main_v37 : IVec S_ 1 := (fun x v => Host.reduce IntOp.andi x v reducesTo_S9x8_S_d0_1 h_S_) main_v36 main_c_13
  let main_v38 : IVec S_ 1 := andi main_v33 main_v37
  let main_v39 : FVec F S50x128 .f32 := Host.absf main_arg16
  let main_cst_14 : FVec F S_ .f32 := constant S_ .f32 0x7F800000#32
  let main_v40 : FVec F S50x128 .f32 := broadcastInDim S50x128 ![] bcast_S_S50x128 main_cst_14
  let main_v41 : IVec S50x128 1 := cmpf .olt main_v39 main_v40
  let main_c_15 : IVec S_ 1 := constantI S_ 1 1#1
  let main_v42 : IVec S_ 1 := (fun x v => Host.reduce IntOp.andi x v reducesTo_S50x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg18
  let main_cst_18 : FVec F S_ .f32 := constant S_ .f32 0x7F800000#32
  let main_v50 : FVec F S128 .f32 := broadcastInDim S128 ![] bcast_S_S128 main_cst_18
  fn_part3 (F := F) main_arg0 main_arg3 main_arg7 main_arg10 main_arg19 main_arg20 main_arg21 main_arg22 main_arg23 main_arg24 main_arg25 main_arg26 main_arg27 main_arg28 main_arg29 main_v48 main_v49 main_v50

def fn_part1 {F : FTy → Type} [FloatOps F] (main_arg0 : IVec S1048576 32) (main_arg3 : IVec S1048576 32) (main_arg7 : IVec S1048576 32) (main_arg10 : IVec S1048576 32) (main_arg12 : FVec F S1048576 .f32) (main_arg13 : FVec F S1048576 .f32) (main_arg14 : FVec F S15x8 .f32) (main_arg15 : FVec F S9x8 .f32) (main_arg16 : FVec F S50x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x32 .f32) (main_arg25 : FVec F S32 .f32) (main_arg26 : FVec F S32 .f32) (main_arg27 : FVec F S32 .f32) (main_arg28 : FVec F S32x1 .f32) (main_arg29 : FVec F S1 .f32) (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  let main_v19 : FVec F S1048576 .f32 := Host.absf main_arg12
  let main_cst_6 : FVec F S_ .f32 := constant S_ .f32 0x7F800000#32
  let main_v20 : FVec F S1048576 .f32 := broadcastInDim S1048576 ![] bcast_S_S1048576 main_cst_6
  let main_v21 : IVec S1048576 1 := cmpf .olt main_v19 main_v20
  let main_c_7 : IVec S_ 1 := constantI S_ 1 1#1
  let main_v22 : IVec S_ 1 := (fun x v => Host.reduce IntOp.andi x v reducesTo_S1048576_S_d0 h_S_) main_v21 main_c_7
  let main_v23 : IVec S_ 1 := andi main_v18 main_v22
  let main_v24 : FVec F S1048576 .f32 := Host.absf main_arg13
  let main_cst_8 : FVec F S_ .f32 := constant S_ .f32 0x7F800000#32
  let main_v25 : FVec F S1048576 .f32 := broadcastInDim S1048576 ![] bcast_S_S1048576 main_cst_8
  let main_v26 : IVec S1048576 1 := cmpf .olt main_v24 main_v25
  let main_c_9 : IVec S_ 1 := constantI S_ 1 1#1
  let main_v27 : IVec S_ 1 := (fun x v => Host.reduce IntOp.andi x v reducesTo_S1048576_S_d0 h_S_) main_v26 main_c_9
  let main_v28 : IVec S_ 1 := andi main_v23 main_v27
  let main_v29 : FVec F S15x8 .f32 := Host.absf main_arg14
  let main_cst_10 : FVec F S_ .f32 := constant S_ .f32 0x7F800000#32
  let main_v30 : FVec F S15x8 .f32 := broadcastInDim S15x8 ![] bcast_S_S15x8 main_cst_10
  let main_v31 : IVec S15x8 1 := cmpf .olt main_v29 main_v30
  let main_c_11 : IVec S_ 1 := constantI S_ 1 1#1
  let main_v32 : IVec S_ 1 := (fun x v => Host.reduce IntOp.andi x v reducesTo_S15x8_S_d0_1 h_S_) main_v31 main_c_11
  let main_v33 : IVec S_ 1 := andi main_v28 main_v32
  fn_part2 (F := F) main_arg0 main_arg3 main_arg7 main_arg10 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S1048576 32) (main_arg1 : IVec S1048576 32) (main_arg2 : IVec S1048576 32) (main_arg3 : IVec S1048576 32) (main_arg4 : FVec F S1048576 .f32) (main_arg5 : FVec F S1048576 .f32) (main_arg6 : FVec F S1048576 .f32) (main_arg7 : IVec S1048576 32) (main_arg8 : IVec S1048576 32) (main_arg9 : IVec S1048576 32) (main_arg10 : IVec S1048576 32) (main_arg11 : FVec F S1048576 .f32) (main_arg12 : FVec F S1048576 .f32) (main_arg13 : FVec F S1048576 .f32) (main_arg14 : FVec F S15x8 .f32) (main_arg15 : FVec F S9x8 .f32) (main_arg16 : FVec F S50x128 .f32) (main_arg17 : FVec F S128 .f32) (main_arg18 : FVec F S128 .f32) (main_arg19 : FVec F S128 .f32) (main_arg20 : FVec F S128x64 .f32) (main_arg21 : FVec F S64 .f32) (main_arg22 : FVec F S64 .f32) (main_arg23 : FVec F S64 .f32) (main_arg24 : FVec F S64x32 .f32) (main_arg25 : FVec F S32 .f32) (main_arg26 : FVec F S32 .f32) (main_arg27 : FVec F S32 .f32) (main_arg28 : FVec F S32x1 .f32) (main_arg29 : FVec F S1 .f32) : IVec S_ 1 :=
  let main_v0 : FVec F S1048576 .f32 := Host.absf main_arg4
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576 .f32 := Host.absf main_arg5
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S1048576 .f32 := Host.absf main_arg6
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S1048576 .f32 := Host.absf main_arg11
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_arg0 main_arg3 main_arg7 main_arg10 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S1048576 : Shape := ⟨1, ![1048576]⟩
abbrev S15x8 : Shape := ⟨2, ![15, 8]⟩
abbrev S9x8 : Shape := ⟨2, ![9, 8]⟩
abbrev S50x128 : Shape := ⟨2, ![50, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1048576 : Shape := ⟨2, ![1, 1048576]⟩
abbrev S8x1048576 : Shape := ⟨2, ![8, 1048576]⟩
abbrev S6x1048576 : Shape := ⟨2, ![6, 1048576]⟩
abbrev S128x1 : Shape := ⟨2, ![128, 1]⟩
abbrev S64x1 : Shape := ⟨2, ![64, 1]⟩
abbrev S1x1 : Shape := ⟨2, ![1, 1]⟩
abbrev S256x1 : Shape := ⟨2, ![256, 1]⟩
abbrev S8x16384 : Shape := ⟨2, ![8, 16384]⟩
abbrev S6x16384 : Shape := ⟨2, ![6, 16384]⟩
abbrev S50x16384 : Shape := ⟨2, ![50, 16384]⟩
abbrev S1x16384 : Shape := ⟨2, ![1, 16384]⟩
abbrev S15x16384 : Shape := ⟨2, ![15, 16384]⟩
abbrev S8x15 : Shape := ⟨2, ![8, 15]⟩
abbrev S3x16384 : Shape := ⟨2, ![3, 16384]⟩
abbrev S9x16384 : Shape := ⟨2, ![9, 16384]⟩
abbrev S8x9 : Shape := ⟨2, ![8, 9]⟩
abbrev S128x50 : Shape := ⟨2, ![128, 50]⟩
abbrev S128x16384 : Shape := ⟨2, ![128, 16384]⟩
abbrev S2x128x1 : Shape := ⟨3, ![2, 128, 1]⟩
abbrev S_ : Shape := ⟨0, ![]⟩
abbrev S1x128 : Shape := ⟨2, ![1, 128]⟩
abbrev S64x128 : Shape := ⟨2, ![64, 128]⟩
abbrev S64x16384 : Shape := ⟨2, ![64, 16384]⟩
abbrev S2x64x1 : Shape := ⟨3, ![2, 64, 1]⟩
abbrev S1x64 : Shape := ⟨2, ![1, 64]⟩
abbrev S32x64 : Shape := ⟨2, ![32, 64]⟩
abbrev S32x16384 : Shape := ⟨2, ![32, 16384]⟩
abbrev S2x32x1 : Shape := ⟨3, ![2, 32, 1]⟩
abbrev S1x32 : Shape := ⟨2, ![1, 32]⟩

abbrev nBuf : Space → Nat
  | .hbm => 154
  | .vmem => 62
  | .smem => 0
  | _ => 0

abbrev hbmTy0_0 (i : Nat) : BufTy := match i % 128 with
  | 0 => ⟨S1048576, .i32⟩
  | 1 => ⟨S1048576, .i32⟩
  | 2 => ⟨S1048576, .i32⟩
  | 3 => ⟨S1048576, .i32⟩
  | 4 => ⟨S1048576, .f32⟩
  | 5 => ⟨S1048576, .f32⟩
  | 6 => ⟨S1048576, .f32⟩
  | 7 => ⟨S1048576, .i32⟩
  | 8 => ⟨S1048576, .i32⟩
  | 9 => ⟨S1048576, .i32⟩
  | 10 => ⟨S1048576, .i32⟩
  | 11 => ⟨S1048576, .f32⟩
  | 12 => ⟨S1048576, .f32⟩
  | 13 => ⟨S1048576, .f32⟩
  | 14 => ⟨S15x8, .f32⟩
  | 15 => ⟨S9x8, .f32⟩
  | 16 => ⟨S50x128, .f32⟩
  | 17 => ⟨S128, .f32⟩
  | 18 => ⟨S128, .f32⟩
  | 19 => ⟨S128, .f32⟩
  | 20 => ⟨S128x64, .f32⟩
  | 21 => ⟨S64, .f32⟩
  | 22 => ⟨S64, .f32⟩
  | 23 => ⟨S64, .f32⟩
  | 24 => ⟨S64x32, .f32⟩
  | 25 => ⟨S32, .f32⟩
  | 26 => ⟨S32, .f32⟩
  | 27 => ⟨S32, .f32⟩
  | 28 => ⟨S32x1, .f32⟩
  | 29 => ⟨S1, .f32⟩
  | 30 => ⟨S1x1048576, .i32⟩
  | 31 => ⟨S1x1048576, .i32⟩
  | 32 => ⟨S1x1048576, .i32⟩
  | 33 => ⟨S1x1048576, .i32⟩
  | 34 => ⟨S1x1048576, .i32⟩
  | 35 => ⟨S1x1048576, .i32⟩
  | 36 => ⟨S1x1048576, .i32⟩
  | 37 => ⟨S1x1048576, .i32⟩
  | 38 => ⟨S8x1048576, .i32⟩
  | 39 => ⟨S1x1048576, .f32⟩
  | 40 => ⟨S1x1048576, .f32⟩
  | 41 => ⟨S1x1048576, .f32⟩
  | 42 => ⟨S1x1048576, .f32⟩
  | 43 => ⟨S1x1048576, .f32⟩
  | 44 => ⟨S1x1048576, .f32⟩
  | 45 => ⟨S6x1048576, .f32⟩
  | 46 => ⟨S128x1, .f32⟩
  | 47 => ⟨S64x1, .f32⟩
  | 48 => ⟨S32x1, .f32⟩
  | 49 => ⟨S1x1, .f32⟩
  | 50 => ⟨S128x1, .f32⟩
  | 51 => ⟨S128x1, .f32⟩
  | 52 => ⟨S64x1, .f32⟩
  | 53 => ⟨S64x1, .f32⟩
  | 54 => ⟨S32x1, .f32⟩
  | 55 => ⟨S32x1, .f32⟩
  | 56 => ⟨S256x1, .f32⟩
  | 57 => ⟨S256x1, .f32⟩
  | 58 => ⟨S2x128x1, .f32⟩
  | 59 => ⟨S_, .f32⟩
  | 60 => ⟨S128x1, .f32⟩
  | 61 => ⟨S2x128x1, .f32⟩
  | 62 => ⟨S_, .f32⟩
  | 63 => ⟨S128x1, .f32⟩
  | 64 => ⟨S_, .f32⟩
  | 65 => ⟨S128x1, .f32⟩
  | 66 => ⟨S128x1, .f32⟩
  | 67 => ⟨S_, .f32⟩
  | 68 => ⟨S128x1, .f32⟩
  | 69 => ⟨S128x1, .f32⟩
  | 70 => ⟨S128x1, .f32⟩
  | 71 => ⟨S128x1, .f32⟩
  | 72 => ⟨S128x1, .f32⟩
  | 73 => ⟨S_, .f32⟩
  | 74 => ⟨S128x1, .f32⟩
  | 75 => ⟨S128x1, .f32⟩
  | 76 => ⟨S_, .f32⟩
  | 77 => ⟨S128x1, .f32⟩
  | 78 => ⟨S128x1, .f32⟩
  | 79 => ⟨S128x1, .f32⟩
  | 80 => ⟨S128x1, .f32⟩
  | 81 => ⟨S128x1, .f32⟩
  | 82 => ⟨S128x1, .f32⟩
  | 83 => ⟨S1x128, .f32⟩
  | 84 => ⟨S50x128, .f32⟩
  | 85 => ⟨S50x128, .f32⟩
  | 86 => ⟨S128x1, .f32⟩
  | 87 => ⟨S128x1, .f32⟩
  | 88 => ⟨S128x1, .f32⟩
  | 89 => ⟨S128x1, .f32⟩
  | 90 => ⟨S2x64x1, .f32⟩
  | 91 => ⟨S_, .f32⟩
  | 92 => ⟨S64x1, .f32⟩
  | 93 => ⟨S2x64x1, .f32⟩
  | 94 => ⟨S_, .f32⟩
  | 95 => ⟨S64x1, .f32⟩
  | 96 => ⟨S_, .f32⟩
  | 97 => ⟨S64x1, .f32⟩
  | 98 => ⟨S64x1, .f32⟩
  | 99 => ⟨S_, .f32⟩
  | 100 => ⟨S64x1, .f32⟩
  | 101 => ⟨S64x1, .f32⟩
  | 102 => ⟨S64x1, .f32⟩
  | 103 => ⟨S64x1, .f32⟩
  | 104 => ⟨S64x1, .f32⟩
  | 105 => ⟨S_, .f32⟩
  | 106 => ⟨S64x1, .f32⟩
  | 107 => ⟨S64x1, .f32⟩
  | 108 => ⟨S_, .f32⟩
  | 109 => ⟨S64x1, .f32⟩
  | 110 => ⟨S64x1, .f32⟩
  | 111 => ⟨S64x1, .f32⟩
  | 112 => ⟨S64x1, .f32⟩
  | 113 => ⟨S64x1, .f32⟩
  | 114 => ⟨S64x1, .f32⟩
  | 115 => ⟨S1x64, .f32⟩
  | 116 => ⟨S128x64, .f32⟩
  | 117 => ⟨S128x64, .f32⟩
  | 118 => ⟨S64x1, .f32⟩
  | 119 => ⟨S64x1, .f32⟩
  | 120 => ⟨S64x1, .f32⟩
  | 121 => ⟨S64x1, .f32⟩
  | 122 => ⟨S2x32x1, .f32⟩
  | 123 => ⟨S_, .f32⟩
  | 124 => ⟨S32x1, .f32⟩
  | 125 => ⟨S2x32x1, .f32⟩
  | 126 => ⟨S_, .f32⟩
  | 127 => ⟨S32x1, .f32⟩
  | _ => ⟨S1048576, .i32⟩

abbrev hbmTy0_1 (i : Nat) : BufTy := match i % 128 with
  | 0 => ⟨S_, .f32⟩
  | 1 => ⟨S32x1, .f32⟩
  | 2 => ⟨S32x1, .f32⟩
  | 3 => ⟨S_, .f32⟩
  | 4 => ⟨S32x1, .f32⟩
  | 5 => ⟨S32x1, .f32⟩
  | 6 => ⟨S32x1, .f32⟩
  | 7 => ⟨S32x1, .f32⟩
  | 8 => ⟨S32x1, .f32⟩
  | 9 => ⟨S_, .f32⟩
  | 10 => ⟨S32x1, .f32⟩
  | 11 => ⟨S32x1, .f32⟩
  | 12 => ⟨S_, .f32⟩
  | 13 => ⟨S32x1, .f32⟩
  | 14 => ⟨S32x1, .f32⟩
  | 15 => ⟨S32x1, .f32⟩
  | 16 => ⟨S32x1, .f32⟩
  | 17 => ⟨S32x1, .f32⟩
  | 18 => ⟨S32x1, .f32⟩
  | 19 => ⟨S1x32, .f32⟩
  | 20 => ⟨S64x32, .f32⟩
  | 21 => ⟨S64x32, .f32⟩
  | 22 => ⟨S32x1, .f32⟩
  | 23 => ⟨S32x1, .f32⟩
  | 24 => ⟨S1x1048576, .f32⟩
  | 25 => ⟨S1048576, .f32⟩
  | _ => ⟨S1048576, .i32⟩

abbrev hbmTy (i : Nat) : BufTy := match i / 128 with
  | 0 => hbmTy0_0 i
  | 1 => hbmTy0_1 i
  | _ => ⟨S1048576, .i32⟩

abbrev bufTy : (tb : Table) → Fin (tcTables nBuf tb) → BufTy
  | .hbm, ⟨i, _⟩ => hbmTy i
  | .local _ .vmem, ⟨0, _⟩ => ⟨S8x16384, .i32⟩
  | .local _ .vmem, ⟨1, _⟩ => ⟨S8x16384, .i32⟩
  | .local _ .vmem, ⟨2, _⟩ => ⟨S6x16384, .f32⟩
  | .local _ .vmem, ⟨3, _⟩ => ⟨S6x16384, .f32⟩
  | .local _ .vmem, ⟨4, _⟩ => ⟨S15x8, .f32⟩
  | .local _ .vmem, ⟨5, _⟩ => ⟨S9x8, .f32⟩
  | .local _ .vmem, ⟨6, _⟩ => ⟨S50x128, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S50x16384, .f32⟩
  | .local _ .vmem, ⟨13, _⟩ => ⟨S8x16384, .i32⟩
  | .local _ .vmem, ⟨14, _⟩ => ⟨S8x16384, .i32⟩
  | .local _ .vmem, ⟨15, _⟩ => ⟨S6x16384, .f32⟩
  | .local _ .vmem, ⟨16, _⟩ => ⟨S6x16384, .f32⟩
  | .local _ .vmem, ⟨17, _⟩ => ⟨S15x8, .f32⟩
  | .local _ .vmem, ⟨18, _⟩ => ⟨S9x8, .f32⟩
  | .local _ .vmem, ⟨19, _⟩ => ⟨S50x128, .f32⟩
  | .local _ .vmem, ⟨20, _⟩ => ⟨S128x1, .f32⟩
  | .local _ .vmem, ⟨21, _⟩ => ⟨S128x64, .f32⟩
  | .local _ .vmem, ⟨22, _⟩ => ⟨S64x1, .f32⟩
  | .local _ .vmem, ⟨23, _⟩ => ⟨S64x1, .f32⟩
  | .local _ .vmem, ⟨24, _⟩ => ⟨S64x1, .f32⟩
  | .local _ .vmem, ⟨25, _⟩ => ⟨S64x1, .f32⟩
  | .local _ .vmem, ⟨26, _⟩ => ⟨S64x1, .f32⟩
  | .local _ .vmem, ⟨27, _⟩ => ⟨S50x16384, .f32⟩
  | .local _ .vmem, ⟨28, _⟩ => ⟨S8x16384, .i32⟩
  | .local _ .vmem, ⟨29, _⟩ => ⟨S8x16384, .i32⟩
  | .local _ .vmem, ⟨30, _⟩ => ⟨S6x16384, .f32⟩
  | .local _ .vmem, ⟨31, _⟩ => ⟨S6x16384, .f32⟩
  | .local _ .vmem, ⟨32, _⟩ => ⟨S15x8, .f32⟩
  | .local _ .vmem, ⟨33, _⟩ => ⟨S9x8, .f32⟩
  | .local _ .vmem, ⟨34, _⟩ => ⟨S50x128, .f32⟩
  | .local _ .vmem, ⟨35, _⟩ => ⟨S128x1, .f32⟩
  | .local _ .vmem, ⟨36, _⟩ => ⟨S128x64, .f32⟩
  | .local _ .vmem, ⟨37, _⟩ => ⟨S64x1, .f32⟩
  | .local _ .vmem, ⟨38, _⟩ => ⟨S64x32, .f32⟩
  | .local _ .vmem, ⟨39, _⟩ => ⟨S32x1, .f32⟩
  | .local _ .vmem, ⟨40, _⟩ => ⟨S32x1, .f32⟩
  | .local _ .vmem, ⟨41, _⟩ => ⟨S32x1, .f32⟩
  | .local _ .vmem, ⟨42, _⟩ => ⟨S32x1, .f32⟩
  | .local _ .vmem, ⟨43, _⟩ => ⟨S32x1, .f32⟩
  | .local _ .vmem, ⟨44, _⟩ => ⟨S50x16384, .f32⟩
  | .local _ .vmem, ⟨45, _⟩ => ⟨S8x16384, .i32⟩
  | .local _ .vmem, ⟨46, _⟩ => ⟨S8x16384, .i32⟩
  | .local _ .vmem, ⟨47, _⟩ => ⟨S6x16384, .f32⟩
  | .local _ .vmem, ⟨48, _⟩ => ⟨S6x16384, .f32⟩
  | .local _ .vmem, ⟨49, _⟩ => ⟨S15x8, .f32⟩
  | .local _ .vmem, ⟨50, _⟩ => ⟨S9x8, .f32⟩
  | .local _ .vmem, ⟨51, _⟩ => ⟨S50x128, .f32⟩
  | .local _ .vmem, ⟨52, _⟩ => ⟨S128x1, .f32⟩
  | .local _ .vmem, ⟨53, _⟩ => ⟨S128x64, .f32⟩
  | .local _ .vmem, ⟨54, _⟩ => ⟨S64x1, .f32⟩
  | .local _ .vmem, ⟨55, _⟩ => ⟨S64x32, .f32⟩
  | .local _ .vmem, ⟨56, _⟩ => ⟨S32x1, .f32⟩
  | .local _ .vmem, ⟨57, _⟩ => ⟨S32x1, .f32⟩
  | .local _ .vmem, ⟨58, _⟩ => ⟨S1x1, .f32⟩
  | .local _ .vmem, ⟨59, _⟩ => ⟨S1x16384, .f32⟩
  | .local _ .vmem, ⟨60, _⟩ => ⟨S1x16384, .f32⟩
  | .local _ .vmem, ⟨61, _⟩ => ⟨S50x16384, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26_0 : Ref sig .tc := ⟨.hbm, 56, rfl⟩
abbrev main_v26_1 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_v29 : Ref sig .tc := ⟨.hbm, 61, rfl⟩
abbrev main_cst_0 : Ref sig .tc := ⟨.hbm, 62, rfl⟩
abbrev main_v30 : Ref sig .tc := ⟨.hbm, 63, rfl⟩
abbrev main_cst_1 : Ref sig .tc := ⟨.hbm, 64, rfl⟩
abbrev main_v31 : Ref sig .tc := ⟨.hbm, 65, rfl⟩
abbrev main_v32 : Ref sig .tc := ⟨.hbm, 66, rfl⟩
abbrev main_cst_2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_3 : Ref sig .tc := ⟨.hbm, 73, rfl⟩
abbrev main_v38 : Ref sig .tc := ⟨.hbm, 74, rfl⟩
abbrev main_v39 : Ref sig .tc := ⟨.hbm, 75, rfl⟩
abbrev main_cst_4 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51_0 : Ref sig .tc := ⟨.hbm, 88, rfl⟩
abbrev main_v51_1 : Ref sig .tc := ⟨.hbm, 89, rfl⟩
abbrev main_v52 : Ref sig .tc := ⟨.hbm, 90, rfl⟩
abbrev main_cst_5 : Ref sig .tc := ⟨.hbm, 91, rfl⟩
abbrev main_v53 : Ref sig .tc := ⟨.hbm, 92, rfl⟩
abbrev main_v54 : Ref sig .tc := ⟨.hbm, 93, rfl⟩
abbrev main_cst_6 : Ref sig .tc := ⟨.hbm, 94, rfl⟩
abbrev main_v55 : Ref sig .tc := ⟨.hbm, 95, rfl⟩
abbrev main_cst_7 : Ref sig .tc := ⟨.hbm, 96, rfl⟩
abbrev main_v56 : Ref sig .tc := ⟨.hbm, 97, rfl⟩
abbrev main_v57 : Ref sig .tc := ⟨.hbm, 98, rfl⟩
abbrev main_cst_8 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_9 : Ref sig .tc := ⟨.hbm, 105, rfl⟩
abbrev main_v63 : Ref sig .tc := ⟨.hbm, 106, rfl⟩
abbrev main_v64 : Ref sig .tc := ⟨.hbm, 107, rfl⟩
abbrev main_cst_10 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76_0 : Ref sig .tc := ⟨.hbm, 120, rfl⟩
abbrev main_v76_1 : Ref sig .tc := ⟨.hbm, 121, rfl⟩
abbrev main_v77 : Ref sig .tc := ⟨.hbm, 122, rfl⟩
abbrev main_cst_11 : Ref sig .tc := ⟨.hbm, 123, rfl⟩
abbrev main_v78 : Ref sig .tc := ⟨.hbm, 124, rfl⟩
abbrev main_v79 : Ref sig .tc := ⟨.hbm, 125, rfl⟩
abbrev main_cst_12 : Ref sig .tc := ⟨.hbm, 126, rfl⟩
abbrev main_v80 : Ref sig .tc := ⟨.hbm, 127, rfl⟩
abbrev main_cst_13 : Ref sig .tc := ⟨.hbm, 128, rfl⟩
abbrev main_v81 : Ref sig .tc := ⟨.hbm, 129, rfl⟩
abbrev main_v82 : Ref sig .tc := ⟨.hbm, 130, rfl⟩
abbrev main_cst_14 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_15 : Ref sig .tc := ⟨.hbm, 137, rfl⟩
abbrev main_v88 : Ref sig .tc := ⟨.hbm, 138, rfl⟩
abbrev main_v89 : Ref sig .tc := ⟨.hbm, 139, rfl⟩
abbrev main_cst_16 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc2_stg11_0 : Ref sig .tc := ⟨.vmem, 42, rfl⟩
abbrev cc2_stg11_1 : Ref sig .tc := ⟨.vmem, 43, rfl⟩
abbrev cc2_scratch0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg12_0 : Ref sig .tc := ⟨.vmem, 59, rfl⟩
abbrev cc3_stg12_1 : Ref sig .tc := ⟨.vmem, 60, rfl⟩
abbrev cc3_scratch0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem10_1 : DmaSem sig := 39
abbrev cc2_sem11_0 : DmaSem sig := 40
abbrev cc2_sem11_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem11_0 : DmaSem sig := 55
abbrev cc3_sem12_0 : DmaSem sig := 56
abbrev cc3_sem12_1 : DmaSem sig := 57

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S15x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S50x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x16384 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S6x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S15x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S9x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S50x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S64x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 32], ![false, false]⟩

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8x16384 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S6x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S15x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S9x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S50x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S32x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S32x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S32x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S8x16384 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6x16384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S15x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S9x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S50x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S32x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1x16384 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  bcast_S1048576_S1x1048576_1 : S1048576.BroadcastsInDim S1x1048576 (![1] : Fin 1 → Fin S1x1048576.rank)
  concatenates_S1x1048576_S1x1048576_S1x1048576_S1x1048576_S1x1048576_S1x1048576_S1x1048576_S1x1048576_S8x1048576_d0 : Shape.Concatenates [S1x1048576, S1x1048576, S1x1048576, S1x1048576, S1x1048576, S1x1048576, S1x1048576, S1x1048576] S8x1048576 0
  concatenates_S1x1048576_S1x1048576_S1x1048576_S1x1048576_S1x1048576_S1x1048576_S6x1048576_d0 : Shape.Concatenates [S1x1048576, S1x1048576, S1x1048576, S1x1048576, S1x1048576, S1x1048576] S6x1048576 0
  shapeCasts_S128_S128x1 : S128.ShapeCasts S128x1
  shapeCasts_S64_S64x1 : S64.ShapeCasts S64x1
  shapeCasts_S32_S32x1 : S32.ShapeCasts S32x1
  shapeCasts_S1_S1x1 : S1.ShapeCasts S1x1
  inb_S128x1_S128x1_0_0 : ∀ a, (![0, 0] : Fin 2 → Nat) a + S128x1.size a ≤ S128x1.size a
  h_S128x1 : 0 < S128x1.numel
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  inb_S6x16384_S6x16384_0_0 : ∀ a, (![0, 0] : Fin 2 → Nat) a + S6x16384.size a ≤ S6x16384.size a
  h_S6x16384 : 0 < S6x16384.numel
  shapeCasts_S6x16384_S6x16384 : S6x16384.ShapeCasts S6x16384
  inb_S15x8_S15x8_0_0 : ∀ a, (![0, 0] : Fin 2 → Nat) a + S15x8.size a ≤ S15x8.size a
  h_S15x8 : 0 < S15x8.numel
  inb_S9x8_S9x8_0_0 : ∀ a, (![0, 0] : Fin 2 → Nat) a + S9x8.size a ≤ S9x8.size a
  h_S9x8 : 0 < S9x8.numel
  slices_S8x16384_o0_0_S1x16384 : S8x16384.Slices ![0, 0] S1x16384
  slices_S8x16384_o1_0_S1x16384 : S8x16384.Slices ![1, 0] S1x16384
  slices_S8x16384_o2_0_S1x16384 : S8x16384.Slices ![2, 0] S1x16384
  slices_S8x16384_o3_0_S1x16384 : S8x16384.Slices ![3, 0] S1x16384
  slices_S6x16384_o0_0_S1x16384 : S6x16384.Slices ![0, 0] S1x16384
  slices_S6x16384_o1_0_S1x16384 : S6x16384.Slices ![1, 0] S1x16384
  slices_S6x16384_o2_0_S1x16384 : S6x16384.Slices ![2, 0] S1x16384
  iota_S15x16384_d0_w32 : S15x16384.Iotas .tc 32 [0]
  broadcasts_S1x16384_S15x16384 : S1x16384.Broadcasts S15x16384
  bitsLt_bf16_f32 : FTy.bits .bf16 < FTy.bits .f32
  transposes_S15x8_p1_0_S8x15 : S15x8.Transposes [1, 0] S8x15
  inb_S50x16384_S8x16384_0_0 : ∀ a, (![0, 0] : Fin 2 → Nat) a + S8x16384.size a ≤ S50x16384.size a
  iota_S3x16384_d0_w32 : S3x16384.Iotas .tc 32 [0]
  broadcasts_S1x16384_S3x16384 : S1x16384.Broadcasts S3x16384
  inb_S50x16384_S3x16384_8_0 : ∀ a, (![8, 0] : Fin 2 → Nat) a + S3x16384.size a ≤ S50x16384.size a
  h_S3x16384 : 0 < S3x16384.numel
  shapeCasts_S3x16384_S3x16384 : S3x16384.ShapeCasts S3x16384
  inb_S50x16384_S3x16384_11_0 : ∀ a, (![11, 0] : Fin 2 → Nat) a + S3x16384.size a ≤ S50x16384.size a
  iota_S9x16384_d0_w32 : S9x16384.Iotas .tc 32 [0]
  broadcasts_S1x16384_S9x16384 : S1x16384.Broadcasts S9x16384
  transposes_S9x8_p1_0_S8x9 : S9x8.Transposes [1, 0] S8x9
  inb_S50x16384_S8x16384_14_0 : ∀ a, (![14, 0] : Fin 2 → Nat) a + S8x16384.size a ≤ S50x16384.size a
  inb_S50x16384_S1x16384_22_0 : ∀ a, (![22, 0] : Fin 2 → Nat) a + S1x16384.size a ≤ S50x16384.size a
  h_S1x16384 : 0 < S1x16384.numel
  shapeCasts_S1x16384_S1x16384 : S1x16384.ShapeCasts S1x16384
  inb_S50x16384_S1x16384_23_0 : ∀ a, (![23, 0] : Fin 2 → Nat) a + S1x16384.size a ≤ S50x16384.size a
  inb_S50x16384_S1x16384_24_0 : ∀ a, (![24, 0] : Fin 2 → Nat) a + S1x16384.size a ≤ S50x16384.size a
  slices_S8x16384_o4_0_S1x16384 : S8x16384.Slices ![4, 0] S1x16384
  slices_S8x16384_o5_0_S1x16384 : S8x16384.Slices ![5, 0] S1x16384
  slices_S8x16384_o6_0_S1x16384 : S8x16384.Slices ![6, 0] S1x16384
  slices_S8x16384_o7_0_S1x16384 : S8x16384.Slices ![7, 0] S1x16384
  slices_S6x16384_o3_0_S1x16384 : S6x16384.Slices ![3, 0] S1x16384
  slices_S6x16384_o4_0_S1x16384 : S6x16384.Slices ![4, 0] S1x16384
  slices_S6x16384_o5_0_S1x16384 : S6x16384.Slices ![5, 0] S1x16384
  inb_S50x16384_S8x16384_25_0 : ∀ a, (![25, 0] : Fin 2 → Nat) a + S8x16384.size a ≤ S50x16384.size a
  inb_S50x16384_S3x16384_33_0 : ∀ a, (![33, 0] : Fin 2 → Nat) a + S3x16384.size a ≤ S50x16384.size a
  inb_S50x16384_S3x16384_36_0 : ∀ a, (![36, 0] : Fin 2 → Nat) a + S3x16384.size a ≤ S50x16384.size a
  inb_S50x16384_S8x16384_39_0 : ∀ a, (![39, 0] : Fin 2 → Nat) a + S8x16384.size a ≤ S50x16384.size a
  inb_S50x16384_S1x16384_47_0 : ∀ a, (![47, 0] : Fin 2 → Nat) a + S1x16384.size a ≤ S50x16384.size a
  inb_S50x16384_S1x16384_48_0 : ∀ a, (![48, 0] : Fin 2 → Nat) a + S1x16384.size a ≤ S50x16384.size a
  inb_S50x16384_S1x16384_49_0 : ∀ a, (![49, 0] : Fin 2 → Nat) a + S1x16384.size a ≤ S50x16384.size a
  inb_S50x16384_S50x16384_0_0 : ∀ a, (![0, 0] : Fin 2 → Nat) a + S50x16384.size a ≤ S50x16384.size a
  h_S50x16384 : 0 < S50x16384.numel
  inb_S50x128_S50x128_0_0 : ∀ a, (![0, 0] : Fin 2 → Nat) a + S50x128.size a ≤ S50x128.size a
  h_S50x128 : 0 < S50x128.numel
  transposes_S50x128_p1_0_S128x50 : S50x128.Transposes [1, 0] S128x50
  shapeCasts_S128x1_S128x1 : S128x1.ShapeCasts S128x1
  broadcasts_S128x1_S128x16384 : S128x1.Broadcasts S128x16384
  reduces_S128x16384_S128 : S128x16384.Reduces [1] S128
  shapeCasts_S256x1_S2x128x1 : S256x1.ShapeCasts S2x128x1
  reducesTo_S2x128x1_S128x1_d0 : S2x128x1.ReducesTo [0] S128x1
  h_S_ : 0 < S_.numel
  bcast_S_S128x1 : S_.BroadcastsInDim S128x1 (![] : Fin 0 → Fin S128x1.rank)
  transposes_S128x1_S1x128_1_0 : S128x1.Transposes [1, 0] S1x128
  bcast_S1x128_S50x128_0_1 : S1x128.BroadcastsInDim S50x128 (![0, 1] : Fin 2 → Fin S50x128.rank)
  inb_S64x1_S64x1_0_0 : ∀ a, (![0, 0] : Fin 2 → Nat) a + S64x1.size a ≤ S64x1.size a
  h_S64x1 : 0 < S64x1.numel
  shapeCasts_S50x128_S50x128 : S50x128.ShapeCasts S50x128
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  shapeCasts_S64x1_S64x1 : S64x1.ShapeCasts S64x1
  broadcasts_S64x1_S64x16384 : S64x1.Broadcasts S64x16384
  reduces_S64x16384_S64 : S64x16384.Reduces [1] S64
  shapeCasts_S128x1_S2x64x1 : S128x1.ShapeCasts S2x64x1
  reducesTo_S2x64x1_S64x1_d0 : S2x64x1.ReducesTo [0] S64x1
  bcast_S_S64x1 : S_.BroadcastsInDim S64x1 (![] : Fin 0 → Fin S64x1.rank)
  transposes_S64x1_S1x64_1_0 : S64x1.Transposes [1, 0] S1x64
  bcast_S1x64_S128x64_0_1 : S1x64.BroadcastsInDim S128x64 (![0, 1] : Fin 2 → Fin S128x64.rank)
  inb_S32x1_S32x1_0_0 : ∀ a, (![0, 0] : Fin 2 → Nat) a + S32x1.size a ≤ S32x1.size a
  h_S32x1 : 0 < S32x1.numel
  shapeCasts_S128x64_S128x64 : S128x64.ShapeCasts S128x64
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  shapeCasts_S32x1_S32x1 : S32x1.ShapeCasts S32x1
  broadcasts_S32x1_S32x16384 : S32x1.Broadcasts S32x16384
  reduces_S32x16384_S32 : S32x16384.Reduces [1] S32
  shapeCasts_S64x1_S2x32x1 : S64x1.ShapeCasts S2x32x1
  reducesTo_S2x32x1_S32x1_d0 : S2x32x1.ReducesTo [0] S32x1
  bcast_S_S32x1 : S_.BroadcastsInDim S32x1 (![] : Fin 0 → Fin S32x1.rank)
  transposes_S32x1_S1x32_1_0 : S32x1.Transposes [1, 0] S1x32
  bcast_S1x32_S64x32_0_1 : S1x32.BroadcastsInDim S64x32 (![0, 1] : Fin 2 → Fin S64x32.rank)
  shapeCasts_S64x32_S64x32 : S64x32.ShapeCasts S64x32
  transposes_S32x1_p1_0_S1x32 : S32x1.Transposes [1, 0] S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  inb_S1x16384_S1x16384_0_0 : ∀ a, (![0, 0] : Fin 2 → Nat) a + S1x16384.size a ≤ S1x16384.size a
  shapeCasts_S1x1048576_S1048576 : S1x1048576.ShapeCasts S1048576
  dot_S8x15_S15x16384_S8x16384_1_0_0_1_n_n_wf : DotDims.WF S8x15 S15x16384 S8x16384 [1] [0] [0] [1] [] []
  dot_S8x9_S9x16384_S8x16384_1_0_0_1_n_n_wf : DotDims.WF S8x9 S9x16384 S8x16384 [1] [0] [0] [1] [] []
  dot_S128x50_S50x16384_S128x16384_1_0_0_1_n_n_wf : DotDims.WF S128x50 S50x16384 S128x16384 [1] [0] [0] [1] [] []
  dot_S64x128_S128x16384_S64x16384_1_0_0_1_n_n_wf : DotDims.WF S64x128 S128x16384 S64x16384 [1] [0] [0] [1] [] []
  dot_S32x64_S64x16384_S32x16384_1_0_0_1_n_n_wf : DotDims.WF S32x64 S64x16384 S32x16384 [1] [0] [0] [1] [] []
  dot_S1x32_S32x16384_S1x16384_1_0_0_1_n_n_wf : DotDims.WF S1x32 S32x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S8x1048576.size a
  hwx0_0 : ∀ i : grid0.Coords, EltTy.bits .i32 = 32 ∨ (Rect.block (s := S8x1048576) S8x16384.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x16384.size a ≤ S6x1048576.size a
  hwx0_1 : ∀ i : grid0.Coords, EltTy.bits .f32 = 32 ∨ (Rect.block (s := S6x1048576) S6x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x8.size a ≤ S15x8.size a
  hwx0_2 : ∀ i : grid0.Coords, EltTy.bits .f32 = 32 ∨ (Rect.block (s := S15x8) S15x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x8.size a ≤ S9x8.size a
  hwx0_3 : ∀ i : grid0.Coords, EltTy.bits .f32 = 32 ∨ (Rect.block (s := S9x8) S9x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .f32 = 32 ∨ (Rect.block (s := S50x128) S50x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S256x1.size a
  hwx0_6 : ∀ i : grid0.Coords, EltTy.bits .f32 = 32 ∨ (Rect.block (s := S256x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S256x1.size a
  hwx0_7 : ∀ i : grid0.Coords, EltTy.bits .f32 = 32 ∨ (Rect.block (s := S256x1) S128x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x16384.size a ≤ S8x1048576.size a
  hwx1_0 : ∀ i : grid1.Coords, EltTy.bits .i32 = 32 ∨ (Rect.block (s := S8x1048576) S8x16384.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x16384.size a ≤ S6x1048576.size a
  hwx1_1 : ∀ i : grid1.Coords, EltTy.bits .f32 = 32 ∨ (Rect.block (s := S6x1048576) S6x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S15x8.size a ≤ S15x8.size a
  hwx1_2 : ∀ i : grid1.Coords, EltTy.bits .f32 = 32 ∨ (Rect.block (s := S15x8) S15x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x8.size a ≤ S9x8.size a
  hwx1_3 : ∀ i : grid1.Coords, EltTy.bits .f32 = 32 ∨ (Rect.block (s := S9x8) S9x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x128.size a ≤ S50x128.size a
  hwx1_4 : ∀ i : grid1.Coords, EltTy.bits .f32 = 32 ∨ (Rect.block (s := S50x128) S50x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x1.size a ≤ S128x1.size a
  hwx1_8 : ∀ i : grid1.Coords, EltTy.bits .f32 = 32 ∨ (Rect.block (s := S128x1) S64x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x1.size a ≤ S128x1.size a
  hwx1_9 : ∀ i : grid1.Coords, EltTy.bits .f32 = 32 ∨ (Rect.block (s := S128x1) S64x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x16384.size a ≤ S8x1048576.size a
  hwx2_0 : ∀ i : grid2.Coords, EltTy.bits .i32 = 32 ∨ (Rect.block (s := S8x1048576) S8x16384.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6x16384.size a ≤ S6x1048576.size a
  hwx2_1 : ∀ i : grid2.Coords, EltTy.bits .f32 = 32 ∨ (Rect.block (s := S6x1048576) S6x16384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S15x8.size a ≤ S15x8.size a
  hwx2_2 : ∀ i : grid2.Coords, EltTy.bits .f32 = 32 ∨ (Rect.block (s := S15x8) S15x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x8.size a ≤ S9x8.size a
  hwx2_3 : ∀ i : grid2.Coords, EltTy.bits .f32 = 32 ∨ (Rect.block (s := S9x8) S9x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S50x128.size a ≤ S50x128.size a
  hwx2_4 : ∀ i : grid2.Coords, EltTy.bits .f32 = 32 ∨ (Rect.block (s := S50x128) S50x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x32.size a ≤ S64x32.size a
  hwx2_8 : ∀ i : grid2.Coords, EltTy.bits .f32 = 32 ∨ (Rect.block (s := S64x32) S64x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x1.size a ≤ S32x1.size a
  hwx2_9 : ∀ i : grid2.Coords, EltTy.bits .f32 = 32 ∨ (Rect.block (s := S32x1) S32x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S32x1.size a ≤ S64x1.size a
  hwx2_10 : ∀ i : grid2.Coords, EltTy.bits .f32 = 32 ∨ (Rect.block (s := S64x1) S32x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S32x1.size a ≤ S64x1.size a
  hwx2_11 : ∀ i : grid2.Coords, EltTy.bits .f32 = 32 ∨ (Rect.block (s := S64x1) S32x1.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x16384.size a ≤ S8x1048576.size a
  hwx3_0 : ∀ i : grid3.Coords, EltTy.bits .i32 = 32 ∨ (Rect.block (s := S8x1048576) S8x16384.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6x16384.size a ≤ S6x1048576.size a
  hwx3_1 : ∀ i : grid3.Coords, EltTy.bits .f32 = 32 ∨ (Rect.block (s := S6x1048576) S6x16384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S15x8.size a ≤ S15x8.size a
  hwx3_2 : ∀ i : grid3.Coords, EltTy.bits .f32 = 32 ∨ (Rect.block (s := S15x8) S15x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S9x8.size a ≤ S9x8.size a
  hwx3_3 : ∀ i : grid3.Coords, EltTy.bits .f32 = 32 ∨ (Rect.block (s := S9x8) S9x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S50x128.size a ≤ S50x128.size a
  hwx3_4 : ∀ i : grid3.Coords, EltTy.bits .f32 = 32 ∨ (Rect.block (s := S50x128) S50x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .f32 = 32 ∨ (Rect.block (s := S128x64) S128x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .f32 = 32 ∨ (Rect.block (s := S64x1) S64x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x32.size a ≤ S64x32.size a
  hwx3_8 : ∀ i : grid3.Coords, EltTy.bits .f32 = 32 ∨ (Rect.block (s := S64x32) S64x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S32x1.size a ≤ S32x1.size a
  hwx3_9 : ∀ i : grid3.Coords, EltTy.bits .f32 = 32 ∨ (Rect.block (s := S32x1) S32x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S32x1.size a ≤ S32x1.size a
  hwx3_10 : ∀ i : grid3.Coords, EltTy.bits .f32 = 32 ∨ (Rect.block (s := S32x1) S32x1.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x1.size a ≤ S1x1.size a
  hwx3_11 : ∀ i : grid3.Coords, EltTy.bits .f32 = 32 ∨ (Rect.block (s := S1x1) S1x1.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1x16384.size a ≤ S1x1048576.size a
  hwx3_12 : ∀ i : grid3.Coords, EltTy.bits .f32 = 32 ∨ (Rect.block (s := S1x1048576) S1x16384.size (cc3_transform_12 i) (hinb3_12 i)).WholeWords (EltTy.packing .f32)

variable [Facts₀]

def dot_S8x15_S15x16384_S8x16384_1_0_0_1_n_n : DotDims S8x15 S15x16384 S8x16384 where
  lhsContracting := [1]
  rhsContracting := [0]
  lhsNonContracting := [0]
  rhsNonContracting := [1]
  lhsBatch := []
  rhsBatch := []
  wf := dot_S8x15_S15x16384_S8x16384_1_0_0_1_n_n_wf
def dot_S8x9_S9x16384_S8x16384_1_0_0_1_n_n : DotDims S8x9 S9x16384 S8x16384 where
  lhsContracting := [1]
  rhsContracting := [0]
  lhsNonContracting := [0]
  rhsNonContracting := [1]
  lhsBatch := []
  rhsBatch := []
  wf := dot_S8x9_S9x16384_S8x16384_1_0_0_1_n_n_wf
def dot_S128x50_S50x16384_S128x16384_1_0_0_1_n_n : DotDims S128x50 S50x16384 S128x16384 where
  lhsContracting := [1]
  rhsContracting := [0]
  lhsNonContracting := [0]
  rhsNonContracting := [1]
  lhsBatch := []
  rhsBatch := []
  wf := dot_S128x50_S50x16384_S128x16384_1_0_0_1_n_n_wf
def dot_S64x128_S128x16384_S64x16384_1_0_0_1_n_n : DotDims S64x128 S128x16384 S64x16384 where
  lhsContracting := [1]
  rhsContracting := [0]
  lhsNonContracting := [0]
  rhsNonContracting := [1]
  lhsBatch := []
  rhsBatch := []
  wf := dot_S64x128_S128x16384_S64x16384_1_0_0_1_n_n_wf
def dot_S32x64_S64x16384_S32x16384_1_0_0_1_n_n : DotDims S32x64 S64x16384 S32x16384 where
  lhsContracting := [1]
  rhsContracting := [0]
  lhsNonContracting := [0]
  rhsNonContracting := [1]
  lhsBatch := []
  rhsBatch := []
  wf := dot_S32x64_S64x16384_S32x16384_1_0_0_1_n_n_wf
def dot_S1x32_S32x16384_S1x16384_1_0_0_1_n_n : DotDims S1x32 S32x16384 S1x16384 where
  lhsContracting := [1]
  rhsContracting := [0]
  lhsNonContracting := [0]
  rhsNonContracting := [1]
  lhsBatch := []
  rhsBatch := []
  wf := dot_S1x32_S32x16384_S1x16384_1_0_0_1_n_n_wf

abbrev win0_0 : Pipeline.Window sig grid0 :=
  Pipeline.Window.ofSpec (Memref.whole main_v8) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S6x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S15x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S9x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S50x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8) S8x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S6x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S15x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S9x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S50x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg20) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51_0) S64x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v51_1) S64x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v8) S8x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S6x16384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S15x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S9x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S50x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg24) S64x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v18) S32x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v76_0) S32x1.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v76_1) S32x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v8) S8x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S6x16384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S15x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S9x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S50x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v75) S64x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v98) S64x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v100) S32x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg28) S32x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v19) S1x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v101) S1x16384.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S1048576 : Shape := ⟨1, ![1048576]⟩
abbrev S15x8 : Shape := ⟨2, ![15, 8]⟩
abbrev S9x8 : Shape := ⟨2, ![9, 8]⟩
abbrev S50x128 : Shape := ⟨2, ![50, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1048576x1 : Shape := ⟨2, ![1048576, 1]⟩
abbrev S1048576x8 : Shape := ⟨2, ![1048576, 8]⟩
abbrev S1x3 : Shape := ⟨2, ![1, 3]⟩
abbrev S1048576x3 : Shape := ⟨2, ![1048576, 3]⟩
abbrev S1048576x25 : Shape := ⟨2, ![1048576, 25]⟩
abbrev S1048576x50 : Shape := ⟨2, ![1048576, 50]⟩
abbrev S1048576x128 : Shape := ⟨2, ![1048576, 128]⟩
abbrev S1x128 : Shape := ⟨2, ![1, 128]⟩
abbrev S1048576x64 : Shape := ⟨2, ![1048576, 64]⟩
abbrev S1x64 : Shape := ⟨2, ![1, 64]⟩
abbrev S1048576x32 : Shape := ⟨2, ![1048576, 32]⟩
abbrev S1x32 : Shape := ⟨2, ![1, 32]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S1048576, .i32⟩
  | 1 => ⟨S1048576, .i32⟩
  | 2 => ⟨S1048576, .i32⟩
  | 3 => ⟨S1048576, .i32⟩
  | 4 => ⟨S1048576, .f32⟩
  | 5 => ⟨S1048576, .f32⟩
  | 6 => ⟨S1048576, .f32⟩
  | 7 => ⟨S1048576, .i32⟩
  | 8 => ⟨S1048576, .i32⟩
  | 9 => ⟨S1048576, .i32⟩
  | 10 => ⟨S1048576, .i32⟩
  | 11 => ⟨S1048576, .f32⟩
  | 12 => ⟨S1048576, .f32⟩
  | 13 => ⟨S1048576, .f32⟩
  | 14 => ⟨S15x8, .f32⟩
  | 15 => ⟨S9x8, .f32⟩
  | 16 => ⟨S50x128, .f32⟩
  | 17 => ⟨S128, .f32⟩
  | 18 => ⟨S128, .f32⟩
  | 19 => ⟨S128, .f32⟩
  | 20 => ⟨S128x64, .f32⟩
  | 21 => ⟨S64, .f32⟩
  | 22 => ⟨S64, .f32⟩
  | 23 => ⟨S64, .f32⟩
  | 24 => ⟨S64x32, .f32⟩
  | 25 => ⟨S32, .f32⟩
  | 26 => ⟨S32, .f32⟩
  | 27 => ⟨S32, .f32⟩
  | 28 => ⟨S32x1, .f32⟩
  | 29 => ⟨S1, .f32⟩
  | 30 => ⟨S_, .i32⟩
  | 31 => ⟨S1048576, .i32⟩
  | 32 => ⟨S1048576, .i1⟩
  | 33 => ⟨S_, .i32⟩
  | 34 => ⟨S1048576, .i32⟩
  | 35 => ⟨S1048576, .i32⟩
  | 36 => ⟨S1048576, .i32⟩
  | 37 => ⟨S1048576x1, .i32⟩
  | 38 => ⟨S1048576x8, .f32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S1048576x8, .f32⟩
  | 48 => ⟨S1048576x1, .i32⟩
  | 49 => ⟨S1x3, .i32⟩
  | 50 => ⟨S1048576x3, .i32⟩
  | 51 => ⟨S1048576x3, .i32⟩
  | 52 => ⟨S1048576x3, .i1⟩
  | 53 => ⟨S1048576x3, .f32⟩
  | 54 => ⟨S1048576x1, .i32⟩
  | 55 => ⟨S1x3, .i32⟩
  | 56 => ⟨S1048576x3, .i32⟩
  | 57 => ⟨S1048576x3, .i32⟩
  | 58 => ⟨S1048576x3, .i1⟩
  | 59 => ⟨S1048576x3, .f32⟩
  | 60 => ⟨S_, .f32⟩
  | 61 => ⟨S1048576, .f32⟩
  | 62 => ⟨S1048576, .f32⟩
  | 63 => ⟨S_, .f32⟩
  | 64 => ⟨S1048576, .f32⟩
  | 65 => ⟨S1048576, .f32⟩
  | 66 => ⟨S1048576x1, .f32⟩
  | 67 => ⟨S1048576x1, .f32⟩
  | 68 => ⟨S1048576x1, .f32⟩
  | 69 => ⟨S1048576x3, .f32⟩
  | 70 => ⟨S1048576x25, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S1048576x1, .i32⟩
  | 79 => ⟨S1048576x8, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S1048576x8, .f32⟩
  | 89 => ⟨S1048576x1, .i32⟩
  | 90 => ⟨S1x3, .i32⟩
  | 91 => ⟨S1048576x3, .i32⟩
  | 92 => ⟨S1048576x3, .i32⟩
  | 93 => ⟨S1048576x3, .i1⟩
  | 94 => ⟨S1048576x3, .f32⟩
  | 95 => ⟨S1048576x1, .i32⟩
  | 96 => ⟨S1x3, .i32⟩
  | 97 => ⟨S1048576x3, .i32⟩
  | 98 => ⟨S1048576x3, .i32⟩
  | 99 => ⟨S1048576x3, .i1⟩
  | 100 => ⟨S1048576x3, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576x1, .f32⟩
  | 108 => ⟨S1048576x1, .f32⟩
  | 109 => ⟨S1048576x1, .f32⟩
  | 110 => ⟨S1048576x3, .f32⟩
  | 111 => ⟨S1048576x25, .f32⟩
  | 112 => ⟨S1048576x50, .f32⟩
  | 113 => ⟨S1048576x128, .f32⟩
  | 114 => ⟨S1x128, .f32⟩
  | 115 => ⟨S1048576x128, .f32⟩
  | 116 => ⟨S1048576x128, .f32⟩
  | 117 => ⟨S_, .f32⟩
  | 118 => ⟨S128, .f32⟩
  | 119 => ⟨S_, .f32⟩
  | 120 => ⟨S128, .f32⟩
  | 121 => ⟨S128, .f32⟩
  | 122 => ⟨S1x128, .f32⟩
  | 123 => ⟨S1048576x128, .f32⟩
  | 124 => ⟨S1048576x128, .f32⟩
  | 125 => ⟨S1048576x128, .f32⟩
  | 126 => ⟨S_, .f32⟩
  | 127 => ⟨S128, .f32⟩
  | _ => ⟨S1048576, .i32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S1048576x128, .f32⟩
  | 5 => ⟨S1048576x128, .f32⟩
  | 6 => ⟨S_, .f32⟩
  | 7 => ⟨S128, .f32⟩
  | 8 => ⟨S128, .f32⟩
  | 9 => ⟨S128, .f32⟩
  | 10 => ⟨S1x128, .f32⟩
  | 11 => ⟨S1048576x128, .f32⟩
  | 12 => ⟨S1048576x128, .f32⟩
  | 13 => ⟨S1x128, .f32⟩
  | 14 => ⟨S1048576x128, .f32⟩
  | 15 => ⟨S1048576x128, .f32⟩
  | 16 => ⟨S1x128, .f32⟩
  | 17 => ⟨S1048576x128, .f32⟩
  | 18 => ⟨S1048576x128, .f32⟩
  | 19 => ⟨S_, .f32⟩
  | 20 => ⟨S1048576x128, .f32⟩
  | 21 => ⟨S1048576x128, .f32⟩
  | 22 => ⟨S1048576x64, .f32⟩
  | 23 => ⟨S1x64, .f32⟩
  | 24 => ⟨S1048576x64, .f32⟩
  | 25 => ⟨S1048576x64, .f32⟩
  | 26 => ⟨S_, .f32⟩
  | 27 => ⟨S64, .f32⟩
  | 28 => ⟨S_, .f32⟩
  | 29 => ⟨S64, .f32⟩
  | 30 => ⟨S64, .f32⟩
  | 31 => ⟨S1x64, .f32⟩
  | 32 => ⟨S1048576x64, .f32⟩
  | 33 => ⟨S1048576x64, .f32⟩
  | 34 => ⟨S1048576x64, .f32⟩
  | 35 => ⟨S_, .f32⟩
  | 36 => ⟨S64, .f32⟩
  | 37 => ⟨S_, .f32⟩
  | 38 => ⟨S64, .f32⟩
  | 39 => ⟨S64, .f32⟩
  | 40 => ⟨S1x64, .f32⟩
  | 41 => ⟨S1048576x64, .f32⟩
  | 42 => ⟨S1048576x64, .f32⟩
  | 43 => ⟨S_, .f32⟩
  | 44 => ⟨S64, .f32⟩
  | 45 => ⟨S64, .f32⟩
  | 46 => ⟨S64, .f32⟩
  | 47 => ⟨S1x64, .f32⟩
  | 48 => ⟨S1048576x64, .f32⟩
  | 49 => ⟨S1048576x64, .f32⟩
  | 50 => ⟨S1x64, .f32⟩
  | 51 => ⟨S1048576x64, .f32⟩
  | 52 => ⟨S1048576x64, .f32⟩
  | 53 => ⟨S1x64, .f32⟩
  | 54 => ⟨S1048576x64, .f32⟩
  | 55 => ⟨S1048576x64, .f32⟩
  | 56 => ⟨S_, .f32⟩
  | 57 => ⟨S1048576x64, .f32⟩
  | 58 => ⟨S1048576x64, .f32⟩
  | 59 => ⟨S1048576x32, .f32⟩
  | 60 => ⟨S1x32, .f32⟩
  | 61 => ⟨S1048576x32, .f32⟩
  | 62 => ⟨S1048576x32, .f32⟩
  | 63 => ⟨S_, .f32⟩
  | 64 => ⟨S32, .f32⟩
  | 65 => ⟨S_, .f32⟩
  | 66 => ⟨S32, .f32⟩
  | 67 => ⟨S32, .f32⟩
  | 68 => ⟨S1x32, .f32⟩
  | 69 => ⟨S1048576x32, .f32⟩
  | 70 => ⟨S1048576x32, .f32⟩
  | 71 => ⟨S1048576x32, .f32⟩
  | 72 => ⟨S_, .f32⟩
  | 73 => ⟨S32, .f32⟩
  | 74 => ⟨S_, .f32⟩
  | 75 => ⟨S32, .f32⟩
  | 76 => ⟨S32, .f32⟩
  | 77 => ⟨S1x32, .f32⟩
  | 78 => ⟨S1048576x32, .f32⟩
  | 79 => ⟨S1048576x32, .f32⟩
  | 80 => ⟨S_, .f32⟩
  | 81 => ⟨S32, .f32⟩
  | 82 => ⟨S32, .f32⟩
  | 83 => ⟨S32, .f32⟩
  | 84 => ⟨S1x32, .f32⟩
  | 85 => ⟨S1048576x32, .f32⟩
  | 86 => ⟨S1048576x32, .f32⟩
  | 87 => ⟨S1x32, .f32⟩
  | 88 => ⟨S1048576x32, .f32⟩
  | 89 => ⟨S1048576x32, .f32⟩
  | 90 => ⟨S1x32, .f32⟩
  | 91 => ⟨S1048576x32, .f32⟩
  | 92 => ⟨S1048576x32, .f32⟩
  | 93 => ⟨S_, .f32⟩
  | 94 => ⟨S1048576x32, .f32⟩
  | 95 => ⟨S1048576x32, .f32⟩
  | 96 => ⟨S1048576x1, .f32⟩
  | 97 => ⟨S1x1, .f32⟩
  | 98 => ⟨S1048576x1, .f32⟩
  | 99 => ⟨S1048576x1, .f32⟩
  | 100 => ⟨S1048576x1, .f32⟩
  | 101 => ⟨S1048576x1, .f32⟩
  | 102 => ⟨S_, .f32⟩
  | 103 => ⟨S1048576x1, .f32⟩
  | 104 => ⟨S1048576x1, .f32⟩
  | 105 => ⟨S_, .f32⟩
  | 106 => ⟨S1048576x1, .f32⟩
  | 107 => ⟨S1048576x1, .f32⟩
  | 108 => ⟨S1048576, .f32⟩
  | _ => ⟨S1048576, .i32⟩

abbrev hbmTy (i : Nat) : BufTy := match i / 128 with
  | 0 => hbmTy0_0 i
  | 1 => hbmTy0_1 i
  | _ => ⟨S1048576, .i32⟩

abbrev bufTy : (tb : Table) → Fin (tcTables nBuf tb) → BufTy
  | .hbm, ⟨i, _⟩ => hbmTy i
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v14 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v15 : Ref sig .tc := ⟨.hbm, 59, rfl⟩
abbrev main_cst : Ref sig .tc := ⟨.hbm, 60, rfl⟩
abbrev main_v16 : Ref sig .tc := ⟨.hbm, 61, rfl⟩
abbrev main_v17 : Ref sig .tc := ⟨.hbm, 62, rfl⟩
abbrev main_cst_3 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_4 : Ref sig .tc := ⟨.hbm, 71, rfl⟩
abbrev main_v25 : Ref sig .tc := ⟨.hbm, 72, rfl⟩
abbrev main_v26 : Ref sig .tc := ⟨.hbm, 73, rfl⟩
abbrev main_c_5 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_6 : Ref sig .tc := ⟨.hbm, 80, rfl⟩
abbrev main_v32 : Ref sig .tc := ⟨.hbm, 81, rfl⟩
abbrev main_v33 : Ref sig .tc := ⟨.hbm, 82, rfl⟩
abbrev main_c_7 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v39 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v40 : Ref sig .tc := ⟨.hbm, 100, rfl⟩
abbrev main_cst_8 : Ref sig .tc := ⟨.hbm, 101, rfl⟩
abbrev main_v41 : Ref sig .tc := ⟨.hbm, 102, rfl⟩
abbrev main_v42 : Ref sig .tc := ⟨.hbm, 103, rfl⟩
abbrev main_cst_9 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_10 : Ref sig .tc := ⟨.hbm, 117, rfl⟩
abbrev main_v55 : Ref sig .tc := ⟨.hbm, 118, rfl⟩
abbrev main_cst_11 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_12 : Ref sig .tc := ⟨.hbm, 126, rfl⟩
abbrev main_v62 : Ref sig .tc := ⟨.hbm, 127, rfl⟩
abbrev main_cst_13 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_14 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_call4_cst : Ref sig .tc := ⟨.hbm, 147, rfl⟩
abbrev main_call4_v0 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_cst_15 : Ref sig .tc := ⟨.hbm, 154, rfl⟩
abbrev main_v85 : Ref sig .tc := ⟨.hbm, 155, rfl⟩
abbrev main_cst_16 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_17 : Ref sig .tc := ⟨.hbm, 163, rfl⟩
abbrev main_v92 : Ref sig .tc := ⟨.hbm, 164, rfl⟩
abbrev main_cst_18 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_19 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_call5_cst : Ref sig .tc := ⟨.hbm, 184, rfl⟩
abbrev main_call5_v0 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_20 : Ref sig .tc := ⟨.hbm, 191, rfl⟩
abbrev main_v115 : Ref sig .tc := ⟨.hbm, 192, rfl⟩
abbrev main_cst_21 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_cst_22 : Ref sig .tc := ⟨.hbm, 200, rfl⟩
abbrev main_v122 : Ref sig .tc := ⟨.hbm, 201, rfl⟩
abbrev main_cst_23 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_24 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_call6_cst : Ref sig .tc := ⟨.hbm, 221, rfl⟩
abbrev main_call6_v0 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_cst_25 : Ref sig .tc := ⟨.hbm, 230, rfl⟩
abbrev main_v147 : Ref sig .tc := ⟨.hbm, 231, rfl⟩
abbrev main_v148 : Ref sig .tc := ⟨.hbm, 232, rfl⟩
abbrev main_cst_26 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  bcast_S1x3_S1048576x3_0_1 : S1x3.BroadcastsInDim S1048576x3 (![0, 1] : Fin 2 → Fin S1048576x3.rank)
  concatenates_S1048576x1_S1048576x1_S1048576x1_S1048576x3_d1 : Shape.Concatenates [S1048576x1, S1048576x1, S1048576x1] S1048576x3 1
  concatenates_S1048576x8_S1048576x3_S1048576x3_S1048576x8_S1048576x3_S1048576x25_d1 : Shape.Concatenates [S1048576x8, S1048576x3, S1048576x3, S1048576x8, S1048576x3] S1048576x25 1
  concatenates_S1048576x25_S1048576x25_S1048576x50_d1 : Shape.Concatenates [S1048576x25, S1048576x25] S1048576x50 1
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  reducesTo_S1048576x128_S128_d0 : S1048576x128.ReducesTo [0] S128
  h_S_ : 0 < S_.numel
  bcast_S_S128 : S_.BroadcastsInDim S128 (![] : Fin 0 → Fin S128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  reducesTo_S1048576x64_S64_d0 : S1048576x64.ReducesTo [0] S64
  bcast_S_S64 : S_.BroadcastsInDim S64 (![] : Fin 0 → Fin S64.rank)
  bcast_S_S1048576x64 : S_.BroadcastsInDim S1048576x64 (![] : Fin 0 → Fin S1048576x64.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  reducesTo_S1048576x32_S32_d0 : S1048576x32.ReducesTo [0] S32
  bcast_S_S32 : S_.BroadcastsInDim S32 (![] : Fin 0 → Fin S32.rank)
  bcast_S_S1048576x32 : S_.BroadcastsInDim S1048576x32 (![] : Fin 0 → Fin S1048576x32.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  shapeCasts_S1048576x1_S1048576 : S1048576x1.ShapeCasts S1048576
  gather_S15x8_S1048576x1_S1048576x8_1_0_n_n_0_1_18_wf : GatherDims.WF S15x8 S1048576x1 S1048576x8 [1] [0] [] [0] [] 1 ![1, 8]
  gather_S9x8_S1048576x1_S1048576x8_1_0_n_n_0_1_18_wf : GatherDims.WF S9x8 S1048576x1 S1048576x8 [1] [0] [] [0] [] 1 ![1, 8]
  dot_S1048576x50_S50x128_S1048576x128_1_0_0_1_n_n_wf : DotDims.WF S1048576x50 S50x128 S1048576x128 [1] [0] [0] [1] [] []
  dot_S1048576x128_S128x64_S1048576x64_1_0_0_1_n_n_wf : DotDims.WF S1048576x128 S128x64 S1048576x64 [1] [0] [0] [1] [] []
  dot_S1048576x64_S64x32_S1048576x32_1_0_0_1_n_n_wf : DotDims.WF S1048576x64 S64x32 S1048576x32 [1] [0] [0] [1] [] []
  dot_S1048576x32_S32x1_S1048576x1_1_0_0_1_n_n_wf : DotDims.WF S1048576x32 S32x1 S1048576x1 [1] [0] [0] [1] [] []

variable [Facts₀]

def gather_S15x8_S1048576x1_S1048576x8_1_0_n_n_0_1_18 : GatherDims S15x8 S1048576x1 S1048576x8 where
  offsetDims := [1]
  collapsedSliceDims := [0]
  operandBatchingDims := []
  startIndicesBatchingDims := []
  startIndexMap := [0]
  indexVectorDim := 1
  sliceSizes := ![1, 8]
  wf := gather_S15x8_S1048576x1_S1048576x8_1_0_n_n_0_1_18_wf
def gather_S9x8_S1048576x1_S1048576x8_1_0_n_n_0_1_18 : GatherDims S9x8 S1048576x1 S1048576x8 where
  offsetDims := [1]
  collapsedSliceDims := [0]
  operandBatchingDims := []
  startIndicesBatchingDims := []
  startIndexMap := [0]
  indexVectorDim := 1
  sliceSizes := ![1, 8]
  wf := gather_S9x8_S1048576x1_S1048576x8_1_0_n_n_0_1_18_wf
def dot_S1048576x50_S50x128_S1048576x128_1_0_0_1_n_n : DotDims S1048576x50 S50x128 S1048576x128 where
  lhsContracting := [1]
  rhsContracting := [0]
  lhsNonContracting := [0]
  rhsNonContracting := [1]
  lhsBatch := []
  rhsBatch := []
  wf := dot_S1048576x50_S50x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf

class Facts : Prop extends Facts₀ where

variable [Facts]
-- ==== Proof.KRunCond.lean ====
import proofs.«412578_j66537633349983_3_alg».proof.Proof.Gen.KernelIdeal.Regions

set_option maxRecDepth 1376

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, hpre3 c, hpost3 c, sep_mono .rfl (hE4 c)⟩)
    (hinit := ?_) (QY := fun c s => ∀ b ∈ Pipeline.ucRefs τ sig, s.mem ((c : Thread nD τ).1, b) = V9 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.KernelIdeal.Hand

end
-- ==== Proof.Reg0.lean ====
import proofs.«412578_j66537633349983_3_alg».proof.Proof.Gen.KernelIdeal.Launch
import proofs.«412578_j66537633349983_3_alg».proof.Proof.Gen.KernelIdeal.Skeleton
import proofs.«412578_j66537633349983_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 32 = 0 :=
  (by decide +kernel : ∀ t : Fin grid0.N, cond0_0 (grid0.coords t) ↔ t.val % 32 = 0)

abbrev VO0_6 : View sig .tc .vmem S128x1 .f32 := (Memref.whole cc0_stg6_0 : Memref sig .tc .vmem S128x1 .f32).view
abbrev VO0_7 : View sig .tc .vmem S128x1 .f32 := (Memref.whole cc0_stg7_0 : Memref sig .tc .vmem S128x1 .f32).view
abbrev ms0_0 (t : Fin cfg0.N) : Memref sig .tc .vmem S8x16384 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S15x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S50x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)

abbrev scM0_0 : Memref sig .tc .vmem S50x16384 .f32 := Memref.whole cc0_scratch0

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

section
variable (c : Dev nD) (i : grid0.Coords) (arg2 : Memref sig .tc .vmem S8x16384 .i32) (harg2 : arg2.IsWhole) (arg3 : Memref sig .tc .vmem S6x16384 .f32) (harg3 : arg3.IsWhole) (arg4 : Memref sig .tc .vmem S15x8 .f32) (harg4 : arg4.IsWhole) (arg5 : Memref sig .tc .vmem S9x8 .f32) (harg5 : arg5.IsWhole) (arg6 : Memref sig .tc .vmem S50x128 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S50x16384 .f32) (harg10 : arg10.IsWhole)

set_option maxRecDepth 65536 in
set_option maxHeartbeats 4000000 in
noncomputable def kernelRun0_A (hc0 : cond0_0 i)
    (x0 : Vec F S8x16384 .i32) (x1 : Vec F S6x16384 .f32) (x2 : Vec F S15x8 .f32) (x3 : Vec F S9x8 .f32) (x4 : Vec F S50x128 .f32) (x5 : Vec F S128x1 .f32) :
    Σ' (L6 : List (View.Piece (Elt F) S128x1 .f32)), { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0__kernel_stats1 i arg2 harg2 arg3 harg3 arg4 harg4 arg5 harg5 arg6 harg6 arg7 harg7 arg8 harg8 arg9 harg9 arg10 harg10) K } := by
  refine ⟨?_, ?_, fun E K => ?run⟩
  case run =>
    simp only [cc0__kernel_stats1_eq_skeleton]; unfold cc0__kernel_stats1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexists _; isplitr
    swap; · iexact HS0
    ipureintro; rfl

set_option maxRecDepth 65536 in
set_option maxHeartbeats 4000000 in
noncomputable def kernelRun0_B (hc0 : ¬cond0_0 i)
    (x0 : Vec F S8x16384 .i32) (x1 : Vec F S6x16384 .f32) (x2 : Vec F S15x8 .f32) (x3 : Vec F S9x8 .f32) (x4 : Vec F S50x128 .f32) (x5 : Vec F S128x1 .f32) (xo6 : Vec F S128x1 .f32) (xo7 : Vec F S128x1 .f32) :
    Σ' (L6 : List (View.Piece (Elt F) S128x1 .f32)), { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0__kernel_stats1 i arg2 harg2 arg3 harg3 arg4 harg4 arg5 harg5 arg6 harg6 arg7 harg7 arg8 harg8 arg9 harg9 arg10 harg10) K } := by
  refine ⟨?_, ?_, fun E K => ?run⟩
  case run =>
    simp only [cc0__kernel_stats1_eq_skeleton]; unfold cc0__kernel_stats1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexists _; isplitr
    swap; · iexact HS0
    ipureintro; rfl

theorem cover0_A_6 (hc0 : cond0_0 i)
    (x0 : Vec F S8x16384 .i32) (x1 : Vec F S6x16384 .f32) (x2 : Vec F S15x8 .f32) (x3 : Vec F S9x8 .f32) (x4 : Vec F S50x128 .f32) (x5 : Vec F S128x1 .f32) (y : S128x1.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S128x1.size (by sl_kernel_rfl) y

def out0_A_6 (hc0 : cond0_0 i)
    (x0 : Vec F S8x16384 .i32) (x1 : Vec F S6x16384 .f32) (x2 : Vec F S15x8 .f32) (x3 : Vec F S9x8 .f32) (x4 : Vec F S50x128 .f32) (x5 : Vec F S128x1 .f32) : Vec F S128x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

theorem cover0_A_7 (hc0 : cond0_0 i)
    (x0 : Vec F S8x16384 .i32) (x1 : Vec F S6x16384 .f32) (x2 : Vec F S15x8 .f32) (x3 : Vec F S9x8 .f32) (x4 : Vec F S50x128 .f32) (x5 : Vec F S128x1 .f32) (y : S128x1.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S128x1.size (by sl_kernel_rfl) y

def out0_A_7 (hc0 : cond0_0 i)
    (x0 : Vec F S8x16384 .i32) (x1 : Vec F S6x16384 .f32) (x2 : Vec F S15x8 .f32) (x3 : Vec F S9x8 .f32) (x4 : Vec F S50x128 .f32) (x5 : Vec F S128x1 .f32) : Vec F S128x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

theorem cover0_B_6 (hc0 : ¬cond0_0 i)
    (x0 : Vec F S8x16384 .i32) (x1 : Vec F S6x16384 .f32) (x2 : Vec F S15x8 .f32) (x3 : Vec F S9x8 .f32) (x4 : Vec F S50x128 .f32) (x5 : Vec F S128x1 .f32) (xo6 : Vec F S128x1 .f32) (xo7 : Vec F S128x1 .f32) (y : S128x1.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo6 xo7).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo6 xo7).1 S128x1.size (by sl_kernel_rfl) y

def out0_B_6 (hc0 : ¬cond0_0 i)
    (x0 : Vec F S8x16384 .i32) (x1 : Vec F S6x16384 .f32) (x2 : Vec F S15x8 .f32) (x3 : Vec F S9x8 .f32) (x4 : Vec F S50x128 .f32) (x5 : Vec F S128x1 .f32) (xo6 : Vec F S128x1 .f32) (xo7 : Vec F S128x1 .f32) : Vec F S128x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo6 xo7).1)

theorem cover0_B_7 (hc0 : ¬cond0_0 i)
    (x0 : Vec F S8x16384 .i32) (x1 : Vec F S6x16384 .f32) (x2 : Vec F S15x8 .f32) (x3 : Vec F S9x8 .f32) (x4 : Vec F S50x128 .f32) (x5 : Vec F S128x1 .f32) (xo6 : Vec F S128x1 .f32) (xo7 : Vec F S128x1 .f32) (y : S128x1.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo6 xo7).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo6 xo7).2.1 S128x1.size (by sl_kernel_rfl) y

def out0_B_7 (hc0 : ¬cond0_0 i)
    (x0 : Vec F S8x16384 .i32) (x1 : Vec F S6x16384 .f32) (x2 : Vec F S15x8 .f32) (x3 : Vec F S9x8 .f32) (x4 : Vec F S50x128 .f32) (x5 : Vec F S128x1 .f32) (xo6 : Vec F S128x1 .f32) (xo7 : Vec F S128x1 .f32) : Vec F S128x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 xo6 xo7).2.1)

end

def outsAt0 (c : Dev nD) : (n : ℕ) → n < cfg0.N → Vec F S128x1 .f32 × Vec F S128x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 32 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).1 (outsAt0 c n (Nat.lt_of_succ_lt hn)).2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).1 (outsAt0 c n (Nat.lt_of_succ_lt hn)).2)

theorem outsAt0_A (c : Dev nD) (t : Fin cfg0.N) (h0 : t.val % 32 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).1 (outsAt0 V c (t.val - 1) (Nat.lt_of_le_of_lt (Nat.sub_le _ _) t.isLt)).2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem before0_6_B (c : Dev nD) (t : Fin cfg0.N) (h0 : ¬t.val % 32 = 0) (d) :
    (dat0 V c).before 6 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

theorem before0_7_B (c : Dev nD) (t : Fin cfg0.N) (h0 : ¬t.val % 32 = 0) (d) :
    (dat0 V c).before 7 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  have hN : t.val < 64 := lt_of_lt_of_eq t.isLt (show cfg0.N = 64 from N_0)
  by_cases h0 : t.val % 32 = 0
  · rw [outsAt0_A V c t h0]
    dsimp only
    unfold out0_A_6 out0_A_7
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 _ _ _ _ _ _ _ _ _ _ _ _ _ _ _ _ _ _ _ _ _ _ _ _ _ _ _)
    unfold owns; iexists _; isplitr
    swap; · iexact H7
    ipureintro; exact View.read_writes_of_cover _ _ _ _ _ (cover0_A_7 _ _ _ _ _ _ _ _ _ _ _ _ _ _ _ _ _ _ _ _ _ _ _ _ _ _ _)
  · rw [outsAt0_B V c t h0]
    simp only [before0_6_B V c t h0, before0_7_B V c t h0]
    (try dsimp only)
    unfold out0_B_6 out0_B_7
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, ⟨%e6, H6⟩, ⟨%e7, H7⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 _ _ _ _ _ _ _ _ _ _ _ _ _ _ _ _ _ _ _ _ _ _ _ _ _ _ _ _ _)
    unfold owns; iexists _; isplitr
    swap; · iexact H7
    ipureintro; exact View.read_writes_of_cover _ _ _ _ _ (cover0_B_7 _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
import proofs.«412578_j66537633349983_3_alg».proof.Proof.Gen.KernelIdeal.Launch
import proofs.«412578_j66537633349983_3_alg».proof.Proof.Gen.KernelIdeal.Skeleton
import proofs.«412578_j66537633349983_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev firstStep1 (i : grid1.Coords) : Prop := (Scalar.cmpi .ne (Scalar.extui (Scalar.cmpi .eq (BitVec.ofNat 32 (i 1).val) 0#32)) 0#32) = 1#1

theorem firstStep1_iff : ∀ t : Fin cfg1.N, firstStep1 (grid1.coords t) ↔ t.val % 32 = 0 :=
  (by decide +kernel : ∀ t : Fin grid1.N, firstStep1 (grid1.coords t) ↔ t.val % 32 = 0)

abbrev accView1_8 : View sig .tc .vmem S64x1 .f32 := (Memref.whole cc1_stg8_0 : Memref sig .tc .vmem S64x1 .f32).view
abbrev accView1_9 : View sig .tc .vmem S64x1 .f32 := (Memref.whole cc1_stg9_0 : Memref sig .tc .vmem S64x1 .f32).view

abbrev stg1_0 (t : Fin cfg1.N) : Memref sig .tc .vmem S8x16384 .i32 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S6x16384 .f32 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S15x8 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S9x8 .f32 := win1_3.stage (cfg1.slots t 3)
abbrev stgWhole1_3 (t : Fin cfg1.N) : (stg1_3 t).IsWhole := hstage1_3 ((cfg1.slots t 3).cast nbuf1_3)
abbrev stg1_4 (t : Fin cfg1.N) : Memref sig .tc .vmem S50x128 .f32 := win1_4.stage (cfg1.slots t 4)
abbrev stgWhole1_4 (t : Fin cfg1.N) : (stg1_4 t).IsWhole := hstage1_4 ((cfg1.slots t 4).cast nbuf1_4)
abbrev stg1_5 (t : Fin cfg1.N) : Memref sig .tc .vmem S128x1 .f32 := win1_5.stage (cfg1.slots t 5)
abbrev stgWhole1_5 (t : Fin cfg1.N) : (stg1_5 t).IsWhole := hstage1_5 ((cfg1.slots t 5).cast nbuf1_5)
abbrev stg1_6 (t : Fin cfg1.N) : Memref sig .tc .vmem S128x64 .f32 := win1_6.stage (cfg1.slots t 6)
abbrev stgWhole1_6 (t : Fin cfg1.N) : (stg1_6 t).IsWhole := hstage1_6 ((cfg1.slots t 6).cast nbuf1_6)
abbrev stg1_7 (t : Fin cfg1.N) : Memref sig .tc .vmem S64x1 .f32 := win1_7.stage (cfg1.slots t 7)
abbrev stgWhole1_7 (t : Fin cfg1.N) : (stg1_7 t).IsWhole := hstage1_7 ((cfg1.slots t 7).cast nbuf1_7)
abbrev stg1_8 (t : Fin cfg1.N) : Memref sig .tc .vmem S64x1 .f32 := win1_8.stage (cfg1.slots t 8)
abbrev stgWhole1_8 (t : Fin cfg1.N) : (stg1_8 t).IsWhole := hstage1_8 ((cfg1.slots t 8).cast nbuf1_8)
abbrev stg1_9 (t : Fin cfg1.N) : Memref sig .tc .vmem S64x1 .f32 := win1_9.stage (cfg1.slots t 9)
abbrev stgWhole1_9 (t : Fin cfg1.N) : (stg1_9 t).IsWhole := hstage1_9 ((cfg1.slots t 9).cast nbuf1_9)

abbrev xbuf1 : Memref sig .tc .vmem S50x16384 .f32 := Memref.whole cc1_scratch0

theorem inv1_eq (c : Dev nD) :
    (Pipeline.ΦA spec1 c : sProp 𝕄)
      = iprop(iprop(iprop((∃ d, owns (c : Thread nD τ) xbuf1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [xbuf1, owns_whole]; try rfl

section
variable (c : Dev nD) (i : grid1.Coords) (arg2 : Memref sig .tc .vmem S8x16384 .i32) (harg2 : arg2.IsWhole) (arg3 : Memref sig .tc .vmem S6x16384 .f32) (harg3 : arg3.IsWhole) (arg4 : Memref sig .tc .vmem S15x8 .f32) (harg4 : arg4.IsWhole) (arg5 : Memref sig .tc .vmem S9x8 .f32) (harg5 : arg5.IsWhole) (arg6 : Memref sig .tc .vmem S50x128 .f32) (harg6 : arg6.IsWhole) (arg7 : Memref sig .tc .vmem S128x1 .f32) (harg7 : arg7.IsWhole) (arg8 : Memref sig .tc .vmem S128x64 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S50x16384 .f32) (harg12 : arg12.IsWhole)

set_option maxHeartbeats 4000000 in
set_option maxRecDepth 65536 in
noncomputable def runReset1 (hc0 : firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) :
    Σ' (L8 : List (View.Piece (Elt F) S64x1 .f32)), { L9 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d)) -∗ K ⟨⟩))
          ⊢ wp frame (wpE (defs₀ (F := F)) Variants.none c none) E (cc1__kernel_stats2 i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__kernel_stats2_eq_skeleton]; unfold cc1__kernel_stats2_skel
    simp only [k1_part1_eq_skeleton, k1_part2_eq_skeleton, k1_part3_eq_skeleton, k1_part4_eq_skeleton]
    unfold k1_part1_skel k1_part2_skel k1_part3_skel k1_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexists _; isplitr
    swap; · iexact HS
    ipureintro; rfl

set_option maxHeartbeats 4000000 in
set_option maxRecDepth 65536 in
noncomputable def runAdd1 (hc0 : ¬firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (xo8 : Vec F S64x1 .f32) (xo9 : Vec F S64x1 .f32) :
    Σ' (L8 : List (View.Piece (Elt F) S64x1 .f32)), { L9 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d)) -∗ K ⟨⟩))
          ⊢ wp frame (wpE (defs₀ (F := F)) Variants.none c none) E (cc1__kernel_stats2 i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__kernel_stats2_eq_skeleton]; unfold cc1__kernel_stats2_skel
    simp only [k1_part1_eq_skeleton, k1_part2_eq_skeleton, k1_part3_eq_skeleton, k1_part4_eq_skeleton]
    unfold k1_part1_skel k1_part2_skel k1_part3_skel k1_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexists _; isplitr
    swap; · iexact HS
    ipureintro; rfl

theorem coverReset1_8 (hc0 : firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (y : S64x1.Idx) :
    ∃ pc ∈ (runReset1 c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (runReset1 c i arg2 harg2 arg3 harg3 arg4 harg4 arg5 harg5 arg6 harg6 arg7 harg7 arg8 harg8 arg9 harg9 arg10 harg10 arg11 harg11 arg12 harg12 hc0 x0 x1 x2 x3 x4 x5 x6 x7).1 S64x1.size (by sl_kernel_rfl) y

def accReset1_8 (hc0 : firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) : Vec F S64x1 .f32 :=
  accView1_8.read (Elt F) (accView1_8.writes (Elt F) accView1_8.junk (runReset1 c i arg2 harg2 arg3 harg3 arg4 harg4 arg5 harg5 arg6 harg6 arg7 harg7 arg8 harg8 arg9 harg9 arg10 harg10 arg11 harg11 arg12 harg12 hc0 x0 x1 x2 x3 x4 x5 x6 x7).1)

theorem coverReset1_9 (hc0 : firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (y : S64x1.Idx) :
    ∃ pc ∈ (runReset1 c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (runReset1 c i arg2 harg2 arg3 harg3 arg4 harg4 arg5 harg5 arg6 harg6 arg7 harg7 arg8 harg8 arg9 harg9 arg10 harg10 arg11 harg11 arg12 harg12 hc0 x0 x1 x2 x3 x4 x5 x6 x7).2.1 S64x1.size (by sl_kernel_rfl) y

def accReset1_9 (hc0 : firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) : Vec F S64x1 .f32 :=
  accView1_9.read (Elt F) (accView1_9.writes (Elt F) accView1_9.junk (runReset1 c i arg2 harg2 arg3 harg3 arg4 harg4 arg5 harg5 arg6 harg6 arg7 harg7 arg8 harg8 arg9 harg9 arg10 harg10 arg11 harg11 arg12 harg12 hc0 x0 x1 x2 x3 x4 x5 x6 x7).2.1)

theorem coverAdd1_8 (hc0 : ¬firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (xo8 : Vec F S64x1 .f32) (xo9 : Vec F S64x1 .f32) (y : S64x1.Idx) :
    ∃ pc ∈ (runAdd1 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9).1, y ∈ pc.1.set :=
  View.cover_of_tiledL (runAdd1 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9).1 S64x1.size (by sl_kernel_rfl) y

def accAdd1_8 (hc0 : ¬firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (xo8 : Vec F S64x1 .f32) (xo9 : Vec F S64x1 .f32) : Vec F S64x1 .f32 :=
  accView1_8.read (Elt F) (accView1_8.writes (Elt F) accView1_8.junk (runAdd1 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9).1)

theorem coverAdd1_9 (hc0 : ¬firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (xo8 : Vec F S64x1 .f32) (xo9 : Vec F S64x1 .f32) (y : S64x1.Idx) :
    ∃ pc ∈ (runAdd1 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9).2.1, y ∈ pc.1.set :=
  View.cover_of_tiledL (runAdd1 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9).2.1 S64x1.size (by sl_kernel_rfl) y

def accAdd1_9 (hc0 : ¬firstStep1 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (xo8 : Vec F S64x1 .f32) (xo9 : Vec F S64x1 .f32) : Vec F S64x1 .f32 :=
  accView1_9.read (Elt F) (accView1_9.writes (Elt F) accView1_9.junk (runAdd1 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9).2.1)

end

def outsAt1 (c : Dev nD) : (n : ℕ) → n < cfg1.N → Vec F S64x1 .f32 × Vec F S64x1 .f32
  | 0, hn => (accReset1_8 c (grid1.coords ⟨0, hn⟩) (stg1_0 ⟨0, hn⟩) (stgWhole1_0 ⟨0, hn⟩) (stg1_1 ⟨0, hn⟩) (stgWhole1_1 ⟨0, hn⟩) (stg1_2 ⟨0, hn⟩) (stgWhole1_2 ⟨0, hn⟩) (stg1_3 ⟨0, hn⟩) (stgWhole1_3 ⟨0, hn⟩) (stg1_4 ⟨0, hn⟩) (stgWhole1_4 ⟨0, hn⟩) (stg1_5 ⟨0, hn⟩) (stgWhole1_5 ⟨0, hn⟩) (stg1_6 ⟨0, hn⟩) (stgWhole1_6 ⟨0, hn⟩) (stg1_7 ⟨0, hn⟩) (stgWhole1_7 ⟨0, hn⟩) (stg1_8 ⟨0, hn⟩) (stgWhole1_8 ⟨0, hn⟩) (stg1_9 ⟨0, hn⟩) (stgWhole1_9 ⟨0, hn⟩) xbuf1 (Memref.isWhole_whole _) ((firstStep1_iff ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), accReset1_9 c (grid1.coords ⟨0, hn⟩) (stg1_0 ⟨0, hn⟩) (stgWhole1_0 ⟨0, hn⟩) (stg1_1 ⟨0, hn⟩) (stgWhole1_1 ⟨0, hn⟩) (stg1_2 ⟨0, hn⟩) (stgWhole1_2 ⟨0, hn⟩) (stg1_3 ⟨0, hn⟩) (stgWhole1_3 ⟨0, hn⟩) (stg1_4 ⟨0, hn⟩) (stgWhole1_4 ⟨0, hn⟩) (stg1_5 ⟨0, hn⟩) (stgWhole1_5 ⟨0, hn⟩) (stg1_6 ⟨0, hn⟩) (stgWhole1_6 ⟨0, hn⟩) (stg1_7 ⟨0, hn⟩) (stgWhole1_7 ⟨0, hn⟩) (stg1_8 ⟨0, hn⟩) (stgWhole1_8 ⟨0, hn⟩) (stg1_9 ⟨0, hn⟩) (stgWhole1_9 ⟨0, hn⟩) xbuf1 (Memref.isWhole_whole _) ((firstStep1_iff ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 32 = 0 then
      (accReset1_8 c (grid1.coords ⟨n + 1, hn⟩) (stg1_0 ⟨n + 1, hn⟩) (stgWhole1_0 ⟨n + 1, hn⟩) (stg1_1 ⟨n + 1, hn⟩) (stgWhole1_1 ⟨n + 1, hn⟩) (stg1_2 ⟨n + 1, hn⟩) (stgWhole1_2 ⟨n + 1, hn⟩) (stg1_3 ⟨n + 1, hn⟩) (stgWhole1_3 ⟨n + 1, hn⟩) (stg1_4 ⟨n + 1, hn⟩) (stgWhole1_4 ⟨n + 1, hn⟩) (stg1_5 ⟨n + 1, hn⟩) (stgWhole1_5 ⟨n + 1, hn⟩) (stg1_6 ⟨n + 1, hn⟩) (stgWhole1_6 ⟨n + 1, hn⟩) (stg1_7 ⟨n + 1, hn⟩) (stgWhole1_7 ⟨n + 1, hn⟩) (stg1_8 ⟨n + 1, hn⟩) (stgWhole1_8 ⟨n + 1, hn⟩) (stg1_9 ⟨n + 1, hn⟩) (stgWhole1_9 ⟨n + 1, hn⟩) xbuf1 (Memref.isWhole_whole _) ((firstStep1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), accReset1_9 c (grid1.coords ⟨n + 1, hn⟩) (stg1_0 ⟨n + 1, hn⟩) (stgWhole1_0 ⟨n + 1, hn⟩) (stg1_1 ⟨n + 1, hn⟩) (stgWhole1_1 ⟨n + 1, hn⟩) (stg1_2 ⟨n + 1, hn⟩) (stgWhole1_2 ⟨n + 1, hn⟩) (stg1_3 ⟨n + 1, hn⟩) (stgWhole1_3 ⟨n + 1, hn⟩) (stg1_4 ⟨n + 1, hn⟩) (stgWhole1_4 ⟨n + 1, hn⟩) (stg1_5 ⟨n + 1, hn⟩) (stgWhole1_5 ⟨n + 1, hn⟩) (stg1_6 ⟨n + 1, hn⟩) (stgWhole1_6 ⟨n + 1, hn⟩) (stg1_7 ⟨n + 1, hn⟩) (stgWhole1_7 ⟨n + 1, hn⟩) (stg1_8 ⟨n + 1, hn⟩) (stgWhole1_8 ⟨n + 1, hn⟩) (stg1_9 ⟨n + 1, hn⟩) (stgWhole1_9 ⟨n + 1, hn⟩) xbuf1 (Memref.isWhole_whole _) ((firstStep1_iff ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (accAdd1_8 c (grid1.coords ⟨n + 1, hn⟩) (stg1_0 ⟨n + 1, hn⟩) (stgWhole1_0 ⟨n + 1, hn⟩) (stg1_1 ⟨n + 1, hn⟩) (stgWhole1_1 ⟨n + 1, hn⟩) (stg1_2 ⟨n + 1, hn⟩) (stgWhole1_2 ⟨n + 1, hn⟩) (stg1_3 ⟨n + 1, hn⟩) (stgWhole1_3 ⟨n + 1, hn⟩) (stg1_4 ⟨n + 1, hn⟩) (stgWhole1_4 ⟨n + 1, hn⟩) (stg1_5 ⟨n + 1, hn⟩) (stgWhole1_5 ⟨n + 1, hn⟩) (stg1_6 ⟨n + 1, hn⟩) (stgWhole1_6 ⟨n + 1, hn⟩) (stg1_7 ⟨n + 1, hn⟩) (stgWhole1_7 ⟨n + 1, hn⟩) (stg1_8 ⟨n + 1, hn⟩) (stgWhole1_8 ⟨n + 1, hn⟩) (stg1_9 ⟨n + 1, hn⟩) (stgWhole1_9 ⟨n + 1, hn⟩) xbuf1 (Memref.isWhole_whole _) (fun h => h0 ((firstStep1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).1 (outsAt1 c n (Nat.lt_of_succ_lt hn)).2, accAdd1_9 c (grid1.coords ⟨n + 1, hn⟩) (stg1_0 ⟨n + 1, hn⟩) (stgWhole1_0 ⟨n + 1, hn⟩) (stg1_1 ⟨n + 1, hn⟩) (stgWhole1_1 ⟨n + 1, hn⟩) (stg1_2 ⟨n + 1, hn⟩) (stgWhole1_2 ⟨n + 1, hn⟩) (stg1_3 ⟨n + 1, hn⟩) (stgWhole1_3 ⟨n + 1, hn⟩) (stg1_4 ⟨n + 1, hn⟩) (stgWhole1_4 ⟨n + 1, hn⟩) (stg1_5 ⟨n + 1, hn⟩) (stgWhole1_5 ⟨n + 1, hn⟩) (stg1_6 ⟨n + 1, hn⟩) (stgWhole1_6 ⟨n + 1, hn⟩) (stg1_7 ⟨n + 1, hn⟩) (stgWhole1_7 ⟨n + 1, hn⟩) (stg1_8 ⟨n + 1, hn⟩) (stgWhole1_8 ⟨n + 1, hn⟩) (stg1_9 ⟨n + 1, hn⟩) (stgWhole1_9 ⟨n + 1, hn⟩) xbuf1 (Memref.isWhole_whole _) (fun h => h0 ((firstStep1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).1 (outsAt1 c n (Nat.lt_of_succ_lt hn)).2)

theorem outsAt1_reset (c : Dev nD) (t : Fin cfg1.N) (h0 : t.val % 32 = 0) :
    outsAt1 V c t.val t.isLt = (accReset1_8 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) xbuf1 (Memref.isWhole_whole _) ((firstStep1_iff t).mpr h0) (iblk1 V c 0 t) (iblk1 V c 1 t) (iblk1 V c 2 t) (iblk1 V c 3 t) (iblk1 V c 4 t) (iblk1 V c 5 t) (iblk1 V c 6 t) (iblk1 V c 7 t), accReset1_9 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) xbuf1 (Memref.isWhole_whole _) ((firstStep1_iff t).mpr h0) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans rfl

theorem outsAt1_add (c : Dev nD) (t : Fin cfg1.N) (h0 : ¬t.val % 32 = 0) :
    outsAt1 V c t.val t.isLt = (accAdd1_8 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) xbuf1 (Memref.isWhole_whole _) (fun h => h0 ((firstStep1_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1 (outsAt1 V c (t.val - 1) (Nat.lt_of_le_of_lt (Nat.sub_le _ _) t.isLt)).2, accAdd1_9 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) xbuf1 (Memref.isWhole_whole _) (fun h => h0 ((firstStep1_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
    | ⟨9, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem after1_9 (c : Dev nD) (t : Fin cfg1.N) : (dat1 V c).after 9 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

theorem before1_8_add (c : Dev nD) (t : Fin cfg1.N) (h0 : ¬t.val % 32 = 0) (d) :
    (dat1 V c).before 8 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_9_add (c : Dev nD) (t : Fin cfg1.N) (h0 : ¬t.val % 32 = 0) (d) :
    (dat1 V c).before 9 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 9 rfl t (by omega) (Bool.eq_false_iff.mpr fun h => by have := (flush1_9 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d))
    ∗ (∃ d, owns (c : Thread nD τ) (stg1_4 t) fullShare ((dat1 V c).before 4 t d))
    ∗ (∃ d, owns (c : Thread nD τ) (stg1_5 t) fullShare ((dat1 V c).before 5 t d))
    ∗ (∃ d, owns (c : Thread nD τ) (stg1_6 t) fullShare ((dat1 V c).before 6 t d))
    ∗ (∃ d, owns (c : Thread nD τ) (stg1_7 t) fullShare ((dat1 V c).before 7 t d))
    ∗ (∃ d, owns (c : Thread nD τ) (stg1_8 t) fullShare ((dat1 V c).before 8 t d))
    ∗ (∃ d, owns (c : Thread nD τ) (stg1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (stg1_0 t) fullShare ((dat1 V c).after 0 t)
    ∗ owns (c : Thread nD τ) (stg1_1 t) fullShare ((dat1 V c).after 1 t)
    ∗ owns (c : Thread nD τ) (stg1_2 t) fullShare ((dat1 V c).after 2 t)
    ∗ owns (c : Thread nD τ) (stg1_3 t) fullShare ((dat1 V c).after 3 t)
    ∗ owns (c : Thread nD τ) (stg1_4 t) fullShare ((dat1 V c).after 4 t)
    ∗ owns (c : Thread nD τ) (stg1_5 t) fullShare ((dat1 V c).after 5 t)
    ∗ owns (c : Thread nD τ) (stg1_6 t) fullShare ((dat1 V c).after 6 t)
    ∗ owns (c : Thread nD τ) (stg1_7 t) fullShare ((dat1 V c).after 7 t)
    ∗ owns (c : Thread nD τ) (stg1_8 t) fullShare ((dat1 V c).after 8 t)
    ∗ owns (c : Thread nD τ) (stg1_9 t) fullShare ((dat1 V c).after 9 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show (dat1 V c).Φ t.castSucc = Pipeline.ΦA spec1 c from rfl, inv1_eq]
  have hN : t.val < 64 := lt_of_lt_of_eq t.isLt (show cfg1.N = 64 from N_1)
  by_cases h0 : t.val % 32 = 0
  · rw [outsAt1_reset V c t h0]
    dsimp only
    unfold accReset1_8 accReset1_9
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runReset1 c (grid1.coords t) _ _ _ _ _ _ _ _ _ _ _ _ _ _ _ _ _ _ _ _ _ _ ((firstStep1_iff t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, ⟨%e8, H8⟩, ⟨%e9, H9⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverReset1_8 c _ _ _ _ _ _ _ _ _ _ _ _ _ _ _ _ _ _ _ _ _ _ _ _ _ _ _ _ _ _ _ _)
    unfold owns; iexists _; isplitr
    swap; · iexact H9
    ipureintro; exact View.read_writes_of_cover _ _ _ _ _ (coverReset1_9 c _ _ _ _ _ _ _ _ _ _ _ _ _ _ _ _ _ _ _ _ _ _ _ _ _ _ _ _ _ _ _ _)
  · rw [outsAt1_add V c t h0]
    dsimp only
    simp only [before1_8_add V c t h0, before1_9_add V c t h0]
    unfold accAdd1_8 accAdd1_9
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runAdd1 c (grid1.coords t) _ _ _ _ _ _ _ _ _ _ _ _ _ _ _ _ _ _ _ _ _ _ (fun h => h0 ((firstStep1_iff t).mp h)) (iblk1 V c 0 t) (iblk1 V c 1 t) (iblk1 V c 2 t) (iblk1 V c 3 t) (iblk1 V c 4 t) (iblk1 V c 5 t) (iblk1 V c 6 t) (iblk1 V c 7 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, ⟨%e8, H8⟩, ⟨%e9, H9⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverAdd1_8 c _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (coverAdd1_9 c _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
import proofs.«412578_j66537633349983_3_alg».proof.Proof.Gen.KernelIdeal.Launch
import proofs.«412578_j66537633349983_3_alg».proof.Proof.Gen.KernelIdeal.Skeleton
import proofs.«412578_j66537633349983_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 32 = 0 :=
  (by decide +kernel : ∀ t : Fin grid2.N, cond2_0 (grid2.coords t) ↔ t.val % 32 = 0)

abbrev VO2_10 : View sig .tc .vmem S32x1 .f32 := (Memref.whole cc2_stg10_0 : Memref sig .tc .vmem S32x1 .f32).view
abbrev VO2_11 : View sig .tc .vmem S32x1 .f32 := (Memref.whole cc2_stg11_0 : Memref sig .tc .vmem S32x1 .f32).view

abbrev ms2_0 (t : Fin cfg2.N) : Memref sig .tc .vmem S8x16384 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6x16384 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S15x8 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S9x8 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S50x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S64x1 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x32 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S32x1 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S32x1 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S32x1 .f32 := win2_11.stage (cfg2.slots t 11)
abbrev hs2_11 (t : Fin cfg2.N) : (ms2_11 t).IsWhole := hstage2_11 ((cfg2.slots t 11).cast nbuf2_11)

abbrev scM2 : Memref sig .tc .vmem S50x16384 .f32 := Memref.whole cc2_scratch0

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (c : Dev nD) (i : grid2.Coords) (arg2 : Memref sig .tc .vmem S8x16384 .i32) (harg2 : arg2.IsWhole) (arg3 : Memref sig .tc .vmem S6x16384 .f32) (harg3 : arg3.IsWhole) (arg4 : Memref sig .tc .vmem S15x8 .f32) (harg4 : arg4.IsWhole) (arg5 : Memref sig .tc .vmem S9x8 .f32) (harg5 : arg5.IsWhole) (arg6 : Memref sig .tc .vmem S50x128 .f32) (harg6 : arg6.IsWhole) (arg7 : Memref sig .tc .vmem S128x1 .f32) (harg7 : arg7.IsWhole) (arg8 : Memref sig .tc .vmem S128x64 .f32) (harg8 : arg8.IsWhole) (arg9 : Memref sig .tc .vmem S64x1 .f32) (harg9 : arg9.IsWhole) (arg10 : Memref sig .tc .vmem S64x32 .f32) (harg10 : arg10.IsWhole) (arg11 : Memref sig .tc .vmem S32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S50x16384 .f32) (harg14 : arg14.IsWhole)

set_option maxRecDepth 65536 in
set_option maxHeartbeats 4000000 in
noncomputable def kernelRun2_A (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) :
    Σ' (L10 : List (View.Piece (Elt F) S32x1 .f32)), { L11 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ d, owns (c : Thread nD τ) arg14 fullShare d)) -∗ K ⟨⟩))
          ⊢ wp frame (wpE (defs₀ (F := F)) Variants.none c none) E (cc2__kernel_stats3 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc2__kernel_stats3_eq_skeleton]; unfold cc2__kernel_stats3_skel
    simp only [k2_part1_eq_skeleton, k2_part2_eq_skeleton, k2_part3_eq_skeleton, k2_part4_eq_skeleton, k2_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexists _; isplitr
    swap; · iexact HS
    ipureintro; rfl

set_option maxRecDepth 65536 in
set_option maxHeartbeats 4000000 in
noncomputable def kernelRun2_B (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) :
    Σ' (L10 : List (View.Piece (Elt F) S32x1 .f32)), { L11 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo10 ∗ owns (c : Thread nD τ) arg13 fullShare xo11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ d, owns (c : Thread nD τ) arg14 fullShare d)) -∗ K ⟨⟩))
          ⊢ wp frame (wpE (defs₀ (F := F)) Variants.none c none) E (cc2__kernel_stats3 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc2__kernel_stats3_eq_skeleton]; unfold cc2__kernel_stats3_skel
    simp only [k2_part1_eq_skeleton, k2_part2_eq_skeleton, k2_part3_eq_skeleton, k2_part4_eq_skeleton, k2_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexists _; isplitr
    swap; · iexact HS
    ipureintro; rfl

theorem cover2_A_10 (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (y : S32x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 S32x1.size (by sl_kernel_rfl) y

def out2_A_10 (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) : Vec F S32x1 .f32 :=
  VO2_10.read (Elt F) (VO2_10.writes (Elt F) VO2_10.junk (kernelRun2_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1)

theorem cover2_A_11 (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (y : S32x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 S32x1.size (by sl_kernel_rfl) y

def out2_A_11 (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) : Vec F S32x1 .f32 :=
  VO2_11.read (Elt F) (VO2_11.writes (Elt F) VO2_11.junk (kernelRun2_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1)

theorem cover2_B_10 (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) (y : S32x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11).1 S32x1.size (by sl_kernel_rfl) y

def out2_B_10 (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) : Vec F S32x1 .f32 :=
  VO2_10.read (Elt F) (VO2_10.writes (Elt F) VO2_10.junk (kernelRun2_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11).1)

theorem cover2_B_11 (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) (y : S32x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11).2.1 S32x1.size (by sl_kernel_rfl) y

def out2_B_11 (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) : Vec F S32x1 .f32 :=
  VO2_11.read (Elt F) (VO2_11.writes (Elt F) VO2_11.junk (kernelRun2_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11).2.1)

end

def outsAt2 (c : Dev nD) : (n : ℕ) → n < cfg2.N → Vec F S32x1 .f32 × Vec F S32x1 .f32
  | 0, hn => (out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) scM2 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩), out2_A_11 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) scM2 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : (n + 1) % 32 = 0 then
      (out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) scM2 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩), out2_A_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) scM2 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩))
    else
      (out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) scM2 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).1 (outsAt2 c n (Nat.lt_of_succ_lt hn)).2, out2_B_11 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) scM2 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).1 (outsAt2 c n (Nat.lt_of_succ_lt hn)).2)

theorem outsAt2_A (c : Dev nD) (t : Fin cfg2.N) (h0 : t.val % 32 = 0) :
    outsAt2 V c t.val t.isLt = (out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2 (Memref.isWhole_whole _) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t), out2_A_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2 (Memref.isWhole_whole _) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact (dif_pos h0).trans rfl

theorem outsAt2_B (c : Dev nD) (t : Fin cfg2.N) (h0 : ¬t.val % 32 = 0) :
    outsAt2 V c t.val t.isLt = (out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).1 (outsAt2 V c (t.val - 1) (Nat.lt_of_le_of_lt (Nat.sub_le _ _) t.isLt)).2, out2_B_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2 (Memref.isWhole_whole _) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
    | ⟨11, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = (outsAt2 V c t.val t.isLt).1 := by dsimp only [dat2]
theorem after2_11 (c : Dev nD) (t : Fin cfg2.N) : (dat2 V c).after 11 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

theorem before2_10_B (c : Dev nD) (t : Fin cfg2.N) (h0 : ¬t.val % 32 = 0) (d) :
    (dat2 V c).before 10 t d = (outsAt2 V c (t.val - 1) (Nat.lt_of_le_of_lt (Nat.sub_le _ _) t.isLt)).1 := by
  have hN : t.val < 64 := lt_of_lt_of_eq t.isLt (show cfg2.N = 64 from N_2)
  rw [Dat.before_out_kept _ 10 rfl t (by omega) (Bool.eq_false_iff.mpr fun h => by have := (flush2_10 _).mp h; dsimp only at this; omega)
    (fun _ => rfl) (fun _ _ => rfl)]
  dsimp only [dat2]
theorem before2_11_B (c : Dev nD) (t : Fin cfg2.N) (h0 : ¬t.val % 32 = 0) (d) :
    (dat2 V c).before 11 t d = (outsAt2 V c (t.val - 1) (Nat.lt_of_le_of_lt (Nat.sub_le _ _) t.isLt)).2 := by
  have hN : t.val < 64 := lt_of_lt_of_eq t.isLt (show cfg2.N = 64 from N_2)
  rw [Dat.before_out_kept _ 11 rfl t (by omega) (Bool.eq_false_iff.mpr fun h => by have := (flush2_11 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  rw [show (dat2 V c).Φ t.castSucc = Pipeline.ΦA spec2 c from rfl, PhiA2_eq]
  have hN : t.val < 64 := lt_of_lt_of_eq t.isLt (show cfg2.N = 64 from N_2)
  by_cases h0 : t.val % 32 = 0
  · rw [outsAt2_A V c t h0]
    unfold out2_A_10 out2_A_11; (try dsimp only)
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun2_A c (grid2.coords t) _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, ⟨%e10, H10⟩, ⟨%e11, H11⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover2_A_10 c _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover2_A_11 c _ _ _ _ _ _ _ _ _ _ _ _ _ _ _ _ _ _ _ _ _ _ _ _ _ _ _ _ _ _ _ _ _ _ _ _ _ _)
  · simp only [before2_10_B V c t h0, before2_11_B V c t h0]
    rw [outsAt2_B V c t h0]
    unfold out2_B_10 out2_B_11; (try dsimp only)
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun2_B c (grid2.coords t) _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, ⟨%e10, H10⟩, ⟨%e11, H11⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover2_B_10 c _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover2_B_11 c _ _ _ _ _ _ _ _ _ _ _ _ _ _ _ _ _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Reg3.lean ====
import proofs.«412578_j66537633349983_3_alg».proof.Proof.Gen.KernelIdeal.Launch
import proofs.«412578_j66537633349983_3_alg».proof.Proof.Gen.KernelIdeal.Skeleton
import proofs.«412578_j66537633349983_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

abbrev VO3_12 : View sig .tc .vmem S1x16384 .f32 := (Memref.whole cc3_stg12_0 : Memref sig .tc .vmem S1x16384 .f32).view
abbrev ms3_0 (t : Fin cfg3.N) : Memref sig .tc .vmem S8x16384 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S6x16384 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S15x8 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S9x8 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S50x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S64x1 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S64x32 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S32x1 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S32x1 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S1x1 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1x16384 .f32 := win3_12.stage (cfg3.slots t 12)
abbrev hs3_12 (t : Fin cfg3.N) : (ms3_12 t).IsWhole := hstage3_12 ((cfg3.slots t 12).cast nbuf3_12)

abbrev scM3 : Memref sig .tc .vmem S50x16384 .f32 := Memref.whole cc3_scratch0

theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

section
variable (c : Dev nD) (i : grid3.Coords) (arg1 : Memref sig .tc .vmem S8x16384 .i32) (harg1 : arg1.IsWhole) (arg2 : Memref sig .tc .vmem S6x16384 .f32) (harg2 : arg2.IsWhole) (arg3 : Memref sig .tc .vmem S15x8 .f32) (harg3 : arg3.IsWhole) (arg4 : Memref sig .tc .vmem S9x8 .f32) (harg4 : arg4.IsWhole) (arg5 : Memref sig .tc .vmem S50x128 .f32) (harg5 : arg5.IsWhole) (arg6 : Memref sig .tc .vmem S128x1 .f32) (harg6 : arg6.IsWhole) (arg7 : Memref sig .tc .vmem S128x64 .f32) (harg7 : arg7.IsWhole) (arg8 : Memref sig .tc .vmem S64x1 .f32) (harg8 : arg8.IsWhole) (arg9 : Memref sig .tc .vmem S64x32 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S1x1 .f32) (harg12 : arg12.IsWhole) (arg13 : Memref sig .tc .vmem S1x16384 .f32) (harg13 : arg13.IsWhole) (arg14 : Memref sig .tc .vmem S50x16384 .f32) (harg14 : arg14.IsWhole)

set_option maxHeartbeats 4000000 in
noncomputable def kernelRun3
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (x10 : Vec F S32x1 .f32) (x11 : Vec F S1x1 .f32) :
    { L12 : List (View.Piece (Elt F) S1x16384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ d, owns (c : Thread nD τ) arg14 fullShare d)) -∗ K ⟨⟩))
          ⊢ wp frame (wpE (defs₀ (F := F)) Variants.none c none) E (cc3__kernel_final i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc3__kernel_final_eq_skeleton]; unfold cc3__kernel_final_skel
    simp only [k3_part1_eq_skeleton, k3_part2_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; iexact H12
    iexists _; iexists _; isplitr
    swap; · iexact H13
    ipureintro; rfl

theorem cover3_12
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (x10 : Vec F S32x1 .f32) (x11 : Vec F S1x1 .f32) (y : S1x16384.Idx) :
    ∃ pc ∈ (kernelRun3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, y ∈ pc.1.set :=
  View.cover_of_tiledL (kernelRun3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 S1x16384.size (by sl_kernel_rfl) y

def out3_12
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (x10 : Vec F S32x1 .f32) (x11 : Vec F S1x1 .f32) : Vec F S1x16384 .f32 :=
  VO3_12.read (Elt F) (VO3_12.writes (Elt F) VO3_12.junk (kernelRun3 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1)

end

def outsAt3 (c : Dev nD) : (n : ℕ) → n < cfg3.N → Vec F S1x16384 .f32 :=
  fun n hn => out3_12 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) (ms3_5 ⟨n, hn⟩) (hs3_5 ⟨n, hn⟩) (ms3_6 ⟨n, hn⟩) (hs3_6 ⟨n, hn⟩) (ms3_7 ⟨n, hn⟩) (hs3_7 ⟨n, hn⟩) (ms3_8 ⟨n, hn⟩) (hs3_8 ⟨n, hn⟩) (ms3_9 ⟨n, hn⟩) (hs3_9 ⟨n, hn⟩) (ms3_10 ⟨n, hn⟩) (hs3_10 ⟨n, hn⟩) (ms3_11 ⟨n, hn⟩) (hs3_11 ⟨n, hn⟩) (ms3_12 ⟨n, hn⟩) (hs3_12 ⟨n, hn⟩) scM3 (Memref.isWhole_whole _) (iblk3 V c 0 ⟨n, hn⟩) (iblk3 V c 1 ⟨n, hn⟩) (iblk3 V c 2 ⟨n, hn⟩) (iblk3 V c 3 ⟨n, hn⟩) (iblk3 V c 4 ⟨n, hn⟩) (iblk3 V c 5 ⟨n, hn⟩) (iblk3 V c 6 ⟨n, hn⟩) (iblk3 V c 7 ⟨n, hn⟩) (iblk3 V c 8 ⟨n, hn⟩) (iblk3 V c 9 ⟨n, hn⟩) (iblk3 V c 10 ⟨n, hn⟩) (iblk3 V c 11 ⟨n, hn⟩)

theorem outsAt3_eq (c : Dev nD) (t : Fin cfg3.N) :
    outsAt3 V c t.val t.isLt = out3_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3 (Memref.isWhole_whole _) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d))
    ∗ (∃ d, owns (c : Thread nD τ) (ms3_12 t) fullShare ((dat3 V c).before 12 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t)
    ∗ owns (c : Thread nD τ) (ms3_10 t) fullShare ((dat3 V c).after 10 t)
    ∗ owns (c : Thread nD τ) (ms3_11 t) fullShare ((dat3 V c).after 11 t)
    ∗ owns (c : Thread nD τ) (ms3_12 t) fullShare ((dat3 V c).after 12 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, outsAt3_eq]
  rw [show (dat3 V c).Φ t.castSucc = Pipeline.ΦA spec3 c from rfl, PhiA3_eq]
  unfold out3_12
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3 c (grid3.coords t) _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexact HS
  iintro ⟨H0, H1, H2, H3, H4, H5, H6, H7, H8, H9, H10, H11, ⟨%e12, H12⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover3_12 c _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t))

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KRun.lean ====
import proofs.«412578_j66537633349983_3_alg».proof.Proof.KRunCond
import proofs.«412578_j66537633349983_3_alg».proof.Proof.Reg0
import proofs.«412578_j66537633349983_3_alg».proof.Proof.Reg1
import proofs.«412578_j66537633349983_3_alg».proof.Proof.Reg2
import proofs.«412578_j66537633349983_3_alg».proof.Proof.Reg3
import Idealize.ShloMosaic.Lib.Pipeline.Kit
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

abbrev R1 : (c : Dev nD) → (b : Ref sig .tc) → Buf (Elt F) ((c : Thread nD τ).loc b) := fun c b => V1 m c b

def X2 (c : Dev nD) : Valuation τ sig (Elt F) :=
  Pipeline.withArrays spec0 c (V1 m c) fun w => (dat0 (R1 m) c).arrAt w cfg0.N

def U3 (c : Dev nD) : Valuation τ sig (Elt F) :=
  StableHlo.after hostOps1 (Function.update (Function.update (V1 m c) main_v26_0 (X2 m c main_v26_0)) main_v26_1 (X2 m c main_v26_1))
abbrev R3 : (c : Dev nD) → (b : Ref sig .tc) → Buf (Elt F) ((c : Thread nD τ).loc b) := fun c b => U3 m c b
def X4 (c : Dev nD) : Valuation τ sig (Elt F) :=
  Pipeline.withArrays spec1 c (U3 m c) fun w => (dat1 (R3 m) c).arrAt w cfg1.N
def U5 (c : Dev nD) : Valuation τ sig (Elt F) :=
  StableHlo.after hostOps2 (Function.update (Function.update (U3 m c) main_v51_0 (X4 m c main_v51_0)) main_v51_1 (X4 m c main_v51_1))
abbrev R5 : (c : Dev nD) → (b : Ref sig .tc) → Buf (Elt F) ((c : Thread nD τ).loc b) := fun c b => U5 m c b
def X6 (c : Dev nD) : Valuation τ sig (Elt F) :=
  Pipeline.withArrays spec2 c (U5 m c) fun w => (dat2 (R5 m) c).arrAt w cfg2.N
def U7 (c : Dev nD) : Valuation τ sig (Elt F) :=
  StableHlo.after hostOps3 (Function.update (Function.update (U5 m c) main_v76_0 (X6 m c main_v76_0)) main_v76_1 (X6 m c main_v76_1))
abbrev R7 : (c : Dev nD) → (b : Ref sig .tc) → Buf (Elt F) ((c : Thread nD τ).loc b) := fun c b => U7 m c b
def X8 (c : Dev nD) : Valuation τ sig (Elt F) :=
  Pipeline.withArrays spec3 c (U7 m c) fun w => (dat3 (R7 m) c).arrAt w cfg3.N

def outs : Outs (F := F) := fun J r c =>
  match J with
  | 2 => X2 m c r
  | 4 => X4 m c r
  | 6 => X6 m c r
  | 8 => X8 m c r
  | _ => X2 m c r

theorem V3_eq (c : Dev nD) : V3 m (outs m) c = U3 m c := rfl
theorem V5_eq (c : Dev nD) : V5 m (outs m) c = U5 m c := rfl
theorem V7_eq (c : Dev nD) : V7 m (outs m) c = U7 m c := rfl

abbrev R2 : (c : Dev nD) → (b : Ref sig .tc) → Buf (Elt F) ((c : Thread nD τ).loc b) := fun c b => V2 m (outs m) c b
abbrev R4 : (c : Dev nD) → (b : Ref sig .tc) → Buf (Elt F) ((c : Thread nD τ).loc b) := fun c b => V4 m (outs m) c b
abbrev R6 : (c : Dev nD) → (b : Ref sig .tc) → Buf (Elt F) ((c : Thread nD τ).loc b) := fun c b => V6 m (outs m) c b
abbrev R8 : (c : Dev nD) → (b : Ref sig .tc) → Buf (Elt F) ((c : Thread nD τ).loc b) := fun c b => V8 m (outs m) c b

def pdats : (p : Fin 4) → (c : Dev nD) → Dat τ (Elt F) Unit ℕ (UR sig nD τ) ℕ (cfgs p) c
  | ⟨0, _⟩ => fun c => dat0 (R1 m) c
  | ⟨1, _⟩ => fun c => dat1 (R3 m) c
  | ⟨2, _⟩ => fun c => dat2 (R5 m) c
  | ⟨3, _⟩ => fun c => dat3 (R7 m) c

abbrev LL : GSem nD τ sig → Finset Unit := fun _ => ∅
abbrev lvl : GSem nD τ sig → Unit → ℕ := fun _ _ => 0

abbrev Rst (c : Dev nD) : sProp 𝕄 := iprop((∃ r, prngReg c r) ∗ ∃ W, owes (c : Thread nD τ) (0 : CellTallies nD τ sig Unit) W)

theorem X2_arr (c : Dev nD) (w : Fin cfg0.W) :
    X2 m c (Proc.devRef .tc (Pipeline.arrRef spec0 w)) = (dat0 (R1 m) c).arrAt w cfg0.N := by
  unfold X2; exact Pipeline.withArrays_arr spec0 launch0.win.arr_inj c _ _ w

theorem X2_out (c : Dev nD) (r : Ref sig .tc) (h : r ∈ ([main_v26_0, main_v26_1] : List (Ref sig .tc))) :
    R2 m c r = X2 m c (Proc.devRef .tc r) := by
  simp only [List.mem_cons, List.mem_nil_iff, or_false] at h
  rcases h with rfl | rfl
  · show (Function.update (Function.update (V1 m c) main_v26_0 (outs m 2 main_v26_0 c)) main_v26_1 (outs m 2 main_v26_1 c)) (Proc.devRef .tc main_v26_0) = _
    rw [Function.update_of_ne (StableHlo.devRef_ne_of_ne (by decide : (main_v26_0 : Ref sig .tc) ≠ main_v26_1) : (Proc.devRef .tc main_v26_0 : DevRef τ sig) ≠ Proc.devRef .tc main_v26_1), Function.update_self]
    rfl
  · show (Function.update (Function.update (V1 m c) main_v26_0 (outs m 2 main_v26_0 c)) main_v26_1 (outs m 2 main_v26_1 c)) (Proc.devRef .tc main_v26_1) = _
    rw [Function.update_self]
    rfl
set_option maxHeartbeats 2000000 in
theorem hF0 (c : Dev nD) (w : Fin cfg0.W) : (dat0 (R1 m) c).arrAt w cfg0.N = R2 m c (Pipeline.arrRef spec0 w) := by
  fin_cases w
  · exact ((dat0 (R1 m) c).arrAt_in 0 rfl _).trans ((A_eq0 (R1 m) c 0).trans ((V2_of m (outs m) c _ (by decide)).symm))
  · exact ((dat0 (R1 m) c).arrAt_in 1 rfl _).trans ((A_eq0 (R1 m) c 1).trans ((V2_of m (outs m) c _ (by decide)).symm))
  · exact ((dat0 (R1 m) c).arrAt_in 2 rfl _).trans ((A_eq0 (R1 m) c 2).trans ((V2_of m (outs m) c _ (by decide)).symm))
  · exact ((dat0 (R1 m) c).arrAt_in 3 rfl _).trans ((A_eq0 (R1 m) c 3).trans ((V2_of m (outs m) c _ (by decide)).symm))
  · exact ((dat0 (R1 m) c).arrAt_in 4 rfl _).trans ((A_eq0 (R1 m) c 4).trans ((V2_of m (outs m) c _ (by decide)).symm))
  · exact ((dat0 (R1 m) c).arrAt_in 5 rfl _).trans ((A_eq0 (R1 m) c 5).trans ((V2_of m (outs m) c _ (by decide)).symm))
  · exact (X2_arr m c 6).symm.trans (X2_out m c _ (by decide)).symm
  · exact (X2_arr m c 7).symm.trans (X2_out m c _ (by decide)).symm

theorem hrest0 (c : Dev nD) : ∀ b, b ∉ Finset.univ.image (Pipeline.arrRef spec0) → R2 m c b = R1 m c b :=
  fun b hb => (V2_of m (outs m) c b fun hm => hb (by
    simp only [List.mem_cons, List.mem_nil_iff, or_false] at hm
    rcases hm with rfl | rfl
    · exact Finset.mem_image.mpr ⟨6, Finset.mem_univ _, rfl⟩
    · exact Finset.mem_image.mpr ⟨7, Finset.mem_univ _, rfl⟩))

set_option backward.isDefEq.respectTransparency.types false in

def reg0 : Pipeline.RegionSeg (pcfgs (F := F)) adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ LL lvl 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun w => A_eq0 (R1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X4_arr (c : Dev nD) (w : Fin cfg1.W) :
    X4 m c (Proc.devRef .tc (Pipeline.arrRef spec1 w)) = (dat1 (R3 m) c).arrAt w cfg1.N := by
  unfold X4; exact Pipeline.withArrays_arr spec1 launch1.win.arr_inj c _ _ w

theorem X4_out (c : Dev nD) (r : Ref sig .tc) (h : r ∈ ([main_v51_0, main_v51_1] : List (Ref sig .tc))) :
    R4 m c r = X4 m c (Proc.devRef .tc r) := by
  simp only [List.mem_cons, List.mem_nil_iff, or_false] at h
  rcases h with rfl | rfl
  · show (Function.update (Function.update (V3 m (outs m) c) main_v51_0 (outs m 4 main_v51_0 c)) main_v51_1 (outs m 4 main_v51_1 c)) (Proc.devRef .tc main_v51_0) = _
    rw [Function.update_of_ne (StableHlo.devRef_ne_of_ne (by decide : (main_v51_0 : Ref sig .tc) ≠ main_v51_1) : (Proc.devRef .tc main_v51_0 : DevRef τ sig) ≠ Proc.devRef .tc main_v51_1), Function.update_self]
    rfl
  · show (Function.update (Function.update (V3 m (outs m) c) main_v51_0 (outs m 4 main_v51_0 c)) main_v51_1 (outs m 4 main_v51_1 c)) (Proc.devRef .tc main_v51_1) = _
    rw [Function.update_self]
    rfl
set_option maxHeartbeats 2000000 in
theorem hF1 (c : Dev nD) (w : Fin cfg1.W) : (dat1 (R3 m) c).arrAt w cfg1.N = R4 m c (Pipeline.arrRef spec1 w) := by
  fin_cases w
  · exact ((dat1 (R3 m) c).arrAt_in 0 rfl _).trans ((A_eq1 (R3 m) c 0).trans ((congrFun (V3_eq m c).symm _).trans (V4_of m (outs m) c _ (by decide)).symm))
  · exact ((dat1 (R3 m) c).arrAt_in 1 rfl _).trans ((A_eq1 (R3 m) c 1).trans ((congrFun (V3_eq m c).symm _).trans (V4_of m (outs m) c _ (by decide)).symm))
  · exact ((dat1 (R3 m) c).arrAt_in 2 rfl _).trans ((A_eq1 (R3 m) c 2).trans ((congrFun (V3_eq m c).symm _).trans (V4_of m (outs m) c _ (by decide)).symm))
  · exact ((dat1 (R3 m) c).arrAt_in 3 rfl _).trans ((A_eq1 (R3 m) c 3).trans ((congrFun (V3_eq m c).symm _).trans (V4_of m (outs m) c _ (by decide)).symm))
  · exact ((dat1 (R3 m) c).arrAt_in 4 rfl _).trans ((A_eq1 (R3 m) c 4).trans ((congrFun (V3_eq m c).symm _).trans (V4_of m (outs m) c _ (by decide)).symm))
  · exact ((dat1 (R3 m) c).arrAt_in 5 rfl _).trans ((A_eq1 (R3 m) c 5).trans ((congrFun (V3_eq m c).symm _).trans (V4_of m (outs m) c _ (by decide)).symm))
  · exact ((dat1 (R3 m) c).arrAt_in 6 rfl _).trans ((A_eq1 (R3 m) c 6).trans ((congrFun (V3_eq m c).symm _).trans (V4_of m (outs m) c _ (by decide)).symm))
  · exact ((dat1 (R3 m) c).arrAt_in 7 rfl _).trans ((A_eq1 (R3 m) c 7).trans ((congrFun (V3_eq m c).symm _).trans (V4_of m (outs m) c _ (by decide)).symm))
  · exact (X4_arr m c 8).symm.trans (X4_out m c _ (by decide)).symm
  · exact (X4_arr m c 9).symm.trans (X4_out m c _ (by decide)).symm

theorem hrest1 (c : Dev nD) : ∀ b, b ∉ Finset.univ.image (Pipeline.arrRef spec1) → R4 m c b = R3 m c b :=
  fun b hb => (V4_of m (outs m) c b fun hm => hb (by
    simp only [List.mem_cons, List.mem_nil_iff, or_false] at hm
    rcases hm with rfl | rfl
    · exact Finset.mem_image.mpr ⟨8, Finset.mem_univ _, rfl⟩
    · exact Finset.mem_image.mpr ⟨9, Finset.mem_univ _, rfl⟩)).trans (congrFun (V3_eq m c) _)

set_option backward.isDefEq.respectTransparency.types false in

def reg1 : Pipeline.RegionSeg (pcfgs (F := F)) adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (R3 m) c).loose
  hwaits := Pipeline.hwaits_of_owed_zero _ _ _ _ LL lvl 1 fun _ _ => rfl
  pre c := iprop(StableHlo.held (c : Thread nD τ) (Pipeline.ucRefs τ sig) (U3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun w => A_eq1 (R3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X6_arr (c : Dev nD) (w : Fin cfg2.W) :
    X6 m c (Proc.devRef .tc (Pipeline.arrRef spec2 w)) = (dat2 (R5 m) c).arrAt w cfg2.N := by
  unfold X6; exact Pipeline.withArrays_arr spec2 launch2.win.arr_inj c _ _ w

theorem X6_out (c : Dev nD) (r : Ref sig .tc) (h : r ∈ ([main_v76_0, main_v76_1] : List (Ref sig .tc))) :
    R6 m c r = X6 m c (Proc.devRef .tc r) := by
  simp only [List.mem_cons, List.mem_nil_iff, or_false] at h
  rcases h with rfl | rfl
  · show (Function.update (Function.update (V5 m (outs m) c) main_v76_0 (outs m 6 main_v76_0 c)) main_v76_1 (outs m 6 main_v76_1 c)) (Proc.devRef .tc main_v76_0) = _
    rw [Function.update_of_ne (StableHlo.devRef_ne_of_ne (by decide : (main_v76_0 : Ref sig .tc) ≠ main_v76_1) : (Proc.devRef .tc main_v76_0 : DevRef τ sig) ≠ Proc.devRef .tc main_v76_1), Function.update_self]
    rfl
  · show (Function.update (Function.update (V5 m (outs m) c) main_v76_0 (outs m 6 main_v76_0 c)) main_v76_1 (outs m 6 main_v76_1 c)) (Proc.devRef .tc main_v76_1) = _
    rw [Function.update_self]
    rfl
set_option maxHeartbeats 2000000 in
theorem hF2 (c : Dev nD) (w : Fin cfg2.W) : (dat2 (R5 m) c).arrAt w cfg2.N = R6 m c (Pipeline.arrRef spec2 w) := by
  fin_cases w
  · exact ((dat2 (R5 m) c).arrAt_in 0 rfl _).trans ((A_eq2 (R5 m) c 0).trans ((congrFun (V5_eq m c).symm _).trans (V6_of m (outs m) c _ (by decide)).symm))
  · exact ((dat2 (R5 m) c).arrAt_in 1 rfl _).trans ((A_eq2 (R5 m) c 1).trans ((congrFun (V5_eq m c).symm _).trans (V6_of m (outs m) c _ (by decide)).symm))
  · exact ((dat2 (R5 m) c).arrAt_in 2 rfl _).trans ((A_eq2 (R5 m) c 2).trans ((congrFun (V5_eq m c).symm _).trans (V6_of m (outs m) c _ (by decide)).symm))
  · exact ((dat2 (R5 m) c).arrAt_in 3 rfl _).trans ((A_eq2 (R5 m) c 3).trans ((congrFun (V5_eq m c).symm _).trans (V6_of m (outs m) c _ (by decide)).symm))
  · exact ((dat2 (R5 m) c).arrAt_in 4 rfl _).trans ((A_eq2 (R5 m) c 4).trans ((congrFun (V5_eq m c).symm _).trans (V6_of m (outs m) c _ (by decide)).symm))
  · exact ((dat2 (R5 m) c).arrAt_in 5 rfl _).trans ((A_eq2 (R5 m) c 5).trans ((congrFun (V5_eq m c).symm _).trans (V6_of m (outs m) c _ (by decide)).symm))
  · exact ((dat2 (R5 m) c).arrAt_in 6 rfl _).trans ((A_eq2 (R5 m) c 6).trans ((congrFun (V5_eq m c).symm _).trans (V6_of m (outs m) c _ (by decide)).symm))
  · exact ((dat2 (R5 m) c).arrAt_in 7 rfl _).trans ((A_eq2 (R5 m) c 7).trans ((congrFun (V5_eq m c).symm _).trans (V6_of m (outs m) c _ (by decide)).symm))
  · exact ((dat2 (R5 m) c).arrAt_in 8 rfl _).trans ((A_eq2 (R5 m) c 8).trans ((congrFun (V5_eq m c).symm _).trans (V6_of m (outs m) c _ (by decide)).symm))
  · exact ((dat2 (R5 m) c).arrAt_in 9 rfl _).trans ((A_eq2 (R5 m) c 9).trans ((congrFun (V5_eq m c).symm _).trans (V6_of m (outs m) c _ (by decide)).symm))
  · exact (X6_arr m c 10).symm.trans (X6_out m c _ (by decide)).symm
  · exact (X6_arr m c 11).symm.trans (X6_out m c _ (by decide)).symm

theorem hrest2 (c : Dev nD) : ∀ b, b ∉ Finset.univ.image (Pipeline.arrRef spec2) → R6 m c b = R5 m c b :=
  fun b hb => (V6_of m (outs m) c b fun hm => hb (by
    simp only [List.mem_cons, List.mem_nil_iff, or_false] at hm
    rcases hm with rfl | rfl
    · exact Finset.mem_image.mpr ⟨10, Finset.mem_univ _, rfl⟩
    · exact Finset.mem_image.mpr ⟨11, Finset.mem_univ _, rfl⟩)).trans (congrFun (V5_eq m c) _)

set_option backward.isDefEq.respectTransparency.types false in

def reg2 : Pipeline.RegionSeg (pcfgs (F := F)) adm (pdats m) () defs₀ Variants.none LL lvl 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ LL lvl 2 fun _ _ => rfl
  pre c := iprop(StableHlo.held (c : Thread nD τ) (Pipeline.ucRefs τ sig) (U5 m c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun w => A_eq2 (R5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem X8_arr (c : Dev nD) (w : Fin cfg3.W) :
    X8 m c (Proc.devRef .tc (Pipeline.arrRef spec3 w)) = (dat3 (R7 m) c).arrAt w cfg3.N := by
  unfold X8; exact Pipeline.withArrays_arr spec3 launch3.win.arr_inj c _ _ w

theorem X8_out (c : Dev nD) (r : Ref sig .tc) (h : r ∈ ([main_v101] : List (Ref sig .tc))) :
    R8 m c r = X8 m c (Proc.devRef .tc r) := by
  simp only [List.mem_cons, List.mem_nil_iff, or_false] at h
  rcases h with rfl
  · show (Function.update (V7 m (outs m) c) main_v101 (outs m 8 main_v101 c)) (Proc.devRef .tc main_v101) = _
    rw [Function.update_self]
    rfl
set_option maxHeartbeats 2000000 in
theorem hF3 (c : Dev nD) (w : Fin cfg3.W) : (dat3 (R7 m) c).arrAt w cfg3.N = R8 m c (Pipeline.arrRef spec3 w) := by
  fin_cases w
  · exact ((dat3 (R7 m) c).arrAt_in 0 rfl _).trans ((A_eq3 (R7 m) c 0).trans ((congrFun (V7_eq m c).symm _).trans (V8_of m (outs m) c _ (by decide)).symm))
  · exact ((dat3 (R7 m) c).arrAt_in 1 rfl _).trans ((A_eq3 (R7 m) c 1).trans ((congrFun (V7_eq m c).symm _).trans (V8_of m (outs m) c _ (by decide)).symm))
  · exact ((dat3 (R7 m) c).arrAt_in 2 rfl _).trans ((A_eq3 (R7 m) c 2).trans ((congrFun (V7_eq m c).symm _).trans (V8_of m (outs m) c _ (by decide)).symm))
  · exact ((dat3 (R7 m) c).arrAt_in 3 rfl _).trans ((A_eq3 (R7 m) c 3).trans ((congrFun (V7_eq m c).symm _).trans (V8_of m (outs m) c _ (by decide)).symm))
  · exact ((dat3 (R7 m) c).arrAt_in 4 rfl _).trans ((A_eq3 (R7 m) c 4).trans ((congrFun (V7_eq m c).symm _).trans (V8_of m (outs m) c _ (by decide)).symm))
  · exact ((dat3 (R7 m) c).arrAt_in 5 rfl _).trans ((A_eq3 (R7 m) c 5).trans ((congrFun (V7_eq m c).symm _).trans (V8_of m (outs m) c _ (by decide)).symm))
  · exact ((dat3 (R7 m) c).arrAt_in 6 rfl _).trans ((A_eq3 (R7 m) c 6).trans ((congrFun (V7_eq m c).symm _).trans (V8_of m (outs m) c _ (by decide)).symm))
  · exact ((dat3 (R7 m) c).arrAt_in 7 rfl _).trans ((A_eq3 (R7 m) c 7).trans ((congrFun (V7_eq m c).symm _).trans (V8_of m (outs m) c _ (by decide)).symm))
  · exact ((dat3 (R7 m) c).arrAt_in 8 rfl _).trans ((A_eq3 (R7 m) c 8).trans ((congrFun (V7_eq m c).symm _).trans (V8_of m (outs m) c _ (by decide)).symm))
  · exact ((dat3 (R7 m) c).arrAt_in 9 rfl _).trans ((A_eq3 (R7 m) c 9).trans ((congrFun (V7_eq m c).symm _).trans (V8_of m (outs m) c _ (by decide)).symm))
  · exact ((dat3 (R7 m) c).arrAt_in 10 rfl _).trans ((A_eq3 (R7 m) c 10).trans ((congrFun (V7_eq m c).symm _).trans (V8_of m (outs m) c _ (by decide)).symm))
  · exact ((dat3 (R7 m) c).arrAt_in 11 rfl _).trans ((A_eq3 (R7 m) c 11).trans ((congrFun (V7_eq m c).symm _).trans (V8_of m (outs m) c _ (by decide)).symm))
  · exact (X8_arr m c 12).symm.trans (X8_out m c _ (by decide)).symm

theorem hrest3 (c : Dev nD) : ∀ b, b ∉ Finset.univ.image (Pipeline.arrRef spec3) → R8 m c b = R7 m c b :=
  fun b hb => (V8_of m (outs m) c b fun hm => hb (by
    simp only [List.mem_cons, List.mem_nil_iff, or_false] at hm
    rcases hm with rfl
    · exact Finset.mem_image.mpr ⟨12, Finset.mem_univ _, rfl⟩)).trans (congrFun (V7_eq m c) _)

set_option backward.isDefEq.respectTransparency.types false in

def reg3 : Pipeline.RegionSeg (pcfgs (F := F)) adm (pdats m) () defs₀ Variants.none LL lvl 3 where
  win := launch3.win.to₀
  block_pos := launch3.block_pos
  stage_whole := launch3.stage_whole
  K := PEmpty
  osem k := k.elim
  ho := Pipeline.OwnSemFacts.none _
  hbody c := (body_obligation3 (R7 m) c).loose
  hwaits := Pipeline.hwaits_of_owed_zero _ _ _ _ LL lvl 3 fun _ _ => rfl
  pre c := iprop(StableHlo.held (c : Thread nD τ) (Pipeline.ucRefs τ sig) (U7 m c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m c) fun w => A_eq3 (R7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m c) (R8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V9 m (outs m) c b) :=
  run_cond m (Ix := Unit) (U := UR sig nD τ) (Lvl := ℕ) emb₁ () Variants.none LL lvl (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (Pipeline.initEach LL lvl fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V3_eq]; exact .rfl) (fun _ => .rfl)
    (reg2 m) (fun c => by rw [V5_eq]; exact .rfl) (fun _ => .rfl)
    (reg3 m) (fun c => by rw [V7_eq]; exact .rfl) (fun _ => .rfl)

end Cert.KernelIdeal.Hand

end
-- ==== Proof.KFrame.lean ====
import proofs.«412578_j66537633349983_3_alg».proof.Proof.KRun

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ) (ρ : Dev nD → PrngReg)

theorem run_value :
    θ_run defs (onTc (τ := τ) (main (F := F))) ⟨m, fun _ => 0, ρ⟩ (fun r => ∀ c : Dev nD,
      r.2.mem ((c.tc : Thread nD τ).loc main_v102) = V9 m (outs m) c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨(h c (Proc.devRef .tc main_v102) (Finset.mem_filter.mpr ⟨StableHlo.devRef_mem_tcRefs main_v102, by decide⟩)),
      (h c (Proc.devRef .tc main_arg0) (Finset.mem_filter.mpr ⟨StableHlo.devRef_mem_tcRefs main_arg0, by decide⟩)).trans (V9_main_arg0 m (outs m) c),
      (h c (Proc.devRef .tc main_arg1) (Finset.mem_filter.mpr ⟨StableHlo.devRef_mem_tcRefs main_arg1, by decide⟩)).trans (V9_main_arg1 m (outs m) c),
      (h c (Proc.devRef .tc main_arg2) (Finset.mem_filter.mpr ⟨StableHlo.devRef_mem_tcRefs main_arg2, by decide⟩)).trans (V9_main_arg2 m (outs m) c),
      (h c (Proc.devRef .tc main_arg3) (Finset.mem_filter.mpr ⟨StableHlo.devRef_mem_tcRefs main_arg3, by decide⟩)).trans (V9_main_arg3 m (outs m) c),
      (h c (Proc.devRef .tc main_arg4) (Finset.mem_filter.mpr ⟨StableHlo.devRef_mem_tcRefs main_arg4, by decide⟩)).trans (V9_main_arg4 m (outs m) c),
      (h c (Proc.devRef .tc main_arg5) (Finset.mem_filter.mpr ⟨StableHlo.devRef_mem_tcRefs main_arg5, by decide⟩)).trans (V9_main_arg5 m (outs m) c),
      (h c (Proc.devRef .tc main_arg6) (Finset.mem_filter.mpr ⟨StableHlo.devRef_mem_tcRefs main_arg6, by decide⟩)).trans (V9_main_arg6 m (outs m) c),
      (h c (Proc.devRef .tc main_arg7) (Finset.mem_filter.mpr ⟨StableHlo.devRef_mem_tcRefs main_arg7, by decide⟩)).trans (V9_main_arg7 m (outs m) c),
      (h c (Proc.devRef .tc main_arg8) (Finset.mem_filter.mpr ⟨StableHlo.devRef_mem_tcRefs main_arg8, by decide⟩)).trans (V9_main_arg8 m (outs m) c),
      (h c (Proc.devRef .tc main_arg9) (Finset.mem_filter.mpr ⟨StableHlo.devRef_mem_tcRefs main_arg9, by decide⟩)).trans (V9_main_arg9 m (outs m) c),
      (h c (Proc.devRef .tc main_arg10) (Finset.mem_filter.mpr ⟨StableHlo.devRef_mem_tcRefs main_arg10, by decide⟩)).trans (V9_main_arg10 m (outs m) c),
      (h c (Proc.devRef .tc main_arg11) (Finset.mem_filter.mpr ⟨StableHlo.devRef_mem_tcRefs main_arg11, by decide⟩)).trans (V9_main_arg11 m (outs m) c),
      (h c (Proc.devRef .tc main_arg12) (Finset.mem_filter.mpr ⟨StableHlo.devRef_mem_tcRefs main_arg12, by decide⟩)).trans (V9_main_arg12 m (outs m) c),
      (h c (Proc.devRef .tc main_arg13) (Finset.mem_filter.mpr ⟨StableHlo.devRef_mem_tcRefs main_arg13, by decide⟩)).trans (V9_main_arg13 m (outs m) c),
      (h c (Proc.devRef .tc main_arg14) (Finset.mem_filter.mpr ⟨StableHlo.devRef_mem_tcRefs main_arg14, by decide⟩)).trans (V9_main_arg14 m (outs m) c),
      (h c (Proc.devRef .tc main_arg15) (Finset.mem_filter.mpr ⟨StableHlo.devRef_mem_tcRefs main_arg15, by decide⟩)).trans (V9_main_arg15 m (outs m) c),
      (h c (Proc.devRef .tc main_arg16) (Finset.mem_filter.mpr ⟨StableHlo.devRef_mem_tcRefs main_arg16, by decide⟩)).trans (V9_main_arg16 m (outs m) c),
      (h c (Proc.devRef .tc main_arg17) (Finset.mem_filter.mpr ⟨StableHlo.devRef_mem_tcRefs main_arg17, by decide⟩)).trans (V9_main_arg17 m (outs m) c),
      (h c (Proc.devRef .tc main_arg18) (Finset.mem_filter.mpr ⟨StableHlo.devRef_mem_tcRefs main_arg18, by decide⟩)).trans (V9_main_arg18 m (outs m) c),
      (h c (Proc.devRef .tc main_arg19) (Finset.mem_filter.mpr ⟨StableHlo.devRef_mem_tcRefs main_arg19, by decide⟩)).trans (V9_main_arg19 m (outs m) c),
      (h c (Proc.devRef .tc main_arg20) (Finset.mem_filter.mpr ⟨StableHlo.devRef_mem_tcRefs main_arg20, by decide⟩)).trans (V9_main_arg20 m (outs m) c),
      (h c (Proc.devRef .tc main_arg21) (Finset.mem_filter.mpr ⟨StableHlo.devRef_mem_tcRefs main_arg21, by decide⟩)).trans (V9_main_arg21 m (outs m) c),
      (h c (Proc.devRef .tc main_arg22) (Finset.mem_filter.mpr ⟨StableHlo.devRef_mem_tcRefs main_arg22, by decide⟩)).trans (V9_main_arg22 m (outs m) c),
      (h c (Proc.devRef .tc main_arg23) (Finset.mem_filter.mpr ⟨StableHlo.devRef_mem_tcRefs main_arg23, by decide⟩)).trans (V9_main_arg23 m (outs m) c),
      (h c (Proc.devRef .tc main_arg24) (Finset.mem_filter.mpr ⟨StableHlo.devRef_mem_tcRefs main_arg24, by decide⟩)).trans (V9_main_arg24 m (outs m) c),
      (h c (Proc.devRef .tc main_arg25) (Finset.mem_filter.mpr ⟨StableHlo.devRef_mem_tcRefs main_arg25, by decide⟩)).trans (V9_main_arg25 m (outs m) c),
      (h c (Proc.devRef .tc main_arg26) (Finset.mem_filter.mpr ⟨StableHlo.devRef_mem_tcRefs main_arg26, by decide⟩)).trans (V9_main_arg26 m (outs m) c),
      (h c (Proc.devRef .tc main_arg27) (Finset.mem_filter.mpr ⟨StableHlo.devRef_mem_tcRefs main_arg27, by decide⟩)).trans (V9_main_arg27 m (outs m) c),
      (h c (Proc.devRef .tc main_arg28) (Finset.mem_filter.mpr ⟨StableHlo.devRef_mem_tcRefs main_arg28, by decide⟩)).trans (V9_main_arg28 m (outs m) c),
      (h c (Proc.devRef .tc main_arg29) (Finset.mem_filter.mpr ⟨StableHlo.devRef_mem_tcRefs main_arg29, by decide⟩)).trans (V9_main_arg29 m (outs m) c)⟩) (run_all m ρ)

end Cert.KernelIdeal.Hand

end
-- ==== Proof.KernelText.lean ====
import proofs.«412578_j66537633349983_3_alg».proof.Defs
import proofs.«412578_j66537633349983_3_alg».proof.Proof.Gen.Kernel
import proofs.«412578_j66537633349983_3_alg».proof.Proof.Gen.Pre_finite_inputs
import proofs.«412578_j66537633349983_3_alg».proof.Proof.KFrame
import Idealize.ShloMosaic.PureOps.BitExact

noncomputable section

namespace Cert.Kernel.Hand

open Idealize.ShloMosaic Idealize.ShloMosaic.TcCoe Idealize.SL.Sem

-- With every named constant read as its literal, the idealized text is the printed kernel.
@[instance_reducible] def namedAsLiteral {F : FTy → Type} [FloatOps F] : Named F := ⟨fun _ _ {φ} b => Scalar.ofBits φ b⟩

attribute [local instance] namedAsLiteral

set_option maxHeartbeats 4000000 in
set_option maxRecDepth 65536 in
theorem main_eq : Cert.Kernel.main (F := Bits) = Cert.KernelIdeal.main (F := Bits) := rfl

set_option maxHeartbeats 4000000 in
set_option maxRecDepth 65536 in
theorem defs_eq : Cert.Kernel.defs (F := Bits) = Cert.KernelIdeal.defs (F := Bits) := by
  have h : Cert.Kernel.defs₀ (F := Bits) = Cert.KernelIdeal.defs₀ (F := Bits) := by
    unfold Cert.Kernel.defs₀ Cert.KernelIdeal.defs₀
    refine congrArg Defs.onTc (funext fun l => funext fun a => ?_)
    match l, a with
    | 0, (t, s) => rfl
    | 1, (t, s) => rfl
    | 2, (t, s) => rfl
    | 3, (t, s) => rfl
  unfold Cert.Kernel.defs Cert.KernelIdeal.defs
  rw [h]
  rfl

-- So the kernel's frame is the idealized kernel's, which holds at every float model.
set_option maxHeartbeats 4000000 in
set_option maxRecDepth 65536 in
theorem frame_k : Cert.frame_Kernel := fun m ρ _ => by
  rw [main_eq, defs_eq]
  exact (θ_run _ _ _).mono (fun _ h c => (h c).2) (Cert.KernelIdeal.Hand.run_value (F := Bits) m ρ)

end Cert.Kernel.Hand

end
-- ==== Proof.Spec.lean ====
import Idealize.ShloMosaic.PureOps.Ideal

noncomputable section

namespace Cert.Spec

open Idealize.ShloMosaic

abbrev NB : Nat := 1048576

def oh (w : BitVec 32) (c : Nat) : EReal := if w = BitVec.ofNat 32 c then 1 else 0

def dec (C : Nat) [NeZero C] (w : BitVec 32) : Fin C := ⟨w.toNat % C, Nat.mod_lt _ (Nat.pos_of_ne_zero (NeZero.ne C))⟩

def embK {C : Nat} (tab : Fin C → Fin 8 → EReal) (w : BitVec 32) (e : Fin 8) : EReal :=
  ∑ c : Fin C, tab c e * oh w c.val

structure Inp where
  breed1 : Fin NB → BitVec 32
  size1 : Fin NB → BitVec 32
  energy1 : Fin NB → BitVec 32
  temp1 : Fin NB → BitVec 32
  age1 : Fin NB → EReal
  social1 : Fin NB → EReal
  weight1 : Fin NB → EReal
  breed2 : Fin NB → BitVec 32
  size2 : Fin NB → BitVec 32
  energy2 : Fin NB → BitVec 32
  temp2 : Fin NB → BitVec 32
  age2 : Fin NB → EReal
  social2 : Fin NB → EReal
  weight2 : Fin NB → EReal
  bemb : Fin 15 → Fin 8 → EReal
  temb : Fin 9 → Fin 8 → EReal
  W1 : Fin 50 → Fin 128 → EReal
  b1 : Fin 128 → EReal
  g1 : Fin 128 → EReal
  bt1 : Fin 128 → EReal
  W2 : Fin 128 → Fin 64 → EReal
  b2 : Fin 64 → EReal
  g2 : Fin 64 → EReal
  bt2 : Fin 64 → EReal
  W3 : Fin 64 → Fin 32 → EReal
  b3 : Fin 32 → EReal
  g3 : Fin 32 → EReal
  bt3 : Fin 32 → EReal
  W4 : Fin 32 → EReal
  b4 : EReal

structure Finite (I : Inp) : Prop where
  age1 : ∀ n, ∃ r : ℝ, I.age1 n = r
  social1 : ∀ n, ∃ r : ℝ, I.social1 n = r
  weight1 : ∀ n, ∃ r : ℝ, I.weight1 n = r
  age2 : ∀ n, ∃ r : ℝ, I.age2 n = r
  social2 : ∀ n, ∃ r : ℝ, I.social2 n = r
  weight2 : ∀ n, ∃ r : ℝ, I.weight2 n = r
  bemb : ∀ c e, ∃ r : ℝ, I.bemb c e = r
  temb : ∀ c e, ∃ r : ℝ, I.temb c e = r
  W1 : ∀ k j, ∃ r : ℝ, I.W1 k j = r
  b1 : ∀ j, ∃ r : ℝ, I.b1 j = r
  g1 : ∀ j, ∃ r : ℝ, I.g1 j = r
  bt1 : ∀ j, ∃ r : ℝ, I.bt1 j = r
  W2 : ∀ k j, ∃ r : ℝ, I.W2 k j = r
  b2 : ∀ j, ∃ r : ℝ, I.b2 j = r
  g2 : ∀ j, ∃ r : ℝ, I.g2 j = r
  bt2 : ∀ j, ∃ r : ℝ, I.bt2 j = r
  W3 : ∀ k j, ∃ r : ℝ, I.W3 k j = r
  b3 : ∀ j, ∃ r : ℝ, I.b3 j = r
  g3 : ∀ j, ∃ r : ℝ, I.g3 j = r
  bt3 : ∀ j, ∃ r : ℝ, I.bt3 j = r
  W4 : ∀ k, ∃ r : ℝ, I.W4 k = r
  b4 : ∃ r : ℝ, I.b4 = r

structure Range (I : Inp) : Prop where
  breed1 : ∀ n, (I.breed1 n).toNat < 15
  temp1 : ∀ n, (I.temp1 n).toNat < 9
  breed2 : ∀ n, (I.breed2 n).toNat < 15
  temp2 : ∀ n, (I.temp2 n).toNat < 9

def c15 : EReal := ((15 : ℝ) : EReal)
def c100 : EReal := ((100 : ℝ) : EReal)
def inv15 : EReal := ((1 / 15 : ℝ) : EReal)
def inv100 : EReal := ((1 / 100 : ℝ) : EReal)

def petR (bemb : Fin 15 → Fin 8 → EReal) (temb : Fin 9 → Fin 8 → EReal)
    (breed size energy temp : BitVec 32) (age social weight : EReal) (j : Fin 25) : EReal :=
  if h : j.val < 8 then bemb (dec 15 breed) ⟨j.val, h⟩
  else if j.val < 11 then oh size (j.val - 8)
  else if j.val < 14 then oh energy (j.val - 11)
  else if h : j.val < 22 then temb (dec 9 temp) ⟨j.val - 14, by omega⟩
  else if j.val = 22 then Ideal.div age c15
  else if j.val = 23 then social
  else Ideal.div weight c100

def petK (bemb : Fin 15 → Fin 8 → EReal) (temb : Fin 9 → Fin 8 → EReal)
    (breed size energy temp : BitVec 32) (age social weight : EReal) (j : Fin 25) : EReal :=
  if h : j.val < 8 then embK bemb breed ⟨j.val, h⟩
  else if j.val < 11 then oh size (j.val - 8)
  else if j.val < 14 then oh energy (j.val - 11)
  else if h : j.val < 22 then embK temb temp ⟨j.val - 14, by omega⟩
  else if j.val = 22 then age * inv15
  else if j.val = 23 then social
  else weight * inv100

def XR (I : Inp) (n : Fin NB) (k : Fin 50) : EReal :=
  if h : k.val < 25 then petR I.bemb I.temb (I.breed1 n) (I.size1 n) (I.energy1 n) (I.temp1 n) (I.age1 n) (I.social1 n) (I.weight1 n) ⟨k.val, h⟩
  else petR I.bemb I.temb (I.breed2 n) (I.size2 n) (I.energy2 n) (I.temp2 n) (I.age2 n) (I.social2 n) (I.weight2 n) ⟨k.val - 25, by omega⟩

def XK (I : Inp) (n : Fin NB) (k : Fin 50) : EReal :=
  if h : k.val < 25 then petK I.bemb I.temb (I.breed1 n) (I.size1 n) (I.energy1 n) (I.temp1 n) (I.age1 n) (I.social1 n) (I.weight1 n) ⟨k.val, h⟩
  else petK I.bemb I.temb (I.breed2 n) (I.size2 n) (I.energy2 n) (I.temp2 n) (I.age2 n) (I.social2 n) (I.weight2 n) ⟨k.val - 25, by omega⟩

section Layer

variable {ι : Type} [Fintype ι] {K J : Nat}

variable (cnt eps : EReal)

def preR (x : ι → Fin K → EReal) (W : Fin K → Fin J → EReal) (b : Fin J → EReal) (n : ι) (j : Fin J) : EReal :=
  (∑ k : Fin K, x n k * W k j) + b j

def preK (x : ι → Fin K → EReal) (W : Fin K → Fin J → EReal) (b : Fin J → EReal) (n : ι) (j : Fin J) : EReal :=
  (∑ k : Fin K, W k j * x n k) + b j

def muR (h : ι → Fin J → EReal) (j : Fin J) : EReal := Ideal.div (∑ n : ι, h n j) cnt

def varR (h : ι → Fin J → EReal) (j : Fin J) : EReal :=
  Ideal.div (∑ n : ι, (h n j - muR cnt h j) * (h n j - muR cnt h j)) cnt

def actR (h : ι → Fin J → EReal) (g bt : Fin J → EReal) (n : ι) (j : Fin J) : EReal :=
  max (((h n j - muR cnt h j) * Ideal.rsqrt (varR cnt h j + eps)) * g j + bt j) 0

def sumK (h : ι → Fin J → EReal) (j : Fin J) : EReal := ∑ n : ι, h n j
def sqK (h : ι → Fin J → EReal) (b : Fin J → EReal) (j : Fin J) : EReal := ∑ n : ι, (h n j - b j) * (h n j - b j)

def meanK (s : Fin J → EReal) (j : Fin J) : EReal := Ideal.div (s j) cnt
def varK (s q b : Fin J → EReal) (j : Fin J) : EReal :=
  max (Ideal.div (q j) cnt - (meanK cnt s j - b j) * (meanK cnt s j - b j)) 0
def scaleK (s q b g : Fin J → EReal) (j : Fin J) : EReal := g j * Ideal.rsqrt (varK cnt s q b j + eps)
def shiftK (s q b g bt : Fin J → EReal) (j : Fin J) : EReal := bt j - meanK cnt s j * scaleK cnt eps s q b g j

def WeK (W : Fin K → Fin J → EReal) (s q b g : Fin J → EReal) (k : Fin K) (j : Fin J) : EReal :=
  W k j * scaleK cnt eps s q b g j
def beK (s q b g bt : Fin J → EReal) (j : Fin J) : EReal :=
  b j * scaleK cnt eps s q b g j + shiftK cnt eps s q b g bt j

def actK (x : ι → Fin K → EReal) (We : Fin K → Fin J → EReal) (be : Fin J → EReal) (n : ι) (j : Fin J) : EReal :=
  max (preK x We be n j) 0

end Layer

def cntE : EReal := ((1048576 : ℝ) : EReal)
def epsE : EReal := Ideal.ofBits .f32 0x3727C5AC#32

def h1R (I : Inp) : Fin NB → Fin 128 → EReal := preR (XR I) I.W1 I.b1
def a1R (I : Inp) : Fin NB → Fin 128 → EReal := actR cntE epsE (h1R I) I.g1 I.bt1
def h2R (I : Inp) : Fin NB → Fin 64 → EReal := preR (a1R I) I.W2 I.b2
def a2R (I : Inp) : Fin NB → Fin 64 → EReal := actR cntE epsE (h2R I) I.g2 I.bt2
def h3R (I : Inp) : Fin NB → Fin 32 → EReal := preR (a2R I) I.W3 I.b3
def a3R (I : Inp) : Fin NB → Fin 32 → EReal := actR cntE epsE (h3R I) I.g3 I.bt3

def outR (I : Inp) (n : Fin NB) : EReal := Ideal.logistic ((∑ k : Fin 32, a3R I n k * I.W4 k) + I.b4)

def h1K (I : Inp) : Fin NB → Fin 128 → EReal := preK (XK I) I.W1 I.b1
def s1K (I : Inp) : Fin 128 → EReal := sumK (h1K I)
def q1K (I : Inp) : Fin 128 → EReal := sqK (h1K I) I.b1
def W1e (I : Inp) : Fin 50 → Fin 128 → EReal := WeK cntE epsE I.W1 (s1K I) (q1K I) I.b1 I.g1
def b1e (I : Inp) : Fin 128 → EReal := beK cntE epsE (s1K I) (q1K I) I.b1 I.g1 I.bt1
def a1K (I : Inp) : Fin NB → Fin 128 → EReal := actK (XK I) (W1e I) (b1e I)
def h2K (I : Inp) : Fin NB → Fin 64 → EReal := preK (a1K I) I.W2 I.b2
def s2K (I : Inp) : Fin 64 → EReal := sumK (h2K I)
def q2K (I : Inp) : Fin 64 → EReal := sqK (h2K I) I.b2
def W2e (I : Inp) : Fin 128 → Fin 64 → EReal := WeK cntE epsE I.W2 (s2K I) (q2K I) I.b2 I.g2
def b2e (I : Inp) : Fin 64 → EReal := beK cntE epsE (s2K I) (q2K I) I.b2 I.g2 I.bt2
def a2K (I : Inp) : Fin NB → Fin 64 → EReal := actK (a1K I) (W2e I) (b2e I)
def h3K (I : Inp) : Fin NB → Fin 32 → EReal := preK (a2K I) I.W3 I.b3
def s3K (I : Inp) : Fin 32 → EReal := sumK (h3K I)
def q3K (I : Inp) : Fin 32 → EReal := sqK (h3K I) I.b3
def W3e (I : Inp) : Fin 64 → Fin 32 → EReal := WeK cntE epsE I.W3 (s3K I) (q3K I) I.b3 I.g3
def b3e (I : Inp) : Fin 32 → EReal := beK cntE epsE (s3K I) (q3K I) I.b3 I.g3 I.bt3
def a3K (I : Inp) : Fin NB → Fin 32 → EReal := actK (a2K I) (W3e I) (b3e I)

def outK (I : Inp) (n : Fin NB) : EReal := Ideal.logistic ((∑ k : Fin 32, I.W4 k * a3K I n k) + I.b4)

end Cert.Spec

end
-- ==== Proof.Arrays.lean ====
import proofs.«412578_j66537633349983_3_alg».proof.Proof.Spec
import Idealize.ShloMosaic.Lib.ValueIdx

noncomputable section

namespace Cert.Spec

open Idealize.ShloMosaic Idealize.ShloMosaic.ValueIdx

abbrev Sh1 (n : Nat) : Shape := ⟨1, ![n]⟩
abbrev Sh2 (a b : Nat) : Shape := ⟨2, ![a, b]⟩

structure Arrays where
  breed1 : IVec (Sh1 1048576) 32
  size1 : IVec (Sh1 1048576) 32
  energy1 : IVec (Sh1 1048576) 32
  temp1 : IVec (Sh1 1048576) 32
  age1 : FVec Ideal (Sh1 1048576) .f32
  social1 : FVec Ideal (Sh1 1048576) .f32
  weight1 : FVec Ideal (Sh1 1048576) .f32
  breed2 : IVec (Sh1 1048576) 32
  size2 : IVec (Sh1 1048576) 32
  energy2 : IVec (Sh1 1048576) 32
  temp2 : IVec (Sh1 1048576) 32
  age2 : FVec Ideal (Sh1 1048576) .f32
  social2 : FVec Ideal (Sh1 1048576) .f32
  weight2 : FVec Ideal (Sh1 1048576) .f32
  bemb : FVec Ideal (Sh2 15 8) .f32
  temb : FVec Ideal (Sh2 9 8) .f32
  W1 : FVec Ideal (Sh2 50 128) .f32
  b1 : FVec Ideal (Sh1 128) .f32
  g1 : FVec Ideal (Sh1 128) .f32
  bt1 : FVec Ideal (Sh1 128) .f32
  W2 : FVec Ideal (Sh2 128 64) .f32
  b2 : FVec Ideal (Sh1 64) .f32
  g2 : FVec Ideal (Sh1 64) .f32
  bt2 : FVec Ideal (Sh1 64) .f32
  W3 : FVec Ideal (Sh2 64 32) .f32
  b3 : FVec Ideal (Sh1 32) .f32
  g3 : FVec Ideal (Sh1 32) .f32
  bt3 : FVec Ideal (Sh1 32) .f32
  W4 : FVec Ideal (Sh2 32 1) .f32
  b4 : FVec Ideal (Sh1 1) .f32

def inpOf (A : Arrays) : Inp where
  breed1 n := A.breed1 (ix1 n)
  size1 n := A.size1 (ix1 n)
  energy1 n := A.energy1 (ix1 n)
  temp1 n := A.temp1 (ix1 n)
  age1 n := A.age1 (ix1 n)
  social1 n := A.social1 (ix1 n)
  weight1 n := A.weight1 (ix1 n)
  breed2 n := A.breed2 (ix1 n)
  size2 n := A.size2 (ix1 n)
  energy2 n := A.energy2 (ix1 n)
  temp2 n := A.temp2 (ix1 n)
  age2 n := A.age2 (ix1 n)
  social2 n := A.social2 (ix1 n)
  weight2 n := A.weight2 (ix1 n)
  bemb c e := A.bemb (ix2 c e)
  temb c e := A.temb (ix2 c e)
  W1 k j := A.W1 (ix2 k j)
  b1 j := A.b1 (ix1 j)
  g1 j := A.g1 (ix1 j)
  bt1 j := A.bt1 (ix1 j)
  W2 k j := A.W2 (ix2 k j)
  b2 j := A.b2 (ix1 j)
  g2 j := A.g2 (ix1 j)
  bt2 j := A.bt2 (ix1 j)
  W3 k j := A.W3 (ix2 k j)
  b3 j := A.b3 (ix1 j)
  g3 j := A.g3 (ix1 j)
  bt3 j := A.bt3 (ix1 j)
  W4 k := A.W4 (ix2 k (0 : Fin 1))
  b4 := A.b4 (ix1 (0 : Fin 1))

def resK (A : Arrays) : FVec Ideal (Sh1 1048576) .f32 := fun i => outK (inpOf A) (i 0)

def resR (A : Arrays) : FVec Ideal (Sh1 1048576) .f32 := fun i => outR (inpOf A) (i 0)

end Cert.Spec

end
-- ==== Proof.KArrays.lean ====
import proofs.«412578_j66537633349983_3_alg».proof.KernelIdeal
import proofs.«412578_j66537633349983_3_alg».proof.Proof.Arrays

noncomputable section

namespace Cert.KernelIdeal.Hand

open Cert.KernelIdeal
open Idealize.ShloMosaic Idealize.ShloMosaic.TcCoe Idealize.SL.Sem

def arraysOfK (m : (ℓ : Loc nD τ sig) → Buf (Elt Ideal) ℓ) (c : Dev nD) : Cert.Spec.Arrays where
  breed1 := m ((c.tc : Thread nD τ).loc main_arg0)
  size1 := m ((c.tc : Thread nD τ).loc main_arg1)
  energy1 := m ((c.tc : Thread nD τ).loc main_arg2)
  temp1 := m ((c.tc : Thread nD τ).loc main_arg3)
  age1 := m ((c.tc : Thread nD τ).loc main_arg4)
  social1 := m ((c.tc : Thread nD τ).loc main_arg5)
  weight1 := m ((c.tc : Thread nD τ).loc main_arg6)
  breed2 := m ((c.tc : Thread nD τ).loc main_arg7)
  size2 := m ((c.tc : Thread nD τ).loc main_arg8)
  energy2 := m ((c.tc : Thread nD τ).loc main_arg9)
  temp2 := m ((c.tc : Thread nD τ).loc main_arg10)
  age2 := m ((c.tc : Thread nD τ).loc main_arg11)
  social2 := m ((c.tc : Thread nD τ).loc main_arg12)
  weight2 := m ((c.tc : Thread nD τ).loc main_arg13)
  bemb := m ((c.tc : Thread nD τ).loc main_arg14)
  temb := m ((c.tc : Thread nD τ).loc main_arg15)
  W1 := m ((c.tc : Thread nD τ).loc main_arg16)
  b1 := m ((c.tc : Thread nD τ).loc main_arg17)
  g1 := m ((c.tc : Thread nD τ).loc main_arg18)
  bt1 := m ((c.tc : Thread nD τ).loc main_arg19)
  W2 := m ((c.tc : Thread nD τ).loc main_arg20)
  b2 := m ((c.tc : Thread nD τ).loc main_arg21)
  g2 := m ((c.tc : Thread nD τ).loc main_arg22)
  bt2 := m ((c.tc : Thread nD τ).loc main_arg23)
  W3 := m ((c.tc : Thread nD τ).loc main_arg24)
  b3 := m ((c.tc : Thread nD τ).loc main_arg25)
  g3 := m ((c.tc : Thread nD τ).loc main_arg26)
  bt3 := m ((c.tc : Thread nD τ).loc main_arg27)
  W4 := m ((c.tc : Thread nD τ).loc main_arg28)
  b4 := m ((c.tc : Thread nD τ).loc main_arg29)

end Cert.KernelIdeal.Hand

end
-- ==== Proof.KForm.lean ====
import proofs.«412578_j66537633349983_3_alg».proof.Proof.Arrays

noncomputable section

namespace Cert.Spec

open Idealize.ShloMosaic Idealize.ShloMosaic.ValueIdx

def Xst (ints : IVec (Sh2 8 1048576) 32) (flts : FVec Ideal (Sh2 6 1048576) .f32)
    (bemb : FVec Ideal (Sh2 15 8) .f32) (temb : FVec Ideal (Sh2 9 8) .f32) (n : Fin NB) (k : Fin 50) : EReal :=
  if h : k.val < 25 then
    petK (fun c e => bemb (ix2 c e)) (fun c e => temb (ix2 c e))
      (ints (ix2 (0 : Fin 8) n)) (ints (ix2 (1 : Fin 8) n)) (ints (ix2 (2 : Fin 8) n)) (ints (ix2 (3 : Fin 8) n))
      (flts (ix2 (0 : Fin 6) n)) (flts (ix2 (1 : Fin 6) n)) (flts (ix2 (2 : Fin 6) n)) ⟨k.val, h⟩
  else
    petK (fun c e => bemb (ix2 c e)) (fun c e => temb (ix2 c e))
      (ints (ix2 (4 : Fin 8) n)) (ints (ix2 (5 : Fin 8) n)) (ints (ix2 (6 : Fin 8) n)) (ints (ix2 (7 : Fin 8) n))
      (flts (ix2 (3 : Fin 6) n)) (flts (ix2 (4 : Fin 6) n)) (flts (ix2 (5 : Fin 6) n)) ⟨k.val - 25, by omega⟩

def mat {a b : Nat} (W : FVec Ideal (Sh2 a b) .f32) (k : Fin a) (j : Fin b) : EReal := W (ix2 k j)

def col {a : Nat} (v : FVec Ideal (Sh2 a 1) .f32) (j : Fin a) : EReal := v (ix2 j (0 : Fin 1))

def halfRow (c : Fin 2) (r : Fin 524288) : Fin NB := ⟨c.val * 524288 + r.val, by have := c.isLt; have := r.isLt; show _ < 1048576; omega⟩

def halfSum (c : Fin 2) (f : Fin NB → EReal) : EReal := ∑ r : Fin 524288, f (halfRow c r)

end Cert.Spec

end
-- ==== Proof.MathFeat.lean ====
import proofs.«412578_j66537633349983_3_alg».proof.Proof.Spec

noncomputable section

namespace Cert.Spec

open Idealize.ShloMosaic

theorem dec_eq {C : Nat} [NeZero C] (w : BitVec 32) (hw : w.toNat < C) : dec C w = ⟨w.toNat, hw⟩ := by
  apply Fin.ext
  show w.toNat % C = w.toNat
  exact Nat.mod_eq_of_lt hw

theorem oh_self (w : BitVec 32) : oh w w.toNat = 1 := by
  have h : w = BitVec.ofNat 32 w.toNat := by
    apply BitVec.eq_of_toNat_eq
    rw [BitVec.toNat_ofNat, Nat.mod_eq_of_lt w.isLt]
  unfold oh
  rw [if_pos h]

theorem oh_ne (w : BitVec 32) (c : Nat) (hc : c < 2 ^ 32) (hne : c ≠ w.toNat) : oh w c = 0 := by
  unfold oh
  rw [if_neg]
  intro h
  apply hne
  rw [h, BitVec.toNat_ofNat, Nat.mod_eq_of_lt hc]

theorem oh_real (w : BitVec 32) (c : Nat) : ∃ r : ℝ, oh w c = r := by
  unfold oh
  by_cases h : w = BitVec.ofNat 32 c
  · rw [if_pos h]
    exact ⟨1, EReal.coe_one.symm⟩
  · rw [if_neg h]
    exact ⟨0, EReal.coe_zero.symm⟩

theorem embK_eq {C : Nat} [NeZero C] (hC : C ≤ 2 ^ 32) (tab : Fin C → Fin 8 → EReal) (w : BitVec 32)
    (hw : w.toNat < C) (e : Fin 8) : embK tab w e = tab (dec C w) e := by
  unfold embK
  rw [Finset.sum_eq_single (dec C w)]
  · rw [dec_eq w hw]
    show tab ⟨w.toNat, hw⟩ e * oh w w.toNat = tab ⟨w.toNat, hw⟩ e
    rw [oh_self, mul_one]
  · intro c _ hc
    show tab c e * oh w c.val = 0
    have hne : c.val ≠ w.toNat := by
      intro h
      apply hc
      rw [dec_eq w hw]
      exact Fin.ext h
    rw [oh_ne w c.val (lt_of_lt_of_le c.isLt hC) hne, mul_zero]
  · intro h
    exact absurd (Finset.mem_univ _) h

theorem div_c15 (x : EReal) : Ideal.div x c15 = x * inv15 := by
  unfold c15 inv15
  exact Ideal.div_coe (by norm_num) x

theorem div_c100 (x : EReal) : Ideal.div x c100 = x * inv100 := by
  unfold c100 inv100
  exact Ideal.div_coe (by norm_num) x

theorem mul_coe_real (x : EReal) (hx : ∃ r : ℝ, x = r) (y : ℝ) : ∃ r : ℝ, x * (y : EReal) = r := by
  obtain ⟨a, rfl⟩ := hx
  exact ⟨a * y, (EReal.coe_mul a y).symm⟩

theorem petK_eq_petR (bemb : Fin 15 → Fin 8 → EReal) (temb : Fin 9 → Fin 8 → EReal)
    (breed size energy temp : BitVec 32) (age social weight : EReal)
    (hb : breed.toNat < 15) (ht : temp.toNat < 9) (j : Fin 25) :
    petK bemb temb breed size energy temp age social weight j
      = petR bemb temb breed size energy temp age social weight j := by
  unfold petK petR
  by_cases h1 : j.val < 8
  · rw [dif_pos h1, dif_pos h1]
    exact embK_eq (by norm_num) bemb breed hb _
  · rw [dif_neg h1, dif_neg h1]
    by_cases h2 : j.val < 11
    · rw [if_pos h2, if_pos h2]
    · rw [if_neg h2, if_neg h2]
      by_cases h3 : j.val < 14
      · rw [if_pos h3, if_pos h3]
      · rw [if_neg h3, if_neg h3]
        by_cases h4 : j.val < 22
        · rw [dif_pos h4, dif_pos h4]
          exact embK_eq (by norm_num) temb temp ht _
        · rw [dif_neg h4, dif_neg h4]
          by_cases h5 : j.val = 22
          · rw [if_pos h5, if_pos h5]
            exact (div_c15 age).symm
          · rw [if_neg h5, if_neg h5]
            by_cases h6 : j.val = 23
            · rw [if_pos h6, if_pos h6]
            · rw [if_neg h6, if_neg h6]
              exact (div_c100 weight).symm

theorem petR_real (bemb : Fin 15 → Fin 8 → EReal) (temb : Fin 9 → Fin 8 → EReal)
    (breed size energy temp : BitVec 32) (age social weight : EReal)
    (hbe : ∀ c e, ∃ r : ℝ, bemb c e = r) (hte : ∀ c e, ∃ r : ℝ, temb c e = r)
    (ha : ∃ r : ℝ, age = r) (hs : ∃ r : ℝ, social = r) (hw : ∃ r : ℝ, weight = r) (j : Fin 25) :
    ∃ r : ℝ, petR bemb temb breed size energy temp age social weight j = r := by
  unfold petR
  by_cases h1 : j.val < 8
  · rw [dif_pos h1]
    exact hbe _ _
  · rw [dif_neg h1]
    by_cases h2 : j.val < 11
    · rw [if_pos h2]
      exact oh_real _ _
    · rw [if_neg h2]
      by_cases h3 : j.val < 14
      · rw [if_pos h3]
        exact oh_real _ _
      · rw [if_neg h3]
        by_cases h4 : j.val < 22
        · rw [dif_pos h4]
          exact hte _ _
        · rw [dif_neg h4]
          by_cases h5 : j.val = 22
          · rw [if_pos h5, div_c15]
            exact mul_coe_real age ha _
          · rw [if_neg h5]
            by_cases h6 : j.val = 23
            · rw [if_pos h6]
              exact hs
            · rw [if_neg h6, div_c100]
              exact mul_coe_real weight hw _

theorem XK_eq_XR (I : Inp) (hF : Finite I) (hR : Range I) : XK I = XR I := by
  funext n k
  unfold XK XR
  by_cases h : k.val < 25
  · rw [dif_pos h, dif_pos h]
    exact petK_eq_petR _ _ _ _ _ _ _ _ _ (hR.breed1 n) (hR.temp1 n) _
  · rw [dif_neg h, dif_neg h]
    exact petK_eq_petR _ _ _ _ _ _ _ _ _ (hR.breed2 n) (hR.temp2 n) _

theorem XR_real (I : Inp) (hF : Finite I) (hR : Range I) : ∀ n k, ∃ r : ℝ, XR I n k = r := by
  intro n k
  unfold XR
  by_cases h : k.val < 25
  · rw [dif_pos h]
    exact petR_real _ _ _ _ _ _ _ _ _ hF.bemb hF.temb (hF.age1 n) (hF.social1 n) (hF.weight1 n) _
  · rw [dif_neg h]
    exact petR_real _ _ _ _ _ _ _ _ _ hF.bemb hF.temb (hF.age2 n) (hF.social2 n) (hF.weight2 n) _

end Cert.Spec

end
-- ==== Proof.MathLayer.lean ====
import proofs.«412578_j66537633349983_3_alg».proof.Proof.Spec
import Mathlib.Data.EReal.Operations
import Mathlib.Data.EReal.Inv
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.NormNum

noncomputable section

namespace Cert.Spec

open Idealize.ShloMosaic

theorem coe_sum {α : Type} (s : Finset α) (f : α → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

theorem max_coe_zero (a : ℝ) : max (a : EReal) 0 = ((max a 0 : ℝ) : EReal) := by
  rw [← EReal.coe_zero]
  exact (EReal.coe_strictMono.monotone.map_max).symm

theorem rsqrt_coe_add (v er : ℝ) (hv : 0 ≤ v) (he : 0 < er) :
    Ideal.rsqrt ((v : EReal) + (er : EReal)) = (((Real.sqrt (v + er))⁻¹ : ℝ) : EReal) := by
  have hp : 0 < v + er := add_pos_of_nonneg_of_pos hv he
  rw [← EReal.coe_add, Ideal.rsqrt_coe, if_neg (not_lt.mpr hp.le), if_neg hp.ne']

section Column

variable {ι : Type} [Fintype ι]

def meanRe (c : ℝ) (h : ι → ℝ) : ℝ := (∑ n, h n) * (1 / c)

def varRe (c : ℝ) (h : ι → ℝ) : ℝ := (∑ n, (h n - meanRe c h) * (h n - meanRe c h)) * (1 / c)

def rsRe (c er : ℝ) (h : ι → ℝ) : ℝ := (Real.sqrt (varRe c h + er))⁻¹

theorem varRe_nonneg (c : ℝ) (hpos : 0 < c) (h : ι → ℝ) : 0 ≤ varRe c h :=
  mul_nonneg (Finset.sum_nonneg fun _ _ => mul_self_nonneg _) (one_div_pos.mpr hpos).le

theorem var_shift (c : ℝ) (hc : c = (Fintype.card ι : ℝ)) (hpos : 0 < c) (h : ι → ℝ) (b : ℝ) :
    (∑ n, (h n - b) * (h n - b)) * (1 / c) - ((∑ n, h n) * (1 / c) - b) * ((∑ n, h n) * (1 / c) - b)
      = varRe c h := by
  have hne : c ≠ 0 := hpos.ne'
  have hS : ∑ n, h n = c * meanRe c h := by unfold meanRe; field_simp
  have hexp : ∑ n, (h n - b) * (h n - b)
      = ∑ n, (h n - meanRe c h) * (h n - meanRe c h) + c * ((meanRe c h - b) * (meanRe c h - b)) := by
    have e : ∀ n, (h n - b) * (h n - b)
        = (h n - meanRe c h) * (h n - meanRe c h) + (2 * (meanRe c h - b)) * (h n - meanRe c h)
          + (meanRe c h - b) * (meanRe c h - b) := fun n => by ring
    rw [Finset.sum_congr rfl fun n _ => e n, Finset.sum_add_distrib, Finset.sum_add_distrib, ← Finset.mul_sum,
      Finset.sum_sub_distrib, hS]
    simp only [Finset.sum_const, Finset.card_univ, nsmul_eq_mul, ← hc]
    ring
  rw [hexp]
  change _ - (meanRe c h - b) * (meanRe c h - b) = (∑ n, (h n - meanRe c h) * (h n - meanRe c h)) * (1 / c)
  field_simp
  ring

end Column

section Layer

variable {ι : Type} [Fintype ι] {K J : Nat}

def hRe (xr : ι → Fin K → ℝ) (Wr : Fin K → Fin J → ℝ) (br : Fin J → ℝ) (n : ι) (j : Fin J) : ℝ :=
  (∑ k, Wr k j * xr n k) + br j

theorem preK_coe (xr : ι → Fin K → ℝ) (Wr : Fin K → Fin J → ℝ) (br : Fin J → ℝ) :
    preK (fun n k => ((xr n k : ℝ) : EReal)) (fun k j => ((Wr k j : ℝ) : EReal)) (fun j => ((br j : ℝ) : EReal))
      = fun n j => ((hRe xr Wr br n j : ℝ) : EReal) := by
  funext n j
  simp only [preK, hRe, ← EReal.coe_mul, coe_sum, ← EReal.coe_add]

theorem preR_coe (xr : ι → Fin K → ℝ) (Wr : Fin K → Fin J → ℝ) (br : Fin J → ℝ) :
    preR (fun n k => ((xr n k : ℝ) : EReal)) (fun k j => ((Wr k j : ℝ) : EReal)) (fun j => ((br j : ℝ) : EReal))
      = fun n j => ((hRe xr Wr br n j : ℝ) : EReal) := by
  funext n j
  simp only [preR, hRe, ← EReal.coe_mul, coe_sum, ← EReal.coe_add]
  congr 2
  exact Finset.sum_congr rfl fun k _ => mul_comm _ _

variable (cr er : ℝ) (hr : ι → Fin J → ℝ) (br gr btr : Fin J → ℝ)

theorem sumK_coe (j : Fin J) :
    sumK (fun n j => ((hr n j : ℝ) : EReal)) j = ((∑ n, hr n j : ℝ) : EReal) := by
  simp only [sumK, coe_sum]

theorem sqK_coe (j : Fin J) :
    sqK (fun n j => ((hr n j : ℝ) : EReal)) (fun j => ((br j : ℝ) : EReal)) j
      = ((∑ n, (hr n j - br j) * (hr n j - br j) : ℝ) : EReal) := by
  simp only [sqK, ← EReal.coe_sub, ← EReal.coe_mul, coe_sum]

theorem meanK_coe (hc : cr ≠ 0) (j : Fin J) :
    meanK (cr : EReal) (sumK (fun n j => ((hr n j : ℝ) : EReal))) j
      = ((meanRe cr (fun n => hr n j) : ℝ) : EReal) := by
  rw [meanK, sumK_coe, Ideal.div_coe hc, ← EReal.coe_mul]; rfl

theorem muR_coe (hc : cr ≠ 0) (j : Fin J) :
    muR (cr : EReal) (fun n j => ((hr n j : ℝ) : EReal)) j = ((meanRe cr (fun n => hr n j) : ℝ) : EReal) := by
  simp only [muR, coe_sum]
  rw [Ideal.div_coe hc, ← EReal.coe_mul]; rfl

theorem varR_coe (hc : cr ≠ 0) (j : Fin J) :
    varR (cr : EReal) (fun n j => ((hr n j : ℝ) : EReal)) j = ((varRe cr (fun n => hr n j) : ℝ) : EReal) := by
  simp only [varR, muR_coe cr hr hc, ← EReal.coe_sub, ← EReal.coe_mul, coe_sum]
  rw [Ideal.div_coe hc, ← EReal.coe_mul]; rfl

theorem varK_coe (hcard : cr = (Fintype.card ι : ℝ)) (hpos : 0 < cr) (j : Fin J) :
    varK (cr : EReal) (sumK (fun n j => ((hr n j : ℝ) : EReal)))
        (sqK (fun n j => ((hr n j : ℝ) : EReal)) (fun j => ((br j : ℝ) : EReal))) (fun j => ((br j : ℝ) : EReal)) j
      = ((varRe cr (fun n => hr n j) : ℝ) : EReal) := by
  rw [varK, meanK, sumK_coe, sqK_coe, Ideal.div_coe hpos.ne', Ideal.div_coe hpos.ne', ← EReal.coe_mul,
    ← EReal.coe_mul, ← EReal.coe_sub, ← EReal.coe_mul, ← EReal.coe_sub,
    var_shift cr hcard hpos (fun n => hr n j) (br j),
    max_eq_left (EReal.coe_nonneg.mpr (varRe_nonneg cr hpos _))]

theorem scaleK_coe (hcard : cr = (Fintype.card ι : ℝ)) (hpos : 0 < cr) (hepos : 0 < er) (j : Fin J) :
    scaleK (cr : EReal) (er : EReal) (sumK (fun n j => ((hr n j : ℝ) : EReal)))
        (sqK (fun n j => ((hr n j : ℝ) : EReal)) (fun j => ((br j : ℝ) : EReal))) (fun j => ((br j : ℝ) : EReal))
        (fun j => ((gr j : ℝ) : EReal)) j
      = ((gr j * rsRe cr er (fun n => hr n j) : ℝ) : EReal) := by
  rw [scaleK, varK_coe cr hr br hcard hpos j, rsqrt_coe_add _ _ (varRe_nonneg cr hpos _) hepos, ← EReal.coe_mul]; rfl

theorem shiftK_coe (hcard : cr = (Fintype.card ι : ℝ)) (hpos : 0 < cr) (hepos : 0 < er) (j : Fin J) :
    shiftK (cr : EReal) (er : EReal) (sumK (fun n j => ((hr n j : ℝ) : EReal)))
        (sqK (fun n j => ((hr n j : ℝ) : EReal)) (fun j => ((br j : ℝ) : EReal))) (fun j => ((br j : ℝ) : EReal))
        (fun j => ((gr j : ℝ) : EReal)) (fun j => ((btr j : ℝ) : EReal)) j
      = ((btr j - meanRe cr (fun n => hr n j) * (gr j * rsRe cr er (fun n => hr n j)) : ℝ) : EReal) := by
  rw [shiftK, scaleK_coe cr er hr br gr hcard hpos hepos j, meanK_coe cr hr hpos.ne' j, ← EReal.coe_mul,
    ← EReal.coe_sub]

theorem actR_coe (hpos : 0 < cr) (hepos : 0 < er) (n : ι) (j : Fin J) :
    actR (cr : EReal) (er : EReal) (fun n j => ((hr n j : ℝ) : EReal)) (fun j => ((gr j : ℝ) : EReal))
        (fun j => ((btr j : ℝ) : EReal)) n j
      = ((max (((hr n j - meanRe cr (fun n => hr n j)) * rsRe cr er (fun n => hr n j)) * gr j + btr j) 0 : ℝ)
          : EReal) := by
  simp only [actR]
  rw [muR_coe cr hr hpos.ne' j, varR_coe cr hr hpos.ne' j, rsqrt_coe_add _ _ (varRe_nonneg cr hpos _) hepos,
    ← EReal.coe_sub, ← EReal.coe_mul, ← EReal.coe_mul, ← EReal.coe_add, max_coe_zero]; rfl

theorem actK_coe (xr : ι → Fin K → ℝ) (Wr : Fin K → Fin J → ℝ)
    (hcard : cr = (Fintype.card ι : ℝ)) (hpos : 0 < cr) (hepos : 0 < er) (n : ι) (j : Fin J) :
    actK (fun n k => ((xr n k : ℝ) : EReal))
        (WeK (cr : EReal) (er : EReal) (fun k j => ((Wr k j : ℝ) : EReal)) (sumK (fun n j => ((hr n j : ℝ) : EReal)))
          (sqK (fun n j => ((hr n j : ℝ) : EReal)) (fun j => ((br j : ℝ) : EReal))) (fun j => ((br j : ℝ) : EReal))
          (fun j => ((gr j : ℝ) : EReal)))
        (beK (cr : EReal) (er : EReal) (sumK (fun n j => ((hr n j : ℝ) : EReal)))
          (sqK (fun n j => ((hr n j : ℝ) : EReal)) (fun j => ((br j : ℝ) : EReal))) (fun j => ((br j : ℝ) : EReal))
          (fun j => ((gr j : ℝ) : EReal)) (fun j => ((btr j : ℝ) : EReal))) n j
      = ((max ((∑ k, (Wr k j * (gr j * rsRe cr er (fun n => hr n j))) * xr n k)
            + (br j * (gr j * rsRe cr er (fun n => hr n j))
              + (btr j - meanRe cr (fun n => hr n j) * (gr j * rsRe cr er (fun n => hr n j))))) 0 : ℝ) : EReal) := by
  simp only [actK, preK, WeK, beK, scaleK_coe cr er hr br gr hcard hpos hepos j,
    shiftK_coe cr er hr br gr btr hcard hpos hepos j, ← EReal.coe_mul, ← EReal.coe_add, coe_sum, max_coe_zero]

end Layer

theorem layer_fold {ι : Type} [Fintype ι] {K J : Nat} (cnt eps : EReal) (cr er : ℝ) (hcnt : cnt = (cr : EReal)) (hcard : cr = (Fintype.card ι : ℝ)) (hcpos : 0 < cr) (heps : eps = (er : EReal)) (hepos : 0 < er)
    (x : ι → Fin K → EReal) (W : Fin K → Fin J → EReal) (b g bt : Fin J → EReal)
    (hx : ∀ n k, ∃ r : ℝ, x n k = r) (hW : ∀ k j, ∃ r : ℝ, W k j = r) (hb : ∀ j, ∃ r : ℝ, b j = r) (hg : ∀ j, ∃ r : ℝ, g j = r) (hbt : ∀ j, ∃ r : ℝ, bt j = r) :
    actK x (WeK cnt eps W (sumK (preK x W b)) (sqK (preK x W b) b) b g) (beK cnt eps (sumK (preK x W b)) (sqK (preK x W b) b) b g bt) = actR cnt eps (preR x W b) g bt
    ∧ ∀ n j, ∃ r : ℝ, actR cnt eps (preR x W b) g bt n j = r := by
  subst hcnt heps
  choose xr hxr using hx
  choose Wr hWr using hW
  choose br hbr using hb
  choose gr hgr using hg
  choose btr hbtr using hbt
  obtain rfl : x = fun n k => ((xr n k : ℝ) : EReal) := funext fun n => funext fun k => hxr n k
  obtain rfl : W = fun k j => ((Wr k j : ℝ) : EReal) := funext fun k => funext fun j => hWr k j
  obtain rfl : b = fun j => ((br j : ℝ) : EReal) := funext hbr
  obtain rfl : g = fun j => ((gr j : ℝ) : EReal) := funext hgr
  obtain rfl : bt = fun j => ((btr j : ℝ) : EReal) := funext hbtr
  rw [preK_coe, preR_coe]
  refine ⟨?_, fun n j => ⟨_, actR_coe cr er _ gr btr hcpos hepos n j⟩⟩
  funext n j
  rw [actK_coe cr er (hRe xr Wr br) br gr btr xr Wr hcard hcpos hepos n j,
    actR_coe cr er (hRe xr Wr br) gr btr hcpos hepos n j]
  congr 2
  have hs : ∑ k, (Wr k j * (gr j * rsRe cr er (fun n => hRe xr Wr br n j))) * xr n k
      = (∑ k, Wr k j * xr n k) * (gr j * rsRe cr er (fun n => hRe xr Wr br n j)) := by
    rw [Finset.sum_mul]
    exact Finset.sum_congr rfl fun k _ => by ring
  rw [hs]
  simp only [hRe]
  ring

theorem cntE_eq : cntE = ((1048576 : ℝ) : EReal) := rfl

theorem epsE_pos : ∃ er : ℝ, epsE = (er : EReal) ∧ 0 < er := by
  refine ⟨(10995116 : ℝ) / 1099511627776, ?_, by norm_num⟩
  simp [epsE, Ideal.ofBits, Ideal.ieee, -EReal.coe_mul]; norm_num

end Cert.Spec

end
-- ==== Proof.MathModel.lean ====
import proofs.«412578_j66537633349983_3_alg».proof.Proof.KForm
import proofs.«412578_j66537633349983_3_alg».proof.Proof.MathFeat
import proofs.«412578_j66537633349983_3_alg».proof.Proof.MathLayer
import Mathlib.Algebra.BigOperators.Fin
import Mathlib.Tactic.NormNum

noncomputable section

namespace Cert.Spec

open Idealize.ShloMosaic

theorem halfRow_zero (r : Fin 524288) : halfRow 0 r = Fin.castAdd 524288 r := by
  apply Fin.ext
  show (0 : Fin 2).val * 524288 + r.val = r.val
  have h0 : (0 : Fin 2).val = 0 := rfl
  rw [h0, Nat.zero_mul, Nat.zero_add]

theorem halfRow_one (r : Fin 524288) : halfRow 1 r = Fin.natAdd 524288 r := by
  apply Fin.ext
  show (1 : Fin 2).val * 524288 + r.val = 524288 + r.val
  have h1 : (1 : Fin 2).val = 1 := rfl
  rw [h1, Nat.one_mul]

theorem halfSum_add (f : Fin NB → EReal) : halfSum 0 f + halfSum 1 f = ∑ n : Fin NB, f n := by
  have h := Fin.sum_univ_add (a := 524288) (b := 524288) (fun n : Fin (524288 + 524288) => f n)
  unfold halfSum
  simp only [halfRow_zero, halfRow_one]
  exact h.symm

theorem card_rows : (1048576 : ℝ) = (Fintype.card (Fin NB) : ℝ) := by
  rw [Fintype.card_fin]
  norm_num [NB]

theorem layer_rows {K J : Nat} (x : Fin NB → Fin K → EReal) (W : Fin K → Fin J → EReal) (b g bt : Fin J → EReal)
    (hx : ∀ n k, ∃ r : ℝ, x n k = r) (hW : ∀ k j, ∃ r : ℝ, W k j = r) (hb : ∀ j, ∃ r : ℝ, b j = r)
    (hg : ∀ j, ∃ r : ℝ, g j = r) (hbt : ∀ j, ∃ r : ℝ, bt j = r) :
    actK x (WeK cntE epsE W (sumK (preK x W b)) (sqK (preK x W b) b) b g)
        (beK cntE epsE (sumK (preK x W b)) (sqK (preK x W b) b) b g bt) = actR cntE epsE (preR x W b) g bt
      ∧ ∀ n j, ∃ r : ℝ, actR cntE epsE (preR x W b) g bt n j = r := by
  obtain ⟨er, he, hepos⟩ := epsE_pos
  exact layer_fold cntE epsE 1048576 er cntE_eq card_rows (by norm_num) he hepos x W b g bt hx hW hb hg hbt

theorem a1_both (I : Inp) (hF : Finite I) (hR : Range I) :
    a1K I = a1R I ∧ ∀ n j, ∃ r : ℝ, a1R I n j = r := by
  have h := layer_rows (XR I) I.W1 I.b1 I.g1 I.bt1 (XR_real I hF hR) hF.W1 hF.b1 hF.g1 hF.bt1
  refine ⟨?_, h.2⟩
  unfold a1K W1e b1e s1K q1K h1K
  rw [XK_eq_XR I hF hR]
  exact h.1

theorem a1K_eq (I : Inp) (hF : Finite I) (hR : Range I) : a1K I = a1R I := (a1_both I hF hR).1

theorem a1R_real (I : Inp) (hF : Finite I) (hR : Range I) : ∀ n j, ∃ r : ℝ, a1R I n j = r := (a1_both I hF hR).2

theorem a2_both (I : Inp) (hF : Finite I) (hR : Range I) :
    a2K I = a2R I ∧ ∀ n j, ∃ r : ℝ, a2R I n j = r := by
  have h := layer_rows (a1R I) I.W2 I.b2 I.g2 I.bt2 (a1R_real I hF hR) hF.W2 hF.b2 hF.g2 hF.bt2
  refine ⟨?_, h.2⟩
  unfold a2K W2e b2e s2K q2K h2K
  rw [a1K_eq I hF hR]
  exact h.1

theorem a2K_eq (I : Inp) (hF : Finite I) (hR : Range I) : a2K I = a2R I := (a2_both I hF hR).1

theorem a2R_real (I : Inp) (hF : Finite I) (hR : Range I) : ∀ n j, ∃ r : ℝ, a2R I n j = r := (a2_both I hF hR).2

theorem a3_both (I : Inp) (hF : Finite I) (hR : Range I) :
    a3K I = a3R I ∧ ∀ n j, ∃ r : ℝ, a3R I n j = r := by
  have h := layer_rows (a2R I) I.W3 I.b3 I.g3 I.bt3 (a2R_real I hF hR) hF.W3 hF.b3 hF.g3 hF.bt3
  refine ⟨?_, h.2⟩
  unfold a3K W3e b3e s3K q3K h3K
  rw [a2K_eq I hF hR]
  exact h.1

theorem a3K_eq (I : Inp) (hF : Finite I) (hR : Range I) : a3K I = a3R I := (a3_both I hF hR).1

theorem a3R_real (I : Inp) (hF : Finite I) (hR : Range I) : ∀ n j, ∃ r : ℝ, a3R I n j = r := (a3_both I hF hR).2

theorem outK_eq_outR (I : Inp) (hF : Finite I) (hR : Range I) : outK I = outR I := by
  funext n
  unfold outK outR
  rw [a3K_eq I hF hR]
  have hs : (∑ k : Fin 32, I.W4 k * a3R I n k) = ∑ k : Fin 32, a3R I n k * I.W4 k :=
    Finset.sum_congr rfl (fun k _ => mul_comm _ _)
  rw [hs]

theorem resK_eq_resR (A : Arrays) (hF : Finite (inpOf A)) (hR : Range (inpOf A)) : resK A = resR A := by
  unfold resK resR
  rw [outK_eq_outR (inpOf A) hF hR]

end Cert.Spec

end
-- ==== Proof.EncOps.lean ====
import proofs.«412578_j66537633349983_3_alg».proof.Proof.KForm
import Idealize.ShloMosaic.Lib.Pipeline.Value
import Idealize.ShloMosaic.Lib.ValueIdx
import Idealize.ShloMosaic.Lib.IdealHost
import Idealize.ShloMosaic.PureOps.Ideal.Laws
import Idealize.ShloMosaic.PureOps.IdealRules

noncomputable section

namespace Cert.KernelIdeal.Hand

open Cert.Spec
open Idealize.ShloMosaic Idealize.ShloMosaic.ValueIdx
open scoped BigOperators

abbrev encDims {m k n : Nat} (w : DotDims.WF (Sh2 m k) (Sh2 k n) (Sh2 m n) [1] [0] [0] [1] [] []) :
    DotDims (Sh2 m k) (Sh2 k n) (Sh2 m n) := ⟨[1], [0], [0], [1], [], [], w⟩

section Axes
variable {m k n : Nat} (w : DotDims.WF (Sh2 m k) (Sh2 k n) (Sh2 m n) [1] [0] [0] [1] [] [])

theorem encDims_rank : (encDims w).contr.rank = 1 := rfl
theorem encDims_size : (encDims w).contr.size ⟨0, Nat.one_pos⟩ = k := rfl

theorem encDims_l0 (i : (Sh2 m n).Idx) (q : (encDims w).contr.Idx) : ((encDims w).lhsIdx i q 0).val = (i 0).val := by
  simp [DotDims.lhsIdx, encDims] <;> rfl
theorem encDims_l1 (i : (Sh2 m n).Idx) (q : (encDims w).contr.Idx) :
    ((encDims w).lhsIdx i q 1).val = (q ⟨0, Nat.one_pos⟩).val :=
  DotDims.lhsIdx_val_of_single (encDims w) (cl := 1) rfl i q
theorem encDims_r0 (i : (Sh2 m n).Idx) (q : (encDims w).contr.Idx) :
    ((encDims w).rhsIdx i q 0).val = (q ⟨0, Nat.one_pos⟩).val :=
  DotDims.rhsIdx_val_of_single (encDims w) (cr := 0) rfl i q
theorem encDims_r1 (i : (Sh2 m n).Idx) (q : (encDims w).contr.Idx) : ((encDims w).rhsIdx i q 1).val = (i 1).val := by
  simp [DotDims.rhsIdx, encDims] <;> rfl

end Axes

theorem enc_matmul_plain {m k n : Nat} {φ₁ φ₂ : FTy}
    (w : DotDims.WF (Sh2 m k) (Sh2 k n) (Sh2 m n) [1] [0] [0] [1] [] [])
    (prec : Option ContractPrecision) (A : FVec Ideal (Sh2 m k) φ₁) (B : FVec Ideal (Sh2 k n) φ₂) (a : Fin m) (b : Fin n) :
    matmul (encDims w) prec A B (constant (F := Ideal) (Sh2 m n) .f32 0x00000000#32) (ix2 a b)
      = ∑ c : Fin k, A (ix2 a c) * B (ix2 c b) := by
  show FloatOps.matmul (encDims w) prec A B _ (ix2 a b) = _
  rw [Ideal.matmul_constant_zero_apply, ← Equiv.sum_comp (contrEquiv1 (encDims w) k (encDims_rank w) (encDims_size w)).symm]
  refine Finset.sum_congr rfl fun c _ => ?_
  have hc := contrEquiv1_symm_val (encDims w) k (encDims_rank w) (encDims_size w) c
  have el : (encDims w).lhsIdx (ix2 a b) ((contrEquiv1 (encDims w) k (encDims_rank w) (encDims_size w)).symm c) = ix2 a c :=
    funext fun ax => Fin.ext (by
      match ax with
      | ⟨0, _⟩ => exact encDims_l0 w _ _
      | ⟨1, _⟩ => exact (encDims_l1 w _ _).trans hc)
  have er : (encDims w).rhsIdx (ix2 a b) ((contrEquiv1 (encDims w) k (encDims_rank w) (encDims_size w)).symm c) = ix2 c b :=
    funext fun ax => Fin.ext (by
      match ax with
      | ⟨0, _⟩ => exact (encDims_r0 w _ _).trans hc
      | ⟨1, _⟩ => exact encDims_r1 w _ _)
  rw [el, er]

theorem enc_row_apply {R L : Nat} {α : Type} (x : (Sh2 R L).Idx → α) (r : Nat) (hr : r < R)
    (h : (Sh2 R L).Slices ![r, 0] (Sh2 1 L)) (l : Fin L) :
    extractStridedSlice (Sh2 1 L) ![r, 0] x h (ix2 (0 : Fin 1) l) = x (ix2 (⟨r, hr⟩ : Fin R) l) :=
  extractStridedSlice_apply ![r, 0] x h (ix2 (0 : Fin 1) l) (ix2 (⟨r, hr⟩ : Fin R) l) fun a =>
    match a with
    | ⟨0, _⟩ => by show r = r + 0; omega
    | ⟨1, _⟩ => by show l.val = 0 + l.val; omega

theorem enc_onehot_apply {C L : Nat} (w : IVec (Sh2 1 L) 32) (hb : (Sh2 1 L).Broadcasts (Sh2 C L))
    (hi : (Sh2 C L).Iotas .tc 32 [0]) (c : Fin C) (l : Fin L) :
    select (cmpi .eq (broadcastTo (Sh2 C L) w hb) (iota .tc (Sh2 C L) 32 [0] hi))
        (broadcast (Sh2 C L) (Scalar.ofBits (F := Ideal) .f32 0x3F800000#32))
        (broadcast (Sh2 C L) (Scalar.ofBits (F := Ideal) .f32 0x00000000#32)) (ix2 c l)
      = oh (w (ix2 (0 : Fin 1) l)) c.val := by
  have e1 : broadcastTo (Sh2 C L) w hb (ix2 c l) = w (ix2 (0 : Fin 1) l) :=
    broadcastTo_apply w hb (ix2 c l) (ix2 (0 : Fin 1) l) fun a =>
      match a with
      | ⟨0, _⟩ => by show (0 : Nat) = if (1 : Nat) = 1 then 0 else c.val; rw [if_pos rfl]
      | ⟨1, _⟩ => by
        show l.val = if L = 1 then 0 else l.val
        split
        · have := l.isLt; omega
        · rfl
  have e2 : iota .tc (Sh2 C L) 32 [0] hi (ix2 c l) = BitVec.ofNat 32 c.val :=
    iota_single_apply .tc (Sh2 C L) 32 0 hi (ix2 c l)
  have key : ∀ (x y : BitVec 32), Scalar.select (IntOp.cmpi .eq x y) (1 : EReal) 0 = if x = y then 1 else 0 := by
    intro x y
    show (if BitVec.ofBool (x == y) = 1 then (1 : EReal) else 0) = _
    by_cases h : x = y
    · rw [if_pos h, show (x == y) = true from by rw [h]; exact beq_self_eq_true y]
      exact if_pos (by decide)
    · rw [if_neg h, show (x == y) = false from beq_eq_false_iff_ne.mpr h]
      exact if_neg (by decide)
  show Scalar.select (IntOp.cmpi .eq (broadcastTo (Sh2 C L) w hb (ix2 c l)) (iota .tc (Sh2 C L) 32 [0] hi (ix2 c l)))
      (Ideal.ofBits .f32 0x3F800000#32) (Ideal.ofBits .f32 0x00000000#32) = _
  rw [e1, e2, Ideal.ofBits_one_f32, Ideal.ofBits_zero_f32]
  exact key _ _

theorem enc_embed_apply {C L : Nat} (tab : FVec Ideal (Sh2 C 8) .f32) (w : IVec (Sh2 1 L) 32)
    (hb : (Sh2 1 L).Broadcasts (Sh2 C L)) (hi : (Sh2 C L).Iotas .tc 32 [0])
    (hlt : FTy.bits .bf16 < FTy.bits .f32) (ht : (Sh2 C 8).Transposes [1, 0] (Sh2 8 C))
    (wf : DotDims.WF (Sh2 8 C) (Sh2 C L) (Sh2 8 L) [1] [0] [0] [1] [] []) (e : Fin 8) (l : Fin L) :
    matmul (encDims wf) none
        (transpose (Sh2 8 C) [1, 0] (truncf .bf16 tab hlt) ht)
        (truncf .bf16 (select (cmpi .eq (broadcastTo (Sh2 C L) w hb) (iota .tc (Sh2 C L) 32 [0] hi))
          (broadcast (Sh2 C L) (Scalar.ofBits (F := Ideal) .f32 0x3F800000#32))
          (broadcast (Sh2 C L) (Scalar.ofBits (F := Ideal) .f32 0x00000000#32))) hlt)
        (constant (F := Ideal) (Sh2 8 L) .f32 0x00000000#32) (ix2 e l)
      = embK (fun c e => tab (ix2 c e)) (w (ix2 (0 : Fin 1) l)) e := by
  refine (enc_matmul_plain wf none _ _ e l).trans ?_
  unfold embK
  refine Finset.sum_congr rfl fun c _ => ?_
  have t1 : transpose (Sh2 8 C) [1, 0] (truncf .bf16 tab hlt) ht (ix2 e c) = tab (ix2 c e) :=
    (transpose_apply [1, 0] (truncf .bf16 tab hlt) ht (ix2 e c) (ix2 c e) fun b =>
      match b with
      | ⟨0, _⟩ => rfl
      | ⟨1, _⟩ => rfl).trans rfl
  have t2 := enc_onehot_apply w hb hi c l
  rw [t1]
  exact congrArg (tab (ix2 c e) * ·) t2

theorem enc_scale_apply {L : Nat} (κ : String → Option EReal) (name : String) (bits : BitVec 32) (val : EReal)
    (hκ : κ name = some val) (v : FVec Ideal (Sh2 1 L) .f32) (l : Fin L) :
    mulf v (broadcast (Sh2 1 L) (Named.named (F := Ideal) κ name (φ := .f32) bits)) (ix2 (0 : Fin 1) l)
      = v (ix2 (0 : Fin 1) l) * val := by
  exact congrArg (v (ix2 (0 : Fin 1) l) * ·) (IdealRules.named_const.ideal_named_scalar κ name (φ := .f32) bits val hκ)

def Xlane {L : Nat} (ints : IVec (Sh2 8 L) 32) (flts : FVec Ideal (Sh2 6 L) .f32)
    (bemb : FVec Ideal (Sh2 15 8) .f32) (temb : FVec Ideal (Sh2 9 8) .f32) (l : Fin L) (k : Fin 50) : EReal :=
  if h : k.val < 25 then
    petK (fun c e => bemb (ix2 c e)) (fun c e => temb (ix2 c e))
      (ints (ix2 (0 : Fin 8) l)) (ints (ix2 (1 : Fin 8) l)) (ints (ix2 (2 : Fin 8) l)) (ints (ix2 (3 : Fin 8) l))
      (flts (ix2 (0 : Fin 6) l)) (flts (ix2 (1 : Fin 6) l)) (flts (ix2 (2 : Fin 6) l)) ⟨k.val, h⟩
  else
    petK (fun c e => bemb (ix2 c e)) (fun c e => temb (ix2 c e))
      (ints (ix2 (4 : Fin 8) l)) (ints (ix2 (5 : Fin 8) l)) (ints (ix2 (6 : Fin 8) l)) (ints (ix2 (7 : Fin 8) l))
      (flts (ix2 (3 : Fin 6) l)) (flts (ix2 (4 : Fin 6) l)) (flts (ix2 (5 : Fin 6) l)) ⟨k.val - 25, by omega⟩

theorem Xlane_full (ints : IVec (Sh2 8 1048576) 32) (flts : FVec Ideal (Sh2 6 1048576) .f32)
    (bemb : FVec Ideal (Sh2 15 8) .f32) (temb : FVec Ideal (Sh2 9 8) .f32) :
    Xlane ints flts bemb temb = Xst ints flts bemb temb := rfl

theorem Xlane_of_rows {L : Nat} (ints : IVec (Sh2 8 1048576) 32) (flts : FVec Ideal (Sh2 6 1048576) .f32)
    (bemb : FVec Ideal (Sh2 15 8) .f32) (temb : FVec Ideal (Sh2 9 8) .f32)
    (ib : IVec (Sh2 8 L) 32) (fb : FVec Ideal (Sh2 6 L) .f32) (row : Fin L → Fin NB)
    (hi : ∀ (a : Fin 8) (l : Fin L), ib (ix2 a l) = ints (ix2 a (row l)))
    (hf : ∀ (a : Fin 6) (l : Fin L), fb (ix2 a l) = flts (ix2 a (row l))) (l : Fin L) :
    Xlane ib fb bemb temb l = Xst ints flts bemb temb (row l) := by
  funext k
  unfold Xlane Xst
  simp only [hi, hf]

theorem petK_breed (bemb : Fin 15 → Fin 8 → EReal) (temb : Fin 9 → Fin 8 → EReal) (breed size energy temp : BitVec 32) (age social weight : EReal) (j : Fin 25) (h : j.val < 8) : petK bemb temb breed size energy temp age social weight j = embK bemb breed ⟨j.val, h⟩ := by
  unfold petK; rw [dif_pos h]
theorem petK_size (bemb : Fin 15 → Fin 8 → EReal) (temb : Fin 9 → Fin 8 → EReal) (breed size energy temp : BitVec 32) (age social weight : EReal) (j : Fin 25) (h1 : ¬j.val < 8) (h2 : j.val < 11) : petK bemb temb breed size energy temp age social weight j = oh size (j.val - 8) := by
  unfold petK; rw [dif_neg h1, if_pos h2]
theorem petK_energy (bemb : Fin 15 → Fin 8 → EReal) (temb : Fin 9 → Fin 8 → EReal) (breed size energy temp : BitVec 32) (age social weight : EReal) (j : Fin 25) (h1 : ¬j.val < 8) (h2 : ¬j.val < 11) (h3 : j.val < 14) : petK bemb temb breed size energy temp age social weight j = oh energy (j.val - 11) := by
  unfold petK; rw [dif_neg h1, if_neg h2, if_pos h3]
theorem petK_temp (bemb : Fin 15 → Fin 8 → EReal) (temb : Fin 9 → Fin 8 → EReal) (breed size energy temp : BitVec 32) (age social weight : EReal) (j : Fin 25) (h1 : ¬j.val < 8) (h2 : ¬j.val < 11) (h3 : ¬j.val < 14) (h4 : j.val < 22) :
    petK bemb temb breed size energy temp age social weight j = embK temb temp ⟨j.val - 14, by omega⟩ := by
  unfold petK; rw [dif_neg h1, if_neg h2, if_neg h3, dif_pos h4]
theorem petK_age (bemb : Fin 15 → Fin 8 → EReal) (temb : Fin 9 → Fin 8 → EReal) (breed size energy temp : BitVec 32) (age social weight : EReal) (j : Fin 25) (h : j.val = 22) : petK bemb temb breed size energy temp age social weight j = age * inv15 := by
  unfold petK; rw [dif_neg (by omega), if_neg (by omega), if_neg (by omega), dif_neg (by omega), if_pos h]
theorem petK_social (bemb : Fin 15 → Fin 8 → EReal) (temb : Fin 9 → Fin 8 → EReal) (breed size energy temp : BitVec 32) (age social weight : EReal) (j : Fin 25) (h : j.val = 23) : petK bemb temb breed size energy temp age social weight j = social := by
  unfold petK; rw [dif_neg (by omega), if_neg (by omega), if_neg (by omega), dif_neg (by omega), if_neg (by omega), if_pos h]
theorem petK_weight (bemb : Fin 15 → Fin 8 → EReal) (temb : Fin 9 → Fin 8 → EReal) (breed size energy temp : BitVec 32) (age social weight : EReal) (j : Fin 25) (h : j.val = 24) : petK bemb temb breed size energy temp age social weight j = weight * inv100 := by
  unfold petK; rw [dif_neg (by omega), if_neg (by omega), if_neg (by omega), dif_neg (by omega), if_neg (by omega), if_neg (by omega)]

section Fields
variable {L : Nat} (ints : IVec (Sh2 8 L) 32) (flts : FVec Ideal (Sh2 6 L) .f32)
  (bemb : FVec Ideal (Sh2 15 8) .f32) (temb : FVec Ideal (Sh2 9 8) .f32) (l : Fin L)

theorem Xlane_breed1 (a : Fin 8) : Xlane ints flts bemb temb l ⟨0 + a.val, by have := a.isLt; omega⟩ = embK (fun c e => bemb (ix2 c e)) (ints (ix2 (0 : Fin 8) l)) a := by
  have ha := a.isLt
  unfold Xlane
  rw [dif_pos (by show 0 + a.val < 25; omega)]
  refine (petK_breed _ _ _ _ _ _ _ _ _ _ (by show 0 + a.val < 8; omega)).trans ?_
  exact congrArg (embK _ _) (Fin.ext (by show 0 + a.val = a.val; omega))
theorem Xlane_size1 (a : Fin 3) : Xlane ints flts bemb temb l ⟨8 + a.val, by have := a.isLt; omega⟩ = oh (ints (ix2 (1 : Fin 8) l)) a.val := by
  have ha := a.isLt
  unfold Xlane
  rw [dif_pos (by show 8 + a.val < 25; omega)]
  refine (petK_size _ _ _ _ _ _ _ _ _ _ (by show ¬(8 + a.val < 8); omega) (by show 8 + a.val < 11; omega)).trans ?_
  exact congrArg (oh _) (by show 8 + a.val - 8 = a.val; omega)
theorem Xlane_energy1 (a : Fin 3) : Xlane ints flts bemb temb l ⟨11 + a.val, by have := a.isLt; omega⟩ = oh (ints (ix2 (2 : Fin 8) l)) a.val := by
  have ha := a.isLt
  unfold Xlane
  rw [dif_pos (by show 11 + a.val < 25; omega)]
  refine (petK_energy _ _ _ _ _ _ _ _ _ _ (by show ¬(11 + a.val < 8); omega) (by show ¬(11 + a.val < 11); omega) (by show 11 + a.val < 14; omega)).trans ?_
  exact congrArg (oh _) (by show 11 + a.val - 11 = a.val; omega)
theorem Xlane_temp1 (a : Fin 8) : Xlane ints flts bemb temb l ⟨14 + a.val, by have := a.isLt; omega⟩ = embK (fun c e => temb (ix2 c e)) (ints (ix2 (3 : Fin 8) l)) a := by
  have ha := a.isLt
  unfold Xlane
  rw [dif_pos (by show 14 + a.val < 25; omega)]
  refine (petK_temp _ _ _ _ _ _ _ _ _ _ (by show ¬(14 + a.val < 8); omega) (by show ¬(14 + a.val < 11); omega) (by show ¬(14 + a.val < 14); omega) (by show 14 + a.val < 22; omega)).trans ?_
  exact congrArg (embK _ _) (Fin.ext (by show 14 + a.val - 14 = a.val; omega))
theorem Xlane_age1 : Xlane ints flts bemb temb l ⟨22, by omega⟩ = flts (ix2 (0 : Fin 6) l) * inv15 := by
  unfold Xlane
  rw [dif_pos (by show 22 < 25; omega)]
  exact petK_age _ _ _ _ _ _ _ _ _ _ (by show 22 = 22; omega)
theorem Xlane_social1 : Xlane ints flts bemb temb l ⟨23, by omega⟩ = flts (ix2 (1 : Fin 6) l) := by
  unfold Xlane
  rw [dif_pos (by show 23 < 25; omega)]
  exact petK_social _ _ _ _ _ _ _ _ _ _ (by show 23 = 23; omega)
theorem Xlane_weight1 : Xlane ints flts bemb temb l ⟨24, by omega⟩ = flts (ix2 (2 : Fin 6) l) * inv100 := by
  unfold Xlane
  rw [dif_pos (by show 24 < 25; omega)]
  exact petK_weight _ _ _ _ _ _ _ _ _ _ (by show 24 = 24; omega)
theorem Xlane_breed2 (a : Fin 8) : Xlane ints flts bemb temb l ⟨25 + a.val, by have := a.isLt; omega⟩ = embK (fun c e => bemb (ix2 c e)) (ints (ix2 (4 : Fin 8) l)) a := by
  have ha := a.isLt
  unfold Xlane
  rw [dif_neg (by show ¬(25 + a.val < 25); omega)]
  refine (petK_breed _ _ _ _ _ _ _ _ _ _ (by show 25 + a.val - 25 < 8; omega)).trans ?_
  exact congrArg (embK _ _) (Fin.ext (by show 25 + a.val - 25 = a.val; omega))
theorem Xlane_size2 (a : Fin 3) : Xlane ints flts bemb temb l ⟨33 + a.val, by have := a.isLt; omega⟩ = oh (ints (ix2 (5 : Fin 8) l)) a.val := by
  have ha := a.isLt
  unfold Xlane
  rw [dif_neg (by show ¬(33 + a.val < 25); omega)]
  refine (petK_size _ _ _ _ _ _ _ _ _ _ (by show ¬(33 + a.val - 25 < 8); omega) (by show 33 + a.val - 25 < 11; omega)).trans ?_
  exact congrArg (oh _) (by show 33 + a.val - 25 - 8 = a.val; omega)
theorem Xlane_energy2 (a : Fin 3) : Xlane ints flts bemb temb l ⟨36 + a.val, by have := a.isLt; omega⟩ = oh (ints (ix2 (6 : Fin 8) l)) a.val := by
  have ha := a.isLt
  unfold Xlane
  rw [dif_neg (by show ¬(36 + a.val < 25); omega)]
  refine (petK_energy _ _ _ _ _ _ _ _ _ _ (by show ¬(36 + a.val - 25 < 8); omega) (by show ¬(36 + a.val - 25 < 11); omega) (by show 36 + a.val - 25 < 14; omega)).trans ?_
  exact congrArg (oh _) (by show 36 + a.val - 25 - 11 = a.val; omega)
theorem Xlane_temp2 (a : Fin 8) : Xlane ints flts bemb temb l ⟨39 + a.val, by have := a.isLt; omega⟩ = embK (fun c e => temb (ix2 c e)) (ints (ix2 (7 : Fin 8) l)) a := by
  have ha := a.isLt
  unfold Xlane
  rw [dif_neg (by show ¬(39 + a.val < 25); omega)]
  refine (petK_temp _ _ _ _ _ _ _ _ _ _ (by show ¬(39 + a.val - 25 < 8); omega) (by show ¬(39 + a.val - 25 < 11); omega) (by show ¬(39 + a.val - 25 < 14); omega) (by show 39 + a.val - 25 < 22; omega)).trans ?_
  exact congrArg (embK _ _) (Fin.ext (by show 39 + a.val - 25 - 14 = a.val; omega))
theorem Xlane_age2 : Xlane ints flts bemb temb l ⟨47, by omega⟩ = flts (ix2 (3 : Fin 6) l) * inv15 := by
  unfold Xlane
  rw [dif_neg (by show ¬(47 < 25); omega)]
  exact petK_age _ _ _ _ _ _ _ _ _ _ (by show 47 - 25 = 22; omega)
theorem Xlane_social2 : Xlane ints flts bemb temb l ⟨48, by omega⟩ = flts (ix2 (4 : Fin 6) l) := by
  unfold Xlane
  rw [dif_neg (by show ¬(48 < 25); omega)]
  exact petK_social _ _ _ _ _ _ _ _ _ _ (by show 48 - 25 = 23; omega)
theorem Xlane_weight2 : Xlane ints flts bemb temb l ⟨49, by omega⟩ = flts (ix2 (5 : Fin 6) l) * inv100 := by
  unfold Xlane
  rw [dif_neg (by show ¬(49 < 25); omega)]
  exact petK_weight _ _ _ _ _ _ _ _ _ _ (by show 49 - 25 = 24; omega)

end Fields

abbrev encPieces {L : Nat} (q0 : (Sh2 8 L).Idx → EReal) (q1 : (Sh2 3 L).Idx → EReal) (q2 : (Sh2 3 L).Idx → EReal) (q3 : (Sh2 8 L).Idx → EReal) (q4 : (Sh2 1 L).Idx → EReal) (q5 : (Sh2 1 L).Idx → EReal) (q6 : (Sh2 1 L).Idx → EReal) (q7 : (Sh2 8 L).Idx → EReal) (q8 : (Sh2 3 L).Idx → EReal) (q9 : (Sh2 3 L).Idx → EReal) (q10 : (Sh2 8 L).Idx → EReal) (q11 : (Sh2 1 L).Idx → EReal) (q12 : (Sh2 1 L).Idx → EReal) (q13 : (Sh2 1 L).Idx → EReal)
    (i0 : ∀ a, (![0, 0] : Fin 2 → Nat) a + (Sh2 8 L).size a ≤ (Sh2 50 L).size a)
    (i1 : ∀ a, (![8, 0] : Fin 2 → Nat) a + (Sh2 3 L).size a ≤ (Sh2 50 L).size a)
    (i2 : ∀ a, (![11, 0] : Fin 2 → Nat) a + (Sh2 3 L).size a ≤ (Sh2 50 L).size a)
    (i3 : ∀ a, (![14, 0] : Fin 2 → Nat) a + (Sh2 8 L).size a ≤ (Sh2 50 L).size a)
    (i4 : ∀ a, (![22, 0] : Fin 2 → Nat) a + (Sh2 1 L).size a ≤ (Sh2 50 L).size a)
    (i5 : ∀ a, (![23, 0] : Fin 2 → Nat) a + (Sh2 1 L).size a ≤ (Sh2 50 L).size a)
    (i6 : ∀ a, (![24, 0] : Fin 2 → Nat) a + (Sh2 1 L).size a ≤ (Sh2 50 L).size a)
    (i7 : ∀ a, (![25, 0] : Fin 2 → Nat) a + (Sh2 8 L).size a ≤ (Sh2 50 L).size a)
    (i8 : ∀ a, (![33, 0] : Fin 2 → Nat) a + (Sh2 3 L).size a ≤ (Sh2 50 L).size a)
    (i9 : ∀ a, (![36, 0] : Fin 2 → Nat) a + (Sh2 3 L).size a ≤ (Sh2 50 L).size a)
    (i10 : ∀ a, (![39, 0] : Fin 2 → Nat) a + (Sh2 8 L).size a ≤ (Sh2 50 L).size a)
    (i11 : ∀ a, (![47, 0] : Fin 2 → Nat) a + (Sh2 1 L).size a ≤ (Sh2 50 L).size a)
    (i12 : ∀ a, (![48, 0] : Fin 2 → Nat) a + (Sh2 1 L).size a ≤ (Sh2 50 L).size a)
    (i13 : ∀ a, (![49, 0] : Fin 2 → Nat) a + (Sh2 1 L).size a ≤ (Sh2 50 L).size a) : List (View.Piece (Elt Ideal) (Sh2 50 L) .f32) :=
      [(⟨Rect.unit (s := Sh2 50 L) ![49, 0] (Sh2 1 L).size i13, q13⟩ : View.Piece (Elt Ideal) (Sh2 50 L) .f32),
        (⟨Rect.unit (s := Sh2 50 L) ![48, 0] (Sh2 1 L).size i12, q12⟩ : View.Piece (Elt Ideal) (Sh2 50 L) .f32),
        (⟨Rect.unit (s := Sh2 50 L) ![47, 0] (Sh2 1 L).size i11, q11⟩ : View.Piece (Elt Ideal) (Sh2 50 L) .f32),
        (⟨Rect.unit (s := Sh2 50 L) ![39, 0] (Sh2 8 L).size i10, q10⟩ : View.Piece (Elt Ideal) (Sh2 50 L) .f32),
        (⟨Rect.unit (s := Sh2 50 L) ![36, 0] (Sh2 3 L).size i9, q9⟩ : View.Piece (Elt Ideal) (Sh2 50 L) .f32),
        (⟨Rect.unit (s := Sh2 50 L) ![33, 0] (Sh2 3 L).size i8, q8⟩ : View.Piece (Elt Ideal) (Sh2 50 L) .f32),
        (⟨Rect.unit (s := Sh2 50 L) ![25, 0] (Sh2 8 L).size i7, q7⟩ : View.Piece (Elt Ideal) (Sh2 50 L) .f32),
        (⟨Rect.unit (s := Sh2 50 L) ![24, 0] (Sh2 1 L).size i6, q6⟩ : View.Piece (Elt Ideal) (Sh2 50 L) .f32),
        (⟨Rect.unit (s := Sh2 50 L) ![23, 0] (Sh2 1 L).size i5, q5⟩ : View.Piece (Elt Ideal) (Sh2 50 L) .f32),
        (⟨Rect.unit (s := Sh2 50 L) ![22, 0] (Sh2 1 L).size i4, q4⟩ : View.Piece (Elt Ideal) (Sh2 50 L) .f32),
        (⟨Rect.unit (s := Sh2 50 L) ![14, 0] (Sh2 8 L).size i3, q3⟩ : View.Piece (Elt Ideal) (Sh2 50 L) .f32),
        (⟨Rect.unit (s := Sh2 50 L) ![11, 0] (Sh2 3 L).size i2, q2⟩ : View.Piece (Elt Ideal) (Sh2 50 L) .f32),
        (⟨Rect.unit (s := Sh2 50 L) ![8, 0] (Sh2 3 L).size i1, q1⟩ : View.Piece (Elt Ideal) (Sh2 50 L) .f32),
        (⟨Rect.unit (s := Sh2 50 L) ![0, 0] (Sh2 8 L).size i0, q0⟩ : View.Piece (Elt Ideal) (Sh2 50 L) .f32)]

theorem enc_canon_apply {L : Nat} (ints : IVec (Sh2 8 L) 32) (flts : FVec Ideal (Sh2 6 L) .f32)
    (bemb : FVec Ideal (Sh2 15 8) .f32) (temb : FVec Ideal (Sh2 9 8) .f32)
    (q0 : (Sh2 8 L).Idx → EReal) (q1 : (Sh2 3 L).Idx → EReal) (q2 : (Sh2 3 L).Idx → EReal) (q3 : (Sh2 8 L).Idx → EReal) (q4 : (Sh2 1 L).Idx → EReal) (q5 : (Sh2 1 L).Idx → EReal) (q6 : (Sh2 1 L).Idx → EReal) (q7 : (Sh2 8 L).Idx → EReal) (q8 : (Sh2 3 L).Idx → EReal) (q9 : (Sh2 3 L).Idx → EReal) (q10 : (Sh2 8 L).Idx → EReal) (q11 : (Sh2 1 L).Idx → EReal) (q12 : (Sh2 1 L).Idx → EReal) (q13 : (Sh2 1 L).Idx → EReal)
    (i0 : ∀ a, (![0, 0] : Fin 2 → Nat) a + (Sh2 8 L).size a ≤ (Sh2 50 L).size a)
    (i1 : ∀ a, (![8, 0] : Fin 2 → Nat) a + (Sh2 3 L).size a ≤ (Sh2 50 L).size a)
    (i2 : ∀ a, (![11, 0] : Fin 2 → Nat) a + (Sh2 3 L).size a ≤ (Sh2 50 L).size a)
    (i3 : ∀ a, (![14, 0] : Fin 2 → Nat) a + (Sh2 8 L).size a ≤ (Sh2 50 L).size a)
    (i4 : ∀ a, (![22, 0] : Fin 2 → Nat) a + (Sh2 1 L).size a ≤ (Sh2 50 L).size a)
    (i5 : ∀ a, (![23, 0] : Fin 2 → Nat) a + (Sh2 1 L).size a ≤ (Sh2 50 L).size a)
    (i6 : ∀ a, (![24, 0] : Fin 2 → Nat) a + (Sh2 1 L).size a ≤ (Sh2 50 L).size a)
    (i7 : ∀ a, (![25, 0] : Fin 2 → Nat) a + (Sh2 8 L).size a ≤ (Sh2 50 L).size a)
    (i8 : ∀ a, (![33, 0] : Fin 2 → Nat) a + (Sh2 3 L).size a ≤ (Sh2 50 L).size a)
    (i9 : ∀ a, (![36, 0] : Fin 2 → Nat) a + (Sh2 3 L).size a ≤ (Sh2 50 L).size a)
    (i10 : ∀ a, (![39, 0] : Fin 2 → Nat) a + (Sh2 8 L).size a ≤ (Sh2 50 L).size a)
    (i11 : ∀ a, (![47, 0] : Fin 2 → Nat) a + (Sh2 1 L).size a ≤ (Sh2 50 L).size a)
    (i12 : ∀ a, (![48, 0] : Fin 2 → Nat) a + (Sh2 1 L).size a ≤ (Sh2 50 L).size a)
    (i13 : ∀ a, (![49, 0] : Fin 2 → Nat) a + (Sh2 1 L).size a ≤ (Sh2 50 L).size a)
    (e0 : ∀ (a : Fin 8) (l : Fin L), q0 (ix2 a l) = Xlane ints flts bemb temb l ⟨0 + a.val, by have := a.isLt; omega⟩)
    (e1 : ∀ (a : Fin 3) (l : Fin L), q1 (ix2 a l) = Xlane ints flts bemb temb l ⟨8 + a.val, by have := a.isLt; omega⟩)
    (e2 : ∀ (a : Fin 3) (l : Fin L), q2 (ix2 a l) = Xlane ints flts bemb temb l ⟨11 + a.val, by have := a.isLt; omega⟩)
    (e3 : ∀ (a : Fin 8) (l : Fin L), q3 (ix2 a l) = Xlane ints flts bemb temb l ⟨14 + a.val, by have := a.isLt; omega⟩)
    (e4 : ∀ (a : Fin 1) (l : Fin L), q4 (ix2 a l) = Xlane ints flts bemb temb l ⟨22 + a.val, by have := a.isLt; omega⟩)
    (e5 : ∀ (a : Fin 1) (l : Fin L), q5 (ix2 a l) = Xlane ints flts bemb temb l ⟨23 + a.val, by have := a.isLt; omega⟩)
    (e6 : ∀ (a : Fin 1) (l : Fin L), q6 (ix2 a l) = Xlane ints flts bemb temb l ⟨24 + a.val, by have := a.isLt; omega⟩)
    (e7 : ∀ (a : Fin 8) (l : Fin L), q7 (ix2 a l) = Xlane ints flts bemb temb l ⟨25 + a.val, by have := a.isLt; omega⟩)
    (e8 : ∀ (a : Fin 3) (l : Fin L), q8 (ix2 a l) = Xlane ints flts bemb temb l ⟨33 + a.val, by have := a.isLt; omega⟩)
    (e9 : ∀ (a : Fin 3) (l : Fin L), q9 (ix2 a l) = Xlane ints flts bemb temb l ⟨36 + a.val, by have := a.isLt; omega⟩)
    (e10 : ∀ (a : Fin 8) (l : Fin L), q10 (ix2 a l) = Xlane ints flts bemb temb l ⟨39 + a.val, by have := a.isLt; omega⟩)
    (e11 : ∀ (a : Fin 1) (l : Fin L), q11 (ix2 a l) = Xlane ints flts bemb temb l ⟨47 + a.val, by have := a.isLt; omega⟩)
    (e12 : ∀ (a : Fin 1) (l : Fin L), q12 (ix2 a l) = Xlane ints flts bemb temb l ⟨48 + a.val, by have := a.isLt; omega⟩)
    (e13 : ∀ (a : Fin 1) (l : Fin L), q13 (ix2 a l) = Xlane ints flts bemb temb l ⟨49 + a.val, by have := a.isLt; omega⟩)
    (k : Fin 50) (l : Fin L) :
    View.canon (encPieces q0 q1 q2 q3 q4 q5 q6 q7 q8 q9 q10 q11 q12 q13 i0 i1 i2 i3 i4 i5 i6 i7 i8 i9 i10 i11 i12 i13) (ix2 k l)
      = Xlane ints flts bemb temb l k := by
  refine (View.canon_apply_of_pieces (fun y : (Sh2 50 L).Idx => Xlane ints flts bemb temb (y 1) (y 0)) _ ?_ (ix2 k l) ?_).trans rfl
  · intro p hp
    simp only [encPieces, List.mem_cons, List.mem_nil_iff, or_false] at hp
    rcases hp with rfl | rfl | rfl | rfl | rfl | rfl | rfl | rfl | rfl | rfl | rfl | rfl | rfl | rfl
    · intro x
      obtain ⟨a, l', rfl⟩ : ∃ (a : Fin 1) (l' : Fin L), x = ix2 a l' := ⟨x 0, x 1, eq_ix2 x⟩
      refine (e13 a l').trans ?_
      exact congrArg₂ (Xlane ints flts bemb temb)
        (Fin.ext (by show l'.val = 0 + 1 * l'.val; omega))
        (Fin.ext (by show 49 + a.val = 49 + 1 * a.val; omega))
    · intro x
      obtain ⟨a, l', rfl⟩ : ∃ (a : Fin 1) (l' : Fin L), x = ix2 a l' := ⟨x 0, x 1, eq_ix2 x⟩
      refine (e12 a l').trans ?_
      exact congrArg₂ (Xlane ints flts bemb temb)
        (Fin.ext (by show l'.val = 0 + 1 * l'.val; omega))
        (Fin.ext (by show 48 + a.val = 48 + 1 * a.val; omega))
    · intro x
      obtain ⟨a, l', rfl⟩ : ∃ (a : Fin 1) (l' : Fin L), x = ix2 a l' := ⟨x 0, x 1, eq_ix2 x⟩
      refine (e11 a l').trans ?_
      exact congrArg₂ (Xlane ints flts bemb temb)
        (Fin.ext (by show l'.val = 0 + 1 * l'.val; omega))
        (Fin.ext (by show 47 + a.val = 47 + 1 * a.val; omega))
    · intro x
      obtain ⟨a, l', rfl⟩ : ∃ (a : Fin 8) (l' : Fin L), x = ix2 a l' := ⟨x 0, x 1, eq_ix2 x⟩
      refine (e10 a l').trans ?_
      exact congrArg₂ (Xlane ints flts bemb temb)
        (Fin.ext (by show l'.val = 0 + 1 * l'.val; omega))
        (Fin.ext (by show 39 + a.val = 39 + 1 * a.val; omega))
    · intro x
      obtain ⟨a, l', rfl⟩ : ∃ (a : Fin 3) (l' : Fin L), x = ix2 a l' := ⟨x 0, x 1, eq_ix2 x⟩
      refine (e9 a l').trans ?_
      exact congrArg₂ (Xlane ints flts bemb temb)
        (Fin.ext (by show l'.val = 0 + 1 * l'.val; omega))
        (Fin.ext (by show 36 + a.val = 36 + 1 * a.val; omega))
    · intro x
      obtain ⟨a, l', rfl⟩ : ∃ (a : Fin 3) (l' : Fin L), x = ix2 a l' := ⟨x 0, x 1, eq_ix2 x⟩
      refine (e8 a l').trans ?_
      exact congrArg₂ (Xlane ints flts bemb temb)
        (Fin.ext (by show l'.val = 0 + 1 * l'.val; omega))
        (Fin.ext (by show 33 + a.val = 33 + 1 * a.val; omega))
    · intro x
      obtain ⟨a, l', rfl⟩ : ∃ (a : Fin 8) (l' : Fin L), x = ix2 a l' := ⟨x 0, x 1, eq_ix2 x⟩
      refine (e7 a l').trans ?_
      exact congrArg₂ (Xlane ints flts bemb temb)
        (Fin.ext (by show l'.val = 0 + 1 * l'.val; omega))
        (Fin.ext (by show 25 + a.val = 25 + 1 * a.val; omega))
    · intro x
      obtain ⟨a, l', rfl⟩ : ∃ (a : Fin 1) (l' : Fin L), x = ix2 a l' := ⟨x 0, x 1, eq_ix2 x⟩
      refine (e6 a l').trans ?_
      exact congrArg₂ (Xlane ints flts bemb temb)
        (Fin.ext (by show l'.val = 0 + 1 * l'.val; omega))
        (Fin.ext (by show 24 + a.val = 24 + 1 * a.val; omega))
    · intro x
      obtain ⟨a, l', rfl⟩ : ∃ (a : Fin 1) (l' : Fin L), x = ix2 a l' := ⟨x 0, x 1, eq_ix2 x⟩
      refine (e5 a l').trans ?_
      exact congrArg₂ (Xlane ints flts bemb temb)
        (Fin.ext (by show l'.val = 0 + 1 * l'.val; omega))
        (Fin.ext (by show 23 + a.val = 23 + 1 * a.val; omega))
    · intro x
      obtain ⟨a, l', rfl⟩ : ∃ (a : Fin 1) (l' : Fin L), x = ix2 a l' := ⟨x 0, x 1, eq_ix2 x⟩
      refine (e4 a l').trans ?_
      exact congrArg₂ (Xlane ints flts bemb temb)
        (Fin.ext (by show l'.val = 0 + 1 * l'.val; omega))
        (Fin.ext (by show 22 + a.val = 22 + 1 * a.val; omega))
    · intro x
      obtain ⟨a, l', rfl⟩ : ∃ (a : Fin 8) (l' : Fin L), x = ix2 a l' := ⟨x 0, x 1, eq_ix2 x⟩
      refine (e3 a l').trans ?_
      exact congrArg₂ (Xlane ints flts bemb temb)
        (Fin.ext (by show l'.val = 0 + 1 * l'.val; omega))
        (Fin.ext (by show 14 + a.val = 14 + 1 * a.val; omega))
    · intro x
      obtain ⟨a, l', rfl⟩ : ∃ (a : Fin 3) (l' : Fin L), x = ix2 a l' := ⟨x 0, x 1, eq_ix2 x⟩
      refine (e2 a l').trans ?_
      exact congrArg₂ (Xlane ints flts bemb temb)
        (Fin.ext (by show l'.val = 0 + 1 * l'.val; omega))
        (Fin.ext (by show 11 + a.val = 11 + 1 * a.val; omega))
    · intro x
      obtain ⟨a, l', rfl⟩ : ∃ (a : Fin 3) (l' : Fin L), x = ix2 a l' := ⟨x 0, x 1, eq_ix2 x⟩
      refine (e1 a l').trans ?_
      exact congrArg₂ (Xlane ints flts bemb temb)
        (Fin.ext (by show l'.val = 0 + 1 * l'.val; omega))
        (Fin.ext (by show 8 + a.val = 8 + 1 * a.val; omega))
    · intro x
      obtain ⟨a, l', rfl⟩ : ∃ (a : Fin 8) (l' : Fin L), x = ix2 a l' := ⟨x 0, x 1, eq_ix2 x⟩
      refine (e0 a l').trans ?_
      exact congrArg₂ (Xlane ints flts bemb temb)
        (Fin.ext (by show l'.val = 0 + 1 * l'.val; omega))
        (Fin.ext (by show 0 + a.val = 0 + 1 * a.val; omega))
  · have hk := k.isLt
    have hl := l.isLt
    have hcase : (0 ≤ k.val ∧ k.val < 8) ∨ (8 ≤ k.val ∧ k.val < 11) ∨ (11 ≤ k.val ∧ k.val < 14) ∨ (14 ≤ k.val ∧ k.val < 22) ∨ (22 ≤ k.val ∧ k.val < 23) ∨ (23 ≤ k.val ∧ k.val < 24) ∨ (24 ≤ k.val ∧ k.val < 25) ∨ (25 ≤ k.val ∧ k.val < 33) ∨ (33 ≤ k.val ∧ k.val < 36) ∨ (36 ≤ k.val ∧ k.val < 39) ∨ (39 ≤ k.val ∧ k.val < 47) ∨ (47 ≤ k.val ∧ k.val < 48) ∨ (48 ≤ k.val ∧ k.val < 49) ∨ (49 ≤ k.val ∧ k.val < 50) := by omega
    rcases hcase with h | h | h | h | h | h | h | h | h | h | h | h | h | h
    · refine ⟨(⟨Rect.unit (s := Sh2 50 L) ![0, 0] (Sh2 8 L).size i0, q0⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![0, 0] (Sh2 8 L).size i0).set
      rw [Rect.mem_set_unit]
      intro a
      match a with
      | ⟨0, _⟩ => exact ⟨by show 0 ≤ k.val; omega, by show k.val < 0 + 8; omega⟩
      | ⟨1, _⟩ => exact ⟨Nat.zero_le _, by show l.val < 0 + L; omega⟩
    · refine ⟨(⟨Rect.unit (s := Sh2 50 L) ![8, 0] (Sh2 3 L).size i1, q1⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![8, 0] (Sh2 3 L).size i1).set
      rw [Rect.mem_set_unit]
      intro a
      match a with
      | ⟨0, _⟩ => exact ⟨by show 8 ≤ k.val; omega, by show k.val < 8 + 3; omega⟩
      | ⟨1, _⟩ => exact ⟨Nat.zero_le _, by show l.val < 0 + L; omega⟩
    · refine ⟨(⟨Rect.unit (s := Sh2 50 L) ![11, 0] (Sh2 3 L).size i2, q2⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![11, 0] (Sh2 3 L).size i2).set
      rw [Rect.mem_set_unit]
      intro a
      match a with
      | ⟨0, _⟩ => exact ⟨by show 11 ≤ k.val; omega, by show k.val < 11 + 3; omega⟩
      | ⟨1, _⟩ => exact ⟨Nat.zero_le _, by show l.val < 0 + L; omega⟩
    · refine ⟨(⟨Rect.unit (s := Sh2 50 L) ![14, 0] (Sh2 8 L).size i3, q3⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![14, 0] (Sh2 8 L).size i3).set
      rw [Rect.mem_set_unit]
      intro a
      match a with
      | ⟨0, _⟩ => exact ⟨by show 14 ≤ k.val; omega, by show k.val < 14 + 8; omega⟩
      | ⟨1, _⟩ => exact ⟨Nat.zero_le _, by show l.val < 0 + L; omega⟩
    · refine ⟨(⟨Rect.unit (s := Sh2 50 L) ![22, 0] (Sh2 1 L).size i4, q4⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![22, 0] (Sh2 1 L).size i4).set
      rw [Rect.mem_set_unit]
      intro a
      match a with
      | ⟨0, _⟩ => exact ⟨by show 22 ≤ k.val; omega, by show k.val < 22 + 1; omega⟩
      | ⟨1, _⟩ => exact ⟨Nat.zero_le _, by show l.val < 0 + L; omega⟩
    · refine ⟨(⟨Rect.unit (s := Sh2 50 L) ![23, 0] (Sh2 1 L).size i5, q5⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![23, 0] (Sh2 1 L).size i5).set
      rw [Rect.mem_set_unit]
      intro a
      match a with
      | ⟨0, _⟩ => exact ⟨by show 23 ≤ k.val; omega, by show k.val < 23 + 1; omega⟩
      | ⟨1, _⟩ => exact ⟨Nat.zero_le _, by show l.val < 0 + L; omega⟩
    · refine ⟨(⟨Rect.unit (s := Sh2 50 L) ![24, 0] (Sh2 1 L).size i6, q6⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![24, 0] (Sh2 1 L).size i6).set
      rw [Rect.mem_set_unit]
      intro a
      match a with
      | ⟨0, _⟩ => exact ⟨by show 24 ≤ k.val; omega, by show k.val < 24 + 1; omega⟩
      | ⟨1, _⟩ => exact ⟨Nat.zero_le _, by show l.val < 0 + L; omega⟩
    · refine ⟨(⟨Rect.unit (s := Sh2 50 L) ![25, 0] (Sh2 8 L).size i7, q7⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![25, 0] (Sh2 8 L).size i7).set
      rw [Rect.mem_set_unit]
      intro a
      match a with
      | ⟨0, _⟩ => exact ⟨by show 25 ≤ k.val; omega, by show k.val < 25 + 8; omega⟩
      | ⟨1, _⟩ => exact ⟨Nat.zero_le _, by show l.val < 0 + L; omega⟩
    · refine ⟨(⟨Rect.unit (s := Sh2 50 L) ![33, 0] (Sh2 3 L).size i8, q8⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![33, 0] (Sh2 3 L).size i8).set
      rw [Rect.mem_set_unit]
      intro a
      match a with
      | ⟨0, _⟩ => exact ⟨by show 33 ≤ k.val; omega, by show k.val < 33 + 3; omega⟩
      | ⟨1, _⟩ => exact ⟨Nat.zero_le _, by show l.val < 0 + L; omega⟩
    · refine ⟨(⟨Rect.unit (s := Sh2 50 L) ![36, 0] (Sh2 3 L).size i9, q9⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![36, 0] (Sh2 3 L).size i9).set
      rw [Rect.mem_set_unit]
      intro a
      match a with
      | ⟨0, _⟩ => exact ⟨by show 36 ≤ k.val; omega, by show k.val < 36 + 3; omega⟩
      | ⟨1, _⟩ => exact ⟨Nat.zero_le _, by show l.val < 0 + L; omega⟩
    · refine ⟨(⟨Rect.unit (s := Sh2 50 L) ![39, 0] (Sh2 8 L).size i10, q10⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![39, 0] (Sh2 8 L).size i10).set
      rw [Rect.mem_set_unit]
      intro a
      match a with
      | ⟨0, _⟩ => exact ⟨by show 39 ≤ k.val; omega, by show k.val < 39 + 8; omega⟩
      | ⟨1, _⟩ => exact ⟨Nat.zero_le _, by show l.val < 0 + L; omega⟩
    · refine ⟨(⟨Rect.unit (s := Sh2 50 L) ![47, 0] (Sh2 1 L).size i11, q11⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![47, 0] (Sh2 1 L).size i11).set
      rw [Rect.mem_set_unit]
      intro a
      match a with
      | ⟨0, _⟩ => exact ⟨by show 47 ≤ k.val; omega, by show k.val < 47 + 1; omega⟩
      | ⟨1, _⟩ => exact ⟨Nat.zero_le _, by show l.val < 0 + L; omega⟩
    · refine ⟨(⟨Rect.unit (s := Sh2 50 L) ![48, 0] (Sh2 1 L).size i12, q12⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![48, 0] (Sh2 1 L).size i12).set
      rw [Rect.mem_set_unit]
      intro a
      match a with
      | ⟨0, _⟩ => exact ⟨by show 48 ≤ k.val; omega, by show k.val < 48 + 1; omega⟩
      | ⟨1, _⟩ => exact ⟨Nat.zero_le _, by show l.val < 0 + L; omega⟩
    · refine ⟨(⟨Rect.unit (s := Sh2 50 L) ![49, 0] (Sh2 1 L).size i13, q13⟩ : View.Piece (Elt Ideal) (Sh2 50 L) .f32), by simp only [encPieces, List.mem_cons, List.mem_nil_iff, or_false, true_or, or_true], ?_⟩
      show (ix2 k l : (Sh2 50 L).Idx) ∈ (Rect.unit (s := Sh2 50 L) ![49, 0] (Sh2 1 L).size i13).set
      rw [Rect.mem_set_unit]
      intro a
      match a with
      | ⟨0, _⟩ => exact ⟨by show 49 ≤ k.val; omega, by show k.val < 49 + 1; omega⟩
      | ⟨1, _⟩ => exact ⟨Nat.zero_le _, by show l.val < 0 + L; omega⟩

end Cert.KernelIdeal.Hand

end
-- ==== Proof.LayerOps.lean ====
import proofs.«412578_j66537633349983_3_alg».proof.Proof.KForm
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.Spec Idealize.ShloMosaic Idealize.ShloMosaic.ValueIdx

theorem colBroadcast_apply {J L : Nat} (b : FVec Ideal (Sh2 J 1) .f32) (hsc : (Sh2 J 1).ShapeCasts (Sh2 J 1))
    (hbc : (Sh2 J 1).Broadcasts (Sh2 J L)) (j : Fin J) (l : Fin L) :
    broadcastTo (Sh2 J L) (shapeCast (Sh2 J 1) b hsc) hbc (ix2 j l) = b (ix2 j (0 : Fin 1)) := by
  rw [shapeCast_self]
  refine broadcastTo_apply b hbc (ix2 j l) (ix2 j (0 : Fin 1)) fun ax => ?_
  match ax with
  | ⟨0, _⟩ =>
    show j.val = if J = 1 then 0 else j.val
    split
    · have := j.isLt; omega
    · rfl
  | ⟨1, _⟩ => rfl

theorem matmulT_apply {K J L : Nat} {φx : FTy} (d : DotDims (Sh2 J K) (Sh2 K L) (Sh2 J L))
    (hrank : d.contr.rank = 1) (hsize : d.contr.size ⟨0, by omega⟩ = K)
    (hl0 : ∀ (i : (Sh2 J L).Idx) (q : d.contr.Idx), (d.lhsIdx i q 0).val = (i 0).val)
    (hl1 : ∀ (i : (Sh2 J L).Idx) (q : d.contr.Idx), (d.lhsIdx i q 1).val = (q ⟨0, by omega⟩).val)
    (hr0 : ∀ (i : (Sh2 J L).Idx) (q : d.contr.Idx), (d.rhsIdx i q 0).val = (q ⟨0, by omega⟩).val)
    (hr1 : ∀ (i : (Sh2 J L).Idx) (q : d.contr.Idx), (d.rhsIdx i q 1).val = (i 1).val)
    (prec : Option ContractPrecision)
    (W : FVec Ideal (Sh2 K J) .f32) (hb : FTy.bf16.bits < FTy.f32.bits) (ht : (Sh2 K J).Transposes [1, 0] (Sh2 J K))
    (x : FVec Ideal (Sh2 K L) φx) (j : Fin J) (l : Fin L) :
    matmul d prec (transpose (Sh2 J K) [1, 0] (truncf .bf16 W hb) ht) x (constant (Sh2 J L) .f32 0x00000000#32) (ix2 j l)
      = ∑ k : Fin K, W (ix2 k j) * x (ix2 k l) := by
  show FloatOps.matmul d prec _ x (constant (Sh2 J L) .f32 0x00000000#32) (ix2 j l) = _
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 j l) ((contrEquiv1 d K hrank hsize).symm k) = ix2 j k := funext fun a => Fin.ext (by
    match a with
    | ⟨0, _⟩ => exact hl0 _ _
    | ⟨1, _⟩ => exact (hl1 _ _).trans hk)
  have er : d.rhsIdx (ix2 j l) ((contrEquiv1 d K hrank hsize).symm k) = ix2 k l := funext fun a => Fin.ext (by
    match a with
    | ⟨0, _⟩ => exact (hr0 _ _).trans hk
    | ⟨1, _⟩ => exact hr1 _ _)
  rw [el, er, transpose_ix2_apply]
  rfl

theorem dense_apply {K J L : Nat} {φx : FTy} (d : DotDims (Sh2 J K) (Sh2 K L) (Sh2 J L))
    (hrank : d.contr.rank = 1) (hsize : d.contr.size ⟨0, by omega⟩ = K)
    (hl0 : ∀ (i : (Sh2 J L).Idx) (q : d.contr.Idx), (d.lhsIdx i q 0).val = (i 0).val)
    (hl1 : ∀ (i : (Sh2 J L).Idx) (q : d.contr.Idx), (d.lhsIdx i q 1).val = (q ⟨0, by omega⟩).val)
    (hr0 : ∀ (i : (Sh2 J L).Idx) (q : d.contr.Idx), (d.rhsIdx i q 0).val = (q ⟨0, by omega⟩).val)
    (hr1 : ∀ (i : (Sh2 J L).Idx) (q : d.contr.Idx), (d.rhsIdx i q 1).val = (i 1).val)
    (prec : Option ContractPrecision)
    (W : FVec Ideal (Sh2 K J) .f32) (hb : FTy.bf16.bits < FTy.f32.bits) (ht : (Sh2 K J).Transposes [1, 0] (Sh2 J K))
    (x : FVec Ideal (Sh2 K L) φx)
    (b : FVec Ideal (Sh2 J 1) .f32) (hsc : (Sh2 J 1).ShapeCasts (Sh2 J 1)) (hbc : (Sh2 J 1).Broadcasts (Sh2 J L))
    (j : Fin J) (l : Fin L) :
    addf (matmul d prec (transpose (Sh2 J K) [1, 0] (truncf .bf16 W hb) ht) x (constant (Sh2 J L) .f32 0x00000000#32))
        (broadcastTo (Sh2 J L) (shapeCast (Sh2 J 1) b hsc) hbc) (ix2 j l)
      = (∑ k : Fin K, W (ix2 k j) * x (ix2 k l)) + b (ix2 j (0 : Fin 1)) := by
  rw [addf_apply, matmulT_apply d hrank hsize hl0 hl1 hr0 hr1 prec W hb ht x j l, colBroadcast_apply b hsc hbc j l]

theorem relu_apply {s : Shape} (h : FVec Ideal s .f32) (i : s.Idx) :
    maximumf h (broadcast s (Scalar.ofBits (F := Ideal) .f32 0x00000000#32)) i = max (h i) 0 := by
  show max (h i) (Ideal.ofBits .f32 0x00000000#32) = max (h i) 0
  rw [Ideal.ofBits_zero_f32]

theorem denseRelu_apply {K J L : Nat} {φx : FTy} (d : DotDims (Sh2 J K) (Sh2 K L) (Sh2 J L))
    (hrank : d.contr.rank = 1) (hsize : d.contr.size ⟨0, by omega⟩ = K)
    (hl0 : ∀ (i : (Sh2 J L).Idx) (q : d.contr.Idx), (d.lhsIdx i q 0).val = (i 0).val)
    (hl1 : ∀ (i : (Sh2 J L).Idx) (q : d.contr.Idx), (d.lhsIdx i q 1).val = (q ⟨0, by omega⟩).val)
    (hr0 : ∀ (i : (Sh2 J L).Idx) (q : d.contr.Idx), (d.rhsIdx i q 0).val = (q ⟨0, by omega⟩).val)
    (hr1 : ∀ (i : (Sh2 J L).Idx) (q : d.contr.Idx), (d.rhsIdx i q 1).val = (i 1).val)
    (prec : Option ContractPrecision)
    (W : FVec Ideal (Sh2 K J) .f32) (hb : FTy.bf16.bits < FTy.f32.bits) (ht : (Sh2 K J).Transposes [1, 0] (Sh2 J K))
    (x : FVec Ideal (Sh2 K L) φx)
    (b : FVec Ideal (Sh2 J 1) .f32) (hsc : (Sh2 J 1).ShapeCasts (Sh2 J 1)) (hbc : (Sh2 J 1).Broadcasts (Sh2 J L))
    (j : Fin J) (l : Fin L) :
    (truncf .bf16 (maximumf (addf (matmul d prec (transpose (Sh2 J K) [1, 0] (truncf .bf16 W hb) ht) x (constant (Sh2 J L) .f32 0x00000000#32))
        (broadcastTo (Sh2 J L) (shapeCast (Sh2 J 1) b hsc) hbc)) (broadcast (Sh2 J L) (Scalar.ofBits (F := Ideal) .f32 0x00000000#32))) hb
        : FVec Ideal (Sh2 J L) .bf16) (ix2 j l)
      = max ((∑ k : Fin K, W (ix2 k j) * x (ix2 k l)) + b (ix2 j (0 : Fin 1))) 0 := by
  rw [truncf_apply, relu_apply, dense_apply d hrank hsize hl0 hl1 hr0 hr1 prec W hb ht x b hsc hbc j l]

theorem laneLift {J L : Nat} (hred : (Sh2 J L).Reduces [1] (Sh1 J)) (j : Fin J) (l : Fin L) :
    hred.lift (ix1 j) l = ix2 j l :=
  funext fun c => Fin.ext (by
    match c with
    | ⟨0, _⟩ => rfl
    | ⟨1, _⟩ => rfl)

theorem laneSum_apply {J L : Nat} (h : FVec Ideal (Sh2 J L) .f32)
    (hred : (Sh2 J L).Reduces [1] (Sh1 J)) (hφ : FKind.Formats .f32)
    (hacc : (0x00000000#32 : BitVec 32) = FKind.add.neutral .f32 hφ)
    (hsc : (Sh1 J).ShapeCasts (Sh2 J 1)) (j : Fin J) :
    shapeCast (Sh2 J 1) (multiReduction .add [1] (Sh1 J) h 0x00000000#32 hred hφ hacc) hsc (ix2 j (0 : Fin 1))
      = ∑ l : Fin L, h (ix2 j l) := by
  refine (shapeCast_apply _ hsc (ix2 j (0 : Fin 1)) (ix1 j) (by
    rw [Shape.rowMajor_val_two, Shape.rowMajor_val_one]
    show j.val = j.val * 1 + 0
    omega)).trans ?_
  refine (Ideal.multiReduction_add_single h 0x00000000#32 hred hφ hacc (ix1 j)).trans ?_
  exact Finset.sum_congr rfl fun l _ => congrArg h (laneLift hred j l)

theorem laneSumSq_apply {J L : Nat} (h : FVec Ideal (Sh2 J L) .f32)
    (b : FVec Ideal (Sh2 J 1) .f32) (hscb : (Sh2 J 1).ShapeCasts (Sh2 J 1)) (hbc : (Sh2 J 1).Broadcasts (Sh2 J L))
    (hred : (Sh2 J L).Reduces [1] (Sh1 J)) (hφ : FKind.Formats .f32)
    (hacc : (0x00000000#32 : BitVec 32) = FKind.add.neutral .f32 hφ)
    (hsc : (Sh1 J).ShapeCasts (Sh2 J 1)) (j : Fin J) :
    shapeCast (Sh2 J 1) (multiReduction .add [1] (Sh1 J)
        (mulf (subf h (broadcastTo (Sh2 J L) (shapeCast (Sh2 J 1) b hscb) hbc))
              (subf h (broadcastTo (Sh2 J L) (shapeCast (Sh2 J 1) b hscb) hbc)))
        0x00000000#32 hred hφ hacc) hsc (ix2 j (0 : Fin 1))
      = ∑ l : Fin L, (h (ix2 j l) - b (ix2 j (0 : Fin 1))) * (h (ix2 j l) - b (ix2 j (0 : Fin 1))) := by
  refine (laneSum_apply _ hred hφ hacc hsc j).trans ?_
  refine Finset.sum_congr rfl fun l _ => ?_
  rw [mulf_apply, subf_apply, colBroadcast_apply b hscb hbc j l]

theorem accAdd_apply {J : Nat} (acc : FVec Ideal (Sh2 J 1) .f32) (hsc : (Sh2 J 1).ShapeCasts (Sh2 J 1))
    (v : FVec Ideal (Sh2 J 1) .f32) (i : (Sh2 J 1).Idx) :
    addf (shapeCast (Sh2 J 1) acc hsc) v i = acc i + v i := by
  rw [addf_apply, shapeCast_self]

end Cert.KernelIdeal.Hand

end
-- ==== Proof.Reg0Enc.lean ====
import proofs.«412578_j66537633349983_3_alg».proof.Proof.Gen.KernelIdeal.Skeleton
import proofs.«412578_j66537633349983_3_alg».proof.Proof.EncOps
import proofs.«412578_j66537633349983_3_alg».proof.Proof.LayerOps

set_option maxRecDepth 16384

noncomputable section

namespace Cert.KernelIdeal.Hand

open Cert.KernelIdeal Cert.KernelIdeal.Gen Cert.Spec
open Idealize.ShloMosaic Idealize.ShloMosaic.ValueIdx
open scoped BigOperators

namespace R0

theorem rowI (x0 : IVec (Sh2 8 16384) 32) (r : Nat) (hr : r < 8) (h : S8x16384.Slices ![r, 0] S1x16384) (l : Fin 16384) :
    extractStridedSlice S1x16384 ![r, 0] (k0_pay5 (F := Ideal) x0) h (ix2 (0 : Fin 1) l) = x0 (ix2 (⟨r, hr⟩ : Fin 8) l) :=
  (enc_row_apply (R := 8) (L := 16384) (k0_pay5 (F := Ideal) x0) r hr h l).trans (congrFun (shapeCast_self x0 _) _)

theorem rowF (x1 : FVec Ideal (Sh2 6 16384) .f32) (r : Nat) (hr : r < 6) (h : S6x16384.Slices ![r, 0] S1x16384) (l : Fin 16384) :
    extractStridedSlice S1x16384 ![r, 0] (k0_pay6 (F := Ideal) x1) h (ix2 (0 : Fin 1) l) = x1 (ix2 (⟨r, hr⟩ : Fin 6) l) :=
  (enc_row_apply (R := 6) (L := 16384) (k0_pay6 (F := Ideal) x1) r hr h l).trans (congrFun (shapeCast_self x1 _) _)

theorem enc0 (x0 : IVec (Sh2 8 16384) 32) (x1 : FVec Ideal (Sh2 6 16384) .f32) (x2 : FVec Ideal (Sh2 15 8) .f32) (x3 : FVec Ideal (Sh2 9 8) .f32) (a : Fin 8) (l : Fin 16384) :
    k0_pay12 (F := Ideal) x0 x2 (ix2 a l) = Xlane x0 x1 x2 x3 l ⟨0 + a.val, by have := a.isLt; omega⟩ := by
  refine Eq.trans ?_ (Xlane_breed1 x0 x1 x2 x3 l a).symm
  simp only [k0_pay12, shapeCast_self]
  refine (enc_embed_apply (C := 15) (L := 16384) x2 _ broadcasts_S1x16384_S15x16384 iota_S15x16384_d0_w32
    bitsLt_bf16_f32 transposes_S15x8_p1_0_S8x15 dot_S8x15_S15x16384_S8x16384_1_0_0_1_n_n_wf a l).trans ?_
  exact congrArg (fun w => embK (fun c e => x2 (ix2 c e)) w a) (rowI x0 0 (by norm_num) _ l)

theorem enc1 (x0 : IVec (Sh2 8 16384) 32) (x1 : FVec Ideal (Sh2 6 16384) .f32) (x2 : FVec Ideal (Sh2 15 8) .f32) (x3 : FVec Ideal (Sh2 9 8) .f32) (a : Fin 3) (l : Fin 16384) :
    k0_pay14 (F := Ideal) (k0_pay13 x0) (ix2 a l) = Xlane x0 x1 x2 x3 l ⟨8 + a.val, by have := a.isLt; omega⟩ := by
  refine Eq.trans ?_ (Xlane_size1 x0 x1 x2 x3 l a).symm
  simp only [k0_pay14, k0_pay13, shapeCast_self]
  refine (enc_onehot_apply (C := 3) (L := 16384) _ broadcasts_S1x16384_S3x16384 iota_S3x16384_d0_w32 a l).trans ?_
  exact congrArg (fun w => oh w a.val) (rowI x0 1 (by norm_num) _ l)

theorem enc2 (x0 : IVec (Sh2 8 16384) 32) (x1 : FVec Ideal (Sh2 6 16384) .f32) (x2 : FVec Ideal (Sh2 15 8) .f32) (x3 : FVec Ideal (Sh2 9 8) .f32) (a : Fin 3) (l : Fin 16384) :
    k0_pay15 (F := Ideal) (k0_pay7 (F := Ideal) x0) (ix2 a l) = Xlane x0 x1 x2 x3 l ⟨11 + a.val, by have := a.isLt; omega⟩ := by
  refine Eq.trans ?_ (Xlane_energy1 x0 x1 x2 x3 l a).symm
  simp only [k0_pay15, k0_pay7, shapeCast_self]
  refine (enc_onehot_apply (C := 3) (L := 16384) _ broadcasts_S1x16384_S3x16384 iota_S3x16384_d0_w32 a l).trans ?_
  exact congrArg (fun w => oh w a.val) (rowI x0 2 (by norm_num) _ l)

theorem enc3 (x0 : IVec (Sh2 8 16384) 32) (x1 : FVec Ideal (Sh2 6 16384) .f32) (x2 : FVec Ideal (Sh2 15 8) .f32) (x3 : FVec Ideal (Sh2 9 8) .f32) (a : Fin 8) (l : Fin 16384) :
    k0_pay16 (F := Ideal) x3 (k0_pay8 (F := Ideal) x0) (ix2 a l) = Xlane x0 x1 x2 x3 l ⟨14 + a.val, by have := a.isLt; omega⟩ := by
  refine Eq.trans ?_ (Xlane_temp1 x0 x1 x2 x3 l a).symm
  simp only [k0_pay16, k0_pay8, shapeCast_self]
  refine (enc_embed_apply (C := 9) (L := 16384) x3 _ broadcasts_S1x16384_S9x16384 iota_S9x16384_d0_w32
    bitsLt_bf16_f32 transposes_S9x8_p1_0_S8x9 dot_S8x9_S9x16384_S8x16384_1_0_0_1_n_n_wf a l).trans ?_
  exact congrArg (fun w => embK (fun c e => x3 (ix2 c e)) w a) (rowI x0 3 (by norm_num) _ l)

theorem enc4 (x0 : IVec (Sh2 8 16384) 32) (x1 : FVec Ideal (Sh2 6 16384) .f32) (x2 : FVec Ideal (Sh2 15 8) .f32) (x3 : FVec Ideal (Sh2 9 8) .f32) (a : Fin 1) (l : Fin 16384) :
    k0_pay17 (F := Ideal) (k0_pay9 x1) (ix2 a l) = Xlane x0 x1 x2 x3 l ⟨22 + a.val, by have := a.isLt; omega⟩ := by
  obtain rfl : a = (0 : Fin 1) := Subsingleton.elim _ _
  refine Eq.trans ?_ ((Xlane_age1 x0 x1 x2 x3 l).symm.trans (congrArg (Xlane x0 x1 x2 x3 l) (Fin.ext rfl)))
  simp only [k0_pay17, k0_pay9, shapeCast_self]
  refine (enc_scale_apply κ "inv_15" 0x3D888889#32 ((1 / 15 : ℝ) : EReal) rfl _ l).trans ?_
  exact congrArg (· * inv15) (rowF x1 0 (by norm_num) _ l)

theorem enc5 (x0 : IVec (Sh2 8 16384) 32) (x1 : FVec Ideal (Sh2 6 16384) .f32) (x2 : FVec Ideal (Sh2 15 8) .f32) (x3 : FVec Ideal (Sh2 9 8) .f32) (a : Fin 1) (l : Fin 16384) :
    k0_pay18 (F := Ideal) (k0_pay10 x1) (ix2 a l) = Xlane x0 x1 x2 x3 l ⟨23 + a.val, by have := a.isLt; omega⟩ := by
  obtain rfl : a = (0 : Fin 1) := Subsingleton.elim _ _
  refine Eq.trans ?_ ((Xlane_social1 x0 x1 x2 x3 l).symm.trans (congrArg (Xlane x0 x1 x2 x3 l) (Fin.ext rfl)))
  simp only [k0_pay18, k0_pay10, shapeCast_self]
  exact rowF x1 1 (by norm_num) _ l

theorem enc6 (x0 : IVec (Sh2 8 16384) 32) (x1 : FVec Ideal (Sh2 6 16384) .f32) (x2 : FVec Ideal (Sh2 15 8) .f32) (x3 : FVec Ideal (Sh2 9 8) .f32) (a : Fin 1) (l : Fin 16384) :
    k0_pay19 (F := Ideal) (k0_pay11 x1) (ix2 a l) = Xlane x0 x1 x2 x3 l ⟨24 + a.val, by have := a.isLt; omega⟩ := by
  obtain rfl : a = (0 : Fin 1) := Subsingleton.elim _ _
  refine Eq.trans ?_ ((Xlane_weight1 x0 x1 x2 x3 l).symm.trans (congrArg (Xlane x0 x1 x2 x3 l) (Fin.ext rfl)))
  simp only [k0_pay19, k0_pay11, shapeCast_self]
  refine (enc_scale_apply κ "inv_100" 0x3C23D70A#32 ((1 / 100 : ℝ) : EReal) rfl _ l).trans ?_
  exact congrArg (· * inv100) (rowF x1 2 (by norm_num) _ l)

theorem enc7 (x0 : IVec (Sh2 8 16384) 32) (x1 : FVec Ideal (Sh2 6 16384) .f32) (x2 : FVec Ideal (Sh2 15 8) .f32) (x3 : FVec Ideal (Sh2 9 8) .f32) (a : Fin 8) (l : Fin 16384) :
    k0_pay24 (F := Ideal) x2 (k0_pay20 (k0_pay5 (F := Ideal) x0)) (ix2 a l) = Xlane x0 x1 x2 x3 l ⟨25 + a.val, by have := a.isLt; omega⟩ := by
  refine Eq.trans ?_ (Xlane_breed2 x0 x1 x2 x3 l a).symm
  simp only [k0_pay24, k0_pay20, shapeCast_self]
  refine (enc_embed_apply (C := 15) (L := 16384) x2 _ broadcasts_S1x16384_S15x16384 iota_S15x16384_d0_w32
    bitsLt_bf16_f32 transposes_S15x8_p1_0_S8x15 dot_S8x15_S15x16384_S8x16384_1_0_0_1_n_n_wf a l).trans ?_
  exact congrArg (fun w => embK (fun c e => x2 (ix2 c e)) w a) (rowI x0 4 (by norm_num) _ l)

theorem enc8 (x0 : IVec (Sh2 8 16384) 32) (x1 : FVec Ideal (Sh2 6 16384) .f32) (x2 : FVec Ideal (Sh2 15 8) .f32) (x3 : FVec Ideal (Sh2 9 8) .f32) (a : Fin 3) (l : Fin 16384) :
    k0_pay25 (F := Ideal) (k0_pay5 (F := Ideal) x0) (ix2 a l) = Xlane x0 x1 x2 x3 l ⟨33 + a.val, by have := a.isLt; omega⟩ := by
  refine Eq.trans ?_ (Xlane_size2 x0 x1 x2 x3 l a).symm
  simp only [k0_pay25, shapeCast_self]
  refine (enc_onehot_apply (C := 3) (L := 16384) _ broadcasts_S1x16384_S3x16384 iota_S3x16384_d0_w32 a l).trans ?_
  exact congrArg (fun w => oh w a.val) (rowI x0 5 (by norm_num) _ l)

theorem enc9 (x0 : IVec (Sh2 8 16384) 32) (x1 : FVec Ideal (Sh2 6 16384) .f32) (x2 : FVec Ideal (Sh2 15 8) .f32) (x3 : FVec Ideal (Sh2 9 8) .f32) (a : Fin 3) (l : Fin 16384) :
    k0_pay26 (F := Ideal) (k0_pay5 (F := Ideal) x0) (ix2 a l) = Xlane x0 x1 x2 x3 l ⟨36 + a.val, by have := a.isLt; omega⟩ := by
  refine Eq.trans ?_ (Xlane_energy2 x0 x1 x2 x3 l a).symm
  simp only [k0_pay26, shapeCast_self]
  refine (enc_onehot_apply (C := 3) (L := 16384) _ broadcasts_S1x16384_S3x16384 iota_S3x16384_d0_w32 a l).trans ?_
  exact congrArg (fun w => oh w a.val) (rowI x0 6 (by norm_num) _ l)

theorem enc10 (x0 : IVec (Sh2 8 16384) 32) (x1 : FVec Ideal (Sh2 6 16384) .f32) (x2 : FVec Ideal (Sh2 15 8) .f32) (x3 : FVec Ideal (Sh2 9 8) .f32) (a : Fin 8) (l : Fin 16384) :
    k0_pay30 (F := Ideal) x3 (k0_pay27 (k0_pay5 (F := Ideal) x0)) (k0_pay28 (F := Ideal)) (k0_pay29 (F := Ideal)) (ix2 a l) = Xlane x0 x1 x2 x3 l ⟨39 + a.val, by have := a.isLt; omega⟩ := by
  refine Eq.trans ?_ (Xlane_temp2 x0 x1 x2 x3 l a).symm
  simp only [k0_pay30, k0_pay27, k0_pay28, k0_pay29, shapeCast_self]
  refine (enc_embed_apply (C := 9) (L := 16384) x3 _ broadcasts_S1x16384_S9x16384 iota_S9x16384_d0_w32
    bitsLt_bf16_f32 transposes_S9x8_p1_0_S8x9 dot_S8x9_S9x16384_S8x16384_1_0_0_1_n_n_wf a l).trans ?_
  exact congrArg (fun w => embK (fun c e => x3 (ix2 c e)) w a) (rowI x0 7 (by norm_num) _ l)

theorem enc11 (x0 : IVec (Sh2 8 16384) 32) (x1 : FVec Ideal (Sh2 6 16384) .f32) (x2 : FVec Ideal (Sh2 15 8) .f32) (x3 : FVec Ideal (Sh2 9 8) .f32) (a : Fin 1) (l : Fin 16384) :
    k0_pay31 (F := Ideal) (k0_pay21 (k0_pay6 (F := Ideal) x1)) (ix2 a l) = Xlane x0 x1 x2 x3 l ⟨47 + a.val, by have := a.isLt; omega⟩ := by
  obtain rfl : a = (0 : Fin 1) := Subsingleton.elim _ _
  refine Eq.trans ?_ ((Xlane_age2 x0 x1 x2 x3 l).symm.trans (congrArg (Xlane x0 x1 x2 x3 l) (Fin.ext rfl)))
  simp only [k0_pay31, k0_pay21, shapeCast_self]
  refine (enc_scale_apply κ "inv_15" 0x3D888889#32 ((1 / 15 : ℝ) : EReal) rfl _ l).trans ?_
  exact congrArg (· * inv15) (rowF x1 3 (by norm_num) _ l)

theorem enc12 (x0 : IVec (Sh2 8 16384) 32) (x1 : FVec Ideal (Sh2 6 16384) .f32) (x2 : FVec Ideal (Sh2 15 8) .f32) (x3 : FVec Ideal (Sh2 9 8) .f32) (a : Fin 1) (l : Fin 16384) :
    k0_pay32 (F := Ideal) (k0_pay22 (k0_pay6 (F := Ideal) x1)) (ix2 a l) = Xlane x0 x1 x2 x3 l ⟨48 + a.val, by have := a.isLt; omega⟩ := by
  obtain rfl : a = (0 : Fin 1) := Subsingleton.elim _ _
  refine Eq.trans ?_ ((Xlane_social2 x0 x1 x2 x3 l).symm.trans (congrArg (Xlane x0 x1 x2 x3 l) (Fin.ext rfl)))
  simp only [k0_pay32, k0_pay22, shapeCast_self]
  exact rowF x1 4 (by norm_num) _ l

theorem enc13 (x0 : IVec (Sh2 8 16384) 32) (x1 : FVec Ideal (Sh2 6 16384) .f32) (x2 : FVec Ideal (Sh2 15 8) .f32) (x3 : FVec Ideal (Sh2 9 8) .f32) (a : Fin 1) (l : Fin 16384) :
    k0_pay33 (F := Ideal) (k0_pay23 (k0_pay6 (F := Ideal) x1)) (ix2 a l) = Xlane x0 x1 x2 x3 l ⟨49 + a.val, by have := a.isLt; omega⟩ := by
  obtain rfl : a = (0 : Fin 1) := Subsingleton.elim _ _
  refine Eq.trans ?_ ((Xlane_weight2 x0 x1 x2 x3 l).symm.trans (congrArg (Xlane x0 x1 x2 x3 l) (Fin.ext rfl)))
  simp only [k0_pay33, k0_pay23, shapeCast_self]
  refine (enc_scale_apply κ "inv_100" 0x3C23D70A#32 ((1 / 100 : ℝ) : EReal) rfl _ l).trans ?_
  exact congrArg (· * inv100) (rowF x1 5 (by norm_num) _ l)

theorem pay34_apply (X : FVec Ideal (Sh2 50 16384) .f32) (x4 : FVec Ideal (Sh2 50 128) .f32) (x5 : FVec Ideal (Sh2 128 1) .f32)
    (j : Fin 128) (l : Fin 16384) :
    k0_pay34 (F := Ideal) X x4 x5 (ix2 j l) = (∑ k : Fin 50, x4 (ix2 k j) * X (ix2 k l)) + x5 (ix2 j (0 : Fin 1)) :=
  (dense_apply (K := 50) (J := 128) (L := 16384) dot_S128x50_S50x16384_S128x16384_1_0_0_1_n_n
    (encDims_rank dot_S128x50_S50x16384_S128x16384_1_0_0_1_n_n_wf) (encDims_size dot_S128x50_S50x16384_S128x16384_1_0_0_1_n_n_wf) (encDims_l0 dot_S128x50_S50x16384_S128x16384_1_0_0_1_n_n_wf) (encDims_l1 dot_S128x50_S50x16384_S128x16384_1_0_0_1_n_n_wf) (encDims_r0 dot_S128x50_S50x16384_S128x16384_1_0_0_1_n_n_wf) (encDims_r1 dot_S128x50_S50x16384_S128x16384_1_0_0_1_n_n_wf)
    none x4 bitsLt_bf16_f32 transposes_S50x128_p1_0_S128x50 (truncf .bf16 X bitsLt_bf16_f32) x5 shapeCasts_S128x1_S128x1
    broadcasts_S128x1_S128x16384 j l).trans rfl

theorem pay36_apply (X : FVec Ideal (Sh2 50 16384) .f32) (x4 : FVec Ideal (Sh2 50 128) .f32) (x5 : FVec Ideal (Sh2 128 1) .f32)
    (j : Fin 128) :
    k0_pay36 (F := Ideal) X x4 x5 (ix2 j (0 : Fin 1)) = ∑ l : Fin 16384, k0_pay34 (F := Ideal) X x4 x5 (ix2 j l) :=
  laneSum_apply (J := 128) (L := 16384) (k0_pay34 (F := Ideal) X x4 x5) reduces_S128x16384_S128 (.inl rfl) rfl shapeCasts_S128_S128x1 j

theorem pay1_apply (acc v : FVec Ideal (Sh2 128 1) .f32) (j : Fin 128) :
    k0_pay1 (F := Ideal) (k0_pay35 (F := Ideal) acc) v (ix2 j (0 : Fin 1)) = acc (ix2 j (0 : Fin 1)) + v (ix2 j (0 : Fin 1)) :=
  accAdd_apply (J := 128) acc shapeCasts_S128x1_S128x1 v (ix2 j (0 : Fin 1))

theorem pay2_apply (h : FVec Ideal (Sh2 128 16384) .f32) (b acc : FVec Ideal (Sh2 128 1) .f32) (j : Fin 128) :
    k0_pay2 (F := Ideal) h b acc (ix2 j (0 : Fin 1))
      = acc (ix2 j (0 : Fin 1)) + ∑ l : Fin 16384, (h (ix2 j l) - b (ix2 j (0 : Fin 1))) * (h (ix2 j l) - b (ix2 j (0 : Fin 1))) := by
  refine (accAdd_apply (J := 128) acc shapeCasts_S128x1_S128x1 _ (ix2 j (0 : Fin 1))).trans ?_
  exact congrArg (acc (ix2 j (0 : Fin 1)) + ·) (laneSumSq_apply (J := 128) (L := 16384) h b shapeCasts_S128x1_S128x1
    broadcasts_S128x1_S128x16384 reduces_S128x16384_S128 (.inl rfl) rfl shapeCasts_S128_S128x1 j)

theorem pay3_apply (i : S128x1.Idx) : k0_pay3 (F := Ideal) i = 0 := Ideal.ofBits_zero_f32
theorem pay4_apply (i : S128x1.Idx) : k0_pay4 (F := Ideal) i = 0 := Ideal.ofBits_zero_f32

end R0

end Cert.KernelIdeal.Hand

end
-- ==== Proof.Reg0Val.lean ====
import proofs.«412578_j66537633349983_3_alg».proof.Proof.Reg0
import proofs.«412578_j66537633349983_3_alg».proof.Proof.Reg0Enc
import proofs.«412578_j66537633349983_3_alg».proof.Proof.EncOps
import proofs.«412578_j66537633349983_3_alg».proof.Proof.LayerOps
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

namespace R0

def bsum (x0 : IVec (Sh2 8 16384) 32) (x1 : FVec Ideal (Sh2 6 16384) .f32) (x2 : FVec Ideal (Sh2 15 8) .f32)
    (x3 : FVec Ideal (Sh2 9 8) .f32) (x4 : FVec Ideal (Sh2 50 128) .f32) (x5 : FVec Ideal (Sh2 128 1) .f32) (j : Fin 128) : EReal :=
  ∑ l : Fin 16384, preK (Xlane x0 x1 x2 x3) (mat x4) (col x5) l j

def bsq (x0 : IVec (Sh2 8 16384) 32) (x1 : FVec Ideal (Sh2 6 16384) .f32) (x2 : FVec Ideal (Sh2 15 8) .f32)
    (x3 : FVec Ideal (Sh2 9 8) .f32) (x4 : FVec Ideal (Sh2 50 128) .f32) (x5 : FVec Ideal (Sh2 128 1) .f32) (j : Fin 128) : EReal :=
  ∑ l : Fin 16384, (preK (Xlane x0 x1 x2 x3) (mat x4) (col x5) l j - col x5 j) * (preK (Xlane x0 x1 x2 x3) (mat x4) (col x5) l j - col x5 j)

theorem hz2 : (![0, 0] : Fin 2 → Nat) = fun _ => 0 := funext fun a => by fin_cases a <;> rfl

abbrev L14 (x0 : Vec Ideal S8x16384 .i32) (x1 : Vec Ideal S6x16384 .f32) (x2 : Vec Ideal S15x8 .f32) (x3 : Vec Ideal S9x8 .f32) :
    List (View.Piece (Elt Ideal) S50x16384 .f32) :=
  [⟨Rect.unit (s := S50x16384) ![49, 0] S1x16384.size inb_S50x16384_S1x16384_49_0, k0_pay33 (F := Ideal) (k0_pay23 (k0_pay6 (F := Ideal) x1))⟩,
      ⟨Rect.unit (s := S50x16384) ![48, 0] S1x16384.size inb_S50x16384_S1x16384_48_0, k0_pay32 (F := Ideal) (k0_pay22 (k0_pay6 (F := Ideal) x1))⟩,
      ⟨Rect.unit (s := S50x16384) ![47, 0] S1x16384.size inb_S50x16384_S1x16384_47_0, k0_pay31 (F := Ideal) (k0_pay21 (k0_pay6 (F := Ideal) x1))⟩,
      ⟨Rect.unit (s := S50x16384) ![39, 0] S8x16384.size inb_S50x16384_S8x16384_39_0, k0_pay30 (F := Ideal) x3 (k0_pay27 (k0_pay5 (F := Ideal) x0)) (k0_pay28 (F := Ideal)) (k0_pay29 (F := Ideal))⟩,
      ⟨Rect.unit (s := S50x16384) ![36, 0] S3x16384.size inb_S50x16384_S3x16384_36_0, k0_pay26 (F := Ideal) (k0_pay5 (F := Ideal) x0)⟩,
      ⟨Rect.unit (s := S50x16384) ![33, 0] S3x16384.size inb_S50x16384_S3x16384_33_0, k0_pay25 (F := Ideal) (k0_pay5 (F := Ideal) x0)⟩,
      ⟨Rect.unit (s := S50x16384) ![25, 0] S8x16384.size inb_S50x16384_S8x16384_25_0, k0_pay24 (F := Ideal) x2 (k0_pay20 (k0_pay5 (F := Ideal) x0))⟩,
      ⟨Rect.unit (s := S50x16384) ![24, 0] S1x16384.size inb_S50x16384_S1x16384_24_0, k0_pay19 (F := Ideal) (k0_pay11 x1)⟩,
      ⟨Rect.unit (s := S50x16384) ![23, 0] S1x16384.size inb_S50x16384_S1x16384_23_0, k0_pay18 (F := Ideal) (k0_pay10 x1)⟩,
      ⟨Rect.unit (s := S50x16384) ![22, 0] S1x16384.size inb_S50x16384_S1x16384_22_0, k0_pay17 (F := Ideal) (k0_pay9 x1)⟩,
      ⟨Rect.unit (s := S50x16384) ![14, 0] S8x16384.size inb_S50x16384_S8x16384_14_0, k0_pay16 (F := Ideal) x3 (k0_pay8 (F := Ideal) x0)⟩,
      ⟨Rect.unit (s := S50x16384) ![11, 0] S3x16384.size inb_S50x16384_S3x16384_11_0, k0_pay15 (F := Ideal) (k0_pay7 (F := Ideal) x0)⟩,
      ⟨Rect.unit (s := S50x16384) ![8, 0] S3x16384.size inb_S50x16384_S3x16384_8_0, k0_pay14 (F := Ideal) (k0_pay13 x0)⟩,
      ⟨Rect.unit (s := S50x16384) ![0, 0] S8x16384.size inb_S50x16384_S8x16384_0_0, k0_pay12 (F := Ideal) x0 x2⟩]

theorem scratch_apply (v : View sig .tc .vmem S50x16384 .f32) (x0 : Vec Ideal S8x16384 .i32) (x1 : Vec Ideal S6x16384 .f32)
    (x2 : Vec Ideal S15x8 .f32) (x3 : Vec Ideal S9x8 .f32) (k : Fin 50) (l : Fin 16384) :
    v.readCov (L14 x0 x1 x2 x3) (Rect.unit (s := S50x16384) ![0, 0] S50x16384.size inb_S50x16384_S50x16384_0_0).toLoadRect (ix2 k l)
      = Xlane x0 x1 x2 x3 l k := by
  have hidx : (Rect.unit (s := S50x16384) ![0, 0] S50x16384.size inb_S50x16384_S50x16384_0_0).toLoadRect.idx (ix2 k l) = ix2 k l :=
    funext fun a => Fin.ext (by
      match a with
      | ⟨0, _⟩ => show 0 + 1 * k.val = k.val; omega
      | ⟨1, _⟩ => show 0 + 1 * l.val = l.val; omega)
  rw [View.readCov_eq_canon']
  refine (congrArg (View.canon (L14 x0 x1 x2 x3)) hidx).trans ?_
  exact enc_canon_apply (L := 16384) x0 x1 x2 x3
    (k0_pay12 (F := Ideal) x0 x2)
    (k0_pay14 (F := Ideal) (k0_pay13 x0))
    (k0_pay15 (F := Ideal) (k0_pay7 (F := Ideal) x0))
    (k0_pay16 (F := Ideal) x3 (k0_pay8 (F := Ideal) x0))
    (k0_pay17 (F := Ideal) (k0_pay9 x1))
    (k0_pay18 (F := Ideal) (k0_pay10 x1))
    (k0_pay19 (F := Ideal) (k0_pay11 x1))
    (k0_pay24 (F := Ideal) x2 (k0_pay20 (k0_pay5 (F := Ideal) x0)))
    (k0_pay25 (F := Ideal) (k0_pay5 (F := Ideal) x0))
    (k0_pay26 (F := Ideal) (k0_pay5 (F := Ideal) x0))
    (k0_pay30 (F := Ideal) x3 (k0_pay27 (k0_pay5 (F := Ideal) x0)) (k0_pay28 (F := Ideal)) (k0_pay29 (F := Ideal)))
    (k0_pay31 (F := Ideal) (k0_pay21 (k0_pay6 (F := Ideal) x1)))
    (k0_pay32 (F := Ideal) (k0_pay22 (k0_pay6 (F := Ideal) x1)))
    (k0_pay33 (F := Ideal) (k0_pay23 (k0_pay6 (F := Ideal) x1)))
    inb_S50x16384_S8x16384_0_0 inb_S50x16384_S3x16384_8_0 inb_S50x16384_S3x16384_11_0 inb_S50x16384_S8x16384_14_0 inb_S50x16384_S1x16384_22_0 inb_S50x16384_S1x16384_23_0 inb_S50x16384_S1x16384_24_0 inb_S50x16384_S8x16384_25_0 inb_S50x16384_S3x16384_33_0 inb_S50x16384_S3x16384_36_0 inb_S50x16384_S8x16384_39_0 inb_S50x16384_S1x16384_47_0 inb_S50x16384_S1x16384_48_0 inb_S50x16384_S1x16384_49_0
    (enc0 x0 x1 x2 x3) (enc1 x0 x1 x2 x3) (enc2 x0 x1 x2 x3) (enc3 x0 x1 x2 x3) (enc4 x0 x1 x2 x3) (enc5 x0 x1 x2 x3) (enc6 x0 x1 x2 x3) (enc7 x0 x1 x2 x3) (enc8 x0 x1 x2 x3) (enc9 x0 x1 x2 x3) (enc10 x0 x1 x2 x3) (enc11 x0 x1 x2 x3) (enc12 x0 x1 x2 x3) (enc13 x0 x1 x2 x3) k l

theorem pre_scratch (v : View sig .tc .vmem S50x16384 .f32) (x0 : Vec Ideal S8x16384 .i32) (x1 : Vec Ideal S6x16384 .f32)
    (x2 : Vec Ideal S15x8 .f32) (x3 : Vec Ideal S9x8 .f32) (x4 : Vec Ideal S50x128 .f32) (x5 : Vec Ideal S128x1 .f32)
    (j : Fin 128) (l : Fin 16384) :
    k0_pay34 (F := Ideal) (v.readCov (L14 x0 x1 x2 x3) (Rect.unit (s := S50x16384) ![0, 0] S50x16384.size inb_S50x16384_S50x16384_0_0).toLoadRect) x4 x5 (ix2 j l)
      = preK (Xlane x0 x1 x2 x3) (mat x4) (col x5) l j := by
  refine (pay34_apply _ x4 x5 j l).trans ?_
  show _ = (∑ k : Fin 50, mat x4 k j * Xlane x0 x1 x2 x3 l k) + col x5 j
  exact congrArg (· + x5 (ix2 j (0 : Fin 1))) (Finset.sum_congr rfl fun k _ => congrArg (x4 (ix2 k j) * ·) (scratch_apply v x0 x1 x2 x3 k l))

section
variable (c : Dev nD) (i : grid0.Coords) (arg2 : Memref sig .tc .vmem S8x16384 .i32) (harg2 : arg2.IsWhole) (arg3 : Memref sig .tc .vmem S6x16384 .f32) (harg3 : arg3.IsWhole) (arg4 : Memref sig .tc .vmem S15x8 .f32) (harg4 : arg4.IsWhole) (arg5 : Memref sig .tc .vmem S9x8 .f32) (harg5 : arg5.IsWhole) (arg6 : Memref sig .tc .vmem S50x128 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S50x16384 .f32) (harg10 : arg10.IsWhole)

theorem out_A_6_apply (hc0 : cond0_0 i)
    (x0 : Vec Ideal S8x16384 .i32) (x1 : Vec Ideal S6x16384 .f32) (x2 : Vec Ideal S15x8 .f32) (x3 : Vec Ideal S9x8 .f32) (x4 : Vec Ideal S50x128 .f32) (x5 : Vec Ideal S128x1 .f32) (j : Fin 128) :
    out0_A_6 (F := Ideal) c i arg2 harg2 arg3 harg3 arg4 harg4 arg5 harg5 arg6 harg6 arg7 harg7 arg8 harg8 arg9 harg9 arg10 harg10 hc0 x0 x1 x2 x3 x4 x5 (ix2 j (0 : Fin 1)) = 0 + bsum x0 x1 x2 x3 x4 x5 j := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S128x1) hz2, View.readCov_unit_zero (S := S128x1) _ hz2]
  simp only [View.readAt_eq_ld, harg2.read_unread, harg3.read_unread, harg4.read_unread, harg5.read_unread, harg6.read_unread,
    harg7.read_unread, harg8.read_unread, harg9.read_unread, View.ld_unit_zero (S := S8x16384) hz2, View.ld_unit_zero (S := S6x16384) hz2,
    View.ld_unit_zero (S := S15x8) hz2, View.ld_unit_zero (S := S9x8) hz2, View.ld_unit_zero (S := S50x128) hz2,
    View.ld_unit_zero (S := S128x1) hz2]
  refine (pay1_apply (k0_pay3 (F := Ideal)) _ j).trans ?_
  refine congrArg₂ (· + ·) (pay3_apply _) ?_
  refine (pay36_apply _ x4 x5 j).trans ?_
  unfold bsum
  exact Finset.sum_congr rfl fun l _ => pre_scratch arg10.view x0 x1 x2 x3 x4 x5 j l

theorem out_A_7_apply (hc0 : cond0_0 i)
    (x0 : Vec Ideal S8x16384 .i32) (x1 : Vec Ideal S6x16384 .f32) (x2 : Vec Ideal S15x8 .f32) (x3 : Vec Ideal S9x8 .f32) (x4 : Vec Ideal S50x128 .f32) (x5 : Vec Ideal S128x1 .f32) (j : Fin 128) :
    out0_A_7 (F := Ideal) c i arg2 harg2 arg3 harg3 arg4 harg4 arg5 harg5 arg6 harg6 arg7 harg7 arg8 harg8 arg9 harg9 arg10 harg10 hc0 x0 x1 x2 x3 x4 x5 (ix2 j (0 : Fin 1)) = 0 + bsq x0 x1 x2 x3 x4 x5 j := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S128x1) hz2, View.readCov_unit_zero (S := S128x1) _ hz2]
  simp only [View.readAt_eq_ld, harg2.read_unread, harg3.read_unread, harg4.read_unread, harg5.read_unread, harg6.read_unread,
    harg7.read_unread, harg8.read_unread, harg9.read_unread, View.ld_unit_zero (S := S8x16384) hz2, View.ld_unit_zero (S := S6x16384) hz2,
    View.ld_unit_zero (S := S15x8) hz2, View.ld_unit_zero (S := S9x8) hz2, View.ld_unit_zero (S := S50x128) hz2,
    View.ld_unit_zero (S := S128x1) hz2]
  refine (pay2_apply _ x5 (k0_pay4 (F := Ideal)) j).trans ?_
  refine congrArg₂ (· + ·) (pay4_apply _) ?_
  unfold bsq
  refine Finset.sum_congr rfl fun l _ => ?_
  have h := pre_scratch arg10.view x0 x1 x2 x3 x4 x5 j l
  exact congrArg (fun z : EReal => (z - x5 (ix2 j (0 : Fin 1))) * (z - x5 (ix2 j (0 : Fin 1)))) h

theorem out_B_6_apply (hc0 : ¬cond0_0 i)
    (x0 : Vec Ideal S8x16384 .i32) (x1 : Vec Ideal S6x16384 .f32) (x2 : Vec Ideal S15x8 .f32) (x3 : Vec Ideal S9x8 .f32) (x4 : Vec Ideal S50x128 .f32) (x5 : Vec Ideal S128x1 .f32) (xo6 xo7 : Vec Ideal S128x1 .f32) (j : Fin 128) :
    out0_B_6 (F := Ideal) c i arg2 harg2 arg3 harg3 arg4 harg4 arg5 harg5 arg6 harg6 arg7 harg7 arg8 harg8 arg9 harg9 arg10 harg10 hc0 x0 x1 x2 x3 x4 x5 xo6 xo7 (ix2 j (0 : Fin 1)) = xo6 (ix2 j (0 : Fin 1)) + bsum x0 x1 x2 x3 x4 x5 j := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xo6 xo7)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S8x16384) hz2, View.ld_unit_zero (S := S6x16384) hz2,
    View.ld_unit_zero (S := S15x8) hz2, View.ld_unit_zero (S := S9x8) hz2, View.ld_unit_zero (S := S50x128) hz2,
    View.ld_unit_zero (S := S128x1) hz2]
  refine (pay1_apply xo6 _ j).trans ?_
  refine congrArg (xo6 (ix2 j (0 : Fin 1)) + ·) ?_
  refine (pay36_apply _ x4 x5 j).trans ?_
  unfold bsum
  exact Finset.sum_congr rfl fun l _ => pre_scratch arg10.view x0 x1 x2 x3 x4 x5 j l

theorem out_B_7_apply (hc0 : ¬cond0_0 i)
    (x0 : Vec Ideal S8x16384 .i32) (x1 : Vec Ideal S6x16384 .f32) (x2 : Vec Ideal S15x8 .f32) (x3 : Vec Ideal S9x8 .f32) (x4 : Vec Ideal S50x128 .f32) (x5 : Vec Ideal S128x1 .f32) (xo6 xo7 : Vec Ideal S128x1 .f32) (j : Fin 128) :
    out0_B_7 (F := Ideal) c i arg2 harg2 arg3 harg3 arg4 harg4 arg5 harg5 arg6 harg6 arg7 harg7 arg8 harg8 arg9 harg9 arg10 harg10 hc0 x0 x1 x2 x3 x4 x5 xo6 xo7 (ix2 j (0 : Fin 1)) = xo7 (ix2 j (0 : Fin 1)) + bsq x0 x1 x2 x3 x4 x5 j := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 xo6 xo7)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S8x16384) hz2, View.ld_unit_zero (S := S6x16384) hz2,
    View.ld_unit_zero (S := S15x8) hz2, View.ld_unit_zero (S := S9x8) hz2, View.ld_unit_zero (S := S50x128) hz2,
    View.ld_unit_zero (S := S128x1) hz2]
  refine (pay2_apply _ x5 xo7 j).trans ?_
  refine congrArg (xo7 (ix2 j (0 : Fin 1)) + ·) ?_
  unfold bsq
  refine Finset.sum_congr rfl fun l _ => ?_
  have h := pre_scratch arg10.view x0 x1 x2 x3 x4 x5 j l
  exact congrArg (fun z : EReal => (z - x5 (ix2 j (0 : Fin 1))) * (z - x5 (ix2 j (0 : Fin 1)))) h

end

def ptS (c : Dev nD) (j : Fin 128) (n : ℕ) : EReal :=
  if h : n < cfg0.N then bsum (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) j else 0

def ptQ (c : Dev nD) (j : Fin 128) (n : ℕ) : EReal :=
  if h : n < cfg0.N then bsq (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) j else 0

theorem outs6_eq (c : Dev nD) (j : Fin 128) : ∀ (n : ℕ) (h : n < cfg0.N),
    (outsAt0 V c n h).1 (ix2 j (0 : Fin 1)) = ∑ s ∈ Finset.range (n % 32 + 1), ptS V c j (32 * (n / 32) + s)
  | 0, h => by
    rw [outsAt0_A V c ⟨0, h⟩ (Nat.zero_mod _)]
    dsimp only
    refine (out_A_6_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) j).trans ?_
    rw [show (0 % 32 + 1) = 1 from rfl, Finset.sum_range_one, show 32 * (0 / 32) + 0 = 0 from rfl]
    unfold ptS
    rw [dif_pos h, zero_add]
  | n + 1, h => by
    have hN : n + 1 < 64 := lt_of_lt_of_eq h (show cfg0.N = 64 from N_0)
    by_cases h0 : (n + 1) % 32 = 0
    · rw [outsAt0_A V c ⟨n + 1, h⟩ h0]
      dsimp only
      refine (out_A_6_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) ((hcond0_0 ⟨n + 1, h⟩).mpr h0) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) j).trans ?_
      rw [h0, Finset.sum_range_one, show 32 * ((n + 1) / 32) + 0 = n + 1 from by omega]
      unfold ptS
      rw [dif_pos h, zero_add]
    · have hB : ¬(⟨n + 1, h⟩ : Fin cfg0.N).val % 32 = 0 := h0
      rw [outsAt0_B V c ⟨n + 1, h⟩ hB]
      dsimp only
      refine (out_B_6_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).1 (outsAt0 V c n (Nat.lt_of_succ_lt h)).2 j).trans ?_
      rw [outs6_eq c j n (Nat.lt_of_succ_lt h), show (n + 1) % 32 = n % 32 + 1 from by omega, show (n + 1) / 32 = n / 32 from by omega,
        Finset.sum_range_succ _ (n % 32 + 1), show 32 * (n / 32) + (n % 32 + 1) = n + 1 from by omega]
      refine congrArg (_ + ·) ?_
      unfold ptS
      rw [dif_pos h]

theorem outs7_eq (c : Dev nD) (j : Fin 128) : ∀ (n : ℕ) (h : n < cfg0.N),
    (outsAt0 V c n h).2 (ix2 j (0 : Fin 1)) = ∑ s ∈ Finset.range (n % 32 + 1), ptQ V c j (32 * (n / 32) + s)
  | 0, h => by
    rw [outsAt0_A V c ⟨0, h⟩ (Nat.zero_mod _)]
    dsimp only
    refine (out_A_7_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) j).trans ?_
    rw [show (0 % 32 + 1) = 1 from rfl, Finset.sum_range_one, show 32 * (0 / 32) + 0 = 0 from rfl]
    unfold ptQ
    rw [dif_pos h, zero_add]
  | n + 1, h => by
    have hN : n + 1 < 64 := lt_of_lt_of_eq h (show cfg0.N = 64 from N_0)
    by_cases h0 : (n + 1) % 32 = 0
    · rw [outsAt0_A V c ⟨n + 1, h⟩ h0]
      dsimp only
      refine (out_A_7_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) ((hcond0_0 ⟨n + 1, h⟩).mpr h0) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) j).trans ?_
      rw [h0, Finset.sum_range_one, show 32 * ((n + 1) / 32) + 0 = n + 1 from by omega]
      unfold ptQ
      rw [dif_pos h, zero_add]
    · have hB : ¬(⟨n + 1, h⟩ : Fin cfg0.N).val % 32 = 0 := h0
      rw [outsAt0_B V c ⟨n + 1, h⟩ hB]
      dsimp only
      refine (out_B_7_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).1 (outsAt0 V c n (Nat.lt_of_succ_lt h)).2 j).trans ?_
      rw [outs7_eq c j n (Nat.lt_of_succ_lt h), show (n + 1) % 32 = n % 32 + 1 from by omega, show (n + 1) / 32 = n / 32 from by omega,
        Finset.sum_range_succ _ (n % 32 + 1), show 32 * (n / 32) + (n % 32 + 1) = n + 1 from by omega]
      refine congrArg (_ + ·) ?_
      unfold ptQ
      rw [dif_pos h]

def tot6 (c : Dev nD) (r : Fin 256) : EReal :=
  ∑ s ∈ Finset.range 32, ptS V c ⟨r.val % 128, Nat.mod_lt _ (by norm_num)⟩ (32 * (r.val / 128) + s)
def tot7 (c : Dev nD) (r : Fin 256) : EReal :=
  ∑ s ∈ Finset.range 32, ptQ V c ⟨r.val % 128, Nat.mod_lt _ (by norm_num)⟩ (32 * (r.val / 128) + s)

def G6 (c : Dev nD) : Buf (Elt Ideal) ((c : Thread nD τ).loc main_v26_0) := fun i => tot6 V c (i 0)
def G7 (c : Dev nD) : Buf (Elt Ideal) ((c : Thread nD τ).loc main_v26_1) := fun i => tot7 V c (i 0)

theorem index0_6 : ∀ t : Fin cfg0.N, win0_6.index t 0 = t.val / 32 ∧ win0_6.index t 1 = 0 :=
  (by decide +kernel : ∀ t : Fin grid0.N, win0_6.index t 0 = t.val / 32 ∧ win0_6.index t 1 = 0)
theorem index0_7 : ∀ t : Fin cfg0.N, win0_7.index t 0 = t.val / 32 ∧ win0_7.index t 1 = 0 :=
  (by decide +kernel : ∀ t : Fin grid0.N, win0_7.index t 0 = t.val / 32 ∧ win0_7.index t 1 = 0)

theorem flushed6_eq (c : Dev nD) (t : Fin cfg0.N) (hf : (cfg0.win 6).flush t = true) :
    (dat0 V c).flushed 6 t = ((cfg0.win 6).blk t).view.read (Elt Ideal) (G6 V c) := by
  have hN : t.val < 64 := lt_of_lt_of_eq t.isLt (show cfg0.N = 64 from N_0)
  have h31 : t.val % 32 = 31 := (flush0_6 t).mp hf
  have hi := index0_6 t
  show (cfg0.win 6).cut (grid0.coords t) ((dat0 V c).after 6 t) = _
  rw [after0_6]
  funext y
  obtain ⟨j, z, rfl⟩ : ∃ (j : Fin 128) (z : Fin 1), y = ix2 j z := ⟨y 0, y 1, eq_ix2 y⟩
  obtain rfl : z = (0 : Fin 1) := Subsingleton.elim _ _
  rw [View.read_apply]
  show (outsAt0 V c t.val t.isLt).1 (ix2 j (0 : Fin 1)) = G6 V c _
  rw [outs6_eq V c j t.val t.isLt, h31]
  unfold G6 tot6
  have hr : (((((cfg0.win 6).blk t).view.emb (ix2 j (0 : Fin 1))) 0 : Fin 256) : ℕ) = 128 * (t.val / 32) + j.val := by
    show win0_6.index t 0 * 128 + 1 * j.val = 128 * (t.val / 32) + j.val
    rw [hi.1]; omega
  have hj := j.isLt
  have e1 : (128 * (t.val / 32) + j.val) % 128 = j.val := by omega
  have e2 : (128 * (t.val / 32) + j.val) / 128 = t.val / 32 := by omega
  refine Finset.sum_congr rfl fun s _ => ?_
  have ej : (⟨(((((cfg0.win 6).blk t).view.emb (ix2 j (0 : Fin 1))) 0 : Fin 256) : ℕ) % 128, Nat.mod_lt _ (by norm_num)⟩ : Fin 128) = j :=
    Fin.ext (by show _ % 128 = j.val; rw [hr, e1])
  rw [ej, hr, e2]

theorem final6 (c : Dev nD) : (dat0 V c).arrAt 6 cfg0.N = G6 V c :=
  (dat0 V c).arrAt_eq_of_cover 6 (G6 V c) (flushed6_eq V c) fun i => by
    have h0 : (i 0 : Nat) < 256 := (i 0).isLt
    have h1 : (i 1 : Nat) < 1 := (i 1).isLt
    have hq : (i 0 : Nat) / 128 < 2 := by omega
    obtain ⟨tq, htq⟩ : ∃ tq : Fin cfg0.N, tq.val = 32 * ((i 0 : Nat) / 128) + 31 :=
      ⟨⟨32 * ((i 0 : Nat) / 128) + 31, by rw [show cfg0.N = 64 from N_0]; omega⟩, rfl⟩
    refine ⟨tq, (flush0_6 tq).mpr (by rw [htq]; omega), ?_⟩
    have hi := index0_6 tq
    show i ∈ ((View.whole main_v26_0).slice (win0_6.rect tq)).set
    rw [View.set_slice_whole, Rect.mem_set_unit]
    intro a
    match a with
    | ⟨0, _⟩ =>
      show win0_6.index tq 0 * 128 ≤ (i 0 : Nat) ∧ (i 0 : Nat) < win0_6.index tq 0 * 128 + 128
      rw [hi.1, htq]
      omega
    | ⟨1, _⟩ =>
      show win0_6.index tq 1 * 1 ≤ (i 1 : Nat) ∧ (i 1 : Nat) < win0_6.index tq 1 * 1 + 1
      rw [hi.2]; omega

theorem flushed7_eq (c : Dev nD) (t : Fin cfg0.N) (hf : (cfg0.win 7).flush t = true) :
    (dat0 V c).flushed 7 t = ((cfg0.win 7).blk t).view.read (Elt Ideal) (G7 V c) := by
  have hN : t.val < 64 := lt_of_lt_of_eq t.isLt (show cfg0.N = 64 from N_0)
  have h31 : t.val % 32 = 31 := (flush0_7 t).mp hf
  have hi := index0_7 t
  show (cfg0.win 7).cut (grid0.coords t) ((dat0 V c).after 7 t) = _
  rw [after0_7]
  funext y
  obtain ⟨j, z, rfl⟩ : ∃ (j : Fin 128) (z : Fin 1), y = ix2 j z := ⟨y 0, y 1, eq_ix2 y⟩
  obtain rfl : z = (0 : Fin 1) := Subsingleton.elim _ _
  rw [View.read_apply]
  show (outsAt0 V c t.val t.isLt).2 (ix2 j (0 : Fin 1)) = G7 V c _
  rw [outs7_eq V c j t.val t.isLt, h31]
  unfold G7 tot7
  have hr : (((((cfg0.win 7).blk t).view.emb (ix2 j (0 : Fin 1))) 0 : Fin 256) : ℕ) = 128 * (t.val / 32) + j.val := by
    show win0_7.index t 0 * 128 + 1 * j.val = 128 * (t.val / 32) + j.val
    rw [hi.1]; omega
  have hj := j.isLt
  have e1 : (128 * (t.val / 32) + j.val) % 128 = j.val := by omega
  have e2 : (128 * (t.val / 32) + j.val) / 128 = t.val / 32 := by omega
  refine Finset.sum_congr rfl fun s _ => ?_
  have ej : (⟨(((((cfg0.win 7).blk t).view.emb (ix2 j (0 : Fin 1))) 0 : Fin 256) : ℕ) % 128, Nat.mod_lt _ (by norm_num)⟩ : Fin 128) = j :=
    Fin.ext (by show _ % 128 = j.val; rw [hr, e1])
  rw [ej, hr, e2]

theorem final7 (c : Dev nD) : (dat0 V c).arrAt 7 cfg0.N = G7 V c :=
  (dat0 V c).arrAt_eq_of_cover 7 (G7 V c) (flushed7_eq V c) fun i => by
    have h0 : (i 0 : Nat) < 256 := (i 0).isLt
    have h1 : (i 1 : Nat) < 1 := (i 1).isLt
    have hq : (i 0 : Nat) / 128 < 2 := by omega
    obtain ⟨tq, htq⟩ : ∃ tq : Fin cfg0.N, tq.val = 32 * ((i 0 : Nat) / 128) + 31 :=
      ⟨⟨32 * ((i 0 : Nat) / 128) + 31, by rw [show cfg0.N = 64 from N_0]; omega⟩, rfl⟩
    refine ⟨tq, (flush0_7 tq).mpr (by rw [htq]; omega), ?_⟩
    have hi := index0_7 tq
    show i ∈ ((View.whole main_v26_1).slice (win0_7.rect tq)).set
    rw [View.set_slice_whole, Rect.mem_set_unit]
    intro a
    match a with
    | ⟨0, _⟩ =>
      show win0_7.index tq 0 * 128 ≤ (i 0 : Nat) ∧ (i 0 : Nat) < win0_7.index tq 0 * 128 + 128
      rw [hi.1, htq]
      omega
    | ⟨1, _⟩ =>
      show win0_7.index tq 1 * 1 ≤ (i 1 : Nat) ∧ (i 1 : Nat) < win0_7.index tq 1 * 1 + 1
      rw [hi.2]; omega

theorem index0_0 : ∀ t : Fin cfg0.N, win0_0.index t 0 = 0 ∧ win0_0.index t 1 = t.val :=
  (by decide +kernel : ∀ t : Fin grid0.N, win0_0.index t 0 = 0 ∧ win0_0.index t 1 = t.val)

theorem iblk0_0_apply (c : Dev nD) (t : Fin cfg0.N) (a : Fin 8) (b : Fin 16384) :
    iblk0 V c 0 t (ix2 a b) = V c main_v8 (ix2 a (⟨16384 * t.val + b.val, by
      have := b.isLt; have := lt_of_lt_of_eq t.isLt (show cfg0.N = 64 from N_0); omega⟩ : Fin 1048576)) := by
  have hi := index0_0 t
  unfold iblk0
  rw [View.read_apply]
  show V c main_v8 _ = V c main_v8 _
  congr 1
  funext ax
  apply Fin.ext
  match ax with
  | ⟨0, _⟩ => show win0_0.index t 0 * 8 + 1 * a.val = a.val; rw [hi.1]; omega
  | ⟨1, _⟩ => show win0_0.index t 1 * 16384 + 1 * b.val = 16384 * t.val + b.val; rw [hi.2]; omega

theorem index0_1 : ∀ t : Fin cfg0.N, win0_1.index t 0 = 0 ∧ win0_1.index t 1 = t.val :=
  (by decide +kernel : ∀ t : Fin grid0.N, win0_1.index t 0 = 0 ∧ win0_1.index t 1 = t.val)

theorem iblk0_1_apply (c : Dev nD) (t : Fin cfg0.N) (a : Fin 6) (b : Fin 16384) :
    iblk0 V c 1 t (ix2 a b) = V c main_v15 (ix2 a (⟨16384 * t.val + b.val, by
      have := b.isLt; have := lt_of_lt_of_eq t.isLt (show cfg0.N = 64 from N_0); omega⟩ : Fin 1048576)) := by
  have hi := index0_1 t
  unfold iblk0
  rw [View.read_apply]
  show V c main_v15 _ = V c main_v15 _
  congr 1
  funext ax
  apply Fin.ext
  match ax with
  | ⟨0, _⟩ => show win0_1.index t 0 * 6 + 1 * a.val = a.val; rw [hi.1]; omega
  | ⟨1, _⟩ => show win0_1.index t 1 * 16384 + 1 * b.val = 16384 * t.val + b.val; rw [hi.2]; omega

theorem index0_2 : ∀ t : Fin cfg0.N, win0_2.index t 0 = 0 ∧ win0_2.index t 1 = 0 :=
  (by decide +kernel : ∀ t : Fin grid0.N, win0_2.index t 0 = 0 ∧ win0_2.index t 1 = 0)

theorem iblk0_2_apply (c : Dev nD) (t : Fin cfg0.N) (a : Fin 15) (b : Fin 8) :
    iblk0 V c 2 t (ix2 a b) = V c main_arg14 (ix2 a (⟨b.val, by
      have := b.isLt; have := lt_of_lt_of_eq t.isLt (show cfg0.N = 64 from N_0); omega⟩ : Fin 8)) := by
  have hi := index0_2 t
  unfold iblk0
  rw [View.read_apply]
  show V c main_arg14 _ = V c main_arg14 _
  congr 1
  funext ax
  apply Fin.ext
  match ax with
  | ⟨0, _⟩ => show win0_2.index t 0 * 15 + 1 * a.val = a.val; rw [hi.1]; omega
  | ⟨1, _⟩ => show win0_2.index t 1 * 8 + 1 * b.val = b.val; rw [hi.2]; omega

theorem index0_3 : ∀ t : Fin cfg0.N, win0_3.index t 0 = 0 ∧ win0_3.index t 1 = 0 :=
  (by decide +kernel : ∀ t : Fin grid0.N, win0_3.index t 0 = 0 ∧ win0_3.index t 1 = 0)

theorem iblk0_3_apply (c : Dev nD) (t : Fin cfg0.N) (a : Fin 9) (b : Fin 8) :
    iblk0 V c 3 t (ix2 a b) = V c main_arg15 (ix2 a (⟨b.val, by
      have := b.isLt; have := lt_of_lt_of_eq t.isLt (show cfg0.N = 64 from N_0); omega⟩ : Fin 8)) := by
  have hi := index0_3 t
  unfold iblk0
  rw [View.read_apply]
  show V c main_arg15 _ = V c main_arg15 _
  congr 1
  funext ax
  apply Fin.ext
  match ax with
  | ⟨0, _⟩ => show win0_3.index t 0 * 9 + 1 * a.val = a.val; rw [hi.1]; omega
  | ⟨1, _⟩ => show win0_3.index t 1 * 8 + 1 * b.val = b.val; rw [hi.2]; omega

theorem index0_4 : ∀ t : Fin cfg0.N, win0_4.index t 0 = 0 ∧ win0_4.index t 1 = 0 :=
  (by decide +kernel : ∀ t : Fin grid0.N, win0_4.index t 0 = 0 ∧ win0_4.index t 1 = 0)

theorem iblk0_4_apply (c : Dev nD) (t : Fin cfg0.N) (a : Fin 50) (b : Fin 128) :
    iblk0 V c 4 t (ix2 a b) = V c main_arg16 (ix2 a (⟨b.val, by
      have := b.isLt; have := lt_of_lt_of_eq t.isLt (show cfg0.N = 64 from N_0); omega⟩ : Fin 128)) := by
  have hi := index0_4 t
  unfold iblk0
  rw [View.read_apply]
  show V c main_arg16 _ = V c main_arg16 _
  congr 1
  funext ax
  apply Fin.ext
  match ax with
  | ⟨0, _⟩ => show win0_4.index t 0 * 50 + 1 * a.val = a.val; rw [hi.1]; omega
  | ⟨1, _⟩ => show win0_4.index t 1 * 128 + 1 * b.val = b.val; rw [hi.2]; omega

theorem index0_5 : ∀ t : Fin cfg0.N, win0_5.index t 0 = 0 ∧ win0_5.index t 1 = 0 :=
  (by decide +kernel : ∀ t : Fin grid0.N, win0_5.index t 0 = 0 ∧ win0_5.index t 1 = 0)

theorem iblk0_5_apply (c : Dev nD) (t : Fin cfg0.N) (a : Fin 128) (b : Fin 1) :
    iblk0 V c 5 t (ix2 a b) = V c main_v16 (ix2 a (⟨b.val, by
      have := b.isLt; have := lt_of_lt_of_eq t.isLt (show cfg0.N = 64 from N_0); omega⟩ : Fin 1)) := by
  have hi := index0_5 t
  unfold iblk0
  rw [View.read_apply]
  show V c main_v16 _ = V c main_v16 _
  congr 1
  funext ax
  apply Fin.ext
  match ax with
  | ⟨0, _⟩ => show win0_5.index t 0 * 128 + 1 * a.val = a.val; rw [hi.1]; omega
  | ⟨1, _⟩ => show win0_5.index t 1 * 1 + 1 * b.val = b.val; rw [hi.2]; omega

theorem pre_blk_eq (c : Dev nD) (t : Fin cfg0.N) (l : Fin 16384) (j : Fin 128) :
    preK (Xlane (iblk0 V c 0 t) (iblk0 V c 1 t) (iblk0 V c 2 t) (iblk0 V c 3 t)) (mat (iblk0 V c 4 t)) (col (iblk0 V c 5 t)) l j
      = preK (Xst (V c main_v8) (V c main_v15) (V c main_arg14) (V c main_arg15)) (mat (V c main_arg16)) (col (V c main_v16))
          (⟨16384 * t.val + l.val, by
            show 16384 * t.val + l.val < 1048576
            have := l.isLt; have := lt_of_lt_of_eq t.isLt (show cfg0.N = 64 from N_0); omega⟩ : Fin NB) j := by
  have e2 : (iblk0 V c 2 t : FVec Ideal (Sh2 15 8) .f32) = V c main_arg14 := funext fun y => by
    obtain ⟨a, b, rfl⟩ : ∃ (a : Fin 15) (b : Fin 8), y = ix2 a b := ⟨y 0, y 1, eq_ix2 y⟩
    exact iblk0_2_apply V c t a b
  have e3 : (iblk0 V c 3 t : FVec Ideal (Sh2 9 8) .f32) = V c main_arg15 := funext fun y => by
    obtain ⟨a, b, rfl⟩ : ∃ (a : Fin 9) (b : Fin 8), y = ix2 a b := ⟨y 0, y 1, eq_ix2 y⟩
    exact iblk0_3_apply V c t a b
  have e4 : (iblk0 V c 4 t : FVec Ideal (Sh2 50 128) .f32) = V c main_arg16 := funext fun y => by
    obtain ⟨a, b, rfl⟩ : ∃ (a : Fin 50) (b : Fin 128), y = ix2 a b := ⟨y 0, y 1, eq_ix2 y⟩
    exact iblk0_4_apply V c t a b
  have e5 : (iblk0 V c 5 t : FVec Ideal (Sh2 128 1) .f32) = V c main_v16 := funext fun y => by
    obtain ⟨a, b, rfl⟩ : ∃ (a : Fin 128) (b : Fin 1), y = ix2 a b := ⟨y 0, y 1, eq_ix2 y⟩
    exact iblk0_5_apply V c t a b
  have eX := Xlane_of_rows (V c main_v8) (V c main_v15) (V c main_arg14) (V c main_arg15) (iblk0 V c 0 t) (iblk0 V c 1 t)
    (fun l' : Fin 16384 => (⟨16384 * t.val + l'.val, by
      show 16384 * t.val + l'.val < 1048576
      have := l'.isLt; have := lt_of_lt_of_eq t.isLt (show cfg0.N = 64 from N_0); omega⟩ : Fin NB))
    (fun a l' => iblk0_0_apply V c t a l') (fun a l' => iblk0_1_apply V c t a l') l
  rw [e2, e3, e4, e5]
  unfold preK
  rw [eX]

theorem sum_half_blocks (q : Fin 2) (f : Fin NB → EReal) :
    halfSum q f = ∑ s : Fin 32, ∑ l : Fin 16384, f (⟨16384 * (32 * q.val + s.val) + l.val, by
      show 16384 * (32 * q.val + s.val) + l.val < 1048576
      have := q.isLt; have := s.isLt; have := l.isLt; omega⟩ : Fin NB) := by
  unfold halfSum
  have e := Equiv.sum_comp (finProdFinEquiv (m := 32) (n := 16384)) (fun r' : Fin (32 * 16384) => f (halfRow q r'))
  refine (e.symm.trans ?_)
  rw [Fintype.sum_prod_type]
  refine Finset.sum_congr rfl fun s _ => Finset.sum_congr rfl fun l _ => congrArg f (Fin.ext ?_)
  show q.val * 524288 + (l.val + 16384 * s.val) = 16384 * (32 * q.val + s.val) + l.val
  omega

end R0

open R0

theorem reg0_sum (c : Dev nD) (r : Fin 256) :
    (dat0 (F := Ideal) V c).arrAt 6 cfg0.N (ix2 r (0 : Fin 1))
      = halfSum ⟨r.val / 128, by have := r.isLt; omega⟩ (fun n => preK (Xst (V c main_v8) (V c main_v15) (V c main_arg14) (V c main_arg15)) (mat (V c main_arg16)) (col (V c main_v16)) n ⟨r.val % 128, Nat.mod_lt _ (by norm_num)⟩) := by
  have hr := r.isLt
  rw [final6]
  show tot6 V c r = _
  unfold tot6
  rw [sum_half_blocks, Finset.sum_range]
  refine Finset.sum_congr rfl fun s _ => ?_
  have hs := s.isLt
  have hlt : 32 * (r.val / 128) + s.val < cfg0.N := by rw [show cfg0.N = 64 from N_0]; omega
  unfold ptS
  rw [dif_pos hlt]
  unfold bsum
  refine Finset.sum_congr rfl fun l _ => ?_
  have hp := pre_blk_eq V c ⟨32 * (r.val / 128) + s.val, hlt⟩ l ⟨r.val % 128, Nat.mod_lt _ (by norm_num)⟩
  exact hp

theorem reg0_sq (c : Dev nD) (r : Fin 256) :
    (dat0 (F := Ideal) V c).arrAt 7 cfg0.N (ix2 r (0 : Fin 1))
      = halfSum ⟨r.val / 128, by have := r.isLt; omega⟩ (fun n => (preK (Xst (V c main_v8) (V c main_v15) (V c main_arg14) (V c main_arg15)) (mat (V c main_arg16)) (col (V c main_v16)) n ⟨r.val % 128, Nat.mod_lt _ (by norm_num)⟩ - col (V c main_v16) ⟨r.val % 128, Nat.mod_lt _ (by norm_num)⟩) * (preK (Xst (V c main_v8) (V c main_v15) (V c main_arg14) (V c main_arg15)) (mat (V c main_arg16)) (col (V c main_v16)) n ⟨r.val % 128, Nat.mod_lt _ (by norm_num)⟩ - col (V c main_v16) ⟨r.val % 128, Nat.mod_lt _ (by norm_num)⟩)) := by
  have hr := r.isLt
  rw [final7]
  show tot7 V c r = _
  unfold tot7
  rw [sum_half_blocks, Finset.sum_range]
  refine Finset.sum_congr rfl fun s _ => ?_
  have hs := s.isLt
  have hlt : 32 * (r.val / 128) + s.val < cfg0.N := by rw [show cfg0.N = 64 from N_0]; omega
  unfold ptQ
  rw [dif_pos hlt]
  unfold bsq
  refine Finset.sum_congr rfl fun l _ => ?_
  have hp := pre_blk_eq V c ⟨32 * (r.val / 128) + s.val, hlt⟩ l ⟨r.val % 128, Nat.mod_lt _ (by norm_num)⟩
  have e5 : col (iblk0 V c 5 ⟨32 * (r.val / 128) + s.val, hlt⟩ : FVec Ideal (Sh2 128 1) .f32) ⟨r.val % 128, Nat.mod_lt _ (by norm_num)⟩
      = col (V c main_v16) ⟨r.val % 128, Nat.mod_lt _ (by norm_num)⟩ := iblk0_5_apply V c _ _ _
  rw [hp, e5]

end Cert.KernelIdeal.Hand

end
-- ==== Proof.Reg1Pay.lean ====
import proofs.«412578_j66537633349983_3_alg».proof.Proof.Gen.KernelIdeal.Skeleton
import proofs.«412578_j66537633349983_3_alg».proof.Proof.LayerOps

set_option maxRecDepth 16384

noncomputable section

namespace Cert.KernelIdeal.Hand

open Cert.KernelIdeal Cert.KernelIdeal.Gen
open Cert.Spec Idealize.ShloMosaic Idealize.ShloMosaic.ValueIdx

namespace R1

theorem dotFeat1_l0 (i : S128x16384.Idx) (q : dot_S128x50_S50x16384_S128x16384_1_0_0_1_n_n.contr.Idx) : (dot_S128x50_S50x16384_S128x16384_1_0_0_1_n_n.lhsIdx i q 0).val = (i 0).val := by
  unfold DotDims.lhsIdx
  rw [dif_neg (show ¬(0 : Fin S128x50.rank) ∈ dot_S128x50_S50x16384_S128x16384_1_0_0_1_n_n.lhsBatch by decide), dif_pos (show (0 : Fin S128x50.rank) ∈ dot_S128x50_S50x16384_S128x16384_1_0_0_1_n_n.lhsNonContracting by decide)]
  rfl
theorem dotFeat1_l1 (i : S128x16384.Idx) (q : dot_S128x50_S50x16384_S128x16384_1_0_0_1_n_n.contr.Idx) : (dot_S128x50_S50x16384_S128x16384_1_0_0_1_n_n.lhsIdx i q 1).val = (q ⟨0, by decide⟩).val :=
  dot_S128x50_S50x16384_S128x16384_1_0_0_1_n_n.lhsIdx_val_of_single rfl i q
theorem dotFeat1_r0 (i : S128x16384.Idx) (q : dot_S128x50_S50x16384_S128x16384_1_0_0_1_n_n.contr.Idx) : (dot_S128x50_S50x16384_S128x16384_1_0_0_1_n_n.rhsIdx i q 0).val = (q ⟨0, by decide⟩).val :=
  dot_S128x50_S50x16384_S128x16384_1_0_0_1_n_n.rhsIdx_val_of_single rfl i q
theorem dotFeat1_r1 (i : S128x16384.Idx) (q : dot_S128x50_S50x16384_S128x16384_1_0_0_1_n_n.contr.Idx) : (dot_S128x50_S50x16384_S128x16384_1_0_0_1_n_n.rhsIdx i q 1).val = (i 1).val := by
  unfold DotDims.rhsIdx
  rw [dif_neg (show ¬(1 : Fin S50x16384.rank) ∈ dot_S128x50_S50x16384_S128x16384_1_0_0_1_n_n.rhsBatch by decide), dif_pos (show (1 : Fin S50x16384.rank) ∈ dot_S128x50_S50x16384_S128x16384_1_0_0_1_n_n.rhsNonContracting by decide)]
  rfl

theorem dotHid1_l0 (i : S64x16384.Idx) (q : dot_S64x128_S128x16384_S64x16384_1_0_0_1_n_n.contr.Idx) : (dot_S64x128_S128x16384_S64x16384_1_0_0_1_n_n.lhsIdx i q 0).val = (i 0).val := by
  unfold DotDims.lhsIdx
  rw [dif_neg (show ¬(0 : Fin S64x128.rank) ∈ dot_S64x128_S128x16384_S64x16384_1_0_0_1_n_n.lhsBatch by decide), dif_pos (show (0 : Fin S64x128.rank) ∈ dot_S64x128_S128x16384_S64x16384_1_0_0_1_n_n.lhsNonContracting by decide)]
  rfl
theorem dotHid1_l1 (i : S64x16384.Idx) (q : dot_S64x128_S128x16384_S64x16384_1_0_0_1_n_n.contr.Idx) : (dot_S64x128_S128x16384_S64x16384_1_0_0_1_n_n.lhsIdx i q 1).val = (q ⟨0, by decide⟩).val :=
  dot_S64x128_S128x16384_S64x16384_1_0_0_1_n_n.lhsIdx_val_of_single rfl i q
theorem dotHid1_r0 (i : S64x16384.Idx) (q : dot_S64x128_S128x16384_S64x16384_1_0_0_1_n_n.contr.Idx) : (dot_S64x128_S128x16384_S64x16384_1_0_0_1_n_n.rhsIdx i q 0).val = (q ⟨0, by decide⟩).val :=
  dot_S64x128_S128x16384_S64x16384_1_0_0_1_n_n.rhsIdx_val_of_single rfl i q
theorem dotHid1_r1 (i : S64x16384.Idx) (q : dot_S64x128_S128x16384_S64x16384_1_0_0_1_n_n.contr.Idx) : (dot_S64x128_S128x16384_S64x16384_1_0_0_1_n_n.rhsIdx i q 1).val = (i 1).val := by
  unfold DotDims.rhsIdx
  rw [dif_neg (show ¬(1 : Fin S128x16384.rank) ∈ dot_S64x128_S128x16384_S64x16384_1_0_0_1_n_n.rhsBatch by decide), dif_pos (show (1 : Fin S128x16384.rank) ∈ dot_S64x128_S128x16384_S64x16384_1_0_0_1_n_n.rhsNonContracting by decide)]
  rfl

theorem stats2_hidden_apply (X : Vec Ideal S50x16384 .f32) (W1e : Vec Ideal S50x128 .f32) (b1e : Vec Ideal S128x1 .f32)
    (j : Fin 128) (l : Fin 16384) :
    k1_pay35 (F := Ideal) X W1e b1e (ix2 j l)
      = max ((∑ k : Fin 50, W1e (ix2 k j) * X (ix2 k l)) + b1e (ix2 j (0 : Fin 1))) 0 := by
  unfold k1_pay35
  refine (denseRelu_apply (K := 50) (J := 128) (L := 16384) dot_S128x50_S50x16384_S128x16384_1_0_0_1_n_n rfl rfl dotFeat1_l0 dotFeat1_l1 dotFeat1_r0 dotFeat1_r1 none
    (shapeCast S50x128 W1e shapeCasts_S50x128_S50x128) bitsLt_bf16_f32 transposes_S50x128_p1_0_S128x50
    (truncf .bf16 X bitsLt_bf16_f32) b1e shapeCasts_S128x1_S128x1 broadcasts_S128x1_S128x16384 j l).trans ?_
  rw [shapeCast_self]
  rfl

theorem stats2_pre_apply (A : FVec Ideal S128x16384 .bf16) (W2 : Vec Ideal S128x64 .f32) (b2 : Vec Ideal S64x1 .f32)
    (j : Fin 64) (l : Fin 16384) :
    k1_pay1 (F := Ideal) A W2 b2 (ix2 j l) = (∑ k : Fin 128, W2 (ix2 k j) * A (ix2 k l)) + b2 (ix2 j (0 : Fin 1)) := by
  unfold k1_pay1
  exact dense_apply (K := 128) (J := 64) (L := 16384) dot_S64x128_S128x16384_S64x16384_1_0_0_1_n_n rfl rfl dotHid1_l0 dotHid1_l1 dotHid1_r0 dotHid1_r1 none
    W2 bitsLt_bf16_f32 transposes_S128x64_p1_0_S64x128 A b2 shapeCasts_S64x1_S64x1 broadcasts_S64x1_S64x16384 j l

theorem stats2_sum_apply (A : FVec Ideal S128x16384 .bf16) (W2 : Vec Ideal S128x64 .f32) (b2 : Vec Ideal S64x1 .f32)
    (acc : Vec Ideal S64x1 .f32) (j : Fin 64) :
    k1_pay2 (F := Ideal) A W2 b2 acc (ix2 j (0 : Fin 1))
      = acc (ix2 j (0 : Fin 1)) + ∑ l : Fin 16384, k1_pay1 (F := Ideal) A W2 b2 (ix2 j l) := by
  unfold k1_pay2
  refine (accAdd_apply (J := 64) acc shapeCasts_S64x1_S64x1 _ (ix2 j (0 : Fin 1))).trans ?_
  exact congrArg (acc (ix2 j (0 : Fin 1)) + ·)
    (laneSum_apply (J := 64) (L := 16384) (k1_pay1 (F := Ideal) A W2 b2) reduces_S64x16384_S64 (.inl rfl) rfl shapeCasts_S64_S64x1 j)

theorem stats2_sumsq_apply (A : FVec Ideal S128x16384 .bf16) (W2 : Vec Ideal S128x64 .f32) (b2 b2' : Vec Ideal S64x1 .f32)
    (acc : Vec Ideal S64x1 .f32) (j : Fin 64) :
    k1_pay3 (F := Ideal) A W2 b2 b2' acc (ix2 j (0 : Fin 1))
      = acc (ix2 j (0 : Fin 1)) + ∑ l : Fin 16384,
          (k1_pay1 (F := Ideal) A W2 b2 (ix2 j l) - b2' (ix2 j (0 : Fin 1))) * (k1_pay1 (F := Ideal) A W2 b2 (ix2 j l) - b2' (ix2 j (0 : Fin 1))) := by
  unfold k1_pay3
  refine (accAdd_apply (J := 64) acc shapeCasts_S64x1_S64x1 _ (ix2 j (0 : Fin 1))).trans ?_
  exact congrArg (acc (ix2 j (0 : Fin 1)) + ·)
    (laneSumSq_apply (J := 64) (L := 16384) (k1_pay1 (F := Ideal) A W2 b2) b2' shapeCasts_S64x1_S64x1 broadcasts_S64x1_S64x16384
      reduces_S64x16384_S64 (.inl rfl) rfl shapeCasts_S64_S64x1 j)

theorem stats2_zero_sum (i : S64x1.Idx) : k1_pay4 (F := Ideal) i = 0 := by
  show Ideal.ofBits .f32 0x00000000#32 = 0
  exact Ideal.ofBits_zero_f32
theorem stats2_zero_sumsq (i : S64x1.Idx) : k1_pay5 (F := Ideal) i = 0 := by
  show Ideal.ofBits .f32 0x00000000#32 = 0
  exact Ideal.ofBits_zero_f32

theorem stats2_blockPre_apply (X : Vec Ideal S50x16384 .f32) (W1e : Vec Ideal S50x128 .f32) (b1e : Vec Ideal S128x1 .f32)
    (W2 : Vec Ideal S128x64 .f32) (b2 : Vec Ideal S64x1 .f32) (j : Fin 64) (l : Fin 16384) :
    k1_pay1 (F := Ideal) (k1_pay35 (F := Ideal) X W1e b1e) W2 b2 (ix2 j l)
      = preK (actK (fun (l : Fin 16384) (k : Fin 50) => X (ix2 k l)) (mat (a := 50) (b := 128) W1e) (col (a := 128) b1e))
          (mat (a := 128) (b := 64) W2) (col (a := 64) b2) l j := by
  rw [stats2_pre_apply]
  unfold preK actK preK mat col
  refine congrArg (· + b2 (ix2 j (0 : Fin 1))) (Finset.sum_congr rfl fun k _ => ?_)
  rw [stats2_hidden_apply]

end R1

end Cert.KernelIdeal.Hand

end
-- ==== Proof.SweepSum.lean ====
import proofs.«412578_j66537633349983_3_alg».proof.Proof.KForm
import Mathlib.Algebra.BigOperators.Fin
import Mathlib.Logic.Equiv.Fin.Basic

noncomputable section

namespace Cert.Spec

def laneRow (n : Nat) (l : Fin 16384) : Fin NB := ⟨(n * 16384 + l.val) % NB, Nat.mod_lt _ (by decide)⟩

theorem laneRow_val (n : Nat) (hn : n < 64) (l : Fin 16384) : (laneRow n l).val = n * 16384 + l.val := by
  have hl := l.isLt
  show (n * 16384 + l.val) % 1048576 = n * 16384 + l.val
  exact Nat.mod_eq_of_lt (by omega)

theorem halfSum_eq_blocks {M : Type*} [AddCommMonoid M] (c : Fin 2) (g : Fin NB → M) :
    (∑ r : Fin 524288, g (halfRow c r)) = ∑ s ∈ Finset.range 32, ∑ l : Fin 16384, g (laneRow (32 * c.val + s) l) := by
  rw [Finset.sum_range (fun s => ∑ l : Fin 16384, g (laneRow (32 * c.val + s) l))]
  show (∑ r : Fin (32 * 16384), g (halfRow c r)) = _
  rw [← Equiv.sum_comp (finProdFinEquiv (m := 32) (n := 16384)) (fun r : Fin (32 * 16384) => g (halfRow c r)),
    Fintype.sum_prod_type]
  refine Finset.sum_congr rfl fun s _ => Finset.sum_congr rfl fun l _ => congrArg g (Fin.ext ?_)
  have hc := c.isLt
  have hs := s.isLt
  have hl := l.isLt
  rw [laneRow_val _ (by omega)]
  show c.val * 524288 + (l.val + 16384 * s.val) = (32 * c.val + s.val) * 16384 + l.val
  omega

theorem halfSum_blocks (c : Fin 2) (g : Fin NB → EReal) :
    halfSum c g = ∑ s ∈ Finset.range 32, ∑ l : Fin 16384, g (laneRow (32 * c.val + s) l) :=
  halfSum_eq_blocks c g

theorem sweep_running {M : Type*} [AddCommMonoid M] (f : (n : Nat) → n < 64 → M) (B : Nat → M)
    (hreset : ∀ (n : Nat) (hn : n < 64), n % 32 = 0 → f n hn = B n)
    (hadd : ∀ (n : Nat) (hn : n + 1 < 64), ¬(n + 1) % 32 = 0 → f (n + 1) hn = f n (Nat.lt_of_succ_lt hn) + B (n + 1)) :
    ∀ (n : Nat) (hn : n < 64), f n hn = ∑ s ∈ Finset.range (n % 32 + 1), B (n - n % 32 + s)
  | 0, hn => by
    rw [hreset 0 hn rfl]
    simp
  | n + 1, hn => by
    by_cases h0 : (n + 1) % 32 = 0
    · rw [hreset (n + 1) hn h0, h0]
      simp
    · rw [hadd n hn h0, sweep_running f B hreset hadd n (Nat.lt_of_succ_lt hn)]
      have e1 : (n + 1) % 32 = n % 32 + 1 := by omega
      have e2 : n + 1 - (n % 32 + 1) = n - n % 32 := by omega
      have e3 : n - n % 32 + (n % 32 + 1) = n + 1 := by omega
      rw [e1, e2, Finset.sum_range_succ _ (n % 32 + 1), e3]

theorem sweep_total (g : Fin NB → EReal) (f : (n : Nat) → n < 64 → EReal)
    (hreset : ∀ (n : Nat) (hn : n < 64), n % 32 = 0 → f n hn = ∑ l : Fin 16384, g (laneRow n l))
    (hadd : ∀ (n : Nat) (hn : n + 1 < 64), ¬(n + 1) % 32 = 0 →
      f (n + 1) hn = f n (Nat.lt_of_succ_lt hn) + ∑ l : Fin 16384, g (laneRow (n + 1) l))
    (q : Fin 2) (hq : 32 * q.val + 31 < 64) : f (32 * q.val + 31) hq = halfSum q g := by
  rw [sweep_running f (fun n => ∑ l : Fin 16384, g (laneRow n l)) hreset hadd (32 * q.val + 31) hq, halfSum_blocks]
  have e1 : (32 * q.val + 31) % 32 + 1 = 32 := by omega
  have e2 : 32 * q.val + 31 - (32 * q.val + 31) % 32 = 32 * q.val := by omega
  rw [e1, e2]

end Cert.Spec

end
-- ==== Proof.Reg1Val.lean ====
import proofs.«412578_j66537633349983_3_alg».proof.Proof.Reg1
import proofs.«412578_j66537633349983_3_alg».proof.Proof.Reg1Pay
import proofs.«412578_j66537633349983_3_alg».proof.Proof.Reg0Enc
import proofs.«412578_j66537633349983_3_alg».proof.Proof.SweepSum
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

namespace R1

theorem hz2 : (![0, 0] : Fin 2 → Nat) = fun _ => 0 := funext fun a => by fin_cases a <;> rfl

def h2 (c : Dev nD) (n : Fin NB) (j : Fin 64) : EReal :=
  preK (actK (Xst (V c main_v8) (V c main_v15) (V c main_arg14) (V c main_arg15)) (mat (a := 50) (b := 128) (V c main_v48)) (col (a := 128) (V c main_v50)))
    (mat (a := 128) (b := 64) (V c main_arg20)) (col (a := 64) (V c main_v17)) n j

def d2 (c : Dev nD) (n : Fin NB) (j : Fin 64) : EReal :=
  (h2 V c n j - col (a := 64) (V c main_v17) j) * (h2 V c n j - col (a := 64) (V c main_v17) j)

theorem idx1_in : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)
theorem idx1_whole : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)
theorem idx1_acc : ∀ t : Fin cfg1.N, win1_8.index t (0 : Fin 2) = t.val / 32 ∧ win1_8.index t (1 : Fin 2) = 0
    ∧ win1_9.index t (0 : Fin 2) = t.val / 32 ∧ win1_9.index t (1 : Fin 2) = 0 :=
  (by decide +kernel : ∀ t : Fin grid1.N, _)

theorem iblk1_0_apply (c : Dev nD) (t : Fin cfg1.N) (a : Fin 8) (l : Fin 16384) :
    (iblk1 V c 0 t : IVec (Sh2 8 16384) 32) (ix2 a l) = (V c main_v8 : IVec (Sh2 8 1048576) 32) (ix2 a (laneRow t.val l)) := by
  have hN : t.val < 64 := lt_of_lt_of_eq t.isLt (show cfg1.N = 64 from N_1)
  obtain ⟨e0, e1, -, -⟩ := idx1_in t
  show V c main_v8 (((cfg1.win 0).blk t).view.emb (ix2 a l)) = V c main_v8 (ix2 a (laneRow t.val l))
  refine congrArg (V c main_v8) (funext fun ax => Fin.ext ?_)
  match ax with
  | ⟨0, _⟩ =>
    show win1_0.index t (0 : Fin 2) * 8 + 1 * a.val = a.val
    rw [e0]; omega
  | ⟨1, _⟩ =>
    show win1_0.index t (1 : Fin 2) * 16384 + 1 * l.val = (laneRow t.val l).val
    rw [e1, laneRow_val _ hN]; omega

theorem iblk1_1_apply (c : Dev nD) (t : Fin cfg1.N) (a : Fin 6) (l : Fin 16384) :
    (iblk1 V c 1 t : FVec Ideal (Sh2 6 16384) .f32) (ix2 a l) = (V c main_v15 : FVec Ideal (Sh2 6 1048576) .f32) (ix2 a (laneRow t.val l)) := by
  have hN : t.val < 64 := lt_of_lt_of_eq t.isLt (show cfg1.N = 64 from N_1)
  obtain ⟨-, -, e0, e1⟩ := idx1_in t
  show V c main_v15 (((cfg1.win 1).blk t).view.emb (ix2 a l)) = V c main_v15 (ix2 a (laneRow t.val l))
  refine congrArg (V c main_v15) (funext fun ax => Fin.ext ?_)
  match ax with
  | ⟨0, _⟩ =>
    show win1_1.index t (0 : Fin 2) * 6 + 1 * a.val = a.val
    rw [e0]; omega
  | ⟨1, _⟩ =>
    show win1_1.index t (1 : Fin 2) * 16384 + 1 * l.val = (laneRow t.val l).val
    rw [e1, laneRow_val _ hN]; omega

theorem iblk1_2_eq (c : Dev nD) (t : Fin cfg1.N) : (iblk1 V c 2 t : FVec Ideal (Sh2 15 8) .f32) = (V c main_arg14 : FVec Ideal (Sh2 15 8) .f32) := by
  obtain ⟨e0, e1, -, -, -, -, -, -, -, -, -, -⟩ := idx1_whole t
  funext y
  show V c main_arg14 (((cfg1.win 2).blk t).view.emb y) = V c main_arg14 y
  refine congrArg (V c main_arg14) (funext fun ax => Fin.ext ?_)
  match ax with
  | ⟨0, _⟩ =>
    show win1_2.index t (0 : Fin 2) * 15 + 1 * (y 0).val = (y 0).val
    rw [e0]; omega
  | ⟨1, _⟩ =>
    show win1_2.index t (1 : Fin 2) * 8 + 1 * (y 1).val = (y 1).val
    rw [e1]; omega
theorem iblk1_3_eq (c : Dev nD) (t : Fin cfg1.N) : (iblk1 V c 3 t : FVec Ideal (Sh2 9 8) .f32) = (V c main_arg15 : FVec Ideal (Sh2 9 8) .f32) := by
  obtain ⟨-, -, e0, e1, -, -, -, -, -, -, -, -⟩ := idx1_whole t
  funext y
  show V c main_arg15 (((cfg1.win 3).blk t).view.emb y) = V c main_arg15 y
  refine congrArg (V c main_arg15) (funext fun ax => Fin.ext ?_)
  match ax with
  | ⟨0, _⟩ =>
    show win1_3.index t (0 : Fin 2) * 9 + 1 * (y 0).val = (y 0).val
    rw [e0]; omega
  | ⟨1, _⟩ =>
    show win1_3.index t (1 : Fin 2) * 8 + 1 * (y 1).val = (y 1).val
    rw [e1]; omega
theorem iblk1_4_eq (c : Dev nD) (t : Fin cfg1.N) : (iblk1 V c 4 t : FVec Ideal (Sh2 50 128) .f32) = (V c main_v48 : FVec Ideal (Sh2 50 128) .f32) := by
  obtain ⟨-, -, -, -, e0, e1, -, -, -, -, -, -⟩ := idx1_whole t
  funext y
  show V c main_v48 (((cfg1.win 4).blk t).view.emb y) = V c main_v48 y
  refine congrArg (V c main_v48) (funext fun ax => Fin.ext ?_)
  match ax with
  | ⟨0, _⟩ =>
    show win1_4.index t (0 : Fin 2) * 50 + 1 * (y 0).val = (y 0).val
    rw [e0]; omega
  | ⟨1, _⟩ =>
    show win1_4.index t (1 : Fin 2) * 128 + 1 * (y 1).val = (y 1).val
    rw [e1]; omega
theorem iblk1_5_eq (c : Dev nD) (t : Fin cfg1.N) : (iblk1 V c 5 t : FVec Ideal (Sh2 128 1) .f32) = (V c main_v50 : FVec Ideal (Sh2 128 1) .f32) := by
  obtain ⟨-, -, -, -, -, -, e0, e1, -, -, -, -⟩ := idx1_whole t
  funext y
  show V c main_v50 (((cfg1.win 5).blk t).view.emb y) = V c main_v50 y
  refine congrArg (V c main_v50) (funext fun ax => Fin.ext ?_)
  match ax with
  | ⟨0, _⟩ =>
    show win1_5.index t (0 : Fin 2) * 128 + 1 * (y 0).val = (y 0).val
    rw [e0]; omega
  | ⟨1, _⟩ =>
    show win1_5.index t (1 : Fin 2) * 1 + 1 * (y 1).val = (y 1).val
    rw [e1]; omega
theorem iblk1_6_eq (c : Dev nD) (t : Fin cfg1.N) : (iblk1 V c 6 t : FVec Ideal (Sh2 128 64) .f32) = (V c main_arg20 : FVec Ideal (Sh2 128 64) .f32) := by
  obtain ⟨-, -, -, -, -, -, -, -, e0, e1, -, -⟩ := idx1_whole t
  funext y
  show V c main_arg20 (((cfg1.win 6).blk t).view.emb y) = V c main_arg20 y
  refine congrArg (V c main_arg20) (funext fun ax => Fin.ext ?_)
  match ax with
  | ⟨0, _⟩ =>
    show win1_6.index t (0 : Fin 2) * 128 + 1 * (y 0).val = (y 0).val
    rw [e0]; omega
  | ⟨1, _⟩ =>
    show win1_6.index t (1 : Fin 2) * 64 + 1 * (y 1).val = (y 1).val
    rw [e1]; omega
theorem iblk1_7_eq (c : Dev nD) (t : Fin cfg1.N) : (iblk1 V c 7 t : FVec Ideal (Sh2 64 1) .f32) = (V c main_v17 : FVec Ideal (Sh2 64 1) .f32) := by
  obtain ⟨-, -, -, -, -, -, -, -, -, -, e0, e1⟩ := idx1_whole t
  funext y
  show V c main_v17 (((cfg1.win 7).blk t).view.emb y) = V c main_v17 y
  refine congrArg (V c main_v17) (funext fun ax => Fin.ext ?_)
  match ax with
  | ⟨0, _⟩ =>
    show win1_7.index t (0 : Fin 2) * 64 + 1 * (y 0).val = (y 0).val
    rw [e0]; omega
  | ⟨1, _⟩ =>
    show win1_7.index t (1 : Fin 2) * 1 + 1 * (y 1).val = (y 1).val
    rw [e1]; omega

abbrev featPieces1 (x0 : IVec (Sh2 8 16384) 32) (x1 : FVec Ideal (Sh2 6 16384) .f32) (x2 : FVec Ideal (Sh2 15 8) .f32) (x3 : FVec Ideal (Sh2 9 8) .f32) : List (View.Piece (Elt Ideal) (Sh2 50 16384) .f32) :=
  encPieces (L := 16384) (k1_pay13 (F := Ideal) x0 x2) (k1_pay15 (F := Ideal) (k1_pay14 (F := Ideal) x0)) (k1_pay16 (F := Ideal) (k1_pay8 (F := Ideal) x0))
    (k1_pay17 (F := Ideal) x3 (k1_pay9 (F := Ideal) x0)) (k1_pay18 (F := Ideal) (k1_pay10 (F := Ideal) x1)) (k1_pay19 (F := Ideal) (k1_pay11 (F := Ideal) x1))
    (k1_pay20 (F := Ideal) (k1_pay12 (F := Ideal) x1)) (k1_pay25 (F := Ideal) x2 (k1_pay21 (k1_pay6 (F := Ideal) x0))) (k1_pay26 (F := Ideal) (k1_pay6 (F := Ideal) x0))
    (k1_pay27 (F := Ideal) (k1_pay6 (F := Ideal) x0)) (k1_pay31 (F := Ideal) x3 (k1_pay28 (k1_pay6 (F := Ideal) x0)) (k1_pay29 (F := Ideal)) (k1_pay30 (F := Ideal)))
    (k1_pay32 (F := Ideal) (k1_pay22 (F := Ideal) (k1_pay7 (F := Ideal) x1))) (k1_pay33 (F := Ideal) (k1_pay23 (F := Ideal) (k1_pay7 (F := Ideal) x1)))
    (k1_pay34 (F := Ideal) (k1_pay24 (F := Ideal) (k1_pay7 (F := Ideal) x1)))
    inb_S50x16384_S8x16384_0_0 inb_S50x16384_S3x16384_8_0 inb_S50x16384_S3x16384_11_0 inb_S50x16384_S8x16384_14_0
    inb_S50x16384_S1x16384_22_0 inb_S50x16384_S1x16384_23_0 inb_S50x16384_S1x16384_24_0 inb_S50x16384_S8x16384_25_0
    inb_S50x16384_S3x16384_33_0 inb_S50x16384_S3x16384_36_0 inb_S50x16384_S8x16384_39_0 inb_S50x16384_S1x16384_47_0
    inb_S50x16384_S1x16384_48_0 inb_S50x16384_S1x16384_49_0

def featBlock (x0 : IVec (Sh2 8 16384) 32) (x1 : FVec Ideal (Sh2 6 16384) .f32) (x2 : FVec Ideal (Sh2 15 8) .f32) (x3 : FVec Ideal (Sh2 9 8) .f32) : FVec Ideal (Sh2 50 16384) .f32 :=
  View.canon (featPieces1 x0 x1 x2 x3)

theorem featRead (v : View sig .tc .vmem (Sh2 50 16384) .f32) (x0 : IVec (Sh2 8 16384) 32) (x1 : FVec Ideal (Sh2 6 16384) .f32) (x2 : FVec Ideal (Sh2 15 8) .f32) (x3 : FVec Ideal (Sh2 9 8) .f32) :
    v.readCov (featPieces1 x0 x1 x2 x3) (Rect.unit (s := S50x16384) ![0, 0] S50x16384.size inb_S50x16384_S50x16384_0_0).toLoadRect
      = featBlock x0 x1 x2 x3 := by
  rw [View.readCov_eq_canon']
  exact View.ld_unit_zero (S := S50x16384) hz2 inb_S50x16384_S50x16384_0_0 (View.canon (featPieces1 x0 x1 x2 x3))

theorem featBlock_apply (x0 : IVec (Sh2 8 16384) 32) (x1 : FVec Ideal (Sh2 6 16384) .f32) (x2 : FVec Ideal (Sh2 15 8) .f32) (x3 : FVec Ideal (Sh2 9 8) .f32) (k : Fin 50) (l : Fin 16384) :
    featBlock x0 x1 x2 x3 (ix2 k l) = Xlane x0 x1 x2 x3 l k :=
  enc_canon_apply x0 x1 x2 x3 _ _ _ _ _ _ _ _ _ _ _ _ _ _ _ _ _ _ _ _ _ _ _ _ _ _ _ _
    (R0.enc0 x0 x1 x2 x3) (R0.enc1 x0 x1 x2 x3) (R0.enc2 x0 x1 x2 x3) (R0.enc3 x0 x1 x2 x3) (R0.enc4 x0 x1 x2 x3) (R0.enc5 x0 x1 x2 x3) (R0.enc6 x0 x1 x2 x3)
    (R0.enc7 x0 x1 x2 x3) (R0.enc8 x0 x1 x2 x3) (R0.enc9 x0 x1 x2 x3) (R0.enc10 x0 x1 x2 x3) (R0.enc11 x0 x1 x2 x3) (R0.enc12 x0 x1 x2 x3) (R0.enc13 x0 x1 x2 x3) k l

attribute [irreducible] featBlock

section
variable (c : Dev nD) (i : grid1.Coords) (arg2 : Memref sig .tc .vmem S8x16384 .i32) (harg2 : arg2.IsWhole) (arg3 : Memref sig .tc .vmem S6x16384 .f32) (harg3 : arg3.IsWhole) (arg4 : Memref sig .tc .vmem S15x8 .f32) (harg4 : arg4.IsWhole) (arg5 : Memref sig .tc .vmem S9x8 .f32) (harg5 : arg5.IsWhole) (arg6 : Memref sig .tc .vmem S50x128 .f32) (harg6 : arg6.IsWhole) (arg7 : Memref sig .tc .vmem S128x1 .f32) (harg7 : arg7.IsWhole) (arg8 : Memref sig .tc .vmem S128x64 .f32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S50x16384 .f32) (harg12 : arg12.IsWhole)

set_option maxRecDepth 65536 in
theorem accReset1_8_eq (hc0 : firstStep1 i)
    (x0 : IVec (Sh2 8 16384) 32) (x1 : FVec Ideal (Sh2 6 16384) .f32) (x2 : FVec Ideal (Sh2 15 8) .f32) (x3 : FVec Ideal (Sh2 9 8) .f32) (x4 : FVec Ideal (Sh2 50 128) .f32) (x5 : FVec Ideal (Sh2 128 1) .f32) (x6 : FVec Ideal (Sh2 128 64) .f32) (x7 : FVec Ideal (Sh2 64 1) .f32) :
    accReset1_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = k1_pay2 (F := Ideal) (k1_pay35 (F := Ideal) (featBlock x0 x1 x2 x3) x4 x5) x6 x7 (k1_pay4 (F := Ideal)) := by
  unfold accReset1_8
  rw [View.read_writes_eq_canon _ _ _ (coverReset1_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7)]
  unfold runReset1
  dsimp only
  try sl_unfold_words
  dsimp only
  rw [View.canon_cons_unit_zero (S := S64x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz2, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.readCov_unit_zero (S := S64x1) _ hz2]
  exact congrArg (fun X => k1_pay2 (F := Ideal) (k1_pay35 (F := Ideal) X x4 x5) x6 x7 (k1_pay4 (F := Ideal))) (featRead arg12.view x0 x1 x2 x3)

set_option maxRecDepth 65536 in
theorem accReset1_9_eq (hc0 : firstStep1 i)
    (x0 : IVec (Sh2 8 16384) 32) (x1 : FVec Ideal (Sh2 6 16384) .f32) (x2 : FVec Ideal (Sh2 15 8) .f32) (x3 : FVec Ideal (Sh2 9 8) .f32) (x4 : FVec Ideal (Sh2 50 128) .f32) (x5 : FVec Ideal (Sh2 128 1) .f32) (x6 : FVec Ideal (Sh2 128 64) .f32) (x7 : FVec Ideal (Sh2 64 1) .f32) :
    accReset1_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = k1_pay3 (F := Ideal) (k1_pay35 (F := Ideal) (featBlock x0 x1 x2 x3) x4 x5) x6 x7 x7 (k1_pay5 (F := Ideal)) := by
  unfold accReset1_9
  rw [View.read_writes_eq_canon _ _ _ (coverReset1_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7)]
  unfold runReset1
  dsimp only
  try sl_unfold_words
  dsimp only
  rw [View.canon_cons_unit_zero (S := S64x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz2, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.readCov_unit_zero (S := S64x1) _ hz2]
  exact congrArg (fun X => k1_pay3 (F := Ideal) (k1_pay35 (F := Ideal) X x4 x5) x6 x7 x7 (k1_pay5 (F := Ideal))) (featRead arg12.view x0 x1 x2 x3)

set_option maxRecDepth 65536 in
theorem accAdd1_8_eq (hc0 : ¬firstStep1 i)
    (x0 : IVec (Sh2 8 16384) 32) (x1 : FVec Ideal (Sh2 6 16384) .f32) (x2 : FVec Ideal (Sh2 15 8) .f32) (x3 : FVec Ideal (Sh2 9 8) .f32) (x4 : FVec Ideal (Sh2 50 128) .f32) (x5 : FVec Ideal (Sh2 128 1) .f32) (x6 : FVec Ideal (Sh2 128 64) .f32) (x7 : FVec Ideal (Sh2 64 1) .f32) (xo8 : FVec Ideal (Sh2 64 1) .f32) (xo9 : FVec Ideal (Sh2 64 1) .f32) :
    accAdd1_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 = k1_pay2 (F := Ideal) (k1_pay35 (F := Ideal) (featBlock x0 x1 x2 x3) x4 x5) x6 x7 xo8 := by
  unfold accAdd1_8
  rw [View.read_writes_eq_canon _ _ _ (coverAdd1_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9)]
  unfold runAdd1
  dsimp only
  try sl_unfold_words
  dsimp only
  rw [View.canon_unit_zero (S := S64x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz2, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.readCov_unit_zero (S := S64x1) _ hz2]
  exact congrArg (fun X => k1_pay2 (F := Ideal) (k1_pay35 (F := Ideal) X x4 x5) x6 x7 xo8) (featRead arg12.view x0 x1 x2 x3)

set_option maxRecDepth 65536 in
theorem accAdd1_9_eq (hc0 : ¬firstStep1 i)
    (x0 : IVec (Sh2 8 16384) 32) (x1 : FVec Ideal (Sh2 6 16384) .f32) (x2 : FVec Ideal (Sh2 15 8) .f32) (x3 : FVec Ideal (Sh2 9 8) .f32) (x4 : FVec Ideal (Sh2 50 128) .f32) (x5 : FVec Ideal (Sh2 128 1) .f32) (x6 : FVec Ideal (Sh2 128 64) .f32) (x7 : FVec Ideal (Sh2 64 1) .f32) (xo8 : FVec Ideal (Sh2 64 1) .f32) (xo9 : FVec Ideal (Sh2 64 1) .f32) :
    accAdd1_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 = k1_pay3 (F := Ideal) (k1_pay35 (F := Ideal) (featBlock x0 x1 x2 x3) x4 x5) x6 x7 x7 xo9 := by
  unfold accAdd1_9
  rw [View.read_writes_eq_canon _ _ _ (coverAdd1_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9)]
  unfold runAdd1
  dsimp only
  try sl_unfold_words
  dsimp only
  rw [View.canon_unit_zero (S := S64x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S64x1) hz2, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.readCov_unit_zero (S := S64x1) _ hz2]
  exact congrArg (fun X => k1_pay3 (F := Ideal) (k1_pay35 (F := Ideal) X x4 x5) x6 x7 x7 xo9) (featRead arg12.view x0 x1 x2 x3)

end

theorem pre_row {ι ι' : Type} [Fintype ι] [Fintype ι'] (X : ι → Fin 50 → EReal) (X' : ι' → Fin 50 → EReal)
    (We : Fin 50 → Fin 128 → EReal) (be : Fin 128 → EReal) (W : Fin 128 → Fin 64 → EReal) (b : Fin 64 → EReal)
    (n : ι) (n' : ι') (h : X n = X' n') (j : Fin 64) :
    preK (actK X We be) W b n j = preK (actK X' We be) W b n' j := by
  unfold preK actK preK
  rw [h]

set_option maxRecDepth 65536 in
theorem sumStep (x0 : IVec (Sh2 8 16384) 32) (x1 : FVec Ideal (Sh2 6 16384) .f32) (x2 : FVec Ideal (Sh2 15 8) .f32) (x3 : FVec Ideal (Sh2 9 8) .f32) (x4 : FVec Ideal (Sh2 50 128) .f32) (x5 : FVec Ideal (Sh2 128 1) .f32) (x6 : FVec Ideal (Sh2 128 64) .f32) (x7 : FVec Ideal (Sh2 64 1) .f32) (acc : FVec Ideal (Sh2 64 1) .f32) (j : Fin 64) :
    k1_pay2 (F := Ideal) (k1_pay35 (F := Ideal) (featBlock x0 x1 x2 x3) x4 x5) x6 x7 acc (ix2 j (0 : Fin 1))
      = acc (ix2 j (0 : Fin 1)) + ∑ l : Fin 16384,
          preK (actK (Xlane x0 x1 x2 x3) (mat (a := 50) (b := 128) x4) (col (a := 128) x5)) (mat (a := 128) (b := 64) x6) (col (a := 64) x7) l j := by
  refine (stats2_sum_apply _ x6 x7 acc j).trans ?_
  refine congrArg (acc (ix2 j (0 : Fin 1)) + ·) (Finset.sum_congr rfl fun l _ => ?_)
  refine (stats2_blockPre_apply (featBlock x0 x1 x2 x3) x4 x5 x6 x7 j l).trans ?_
  exact pre_row (fun (l' : Fin 16384) (k : Fin 50) => featBlock x0 x1 x2 x3 (ix2 k l')) (Xlane x0 x1 x2 x3)
      (mat (a := 50) (b := 128) x4) (col (a := 128) x5) (mat (a := 128) (b := 64) x6) (col (a := 64) x7) l l
      (show (fun (k : Fin 50) => featBlock x0 x1 x2 x3 (ix2 k l)) = Xlane x0 x1 x2 x3 l from funext fun k => featBlock_apply x0 x1 x2 x3 k l) j

set_option maxRecDepth 65536 in
theorem sqStep (x0 : IVec (Sh2 8 16384) 32) (x1 : FVec Ideal (Sh2 6 16384) .f32) (x2 : FVec Ideal (Sh2 15 8) .f32) (x3 : FVec Ideal (Sh2 9 8) .f32) (x4 : FVec Ideal (Sh2 50 128) .f32) (x5 : FVec Ideal (Sh2 128 1) .f32) (x6 : FVec Ideal (Sh2 128 64) .f32) (x7 : FVec Ideal (Sh2 64 1) .f32) (acc : FVec Ideal (Sh2 64 1) .f32) (j : Fin 64) :
    k1_pay3 (F := Ideal) (k1_pay35 (F := Ideal) (featBlock x0 x1 x2 x3) x4 x5) x6 x7 x7 acc (ix2 j (0 : Fin 1))
      = acc (ix2 j (0 : Fin 1)) + ∑ l : Fin 16384,
          (preK (actK (Xlane x0 x1 x2 x3) (mat (a := 50) (b := 128) x4) (col (a := 128) x5)) (mat (a := 128) (b := 64) x6) (col (a := 64) x7) l j - col (a := 64) x7 j)
          * (preK (actK (Xlane x0 x1 x2 x3) (mat (a := 50) (b := 128) x4) (col (a := 128) x5)) (mat (a := 128) (b := 64) x6) (col (a := 64) x7) l j - col (a := 64) x7 j) := by
  refine (stats2_sumsq_apply _ x6 x7 x7 acc j).trans ?_
  refine congrArg (acc (ix2 j (0 : Fin 1)) + ·) (Finset.sum_congr rfl fun l _ => ?_)
  have e : k1_pay1 (F := Ideal) (k1_pay35 (F := Ideal) (featBlock x0 x1 x2 x3) x4 x5) x6 x7 (ix2 j l)
      = preK (actK (Xlane x0 x1 x2 x3) (mat (a := 50) (b := 128) x4) (col (a := 128) x5)) (mat (a := 128) (b := 64) x6) (col (a := 64) x7) l j :=
    (stats2_blockPre_apply (featBlock x0 x1 x2 x3) x4 x5 x6 x7 j l).trans
      (pre_row (fun (l' : Fin 16384) (k : Fin 50) => featBlock x0 x1 x2 x3 (ix2 k l')) (Xlane x0 x1 x2 x3)
      (mat (a := 50) (b := 128) x4) (col (a := 128) x5) (mat (a := 128) (b := 64) x6) (col (a := 64) x7) l l
      (show (fun (k : Fin 50) => featBlock x0 x1 x2 x3 (ix2 k l)) = Xlane x0 x1 x2 x3 l from funext fun k => featBlock_apply x0 x1 x2 x3 k l) j)
  rw [e]
  rfl

theorem pre_at (c : Dev nD) (t : Fin cfg1.N) (l : Fin 16384) (j : Fin 64) :
    preK (actK (Xlane (iblk1 V c 0 t : IVec (Sh2 8 16384) 32) (iblk1 V c 1 t : FVec Ideal (Sh2 6 16384) .f32) (iblk1 V c 2 t : FVec Ideal (Sh2 15 8) .f32) (iblk1 V c 3 t : FVec Ideal (Sh2 9 8) .f32))
        (mat (a := 50) (b := 128) (iblk1 V c 4 t : FVec Ideal (Sh2 50 128) .f32)) (col (a := 128) (iblk1 V c 5 t : FVec Ideal (Sh2 128 1) .f32)))
      (mat (a := 128) (b := 64) (iblk1 V c 6 t : FVec Ideal (Sh2 128 64) .f32)) (col (a := 64) (iblk1 V c 7 t : FVec Ideal (Sh2 64 1) .f32)) l j
      = h2 V c (laneRow t.val l) j := by
  rw [iblk1_2_eq V c t, iblk1_3_eq V c t, iblk1_4_eq V c t, iblk1_5_eq V c t, iblk1_6_eq V c t, iblk1_7_eq V c t]
  unfold h2
  exact pre_row _ _ _ _ _ _ l (laneRow t.val l)
    (Xlane_of_rows (V c main_v8) (V c main_v15) (V c main_arg14) (V c main_arg15) (iblk1 V c 0 t) (iblk1 V c 1 t) (laneRow t.val)
      (fun a l => iblk1_0_apply V c t a l) (fun a l => iblk1_1_apply V c t a l) l) j

theorem b2_at (c : Dev nD) (t : Fin cfg1.N) (j : Fin 64) :
    col (a := 64) (iblk1 V c 7 t : FVec Ideal (Sh2 64 1) .f32) j = col (a := 64) (V c main_v17 : FVec Ideal (Sh2 64 1) .f32) j := by
  rw [iblk1_7_eq V c t]

def run8 (c : Dev nD) (j : Fin 64) (n : Nat) (hn : n < 64) : EReal :=
  (outsAt1 V c n (lt_of_lt_of_eq hn N_1.symm)).1 (ix2 j (0 : Fin 1))

def run9 (c : Dev nD) (j : Fin 64) (n : Nat) (hn : n < 64) : EReal :=
  (outsAt1 V c n (lt_of_lt_of_eq hn N_1.symm)).2 (ix2 j (0 : Fin 1))

theorem run8_reset (c : Dev nD) (j : Fin 64) (n : Nat) (hn : n < 64) (h0 : n % 32 = 0) :
    run8 V c j n hn = ∑ l : Fin 16384, h2 V c (laneRow n l) j := by
  unfold run8
  rw [outsAt1_reset V c ⟨n, lt_of_lt_of_eq hn N_1.symm⟩ h0]
  dsimp only
  refine (congrFun (accReset1_8_eq c (grid1.coords ⟨n, lt_of_lt_of_eq hn N_1.symm⟩) (stg1_0 ⟨n, lt_of_lt_of_eq hn N_1.symm⟩) (stgWhole1_0 ⟨n, lt_of_lt_of_eq hn N_1.symm⟩) (stg1_1 ⟨n, lt_of_lt_of_eq hn N_1.symm⟩) (stgWhole1_1 ⟨n, lt_of_lt_of_eq hn N_1.symm⟩) (stg1_2 ⟨n, lt_of_lt_of_eq hn N_1.symm⟩) (stgWhole1_2 ⟨n, lt_of_lt_of_eq hn N_1.symm⟩) (stg1_3 ⟨n, lt_of_lt_of_eq hn N_1.symm⟩) (stgWhole1_3 ⟨n, lt_of_lt_of_eq hn N_1.symm⟩) (stg1_4 ⟨n, lt_of_lt_of_eq hn N_1.symm⟩) (stgWhole1_4 ⟨n, lt_of_lt_of_eq hn N_1.symm⟩) (stg1_5 ⟨n, lt_of_lt_of_eq hn N_1.symm⟩) (stgWhole1_5 ⟨n, lt_of_lt_of_eq hn N_1.symm⟩) (stg1_6 ⟨n, lt_of_lt_of_eq hn N_1.symm⟩) (stgWhole1_6 ⟨n, lt_of_lt_of_eq hn N_1.symm⟩) (stg1_7 ⟨n, lt_of_lt_of_eq hn N_1.symm⟩) (stgWhole1_7 ⟨n, lt_of_lt_of_eq hn N_1.symm⟩) (stg1_8 ⟨n, lt_of_lt_of_eq hn N_1.symm⟩) (stgWhole1_8 ⟨n, lt_of_lt_of_eq hn N_1.symm⟩) (stg1_9 ⟨n, lt_of_lt_of_eq hn N_1.symm⟩) (stgWhole1_9 ⟨n, lt_of_lt_of_eq hn N_1.symm⟩) xbuf1 (Memref.isWhole_whole _) ((firstStep1_iff ⟨n, lt_of_lt_of_eq hn N_1.symm⟩).mpr h0) (iblk1 V c 0 ⟨n, lt_of_lt_of_eq hn N_1.symm⟩) (iblk1 V c 1 ⟨n, lt_of_lt_of_eq hn N_1.symm⟩) (iblk1 V c 2 ⟨n, lt_of_lt_of_eq hn N_1.symm⟩) (iblk1 V c 3 ⟨n, lt_of_lt_of_eq hn N_1.symm⟩) (iblk1 V c 4 ⟨n, lt_of_lt_of_eq hn N_1.symm⟩) (iblk1 V c 5 ⟨n, lt_of_lt_of_eq hn N_1.symm⟩) (iblk1 V c 6 ⟨n, lt_of_lt_of_eq hn N_1.symm⟩) (iblk1 V c 7 ⟨n, lt_of_lt_of_eq hn N_1.symm⟩)) (ix2 j (0 : Fin 1))).trans ?_
  refine (sumStep (iblk1 V c 0 ⟨n, lt_of_lt_of_eq hn N_1.symm⟩) (iblk1 V c 1 ⟨n, lt_of_lt_of_eq hn N_1.symm⟩) (iblk1 V c 2 ⟨n, lt_of_lt_of_eq hn N_1.symm⟩) (iblk1 V c 3 ⟨n, lt_of_lt_of_eq hn N_1.symm⟩) (iblk1 V c 4 ⟨n, lt_of_lt_of_eq hn N_1.symm⟩) (iblk1 V c 5 ⟨n, lt_of_lt_of_eq hn N_1.symm⟩) (iblk1 V c 6 ⟨n, lt_of_lt_of_eq hn N_1.symm⟩) (iblk1 V c 7 ⟨n, lt_of_lt_of_eq hn N_1.symm⟩) (k1_pay4 (F := Ideal)) j).trans ?_
  rw [stats2_zero_sum, zero_add]
  exact Finset.sum_congr rfl fun l _ => pre_at V c ⟨n, lt_of_lt_of_eq hn N_1.symm⟩ l j

theorem run8_add (c : Dev nD) (j : Fin 64) (n : Nat) (hn : n + 1 < 64) (h0 : ¬(n + 1) % 32 = 0) :
    run8 V c j (n + 1) hn = run8 V c j n (Nat.lt_of_succ_lt hn) + ∑ l : Fin 16384, h2 V c (laneRow (n + 1) l) j := by
  unfold run8
  rw [outsAt1_add V c ⟨n + 1, lt_of_lt_of_eq hn N_1.symm⟩ h0]
  dsimp only
  refine (congrFun (accAdd1_8_eq c (grid1.coords ⟨n + 1, lt_of_lt_of_eq hn N_1.symm⟩) (stg1_0 ⟨n + 1, lt_of_lt_of_eq hn N_1.symm⟩) (stgWhole1_0 ⟨n + 1, lt_of_lt_of_eq hn N_1.symm⟩) (stg1_1 ⟨n + 1, lt_of_lt_of_eq hn N_1.symm⟩) (stgWhole1_1 ⟨n + 1, lt_of_lt_of_eq hn N_1.symm⟩) (stg1_2 ⟨n + 1, lt_of_lt_of_eq hn N_1.symm⟩) (stgWhole1_2 ⟨n + 1, lt_of_lt_of_eq hn N_1.symm⟩) (stg1_3 ⟨n + 1, lt_of_lt_of_eq hn N_1.symm⟩) (stgWhole1_3 ⟨n + 1, lt_of_lt_of_eq hn N_1.symm⟩) (stg1_4 ⟨n + 1, lt_of_lt_of_eq hn N_1.symm⟩) (stgWhole1_4 ⟨n + 1, lt_of_lt_of_eq hn N_1.symm⟩) (stg1_5 ⟨n + 1, lt_of_lt_of_eq hn N_1.symm⟩) (stgWhole1_5 ⟨n + 1, lt_of_lt_of_eq hn N_1.symm⟩) (stg1_6 ⟨n + 1, lt_of_lt_of_eq hn N_1.symm⟩) (stgWhole1_6 ⟨n + 1, lt_of_lt_of_eq hn N_1.symm⟩) (stg1_7 ⟨n + 1, lt_of_lt_of_eq hn N_1.symm⟩) (stgWhole1_7 ⟨n + 1, lt_of_lt_of_eq hn N_1.symm⟩) (stg1_8 ⟨n + 1, lt_of_lt_of_eq hn N_1.symm⟩) (stgWhole1_8 ⟨n + 1, lt_of_lt_of_eq hn N_1.symm⟩) (stg1_9 ⟨n + 1, lt_of_lt_of_eq hn N_1.symm⟩) (stgWhole1_9 ⟨n + 1, lt_of_lt_of_eq hn N_1.symm⟩) xbuf1 (Memref.isWhole_whole _) (fun h => h0 ((firstStep1_iff ⟨n + 1, lt_of_lt_of_eq hn N_1.symm⟩).mp h)) (iblk1 V c 0 ⟨n + 1, lt_of_lt_of_eq hn N_1.symm⟩) (iblk1 V c 1 ⟨n + 1, lt_of_lt_of_eq hn N_1.symm⟩) (iblk1 V c 2 ⟨n + 1, lt_of_lt_of_eq hn N_1.symm⟩) (iblk1 V c 3 ⟨n + 1, lt_of_lt_of_eq hn N_1.symm⟩) (iblk1 V c 4 ⟨n + 1, lt_of_lt_of_eq hn N_1.symm⟩) (iblk1 V c 5 ⟨n + 1, lt_of_lt_of_eq hn N_1.symm⟩) (iblk1 V c 6 ⟨n + 1, lt_of_lt_of_eq hn N_1.symm⟩) (iblk1 V c 7 ⟨n + 1, lt_of_lt_of_eq hn N_1.symm⟩) _ _) (ix2 j (0 : Fin 1))).trans ?_
  refine (sumStep (iblk1 V c 0 ⟨n + 1, lt_of_lt_of_eq hn N_1.symm⟩) (iblk1 V c 1 ⟨n + 1, lt_of_lt_of_eq hn N_1.symm⟩) (iblk1 V c 2 ⟨n + 1, lt_of_lt_of_eq hn N_1.symm⟩) (iblk1 V c 3 ⟨n + 1, lt_of_lt_of_eq hn N_1.symm⟩) (iblk1 V c 4 ⟨n + 1, lt_of_lt_of_eq hn N_1.symm⟩) (iblk1 V c 5 ⟨n + 1, lt_of_lt_of_eq hn N_1.symm⟩) (iblk1 V c 6 ⟨n + 1, lt_of_lt_of_eq hn N_1.symm⟩) (iblk1 V c 7 ⟨n + 1, lt_of_lt_of_eq hn N_1.symm⟩) _ j).trans ?_
  exact congrArg (_ + ·) (Finset.sum_congr rfl fun l _ => pre_at V c ⟨n + 1, lt_of_lt_of_eq hn N_1.symm⟩ l j)

theorem run9_reset (c : Dev nD) (j : Fin 64) (n : Nat) (hn : n < 64) (h0 : n % 32 = 0) :
    run9 V c j n hn = ∑ l : Fin 16384, d2 V c (laneRow n l) j := by
  unfold run9
  rw [outsAt1_reset V c ⟨n, lt_of_lt_of_eq hn N_1.symm⟩ h0]
  dsimp only
  refine (congrFun (accReset1_9_eq c (grid1.coords ⟨n, lt_of_lt_of_eq hn N_1.symm⟩) (stg1_0 ⟨n, lt_of_lt_of_eq hn N_1.symm⟩) (stgWhole1_0 ⟨n, lt_of_lt_of_eq hn N_1.symm⟩) (stg1_1 ⟨n, lt_of_lt_of_eq hn N_1.symm⟩) (stgWhole1_1 ⟨n, lt_of_lt_of_eq hn N_1.symm⟩) (stg1_2 ⟨n, lt_of_lt_of_eq hn N_1.symm⟩) (stgWhole1_2 ⟨n, lt_of_lt_of_eq hn N_1.symm⟩) (stg1_3 ⟨n, lt_of_lt_of_eq hn N_1.symm⟩) (stgWhole1_3 ⟨n, lt_of_lt_of_eq hn N_1.symm⟩) (stg1_4 ⟨n, lt_of_lt_of_eq hn N_1.symm⟩) (stgWhole1_4 ⟨n, lt_of_lt_of_eq hn N_1.symm⟩) (stg1_5 ⟨n, lt_of_lt_of_eq hn N_1.symm⟩) (stgWhole1_5 ⟨n, lt_of_lt_of_eq hn N_1.symm⟩) (stg1_6 ⟨n, lt_of_lt_of_eq hn N_1.symm⟩) (stgWhole1_6 ⟨n, lt_of_lt_of_eq hn N_1.symm⟩) (stg1_7 ⟨n, lt_of_lt_of_eq hn N_1.symm⟩) (stgWhole1_7 ⟨n, lt_of_lt_of_eq hn N_1.symm⟩) (stg1_8 ⟨n, lt_of_lt_of_eq hn N_1.symm⟩) (stgWhole1_8 ⟨n, lt_of_lt_of_eq hn N_1.symm⟩) (stg1_9 ⟨n, lt_of_lt_of_eq hn N_1.symm⟩) (stgWhole1_9 ⟨n, lt_of_lt_of_eq hn N_1.symm⟩) xbuf1 (Memref.isWhole_whole _) ((firstStep1_iff ⟨n, lt_of_lt_of_eq hn N_1.symm⟩).mpr h0) (iblk1 V c 0 ⟨n, lt_of_lt_of_eq hn N_1.symm⟩) (iblk1 V c 1 ⟨n, lt_of_lt_of_eq hn N_1.symm⟩) (iblk1 V c 2 ⟨n, lt_of_lt_of_eq hn N_1.symm⟩) (iblk1 V c 3 ⟨n, lt_of_lt_of_eq hn N_1.symm⟩) (iblk1 V c 4 ⟨n, lt_of_lt_of_eq hn N_1.symm⟩) (iblk1 V c 5 ⟨n, lt_of_lt_of_eq hn N_1.symm⟩) (iblk1 V c 6 ⟨n, lt_of_lt_of_eq hn N_1.symm⟩) (iblk1 V c 7 ⟨n, lt_of_lt_of_eq hn N_1.symm⟩)) (ix2 j (0 : Fin 1))).trans ?_
  refine (sqStep (iblk1 V c 0 ⟨n, lt_of_lt_of_eq hn N_1.symm⟩) (iblk1 V c 1 ⟨n, lt_of_lt_of_eq hn N_1.symm⟩) (iblk1 V c 2 ⟨n, lt_of_lt_of_eq hn N_1.symm⟩) (iblk1 V c 3 ⟨n, lt_of_lt_of_eq hn N_1.symm⟩) (iblk1 V c 4 ⟨n, lt_of_lt_of_eq hn N_1.symm⟩) (iblk1 V c 5 ⟨n, lt_of_lt_of_eq hn N_1.symm⟩) (iblk1 V c 6 ⟨n, lt_of_lt_of_eq hn N_1.symm⟩) (iblk1 V c 7 ⟨n, lt_of_lt_of_eq hn N_1.symm⟩) (k1_pay5 (F := Ideal)) j).trans ?_
  rw [stats2_zero_sumsq, zero_add]
  refine Finset.sum_congr rfl fun l _ => ?_
  rw [pre_at V c ⟨n, lt_of_lt_of_eq hn N_1.symm⟩ l j, b2_at V c ⟨n, lt_of_lt_of_eq hn N_1.symm⟩ j]
  rfl

theorem run9_add (c : Dev nD) (j : Fin 64) (n : Nat) (hn : n + 1 < 64) (h0 : ¬(n + 1) % 32 = 0) :
    run9 V c j (n + 1) hn = run9 V c j n (Nat.lt_of_succ_lt hn) + ∑ l : Fin 16384, d2 V c (laneRow (n + 1) l) j := by
  unfold run9
  rw [outsAt1_add V c ⟨n + 1, lt_of_lt_of_eq hn N_1.symm⟩ h0]
  dsimp only
  refine (congrFun (accAdd1_9_eq c (grid1.coords ⟨n + 1, lt_of_lt_of_eq hn N_1.symm⟩) (stg1_0 ⟨n + 1, lt_of_lt_of_eq hn N_1.symm⟩) (stgWhole1_0 ⟨n + 1, lt_of_lt_of_eq hn N_1.symm⟩) (stg1_1 ⟨n + 1, lt_of_lt_of_eq hn N_1.symm⟩) (stgWhole1_1 ⟨n + 1, lt_of_lt_of_eq hn N_1.symm⟩) (stg1_2 ⟨n + 1, lt_of_lt_of_eq hn N_1.symm⟩) (stgWhole1_2 ⟨n + 1, lt_of_lt_of_eq hn N_1.symm⟩) (stg1_3 ⟨n + 1, lt_of_lt_of_eq hn N_1.symm⟩) (stgWhole1_3 ⟨n + 1, lt_of_lt_of_eq hn N_1.symm⟩) (stg1_4 ⟨n + 1, lt_of_lt_of_eq hn N_1.symm⟩) (stgWhole1_4 ⟨n + 1, lt_of_lt_of_eq hn N_1.symm⟩) (stg1_5 ⟨n + 1, lt_of_lt_of_eq hn N_1.symm⟩) (stgWhole1_5 ⟨n + 1, lt_of_lt_of_eq hn N_1.symm⟩) (stg1_6 ⟨n + 1, lt_of_lt_of_eq hn N_1.symm⟩) (stgWhole1_6 ⟨n + 1, lt_of_lt_of_eq hn N_1.symm⟩) (stg1_7 ⟨n + 1, lt_of_lt_of_eq hn N_1.symm⟩) (stgWhole1_7 ⟨n + 1, lt_of_lt_of_eq hn N_1.symm⟩) (stg1_8 ⟨n + 1, lt_of_lt_of_eq hn N_1.symm⟩) (stgWhole1_8 ⟨n + 1, lt_of_lt_of_eq hn N_1.symm⟩) (stg1_9 ⟨n + 1, lt_of_lt_of_eq hn N_1.symm⟩) (stgWhole1_9 ⟨n + 1, lt_of_lt_of_eq hn N_1.symm⟩) xbuf1 (Memref.isWhole_whole _) (fun h => h0 ((firstStep1_iff ⟨n + 1, lt_of_lt_of_eq hn N_1.symm⟩).mp h)) (iblk1 V c 0 ⟨n + 1, lt_of_lt_of_eq hn N_1.symm⟩) (iblk1 V c 1 ⟨n + 1, lt_of_lt_of_eq hn N_1.symm⟩) (iblk1 V c 2 ⟨n + 1, lt_of_lt_of_eq hn N_1.symm⟩) (iblk1 V c 3 ⟨n + 1, lt_of_lt_of_eq hn N_1.symm⟩) (iblk1 V c 4 ⟨n + 1, lt_of_lt_of_eq hn N_1.symm⟩) (iblk1 V c 5 ⟨n + 1, lt_of_lt_of_eq hn N_1.symm⟩) (iblk1 V c 6 ⟨n + 1, lt_of_lt_of_eq hn N_1.symm⟩) (iblk1 V c 7 ⟨n + 1, lt_of_lt_of_eq hn N_1.symm⟩) _ _) (ix2 j (0 : Fin 1))).trans ?_
  refine (sqStep (iblk1 V c 0 ⟨n + 1, lt_of_lt_of_eq hn N_1.symm⟩) (iblk1 V c 1 ⟨n + 1, lt_of_lt_of_eq hn N_1.symm⟩) (iblk1 V c 2 ⟨n + 1, lt_of_lt_of_eq hn N_1.symm⟩) (iblk1 V c 3 ⟨n + 1, lt_of_lt_of_eq hn N_1.symm⟩) (iblk1 V c 4 ⟨n + 1, lt_of_lt_of_eq hn N_1.symm⟩) (iblk1 V c 5 ⟨n + 1, lt_of_lt_of_eq hn N_1.symm⟩) (iblk1 V c 6 ⟨n + 1, lt_of_lt_of_eq hn N_1.symm⟩) (iblk1 V c 7 ⟨n + 1, lt_of_lt_of_eq hn N_1.symm⟩) _ j).trans ?_
  refine congrArg (_ + ·) (Finset.sum_congr rfl fun l _ => ?_)
  rw [pre_at V c ⟨n + 1, lt_of_lt_of_eq hn N_1.symm⟩ l j, b2_at V c ⟨n + 1, lt_of_lt_of_eq hn N_1.symm⟩ j]
  rfl

theorem run8_total (c : Dev nD) (j : Fin 64) (q : Fin 2) (hq : 32 * q.val + 31 < 64) :
    run8 V c j (32 * q.val + 31) hq = halfSum q (fun n => h2 V c n j) :=
  sweep_total (fun n => h2 V c n j) (run8 V c j) (run8_reset V c j) (run8_add V c j) q hq
theorem run9_total (c : Dev nD) (j : Fin 64) (q : Fin 2) (hq : 32 * q.val + 31 < 64) :
    run9 V c j (32 * q.val + 31) hq = halfSum q (fun n => d2 V c n j) :=
  sweep_total (fun n => d2 V c n j) (run9 V c j) (run9_reset V c j) (run9_add V c j) q hq

def g8 (c : Dev nD) (i : S128x1.Idx) : EReal :=
  halfSum ⟨(i 0).val / 64, by have h : (i 0).val < 128 := (i 0).isLt; omega⟩
    (fun n => h2 V c n ⟨(i 0).val % 64, Nat.mod_lt _ (by norm_num)⟩)
def G8 (c : Dev nD) : Buf (Elt Ideal) ((c : Thread nD τ).loc main_v51_0) := fun i => g8 V c i

theorem G8_at (c : Dev nD) (q : Fin 2) (j : Fin 64) (i : S128x1.Idx) (hi : (i 0).val = q.val * 64 + j.val) :
    G8 V c i = halfSum q (fun n => h2 V c n j) := by
  have hj := j.isLt
  have hq : (⟨(i 0).val / 64, by have h : (i 0).val < 128 := (i 0).isLt; omega⟩ : Fin 2) = q :=
    Fin.ext (by show (i 0).val / 64 = q.val; omega)
  have hjj : (⟨(i 0).val % 64, Nat.mod_lt _ (by norm_num)⟩ : Fin 64) = j :=
    Fin.ext (by show (i 0).val % 64 = j.val; omega)
  show g8 V c i = _
  unfold g8
  rw [hq, hjj]

attribute [irreducible] g8

set_option maxRecDepth 65536 in
theorem flushed8_eq (c : Dev nD) (t : Fin cfg1.N) (hf : (cfg1.win 8).flush t = true) :
    (dat1 (F := Ideal) V c).flushed 8 t = ((cfg1.win 8).blk t).view.read (Elt Ideal) (G8 V c) := by
  show (cfg1.win 8).cut (grid1.coords t) ((dat1 (F := Ideal) V c).after 8 t) = _
  rw [after1_8]
  have hN : t.val < 64 := lt_of_lt_of_eq t.isLt (show cfg1.N = 64 from N_1)
  have hm : t.val % 32 = 31 := (flush1_8 t).mp hf
  obtain ⟨e0, e1, -, -⟩ := idx1_acc t
  funext y
  have hy0 : (y 0).val < 64 := (y 0).isLt
  have hy1 : (y 1).val < 1 := (y 1).isLt
  have hb0 : (((cfg1.win 8).blk t).view.emb y 0).val = win1_8.index t (0 : Fin 2) * 64 + 1 * (y 0).val := rfl
  have hx : (cfg1.win 8).xinj (grid1.coords t) y = ix2 (⟨(y 0).val, hy0⟩ : Fin 64) (0 : Fin 1) :=
    funext fun a => Fin.ext (by
      match a with
      | ⟨0, _⟩ => rfl
      | ⟨1, _⟩ => show (y 1).val = 0; omega)
  have hG := G8_at V c ⟨t.val / 32, by omega⟩ ⟨(y 0).val, hy0⟩ (((cfg1.win 8).blk t).view.emb y)
    (by rw [hb0, e0]; show t.val / 32 * 64 + 1 * (y 0).val = t.val / 32 * 64 + (y 0).val; omega)
  have hL : (cfg1.win 8).cut (grid1.coords t) (outsAt1 V c t.val t.isLt).1 y
      = (outsAt1 V c t.val t.isLt).1 (ix2 (⟨(y 0).val, hy0⟩ : Fin 64) (0 : Fin 1)) :=
    congrArg (outsAt1 V c t.val t.isLt).1 hx
  refine hL.trans (Eq.trans ?_ hG.symm)
  have ht : t.val = 32 * (t.val / 32) + 31 := by omega
  have key : ∀ (n : Nat) (hn : n < 64) (hn' : n < cfg1.N), (outsAt1 V c n hn').1 (ix2 (⟨(y 0).val, hy0⟩ : Fin 64) (0 : Fin 1)) = run8 V c ⟨(y 0).val, hy0⟩ n hn :=
    fun n hn hn' => rfl
  rw [key t.val hN t.isLt]
  have same : ∀ (u : Nat) (hu : u < 64), u = t.val → run8 V c ⟨(y 0).val, hy0⟩ u hu = run8 V c ⟨(y 0).val, hy0⟩ t.val hN :=
    fun u hu e => by subst e; rfl
  rw [← same (32 * (t.val / 32) + 31) (by omega) ht.symm]
  exact run8_total V c ⟨(y 0).val, hy0⟩ ⟨t.val / 32, by omega⟩ (by show 32 * (t.val / 32) + 31 < 64; omega)

theorem mem_blk8 (t : Fin cfg1.N) (i : S128x1.Idx) :
    i ∈ ((cfg1.win 8).blk t).view.set ↔ ∀ a : Fin 2, win1_8.index t a * S64x1.size a ≤ (i a).val ∧ (i a).val < win1_8.index t a * S64x1.size a + S64x1.size a := by
  show i ∈ ((View.whole main_v51_0).slice (win1_8.rect t)).set ↔ _
  rw [View.set_slice_whole, Rect.mem_set_unit]
  exact Iff.rfl

theorem idx_onto8 : ∀ q : Fin 2, ∃ t : Fin cfg1.N, (cfg1.win 8).flush t = true ∧ win1_8.index t = ![q.val, 0] :=
  (by decide +kernel : ∀ q : Fin 2, ∃ t : Fin grid1.N, win1_8.flush t = true ∧ win1_8.index t = ![q.val, 0])

theorem final8 (c : Dev nD) : (dat1 (F := Ideal) V c).arrAt 8 cfg1.N = G8 V c :=
  (dat1 (F := Ideal) V c).arrAt_eq_of_cover 8 _ (fun t hf => flushed8_eq V c t hf) (fun i => by
    have h0 : (i 0).val < 128 := (i 0).isLt
    have h1 : (i 1).val < 1 := (i 1).isLt
    obtain ⟨t, hft, ht⟩ := idx_onto8 ⟨(i 0).val / 64, by omega⟩
    have q0 : win1_8.index t (0 : Fin 2) = (i 0).val / 64 := congrFun ht 0
    have q1 : win1_8.index t (1 : Fin 2) = 0 := congrFun ht 1
    refine ⟨t, hft, ?_⟩
    rw [mem_blk8]
    intro a
    match a with
    | ⟨0, _⟩ => show win1_8.index t (0 : Fin 2) * 64 ≤ (i 0).val ∧ (i 0).val < win1_8.index t (0 : Fin 2) * 64 + 64; omega
    | ⟨1, _⟩ => show win1_8.index t (1 : Fin 2) * 1 ≤ (i 1).val ∧ (i 1).val < win1_8.index t (1 : Fin 2) * 1 + 1; omega)

def g9 (c : Dev nD) (i : S128x1.Idx) : EReal :=
  halfSum ⟨(i 0).val / 64, by have h : (i 0).val < 128 := (i 0).isLt; omega⟩
    (fun n => d2 V c n ⟨(i 0).val % 64, Nat.mod_lt _ (by norm_num)⟩)
def G9 (c : Dev nD) : Buf (Elt Ideal) ((c : Thread nD τ).loc main_v51_1) := fun i => g9 V c i

theorem G9_at (c : Dev nD) (q : Fin 2) (j : Fin 64) (i : S128x1.Idx) (hi : (i 0).val = q.val * 64 + j.val) :
    G9 V c i = halfSum q (fun n => d2 V c n j) := by
  have hj := j.isLt
  have hq : (⟨(i 0).val / 64, by have h : (i 0).val < 128 := (i 0).isLt; omega⟩ : Fin 2) = q :=
    Fin.ext (by show (i 0).val / 64 = q.val; omega)
  have hjj : (⟨(i 0).val % 64, Nat.mod_lt _ (by norm_num)⟩ : Fin 64) = j :=
    Fin.ext (by show (i 0).val % 64 = j.val; omega)
  show g9 V c i = _
  unfold g9
  rw [hq, hjj]

attribute [irreducible] g9

set_option maxRecDepth 65536 in
theorem flushed9_eq (c : Dev nD) (t : Fin cfg1.N) (hf : (cfg1.win 9).flush t = true) :
    (dat1 (F := Ideal) V c).flushed 9 t = ((cfg1.win 9).blk t).view.read (Elt Ideal) (G9 V c) := by
  show (cfg1.win 9).cut (grid1.coords t) ((dat1 (F := Ideal) V c).after 9 t) = _
  rw [after1_9]
  have hN : t.val < 64 := lt_of_lt_of_eq t.isLt (show cfg1.N = 64 from N_1)
  have hm : t.val % 32 = 31 := (flush1_9 t).mp hf
  obtain ⟨-, -, e0, e1⟩ := idx1_acc t
  funext y
  have hy0 : (y 0).val < 64 := (y 0).isLt
  have hy1 : (y 1).val < 1 := (y 1).isLt
  have hb0 : (((cfg1.win 9).blk t).view.emb y 0).val = win1_9.index t (0 : Fin 2) * 64 + 1 * (y 0).val := rfl
  have hx : (cfg1.win 9).xinj (grid1.coords t) y = ix2 (⟨(y 0).val, hy0⟩ : Fin 64) (0 : Fin 1) :=
    funext fun a => Fin.ext (by
      match a with
      | ⟨0, _⟩ => rfl
      | ⟨1, _⟩ => show (y 1).val = 0; omega)
  have hG := G9_at V c ⟨t.val / 32, by omega⟩ ⟨(y 0).val, hy0⟩ (((cfg1.win 9).blk t).view.emb y)
    (by rw [hb0, e0]; show t.val / 32 * 64 + 1 * (y 0).val = t.val / 32 * 64 + (y 0).val; omega)
  have hL : (cfg1.win 9).cut (grid1.coords t) (outsAt1 V c t.val t.isLt).2 y
      = (outsAt1 V c t.val t.isLt).2 (ix2 (⟨(y 0).val, hy0⟩ : Fin 64) (0 : Fin 1)) :=
    congrArg (outsAt1 V c t.val t.isLt).2 hx
  refine hL.trans (Eq.trans ?_ hG.symm)
  have ht : t.val = 32 * (t.val / 32) + 31 := by omega
  have key : ∀ (n : Nat) (hn : n < 64) (hn' : n < cfg1.N), (outsAt1 V c n hn').2 (ix2 (⟨(y 0).val, hy0⟩ : Fin 64) (0 : Fin 1)) = run9 V c ⟨(y 0).val, hy0⟩ n hn :=
    fun n hn hn' => rfl
  rw [key t.val hN t.isLt]
  have same : ∀ (u : Nat) (hu : u < 64), u = t.val → run9 V c ⟨(y 0).val, hy0⟩ u hu = run9 V c ⟨(y 0).val, hy0⟩ t.val hN :=
    fun u hu e => by subst e; rfl
  rw [← same (32 * (t.val / 32) + 31) (by omega) ht.symm]
  exact run9_total V c ⟨(y 0).val, hy0⟩ ⟨t.val / 32, by omega⟩ (by show 32 * (t.val / 32) + 31 < 64; omega)

theorem mem_blk9 (t : Fin cfg1.N) (i : S128x1.Idx) :
    i ∈ ((cfg1.win 9).blk t).view.set ↔ ∀ a : Fin 2, win1_9.index t a * S64x1.size a ≤ (i a).val ∧ (i a).val < win1_9.index t a * S64x1.size a + S64x1.size a := by
  show i ∈ ((View.whole main_v51_1).slice (win1_9.rect t)).set ↔ _
  rw [View.set_slice_whole, Rect.mem_set_unit]
  exact Iff.rfl

theorem idx_onto9 : ∀ q : Fin 2, ∃ t : Fin cfg1.N, (cfg1.win 9).flush t = true ∧ win1_9.index t = ![q.val, 0] :=
  (by decide +kernel : ∀ q : Fin 2, ∃ t : Fin grid1.N, win1_9.flush t = true ∧ win1_9.index t = ![q.val, 0])

theorem final9 (c : Dev nD) : (dat1 (F := Ideal) V c).arrAt 9 cfg1.N = G9 V c :=
  (dat1 (F := Ideal) V c).arrAt_eq_of_cover 9 _ (fun t hf => flushed9_eq V c t hf) (fun i => by
    have h0 : (i 0).val < 128 := (i 0).isLt
    have h1 : (i 1).val < 1 := (i 1).isLt
    obtain ⟨t, hft, ht⟩ := idx_onto9 ⟨(i 0).val / 64, by omega⟩
    have q0 : win1_9.index t (0 : Fin 2) = (i 0).val / 64 := congrFun ht 0
    have q1 : win1_9.index t (1 : Fin 2) = 0 := congrFun ht 1
    refine ⟨t, hft, ?_⟩
    rw [mem_blk9]
    intro a
    match a with
    | ⟨0, _⟩ => show win1_9.index t (0 : Fin 2) * 64 ≤ (i 0).val ∧ (i 0).val < win1_9.index t (0 : Fin 2) * 64 + 64; omega
    | ⟨1, _⟩ => show win1_9.index t (1 : Fin 2) * 1 ≤ (i 1).val ∧ (i 1).val < win1_9.index t (1 : Fin 2) * 1 + 1; omega)

end R1

open R1

theorem reg1_sum (c : Dev nD) (r : Fin 128) :
    (dat1 (F := Ideal) V c).arrAt 8 cfg1.N (ix2 r (0 : Fin 1))
      = halfSum ⟨r.val / 64, by omega⟩ (fun n => preK (actK (Xst (V c main_v8) (V c main_v15) (V c main_arg14) (V c main_arg15)) (mat (a := 50) (b := 128) (V c main_v48)) (col (a := 128) (V c main_v50))) (mat (a := 128) (b := 64) (V c main_arg20)) (col (a := 64) (V c main_v17)) n ⟨r.val % 64, Nat.mod_lt _ (by norm_num)⟩) := by
  rw [final8 V c]
  exact G8_at V c ⟨r.val / 64, by omega⟩ ⟨r.val % 64, Nat.mod_lt _ (by norm_num)⟩ (ix2 r (0 : Fin 1))
    (by show r.val = r.val / 64 * 64 + r.val % 64; omega)

theorem reg1_sq (c : Dev nD) (r : Fin 128) :
    (dat1 (F := Ideal) V c).arrAt 9 cfg1.N (ix2 r (0 : Fin 1))
      = halfSum ⟨r.val / 64, by omega⟩ (fun n =>
          (preK (actK (Xst (V c main_v8) (V c main_v15) (V c main_arg14) (V c main_arg15)) (mat (a := 50) (b := 128) (V c main_v48)) (col (a := 128) (V c main_v50))) (mat (a := 128) (b := 64) (V c main_arg20)) (col (a := 64) (V c main_v17)) n ⟨r.val % 64, Nat.mod_lt _ (by norm_num)⟩ - col (a := 64) (V c main_v17) ⟨r.val % 64, Nat.mod_lt _ (by norm_num)⟩)
          * (preK (actK (Xst (V c main_v8) (V c main_v15) (V c main_arg14) (V c main_arg15)) (mat (a := 50) (b := 128) (V c main_v48)) (col (a := 128) (V c main_v50))) (mat (a := 128) (b := 64) (V c main_arg20)) (col (a := 64) (V c main_v17)) n ⟨r.val % 64, Nat.mod_lt _ (by norm_num)⟩ - col (a := 64) (V c main_v17) ⟨r.val % 64, Nat.mod_lt _ (by norm_num)⟩)) := by
  rw [final9 V c]
  exact G9_at V c ⟨r.val / 64, by omega⟩ ⟨r.val % 64, Nat.mod_lt _ (by norm_num)⟩ (ix2 r (0 : Fin 1))
    (by show r.val = r.val / 64 * 64 + r.val % 64; omega)

end Cert.KernelIdeal.Hand

end
-- ==== Proof.Reg2Val.lean ====
import proofs.«412578_j66537633349983_3_alg».proof.Proof.Reg2
import proofs.«412578_j66537633349983_3_alg».proof.Proof.EncOps
import proofs.«412578_j66537633349983_3_alg».proof.Proof.Reg0Enc
import proofs.«412578_j66537633349983_3_alg».proof.Proof.LayerOps
import Idealize.ShloMosaic.Lib.Pipeline.Value
import Idealize.ShloMosaic.Lib.Tactic
import Mathlib.Algebra.BigOperators.Fin
import Mathlib.Algebra.BigOperators.Intervals
import Mathlib.Logic.Equiv.Fin.Basic

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.Sem
open Idealize.ShloMosaic.Pipeline (Dat)
open scoped BigOperators

namespace R2

theorem fold_range32 {N : ℕ} (f : (n : ℕ) → n < N → EReal) (a : ℕ → EReal)
    (hA : ∀ (n : ℕ) (hn : n < N), n % 32 = 0 → f n hn = a n)
    (hB : ∀ (n : ℕ) (hn : n + 1 < N), ¬(n + 1) % 32 = 0 → f (n + 1) hn = f n (Nat.lt_of_succ_lt hn) + a (n + 1)) :
    ∀ (n : ℕ) (hn : n < N), f n hn = ∑ s ∈ Finset.range (n % 32 + 1), a (32 * (n / 32) + s) := by
  intro n
  induction n with
  | zero =>
    intro hn
    rw [hA 0 hn rfl]
    simp
  | succ n ih =>
    intro hn
    by_cases h : (n + 1) % 32 = 0
    · rw [hA (n + 1) hn h, h, Finset.sum_range_one]
      exact congrArg a (by omega)
    · rw [hB n hn h, ih (Nat.lt_of_succ_lt hn)]
      have e1 : (n + 1) % 32 = n % 32 + 1 := by omega
      have e2 : (n + 1) / 32 = n / 32 := by omega
      rw [e1, e2, Finset.sum_range_succ _ (n % 32 + 1)]
      exact congrArg (_ + a ·) (by omega)

theorem sum_half_blocks (g : ℕ → EReal) :
    ∑ q : Fin 524288, g q.val = ∑ s ∈ Finset.range 32, ∑ l : Fin 16384, g (s * 16384 + l.val) := by
  rw [← Fin.sum_univ_eq_sum_range (fun s => ∑ l : Fin 16384, g (s * 16384 + l.val)) 32]
  rw [← Fintype.sum_prod_type' (fun (s : Fin 32) (l : Fin 16384) => g (s.val * 16384 + l.val))]
  rw [show (∑ q : Fin 524288, g q.val) = ∑ q : Fin (32 * 16384), g q.val from rfl]
  rw [← Equiv.sum_comp (finProdFinEquiv (m := 32) (n := 16384)) (fun q => g q.val)]
  refine Finset.sum_congr rfl fun p _ => ?_
  show g (finProdFinEquiv p).val = g (p.1.val * 16384 + p.2.val)
  refine congrArg g ?_
  rw [finProdFinEquiv_apply_val]
  ring

section Pieces

variable {F : FTy → Type} [FloatOps F] [Named F]

theorem hz2 : (![0, 0] : Fin 2 → Nat) = fun _ => 0 := funext fun a => by fin_cases a <;> rfl

theorem readCov_whole {Val : EltTy → Type} [∀ e, Nonempty (Val e)] {sg : RefSig} {κ' : Kind} {sp : Space} {S : Shape} {e : EltTy}
    (v : View sg κ' sp S e) (L : List (View.Piece Val S e)) {off : Fin S.rank → Nat} (h : off = fun _ => 0)
    (inb : ∀ a, off a + S.size a ≤ S.size a) :
    v.readCov L (Rect.unit off S.size inb).toLoadRect = View.canon L :=
  (View.readCov_eq_canon' v L (Rect.unit off S.size inb).toLoadRect).trans (View.ld_unit_zero h inb (View.canon L))

def scr2 (x0 : Vec F S8x16384 .i32) (x1 : Vec F S6x16384 .f32) (x2 : Vec F S15x8 .f32) (x3 : Vec F S9x8 .f32) : Vec F S50x16384 .f32 :=
  View.canon [⟨Rect.unit (s := S50x16384) ![49, 0] S1x16384.size inb_S50x16384_S1x16384_49_0, k2_pay31 (k2_pay21 (k2_pay4 x1))⟩,
    ⟨Rect.unit (s := S50x16384) ![48, 0] S1x16384.size inb_S50x16384_S1x16384_48_0, k2_pay30 (k2_pay20 (k2_pay4 x1))⟩,
    ⟨Rect.unit (s := S50x16384) ![47, 0] S1x16384.size inb_S50x16384_S1x16384_47_0, k2_pay29 (k2_pay19 (k2_pay4 x1))⟩,
    ⟨Rect.unit (s := S50x16384) ![39, 0] S8x16384.size inb_S50x16384_S8x16384_39_0, k2_pay28 x3 (k2_pay25 (k2_pay3 x0)) (k2_pay26 (F := F)) (k2_pay27 (F := F))⟩,
    ⟨Rect.unit (s := S50x16384) ![36, 0] S3x16384.size inb_S50x16384_S3x16384_36_0, k2_pay24 (F := F) (k2_pay3 x0)⟩,
    ⟨Rect.unit (s := S50x16384) ![33, 0] S3x16384.size inb_S50x16384_S3x16384_33_0, k2_pay23 (F := F) (k2_pay3 x0)⟩,
    ⟨Rect.unit (s := S50x16384) ![25, 0] S8x16384.size inb_S50x16384_S8x16384_25_0, k2_pay22 x2 (k2_pay18 (k2_pay3 x0))⟩,
    ⟨Rect.unit (s := S50x16384) ![24, 0] S1x16384.size inb_S50x16384_S1x16384_24_0, k2_pay17 (k2_pay9 x1)⟩,
    ⟨Rect.unit (s := S50x16384) ![23, 0] S1x16384.size inb_S50x16384_S1x16384_23_0, k2_pay16 (k2_pay8 x1)⟩,
    ⟨Rect.unit (s := S50x16384) ![22, 0] S1x16384.size inb_S50x16384_S1x16384_22_0, k2_pay15 (k2_pay7 x1)⟩,
    ⟨Rect.unit (s := S50x16384) ![14, 0] S8x16384.size inb_S50x16384_S8x16384_14_0, k2_pay14 x3 (k2_pay6 x0)⟩,
    ⟨Rect.unit (s := S50x16384) ![11, 0] S3x16384.size inb_S50x16384_S3x16384_11_0, k2_pay13 (F := F) (k2_pay5 x0)⟩,
    ⟨Rect.unit (s := S50x16384) ![8, 0] S3x16384.size inb_S50x16384_S3x16384_8_0, k2_pay12 (k2_pay11 x0)⟩,
    ⟨Rect.unit (s := S50x16384) ![0, 0] S8x16384.size inb_S50x16384_S8x16384_0_0, k2_pay10 x0 x2⟩]

section
variable (c : Dev nD) (i : grid2.Coords) (arg2 : Memref sig .tc .vmem S8x16384 .i32) (harg2 : arg2.IsWhole) (arg3 : Memref sig .tc .vmem S6x16384 .f32) (harg3 : arg3.IsWhole) (arg4 : Memref sig .tc .vmem S15x8 .f32) (harg4 : arg4.IsWhole) (arg5 : Memref sig .tc .vmem S9x8 .f32) (harg5 : arg5.IsWhole) (arg6 : Memref sig .tc .vmem S50x128 .f32) (harg6 : arg6.IsWhole) (arg7 : Memref sig .tc .vmem S128x1 .f32) (harg7 : arg7.IsWhole) (arg8 : Memref sig .tc .vmem S128x64 .f32) (harg8 : arg8.IsWhole) (arg9 : Memref sig .tc .vmem S64x1 .f32) (harg9 : arg9.IsWhole) (arg10 : Memref sig .tc .vmem S64x32 .f32) (harg10 : arg10.IsWhole) (arg11 : Memref sig .tc .vmem S32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S50x16384 .f32) (harg14 : arg14.IsWhole)

theorem out2_A_10_eq (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) :
    out2_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k2_pay34 (k2_pay32 (scr2 x0 x1 x2 x3) x4 x5) x6 x7 x8 x9 (k2_pay1 (F := F)) := by
  unfold out2_A_10
  rw [View.read_writes_eq_canon _ _ _ (cover2_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun2_A
  dsimp only
  sl_unfold_words
  rw [View.canon_cons_unit_zero (S := S32x1) hz2]
  unfold scr2
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.ld_unit_zero (S := S64x1) hz2, View.ld_unit_zero (S := S64x32) hz2, View.ld_unit_zero (S := S32x1) hz2, View.ld_unit_zero (S := S50x16384) hz2, readCov_whole (S := S50x16384) _ _ hz2, View.readCov_unit_zero (S := S32x1) _ hz2]

theorem out2_A_11_eq (hc0 : cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) :
    out2_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k2_pay35 (k2_pay32 (scr2 x0 x1 x2 x3) x4 x5) x6 x7 x8 x9 x9 (k2_pay2 (F := F)) := by
  unfold out2_A_11
  rw [View.read_writes_eq_canon _ _ _ (cover2_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun2_A
  dsimp only
  sl_unfold_words
  rw [View.canon_cons_unit_zero (S := S32x1) hz2]
  unfold scr2
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.ld_unit_zero (S := S64x1) hz2, View.ld_unit_zero (S := S64x32) hz2, View.ld_unit_zero (S := S32x1) hz2, View.ld_unit_zero (S := S50x16384) hz2, readCov_whole (S := S50x16384) _ _ hz2, View.readCov_unit_zero (S := S32x1) _ hz2]

theorem out2_B_10_eq (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) :
    out2_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11 = k2_pay34 (k2_pay32 (scr2 x0 x1 x2 x3) x4 x5) x6 x7 x8 x9 xo10 := by
  unfold out2_B_10
  rw [View.read_writes_eq_canon _ _ _ (cover2_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11)]
  unfold kernelRun2_B
  dsimp only
  sl_unfold_words
  rw [View.canon_unit_zero hz2]
  unfold scr2
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.ld_unit_zero (S := S64x1) hz2, View.ld_unit_zero (S := S64x32) hz2, View.ld_unit_zero (S := S32x1) hz2, View.ld_unit_zero (S := S50x16384) hz2, readCov_whole (S := S50x16384) _ _ hz2, View.readCov_unit_zero (S := S32x1) _ hz2]

theorem out2_B_11_eq (hc0 : ¬cond2_0 i)
    (x0 : Vec F S8x16384 .i32) (x1 : Vec F S6x16384 .f32) (x2 : Vec F S15x8 .f32) (x3 : Vec F S9x8 .f32) (x4 : Vec F S50x128 .f32) (x5 : Vec F S128x1 .f32) (x6 : Vec F S128x64 .f32) (x7 : Vec F S64x1 .f32) (x8 : Vec F S64x32 .f32) (x9 : Vec F S32x1 .f32) (xo10 : Vec F S32x1 .f32) (xo11 : Vec F S32x1 .f32) :
    out2_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11 = k2_pay35 (k2_pay32 (scr2 x0 x1 x2 x3) x4 x5) x6 x7 x8 x9 x9 xo11 := by
  unfold out2_B_11
  rw [View.read_writes_eq_canon _ _ _ (cover2_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo10 xo11)]
  unfold kernelRun2_B
  dsimp only
  sl_unfold_words
  rw [View.canon_unit_zero hz2]
  unfold scr2
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S8x16384) hz2, View.ld_unit_zero (S := S6x16384) hz2, View.ld_unit_zero (S := S15x8) hz2, View.ld_unit_zero (S := S9x8) hz2, View.ld_unit_zero (S := S50x128) hz2, View.ld_unit_zero (S := S128x1) hz2, View.ld_unit_zero (S := S128x64) hz2, View.ld_unit_zero (S := S64x1) hz2, View.ld_unit_zero (S := S64x32) hz2, View.ld_unit_zero (S := S32x1) hz2, View.ld_unit_zero (S := S50x16384) hz2, readCov_whole (S := S50x16384) _ _ hz2, View.readCov_unit_zero (S := S32x1) _ hz2]

end

end Pieces

section Layers

theorem d2a_l0 (i : S128x16384.Idx) (q : dot_S128x50_S50x16384_S128x16384_1_0_0_1_n_n.contr.Idx) :
    (dot_S128x50_S50x16384_S128x16384_1_0_0_1_n_n.lhsIdx i q 0).val = (i 0).val := by
  unfold DotDims.lhsIdx
  rw [dif_neg (show ¬(0 : Fin S128x50.rank) ∈ dot_S128x50_S50x16384_S128x16384_1_0_0_1_n_n.lhsBatch by decide), dif_pos (show (0 : Fin S128x50.rank) ∈ dot_S128x50_S50x16384_S128x16384_1_0_0_1_n_n.lhsNonContracting by decide)]
  rfl
theorem d2a_l1 (i : S128x16384.Idx) (q : dot_S128x50_S50x16384_S128x16384_1_0_0_1_n_n.contr.Idx) :
    (dot_S128x50_S50x16384_S128x16384_1_0_0_1_n_n.lhsIdx i q 1).val = (q ⟨0, by decide⟩).val :=
  dot_S128x50_S50x16384_S128x16384_1_0_0_1_n_n.lhsIdx_val_of_single rfl i q
theorem d2a_r0 (i : S128x16384.Idx) (q : dot_S128x50_S50x16384_S128x16384_1_0_0_1_n_n.contr.Idx) :
    (dot_S128x50_S50x16384_S128x16384_1_0_0_1_n_n.rhsIdx i q 0).val = (q ⟨0, by decide⟩).val :=
  dot_S128x50_S50x16384_S128x16384_1_0_0_1_n_n.rhsIdx_val_of_single rfl i q
theorem d2a_r1 (i : S128x16384.Idx) (q : dot_S128x50_S50x16384_S128x16384_1_0_0_1_n_n.contr.Idx) :
    (dot_S128x50_S50x16384_S128x16384_1_0_0_1_n_n.rhsIdx i q 1).val = (i 1).val := by
  unfold DotDims.rhsIdx
  rw [dif_neg (show ¬(1 : Fin S50x16384.rank) ∈ dot_S128x50_S50x16384_S128x16384_1_0_0_1_n_n.rhsBatch by decide), dif_pos (show (1 : Fin S50x16384.rank) ∈ dot_S128x50_S50x16384_S128x16384_1_0_0_1_n_n.rhsNonContracting by decide)]
  rfl

theorem d2b_l0 (i : S64x16384.Idx) (q : dot_S64x128_S128x16384_S64x16384_1_0_0_1_n_n.contr.Idx) :
    (dot_S64x128_S128x16384_S64x16384_1_0_0_1_n_n.lhsIdx i q 0).val = (i 0).val := by
  unfold DotDims.lhsIdx
  rw [dif_neg (show ¬(0 : Fin S64x128.rank) ∈ dot_S64x128_S128x16384_S64x16384_1_0_0_1_n_n.lhsBatch by decide), dif_pos (show (0 : Fin S64x128.rank) ∈ dot_S64x128_S128x16384_S64x16384_1_0_0_1_n_n.lhsNonContracting by decide)]
  rfl
theorem d2b_l1 (i : S64x16384.Idx) (q : dot_S64x128_S128x16384_S64x16384_1_0_0_1_n_n.contr.Idx) :
    (dot_S64x128_S128x16384_S64x16384_1_0_0_1_n_n.lhsIdx i q 1).val = (q ⟨0, by decide⟩).val :=
  dot_S64x128_S128x16384_S64x16384_1_0_0_1_n_n.lhsIdx_val_of_single rfl i q
theorem d2b_r0 (i : S64x16384.Idx) (q : dot_S64x128_S128x16384_S64x16384_1_0_0_1_n_n.contr.Idx) :
    (dot_S64x128_S128x16384_S64x16384_1_0_0_1_n_n.rhsIdx i q 0).val = (q ⟨0, by decide⟩).val :=
  dot_S64x128_S128x16384_S64x16384_1_0_0_1_n_n.rhsIdx_val_of_single rfl i q
theorem d2b_r1 (i : S64x16384.Idx) (q : dot_S64x128_S128x16384_S64x16384_1_0_0_1_n_n.contr.Idx) :
    (dot_S64x128_S128x16384_S64x16384_1_0_0_1_n_n.rhsIdx i q 1).val = (i 1).val := by
  unfold DotDims.rhsIdx
  rw [dif_neg (show ¬(1 : Fin S128x16384.rank) ∈ dot_S64x128_S128x16384_S64x16384_1_0_0_1_n_n.rhsBatch by decide), dif_pos (show (1 : Fin S128x16384.rank) ∈ dot_S64x128_S128x16384_S64x16384_1_0_0_1_n_n.rhsNonContracting by decide)]
  rfl

theorem d2c_l0 (i : S32x16384.Idx) (q : dot_S32x64_S64x16384_S32x16384_1_0_0_1_n_n.contr.Idx) :
    (dot_S32x64_S64x16384_S32x16384_1_0_0_1_n_n.lhsIdx i q 0).val = (i 0).val := by
  unfold DotDims.lhsIdx
  rw [dif_neg (show ¬(0 : Fin S32x64.rank) ∈ dot_S32x64_S64x16384_S32x16384_1_0_0_1_n_n.lhsBatch by decide), dif_pos (show (0 : Fin S32x64.rank) ∈ dot_S32x64_S64x16384_S32x16384_1_0_0_1_n_n.lhsNonContracting by decide)]
  rfl
theorem d2c_l1 (i : S32x16384.Idx) (q : dot_S32x64_S64x16384_S32x16384_1_0_0_1_n_n.contr.Idx) :
    (dot_S32x64_S64x16384_S32x16384_1_0_0_1_n_n.lhsIdx i q 1).val = (q ⟨0, by decide⟩).val :=
  dot_S32x64_S64x16384_S32x16384_1_0_0_1_n_n.lhsIdx_val_of_single rfl i q
theorem d2c_r0 (i : S32x16384.Idx) (q : dot_S32x64_S64x16384_S32x16384_1_0_0_1_n_n.contr.Idx) :
    (dot_S32x64_S64x16384_S32x16384_1_0_0_1_n_n.rhsIdx i q 0).val = (q ⟨0, by decide⟩).val :=
  dot_S32x64_S64x16384_S32x16384_1_0_0_1_n_n.rhsIdx_val_of_single rfl i q
theorem d2c_r1 (i : S32x16384.Idx) (q : dot_S32x64_S64x16384_S32x16384_1_0_0_1_n_n.contr.Idx) :
    (dot_S32x64_S64x16384_S32x16384_1_0_0_1_n_n.rhsIdx i q 1).val = (i 1).val := by
  unfold DotDims.rhsIdx
  rw [dif_neg (show ¬(1 : Fin S64x16384.rank) ∈ dot_S32x64_S64x16384_S32x16384_1_0_0_1_n_n.rhsBatch by decide), dif_pos (show (1 : Fin S64x16384.rank) ∈ dot_S32x64_S64x16384_S32x16384_1_0_0_1_n_n.rhsNonContracting by decide)]
  rfl

theorem pay32_apply (v137 : Vec Ideal S50x16384 .f32) (v139 : Vec Ideal S50x128 .f32) (v144 : Vec Ideal S128x1 .f32)
    (j : Fin 128) (l : Fin 16384) :
    k2_pay32 v137 v139 v144 (ix2 j l)
      = max ((∑ k : Fin 50, v139 (ix2 k j) * v137 (ix2 k l)) + v144 (ix2 j (0 : Fin 1))) 0 := by
  unfold k2_pay32
  refine (denseRelu_apply dot_S128x50_S50x16384_S128x16384_1_0_0_1_n_n rfl rfl d2a_l0 d2a_l1 d2a_r0 d2a_r1 none
    (shapeCast S50x128 v139 shapeCasts_S50x128_S50x128) bitsLt_bf16_f32 transposes_S50x128_p1_0_S128x50
    (truncf .bf16 v137 bitsLt_bf16_f32) v144 shapeCasts_S128x1_S128x1 broadcasts_S128x1_S128x16384 j l).trans ?_
  rw [shapeCast_self]
  rfl

theorem pay33_apply (v150 : FVec Ideal S128x16384 .bf16) (v151 : Vec Ideal S128x64 .f32) (v156 : Vec Ideal S64x1 .f32)
    (v163 : Vec Ideal S64x32 .f32) (v167 : Vec Ideal S32x1 .f32) (j : Fin 32) (l : Fin 16384) :
    k2_pay33 v150 v151 v156 v163 v167 (ix2 j l)
      = (∑ k : Fin 64, v163 (ix2 k j) * max ((∑ k' : Fin 128, v151 (ix2 k' k) * v150 (ix2 k' l)) + v156 (ix2 k (0 : Fin 1))) 0)
          + v167 (ix2 j (0 : Fin 1)) := by
  unfold k2_pay33
  refine (dense_apply dot_S32x64_S64x16384_S32x16384_1_0_0_1_n_n rfl rfl d2c_l0 d2c_l1 d2c_r0 d2c_r1 none v163 bitsLt_bf16_f32 transposes_S64x32_p1_0_S32x64
    _ v167 shapeCasts_S32x1_S32x1 broadcasts_S32x1_S32x16384 j l).trans ?_
  refine congrArg (· + v167 (ix2 j (0 : Fin 1))) (Finset.sum_congr rfl fun k _ => congrArg (v163 (ix2 k j) * ·) ?_)
  refine (denseRelu_apply dot_S64x128_S128x16384_S64x16384_1_0_0_1_n_n rfl rfl d2b_l0 d2b_l1 d2b_r0 d2b_r1 none
    (shapeCast S128x64 v151 shapeCasts_S128x64_S128x64) bitsLt_bf16_f32 transposes_S128x64_p1_0_S64x128
    v150 v156 shapeCasts_S64x1_S64x1 broadcasts_S64x1_S64x16384 k l).trans ?_
  rw [shapeCast_self]

theorem h3_eq (S : Vec Ideal S50x16384 .f32) (x4 : Vec Ideal S50x128 .f32) (x5 : Vec Ideal S128x1 .f32)
    (x6 : Vec Ideal S128x64 .f32) (x7 : Vec Ideal S64x1 .f32) (x8 : Vec Ideal S64x32 .f32) (x9 : Vec Ideal S32x1 .f32)
    (j : Fin 32) (l : Fin 16384) :
    k2_pay33 (k2_pay32 S x4 x5) x6 x7 x8 x9 (ix2 j l)
      = preK (actK (actK (fun (l : Fin 16384) (k : Fin 50) => S (ix2 k l)) (mat x4) (col x5)) (mat x6) (col x7))
          (mat x8) (col x9) l j := by
  refine (pay33_apply (k2_pay32 S x4 x5) x6 x7 x8 x9 j l).trans ?_
  simp only [pay32_apply]
  rfl

theorem pay34_apply (v150 : FVec Ideal S128x16384 .bf16) (v151 : Vec Ideal S128x64 .f32) (v156 : Vec Ideal S64x1 .f32)
    (v163 : Vec Ideal S64x32 .f32) (v167 : Vec Ideal S32x1 .f32) (v171 : Vec Ideal S32x1 .f32) (j : Fin 32) :
    k2_pay34 v150 v151 v156 v163 v167 v171 (ix2 j (0 : Fin 1))
      = v171 (ix2 j (0 : Fin 1)) + ∑ l : Fin 16384, k2_pay33 v150 v151 v156 v163 v167 (ix2 j l) := by
  unfold k2_pay34
  refine (accAdd_apply v171 shapeCasts_S32x1_S32x1 _ (ix2 j (0 : Fin 1))).trans ?_
  exact congrArg (v171 (ix2 j (0 : Fin 1)) + ·)
    (laneSum_apply (k2_pay33 v150 v151 v156 v163 v167) reduces_S32x16384_S32 (.inl rfl) rfl shapeCasts_S32_S32x1 j)

theorem pay35_apply (v150 : FVec Ideal S128x16384 .bf16) (v151 : Vec Ideal S128x64 .f32) (v156 : Vec Ideal S64x1 .f32)
    (v163 : Vec Ideal S64x32 .f32) (v167 : Vec Ideal S32x1 .f32) (v177 : Vec Ideal S32x1 .f32) (v181 : Vec Ideal S32x1 .f32)
    (j : Fin 32) :
    k2_pay35 v150 v151 v156 v163 v167 v177 v181 (ix2 j (0 : Fin 1))
      = v181 (ix2 j (0 : Fin 1)) + ∑ l : Fin 16384,
          (k2_pay33 v150 v151 v156 v163 v167 (ix2 j l) - v177 (ix2 j (0 : Fin 1)))
            * (k2_pay33 v150 v151 v156 v163 v167 (ix2 j l) - v177 (ix2 j (0 : Fin 1))) := by
  unfold k2_pay35
  refine (accAdd_apply v181 shapeCasts_S32x1_S32x1 _ (ix2 j (0 : Fin 1))).trans ?_
  exact congrArg (v181 (ix2 j (0 : Fin 1)) + ·)
    (laneSumSq_apply (k2_pay33 v150 v151 v156 v163 v167) v177 shapeCasts_S32x1_S32x1 broadcasts_S32x1_S32x16384
      reduces_S32x16384_S32 (.inl rfl) rfl shapeCasts_S32_S32x1 j)

theorem pay1_apply (y : S32x1.Idx) : k2_pay1 (F := Ideal) y = 0 := by
  unfold k2_pay1; exact Ideal.ofBits_zero_f32
theorem pay2_apply (y : S32x1.Idx) : k2_pay2 (F := Ideal) y = 0 := by
  unfold k2_pay2; exact Ideal.ofBits_zero_f32

end Layers

section Encoded

variable (x0 : Vec Ideal S8x16384 .i32) (x1 : Vec Ideal S6x16384 .f32) (x2 : Vec Ideal S15x8 .f32) (x3 : Vec Ideal S9x8 .f32)

theorem scr2_apply (k : Fin 50) (l : Fin 16384) :
    scr2 x0 x1 x2 x3 (ix2 k l) = Xlane x0 x1 x2 x3 l k :=
  enc_canon_apply x0 x1 x2 x3
    (k2_pay10 x0 x2) (k2_pay12 (k2_pay11 x0)) (k2_pay13 (F := Ideal) (k2_pay5 x0)) (k2_pay14 x3 (k2_pay6 x0))
    (k2_pay15 (k2_pay7 x1)) (k2_pay16 (k2_pay8 x1)) (k2_pay17 (k2_pay9 x1))
    (k2_pay22 x2 (k2_pay18 (k2_pay3 x0))) (k2_pay23 (F := Ideal) (k2_pay3 x0)) (k2_pay24 (F := Ideal) (k2_pay3 x0))
    (k2_pay28 x3 (k2_pay25 (k2_pay3 x0)) (k2_pay26 (F := Ideal)) (k2_pay27 (F := Ideal)))
    (k2_pay29 (k2_pay19 (k2_pay4 x1))) (k2_pay30 (k2_pay20 (k2_pay4 x1))) (k2_pay31 (k2_pay21 (k2_pay4 x1)))
    inb_S50x16384_S8x16384_0_0 inb_S50x16384_S3x16384_8_0 inb_S50x16384_S3x16384_11_0 inb_S50x16384_S8x16384_14_0
    inb_S50x16384_S1x16384_22_0 inb_S50x16384_S1x16384_23_0 inb_S50x16384_S1x16384_24_0 inb_S50x16384_S8x16384_25_0
    inb_S50x16384_S3x16384_33_0 inb_S50x16384_S3x16384_36_0 inb_S50x16384_S8x16384_39_0 inb_S50x16384_S1x16384_47_0
    inb_S50x16384_S1x16384_48_0 inb_S50x16384_S1x16384_49_0
    (R0.enc0 x0 x1 x2 x3) (R0.enc1 x0 x1 x2 x3) (R0.enc2 x0 x1 x2 x3) (R0.enc3 x0 x1 x2 x3) (R0.enc4 x0 x1 x2 x3) (R0.enc5 x0 x1 x2 x3) (R0.enc6 x0 x1 x2 x3)
    (R0.enc7 x0 x1 x2 x3) (R0.enc8 x0 x1 x2 x3) (R0.enc9 x0 x1 x2 x3) (R0.enc10 x0 x1 x2 x3) (R0.enc11 x0 x1 x2 x3) (R0.enc12 x0 x1 x2 x3) (R0.enc13 x0 x1 x2 x3)
    k l

end Encoded

section Value

variable (V : (c : Dev nD) → (b : Ref sig .tc) → Buf (Elt Ideal) ((c : Thread nD τ).loc b))

abbrev arr2_0 (c : Dev nD) : IVec (Sh2 8 1048576) 32 := V c main_v8
abbrev arr2_1 (c : Dev nD) : FVec Ideal (Sh2 6 1048576) .f32 := V c main_v15
abbrev arr2_2 (c : Dev nD) : FVec Ideal (Sh2 15 8) .f32 := V c main_arg14
abbrev arr2_3 (c : Dev nD) : FVec Ideal (Sh2 9 8) .f32 := V c main_arg15
abbrev arr2_4 (c : Dev nD) : FVec Ideal (Sh2 50 128) .f32 := V c main_v48
abbrev arr2_5 (c : Dev nD) : FVec Ideal (Sh2 128 1) .f32 := V c main_v50
abbrev arr2_6 (c : Dev nD) : FVec Ideal (Sh2 128 64) .f32 := V c main_v73
abbrev arr2_7 (c : Dev nD) : FVec Ideal (Sh2 64 1) .f32 := V c main_v75
abbrev arr2_8 (c : Dev nD) : FVec Ideal (Sh2 64 32) .f32 := V c main_arg24
abbrev arr2_9 (c : Dev nD) : FVec Ideal (Sh2 32 1) .f32 := V c main_v18

abbrev blk2_0 (c : Dev nD) (t : Fin cfg2.N) : Vec Ideal S8x16384 .i32 := iblk2 V c 0 t
abbrev blk2_1 (c : Dev nD) (t : Fin cfg2.N) : Vec Ideal S6x16384 .f32 := iblk2 V c 1 t
abbrev blk2_2 (c : Dev nD) (t : Fin cfg2.N) : Vec Ideal S15x8 .f32 := iblk2 V c 2 t
abbrev blk2_3 (c : Dev nD) (t : Fin cfg2.N) : Vec Ideal S9x8 .f32 := iblk2 V c 3 t
abbrev blk2_4 (c : Dev nD) (t : Fin cfg2.N) : Vec Ideal S50x128 .f32 := iblk2 V c 4 t
abbrev blk2_5 (c : Dev nD) (t : Fin cfg2.N) : Vec Ideal S128x1 .f32 := iblk2 V c 5 t
abbrev blk2_6 (c : Dev nD) (t : Fin cfg2.N) : Vec Ideal S128x64 .f32 := iblk2 V c 6 t
abbrev blk2_7 (c : Dev nD) (t : Fin cfg2.N) : Vec Ideal S64x1 .f32 := iblk2 V c 7 t
abbrev blk2_8 (c : Dev nD) (t : Fin cfg2.N) : Vec Ideal S64x32 .f32 := iblk2 V c 8 t
abbrev blk2_9 (c : Dev nD) (t : Fin cfg2.N) : Vec Ideal S32x1 .f32 := iblk2 V c 9 t

theorem idx2_0 : ∀ t : Fin grid2.N, win2_0.index t (0 : Fin 2) = 0 ∧ win2_0.index t (1 : Fin 2) = t.val := by decide +kernel
theorem idx2_1 : ∀ t : Fin grid2.N, win2_1.index t (0 : Fin 2) = 0 ∧ win2_1.index t (1 : Fin 2) = t.val := by decide +kernel
theorem idx2_2 : ∀ t : Fin grid2.N, win2_2.index t (0 : Fin 2) = 0 ∧ win2_2.index t (1 : Fin 2) = 0 := by decide +kernel
theorem idx2_3 : ∀ t : Fin grid2.N, win2_3.index t (0 : Fin 2) = 0 ∧ win2_3.index t (1 : Fin 2) = 0 := by decide +kernel
theorem idx2_4 : ∀ t : Fin grid2.N, win2_4.index t (0 : Fin 2) = 0 ∧ win2_4.index t (1 : Fin 2) = 0 := by decide +kernel
theorem idx2_5 : ∀ t : Fin grid2.N, win2_5.index t (0 : Fin 2) = 0 ∧ win2_5.index t (1 : Fin 2) = 0 := by decide +kernel
theorem idx2_6 : ∀ t : Fin grid2.N, win2_6.index t (0 : Fin 2) = 0 ∧ win2_6.index t (1 : Fin 2) = 0 := by decide +kernel
theorem idx2_7 : ∀ t : Fin grid2.N, win2_7.index t (0 : Fin 2) = 0 ∧ win2_7.index t (1 : Fin 2) = 0 := by decide +kernel
theorem idx2_8 : ∀ t : Fin grid2.N, win2_8.index t (0 : Fin 2) = 0 ∧ win2_8.index t (1 : Fin 2) = 0 := by decide +kernel
theorem idx2_9 : ∀ t : Fin grid2.N, win2_9.index t (0 : Fin 2) = 0 ∧ win2_9.index t (1 : Fin 2) = 0 := by decide +kernel
theorem idx2_10 : ∀ t : Fin grid2.N, win2_10.index t (0 : Fin 2) = t.val / 32 ∧ win2_10.index t (1 : Fin 2) = 0 := by decide +kernel
theorem idx2_11 : ∀ t : Fin grid2.N, win2_11.index t (0 : Fin 2) = t.val / 32 ∧ win2_11.index t (1 : Fin 2) = 0 := by decide +kernel

def rowOf (t : Fin cfg2.N) (l : Fin 16384) : Fin NB :=
  ⟨t.val * 16384 + l.val, by have := lt_of_lt_of_eq t.isLt (show cfg2.N = 64 from N_2); have := l.isLt; show _ < 1048576; omega⟩

theorem blk2_0_apply (c : Dev nD) (t : Fin cfg2.N) (a : Fin 8) (l : Fin 16384) :
    blk2_0 V c t (ix2 a l) = arr2_0 V c (ix2 a (rowOf t l)) := by
  show V c main_v8 (((cfg2.win 0).blk t).view.emb (ix2 a l)) = V c main_v8 (ix2 a (rowOf t l))
  refine congrArg (V c main_v8) (funext fun ax => Fin.ext ?_)
  match ax with
  | ⟨0, _⟩ => show win2_0.index t (0 : Fin 2) * 8 + 1 * a.val = a.val; rw [(idx2_0 t).1]; omega
  | ⟨1, _⟩ => show win2_0.index t (1 : Fin 2) * 16384 + 1 * l.val = t.val * 16384 + l.val; rw [(idx2_0 t).2]; omega

theorem blk2_1_apply (c : Dev nD) (t : Fin cfg2.N) (a : Fin 6) (l : Fin 16384) :
    blk2_1 V c t (ix2 a l) = arr2_1 V c (ix2 a (rowOf t l)) := by
  show V c main_v15 (((cfg2.win 1).blk t).view.emb (ix2 a l)) = V c main_v15 (ix2 a (rowOf t l))
  refine congrArg (V c main_v15) (funext fun ax => Fin.ext ?_)
  match ax with
  | ⟨0, _⟩ => show win2_1.index t (0 : Fin 2) * 6 + 1 * a.val = a.val; rw [(idx2_1 t).1]; omega
  | ⟨1, _⟩ => show win2_1.index t (1 : Fin 2) * 16384 + 1 * l.val = t.val * 16384 + l.val; rw [(idx2_1 t).2]; omega

theorem blk2_2_eq (c : Dev nD) (t : Fin cfg2.N) : blk2_2 V c t = arr2_2 V c := by
  funext y
  show V c main_arg14 (((cfg2.win 2).blk t).view.emb y) = V c main_arg14 y
  refine congrArg (V c main_arg14) (funext fun ax => Fin.ext ?_)
  match ax with
  | ⟨0, _⟩ => show win2_2.index t (0 : Fin 2) * 15 + 1 * (y 0).val = (y 0).val; rw [(idx2_2 t).1]; omega
  | ⟨1, _⟩ => show win2_2.index t (1 : Fin 2) * 8 + 1 * (y 1).val = (y 1).val; rw [(idx2_2 t).2]; omega

theorem blk2_3_eq (c : Dev nD) (t : Fin cfg2.N) : blk2_3 V c t = arr2_3 V c := by
  funext y
  show V c main_arg15 (((cfg2.win 3).blk t).view.emb y) = V c main_arg15 y
  refine congrArg (V c main_arg15) (funext fun ax => Fin.ext ?_)
  match ax with
  | ⟨0, _⟩ => show win2_3.index t (0 : Fin 2) * 9 + 1 * (y 0).val = (y 0).val; rw [(idx2_3 t).1]; omega
  | ⟨1, _⟩ => show win2_3.index t (1 : Fin 2) * 8 + 1 * (y 1).val = (y 1).val; rw [(idx2_3 t).2]; omega

theorem blk2_4_eq (c : Dev nD) (t : Fin cfg2.N) : blk2_4 V c t = arr2_4 V c := by
  funext y
  show V c main_v48 (((cfg2.win 4).blk t).view.emb y) = V c main_v48 y
  refine congrArg (V c main_v48) (funext fun ax => Fin.ext ?_)
  match ax with
  | ⟨0, _⟩ => show win2_4.index t (0 : Fin 2) * 50 + 1 * (y 0).val = (y 0).val; rw [(idx2_4 t).1]; omega
  | ⟨1, _⟩ => show win2_4.index t (1 : Fin 2) * 128 + 1 * (y 1).val = (y 1).val; rw [(idx2_4 t).2]; omega

theorem blk2_5_eq (c : Dev nD) (t : Fin cfg2.N) : blk2_5 V c t = arr2_5 V c := by
  funext y
  show V c main_v50 (((cfg2.win 5).blk t).view.emb y) = V c main_v50 y
  refine congrArg (V c main_v50) (funext fun ax => Fin.ext ?_)
  match ax with
  | ⟨0, _⟩ => show win2_5.index t (0 : Fin 2) * 128 + 1 * (y 0).val = (y 0).val; rw [(idx2_5 t).1]; omega
  | ⟨1, _⟩ => show win2_5.index t (1 : Fin 2) * 1 + 1 * (y 1).val = (y 1).val; rw [(idx2_5 t).2]; omega

theorem blk2_6_eq (c : Dev nD) (t : Fin cfg2.N) : blk2_6 V c t = arr2_6 V c := by
  funext y
  show V c main_v73 (((cfg2.win 6).blk t).view.emb y) = V c main_v73 y
  refine congrArg (V c main_v73) (funext fun ax => Fin.ext ?_)
  match ax with
  | ⟨0, _⟩ => show win2_6.index t (0 : Fin 2) * 128 + 1 * (y 0).val = (y 0).val; rw [(idx2_6 t).1]; omega
  | ⟨1, _⟩ => show win2_6.index t (1 : Fin 2) * 64 + 1 * (y 1).val = (y 1).val; rw [(idx2_6 t).2]; omega

theorem blk2_7_eq (c : Dev nD) (t : Fin cfg2.N) : blk2_7 V c t = arr2_7 V c := by
  funext y
  show V c main_v75 (((cfg2.win 7).blk t).view.emb y) = V c main_v75 y
  refine congrArg (V c main_v75) (funext fun ax => Fin.ext ?_)
  match ax with
  | ⟨0, _⟩ => show win2_7.index t (0 : Fin 2) * 64 + 1 * (y 0).val = (y 0).val; rw [(idx2_7 t).1]; omega
  | ⟨1, _⟩ => show win2_7.index t (1 : Fin 2) * 1 + 1 * (y 1).val = (y 1).val; rw [(idx2_7 t).2]; omega

theorem blk2_8_eq (c : Dev nD) (t : Fin cfg2.N) : blk2_8 V c t = arr2_8 V c := by
  funext y
  show V c main_arg24 (((cfg2.win 8).blk t).view.emb y) = V c main_arg24 y
  refine congrArg (V c main_arg24) (funext fun ax => Fin.ext ?_)
  match ax with
  | ⟨0, _⟩ => show win2_8.index t (0 : Fin 2) * 64 + 1 * (y 0).val = (y 0).val; rw [(idx2_8 t).1]; omega
  | ⟨1, _⟩ => show win2_8.index t (1 : Fin 2) * 32 + 1 * (y 1).val = (y 1).val; rw [(idx2_8 t).2]; omega

theorem blk2_9_eq (c : Dev nD) (t : Fin cfg2.N) : blk2_9 V c t = arr2_9 V c := by
  funext y
  show V c main_v18 (((cfg2.win 9).blk t).view.emb y) = V c main_v18 y
  refine congrArg (V c main_v18) (funext fun ax => Fin.ext ?_)
  match ax with
  | ⟨0, _⟩ => show win2_9.index t (0 : Fin 2) * 32 + 1 * (y 0).val = (y 0).val; rw [(idx2_9 t).1]; omega
  | ⟨1, _⟩ => show win2_9.index t (1 : Fin 2) * 1 + 1 * (y 1).val = (y 1).val; rw [(idx2_9 t).2]; omega

def H3 (c : Dev nD) (n : Fin NB) (j : Fin 32) : EReal :=
  preK (actK (actK (Xst (arr2_0 V c) (arr2_1 V c) (arr2_2 V c) (arr2_3 V c)) (mat (arr2_4 V c)) (col (arr2_5 V c)))
    (mat (arr2_6 V c)) (col (arr2_7 V c))) (mat (arr2_8 V c)) (col (arr2_9 V c)) n j

def h3blk (c : Dev nD) (t : Fin cfg2.N) : FVec Ideal S32x16384 .f32 :=
  k2_pay33 (k2_pay32 (scr2 (blk2_0 V c t) (blk2_1 V c t) (blk2_2 V c t) (blk2_3 V c t)) (blk2_4 V c t) (blk2_5 V c t))
    (blk2_6 V c t) (blk2_7 V c t) (blk2_8 V c t) (blk2_9 V c t)

theorem h3blk_apply (c : Dev nD) (t : Fin cfg2.N) (j : Fin 32) (l : Fin 16384) :
    h3blk V c t (ix2 j l) = H3 V c (rowOf t l) j := by
  unfold h3blk
  refine (h3_eq _ (blk2_4 V c t) (blk2_5 V c t) (blk2_6 V c t) (blk2_7 V c t) (blk2_8 V c t) (blk2_9 V c t) j l).trans ?_
  rw [blk2_4_eq V c t, blk2_5_eq V c t, blk2_6_eq V c t, blk2_7_eq V c t, blk2_8_eq V c t, blk2_9_eq V c t]
  have hX : (fun (l : Fin 16384) (k : Fin 50) => scr2 (blk2_0 V c t) (blk2_1 V c t) (blk2_2 V c t) (blk2_3 V c t) (ix2 k l))
      = fun (l : Fin 16384) (k : Fin 50) => Xst (arr2_0 V c) (arr2_1 V c) (arr2_2 V c) (arr2_3 V c) (rowOf t l) k := by
    funext l k
    rw [scr2_apply, blk2_2_eq V c t, blk2_3_eq V c t]
    exact congrFun (Xlane_of_rows (arr2_0 V c) (arr2_1 V c) (arr2_2 V c) (arr2_3 V c) (blk2_0 V c t) (blk2_1 V c t)
      (rowOf t) (blk2_0_apply V c t) (blk2_1_apply V c t) l) k
  rw [hX]
  rfl

def add10 (c : Dev nD) (j : Fin 32) (u : ℕ) : EReal :=
  if h : u < cfg2.N then ∑ l : Fin 16384, h3blk V c ⟨u, h⟩ (ix2 j l) else 0

def add11 (c : Dev nD) (j : Fin 32) (u : ℕ) : EReal :=
  if h : u < cfg2.N then ∑ l : Fin 16384,
    (h3blk V c ⟨u, h⟩ (ix2 j l) - blk2_9 V c ⟨u, h⟩ (ix2 j (0 : Fin 1))) * (h3blk V c ⟨u, h⟩ (ix2 j l) - blk2_9 V c ⟨u, h⟩ (ix2 j (0 : Fin 1)))
  else 0

theorem acc10_A (c : Dev nD) (j : Fin 32) (n : ℕ) (hn : n < cfg2.N) (h0 : n % 32 = 0) :
    (outsAt2 V c n hn).1 (ix2 j (0 : Fin 1)) = add10 V c j n := by
  rw [show outsAt2 V c n hn = _ from outsAt2_A V c ⟨n, hn⟩ h0]
  dsimp only
  refine (congrFun (out2_A_10_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) (ms2_9 ⟨n, hn⟩) (hs2_9 ⟨n, hn⟩) (ms2_10 ⟨n, hn⟩) (hs2_10 ⟨n, hn⟩) (ms2_11 ⟨n, hn⟩) (hs2_11 ⟨n, hn⟩) scM2 (Memref.isWhole_whole _) ((hcond2_0 ⟨n, hn⟩).mpr h0) (blk2_0 V c ⟨n, hn⟩) (blk2_1 V c ⟨n, hn⟩) (blk2_2 V c ⟨n, hn⟩) (blk2_3 V c ⟨n, hn⟩) (blk2_4 V c ⟨n, hn⟩) (blk2_5 V c ⟨n, hn⟩) (blk2_6 V c ⟨n, hn⟩) (blk2_7 V c ⟨n, hn⟩) (blk2_8 V c ⟨n, hn⟩) (blk2_9 V c ⟨n, hn⟩)) (ix2 j (0 : Fin 1))).trans ?_
  refine (pay34_apply (k2_pay32 (scr2 (blk2_0 V c ⟨n, hn⟩) (blk2_1 V c ⟨n, hn⟩) (blk2_2 V c ⟨n, hn⟩) (blk2_3 V c ⟨n, hn⟩)) (blk2_4 V c ⟨n, hn⟩) (blk2_5 V c ⟨n, hn⟩)) (blk2_6 V c ⟨n, hn⟩) (blk2_7 V c ⟨n, hn⟩) (blk2_8 V c ⟨n, hn⟩) (blk2_9 V c ⟨n, hn⟩) (k2_pay1 (F := Ideal)) j).trans ?_
  rw [pay1_apply, zero_add]
  unfold add10 h3blk
  rw [dif_pos hn]

theorem acc11_A (c : Dev nD) (j : Fin 32) (n : ℕ) (hn : n < cfg2.N) (h0 : n % 32 = 0) :
    (outsAt2 V c n hn).2 (ix2 j (0 : Fin 1)) = add11 V c j n := by
  rw [show outsAt2 V c n hn = _ from outsAt2_A V c ⟨n, hn⟩ h0]
  dsimp only
  refine (congrFun (out2_A_11_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) (ms2_7 ⟨n, hn⟩) (hs2_7 ⟨n, hn⟩) (ms2_8 ⟨n, hn⟩) (hs2_8 ⟨n, hn⟩) (ms2_9 ⟨n, hn⟩) (hs2_9 ⟨n, hn⟩) (ms2_10 ⟨n, hn⟩) (hs2_10 ⟨n, hn⟩) (ms2_11 ⟨n, hn⟩) (hs2_11 ⟨n, hn⟩) scM2 (Memref.isWhole_whole _) ((hcond2_0 ⟨n, hn⟩).mpr h0) (blk2_0 V c ⟨n, hn⟩) (blk2_1 V c ⟨n, hn⟩) (blk2_2 V c ⟨n, hn⟩) (blk2_3 V c ⟨n, hn⟩) (blk2_4 V c ⟨n, hn⟩) (blk2_5 V c ⟨n, hn⟩) (blk2_6 V c ⟨n, hn⟩) (blk2_7 V c ⟨n, hn⟩) (blk2_8 V c ⟨n, hn⟩) (blk2_9 V c ⟨n, hn⟩)) (ix2 j (0 : Fin 1))).trans ?_
  refine (pay35_apply (k2_pay32 (scr2 (blk2_0 V c ⟨n, hn⟩) (blk2_1 V c ⟨n, hn⟩) (blk2_2 V c ⟨n, hn⟩) (blk2_3 V c ⟨n, hn⟩)) (blk2_4 V c ⟨n, hn⟩) (blk2_5 V c ⟨n, hn⟩)) (blk2_6 V c ⟨n, hn⟩) (blk2_7 V c ⟨n, hn⟩) (blk2_8 V c ⟨n, hn⟩) (blk2_9 V c ⟨n, hn⟩) (blk2_9 V c ⟨n, hn⟩) (k2_pay2 (F := Ideal)) j).trans ?_
  rw [pay2_apply, zero_add]
  unfold add11 h3blk
  rw [dif_pos hn]

theorem acc10_B (c : Dev nD) (j : Fin 32) (n : ℕ) (hn : n + 1 < cfg2.N) (h0 : ¬(n + 1) % 32 = 0) :
    (outsAt2 V c (n + 1) hn).1 (ix2 j (0 : Fin 1))
      = (outsAt2 V c n (Nat.lt_of_succ_lt hn)).1 (ix2 j (0 : Fin 1)) + add10 V c j (n + 1) := by
  rw [show outsAt2 V c (n + 1) hn = _ from outsAt2_B V c ⟨n + 1, hn⟩ h0]
  dsimp only
  refine (congrFun (out2_B_10_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) scM2 (Memref.isWhole_whole _) (fun h => h0 ((hcond2_0 ⟨n + 1, hn⟩).mp h)) (blk2_0 V c ⟨n + 1, hn⟩) (blk2_1 V c ⟨n + 1, hn⟩) (blk2_2 V c ⟨n + 1, hn⟩) (blk2_3 V c ⟨n + 1, hn⟩) (blk2_4 V c ⟨n + 1, hn⟩) (blk2_5 V c ⟨n + 1, hn⟩) (blk2_6 V c ⟨n + 1, hn⟩) (blk2_7 V c ⟨n + 1, hn⟩) (blk2_8 V c ⟨n + 1, hn⟩) (blk2_9 V c ⟨n + 1, hn⟩)
    (outsAt2 V c n (Nat.lt_of_succ_lt hn)).1 (outsAt2 V c n (Nat.lt_of_succ_lt hn)).2) (ix2 j (0 : Fin 1))).trans ?_
  refine (pay34_apply (k2_pay32 (scr2 (blk2_0 V c ⟨n + 1, hn⟩) (blk2_1 V c ⟨n + 1, hn⟩) (blk2_2 V c ⟨n + 1, hn⟩) (blk2_3 V c ⟨n + 1, hn⟩)) (blk2_4 V c ⟨n + 1, hn⟩) (blk2_5 V c ⟨n + 1, hn⟩)) (blk2_6 V c ⟨n + 1, hn⟩) (blk2_7 V c ⟨n + 1, hn⟩) (blk2_8 V c ⟨n + 1, hn⟩) (blk2_9 V c ⟨n + 1, hn⟩) (outsAt2 V c n (Nat.lt_of_succ_lt hn)).1 j).trans ?_
  unfold add10 h3blk
  rw [dif_pos hn]

theorem acc11_B (c : Dev nD) (j : Fin 32) (n : ℕ) (hn : n + 1 < cfg2.N) (h0 : ¬(n + 1) % 32 = 0) :
    (outsAt2 V c (n + 1) hn).2 (ix2 j (0 : Fin 1))
      = (outsAt2 V c n (Nat.lt_of_succ_lt hn)).2 (ix2 j (0 : Fin 1)) + add11 V c j (n + 1) := by
  rw [show outsAt2 V c (n + 1) hn = _ from outsAt2_B V c ⟨n + 1, hn⟩ h0]
  dsimp only
  refine (congrFun (out2_B_11_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) scM2 (Memref.isWhole_whole _) (fun h => h0 ((hcond2_0 ⟨n + 1, hn⟩).mp h)) (blk2_0 V c ⟨n + 1, hn⟩) (blk2_1 V c ⟨n + 1, hn⟩) (blk2_2 V c ⟨n + 1, hn⟩) (blk2_3 V c ⟨n + 1, hn⟩) (blk2_4 V c ⟨n + 1, hn⟩) (blk2_5 V c ⟨n + 1, hn⟩) (blk2_6 V c ⟨n + 1, hn⟩) (blk2_7 V c ⟨n + 1, hn⟩) (blk2_8 V c ⟨n + 1, hn⟩) (blk2_9 V c ⟨n + 1, hn⟩)
    (outsAt2 V c n (Nat.lt_of_succ_lt hn)).1 (outsAt2 V c n (Nat.lt_of_succ_lt hn)).2) (ix2 j (0 : Fin 1))).trans ?_
  refine (pay35_apply (k2_pay32 (scr2 (blk2_0 V c ⟨n + 1, hn⟩) (blk2_1 V c ⟨n + 1, hn⟩) (blk2_2 V c ⟨n + 1, hn⟩) (blk2_3 V c ⟨n + 1, hn⟩)) (blk2_4 V c ⟨n + 1, hn⟩) (blk2_5 V c ⟨n + 1, hn⟩)) (blk2_6 V c ⟨n + 1, hn⟩) (blk2_7 V c ⟨n + 1, hn⟩) (blk2_8 V c ⟨n + 1, hn⟩) (blk2_9 V c ⟨n + 1, hn⟩) (blk2_9 V c ⟨n + 1, hn⟩) (outsAt2 V c n (Nat.lt_of_succ_lt hn)).2 j).trans ?_
  unfold add11 h3blk
  rw [dif_pos hn]

theorem acc10 (c : Dev nD) (j : Fin 32) (n : ℕ) (hn : n < cfg2.N) :
    (outsAt2 V c n hn).1 (ix2 j (0 : Fin 1)) = ∑ s ∈ Finset.range (n % 32 + 1), add10 V c j (32 * (n / 32) + s) :=
  fold_range32 (fun n hn => (outsAt2 V c n hn).1 (ix2 j (0 : Fin 1))) (add10 V c j)
    (fun n hn h0 => acc10_A V c j n hn h0) (fun n hn h0 => acc10_B V c j n hn h0) n hn

theorem acc11 (c : Dev nD) (j : Fin 32) (n : ℕ) (hn : n < cfg2.N) :
    (outsAt2 V c n hn).2 (ix2 j (0 : Fin 1)) = ∑ s ∈ Finset.range (n % 32 + 1), add11 V c j (32 * (n / 32) + s) :=
  fold_range32 (fun n hn => (outsAt2 V c n hn).2 (ix2 j (0 : Fin 1))) (add11 V c j)
    (fun n hn h0 => acc11_A V c j n hn h0) (fun n hn h0 => acc11_B V c j n hn h0) n hn

def g10 (c : Dev nD) (y : S64x1.Idx) : EReal :=
  ∑ s ∈ Finset.range 32, add10 V c ⟨(y 0).val % 32, Nat.mod_lt _ (by norm_num)⟩ (32 * ((y 0).val / 32) + s)
def g11 (c : Dev nD) (y : S64x1.Idx) : EReal :=
  ∑ s ∈ Finset.range 32, add11 V c ⟨(y 0).val % 32, Nat.mod_lt _ (by norm_num)⟩ (32 * ((y 0).val / 32) + s)

def G10 (c : Dev nD) : Buf (Elt Ideal) ((c : Thread nD τ).loc main_v76_0) := fun i => g10 V c i
def G11 (c : Dev nD) : Buf (Elt Ideal) ((c : Thread nD τ).loc main_v76_1) := fun i => g11 V c i

theorem flushed10_eq (c : Dev nD) (t : Fin cfg2.N) (hf : (cfg2.win 10).flush t = true) :
    (dat2 (F := Ideal) V c).flushed 10 t = ((cfg2.win 10).blk t).view.read (Elt Ideal) (G10 V c) := by
  show (cfg2.win 10).cut (grid2.coords t) ((dat2 (F := Ideal) V c).after 10 t) = _
  rw [after2_10]
  have hN : t.val < 64 := lt_of_lt_of_eq t.isLt (show cfg2.N = 64 from N_2)
  have h31 : t.val % 32 = 31 := (flush2_10 t).mp hf
  funext y
  have hy0 : (y 0).val < 32 := (y 0).isLt
  have hy1 : (y 1).val < 1 := (y 1).isLt
  have hb0 : (((cfg2.win 10).blk t).view.emb y 0).val = win2_10.index t (0 : Fin 2) * 32 + 1 * (y 0).val := rfl
  have hx : (cfg2.win 10).xinj (grid2.coords t) y = ix2 (⟨(y 0).val, hy0⟩ : Fin 32) (0 : Fin 1) := by
    funext a; apply Fin.ext
    match a with
    | ⟨0, _⟩ => rfl
    | ⟨1, _⟩ => show (y 1).val = 0; omega
  show (outsAt2 V c t.val t.isLt).1 ((cfg2.win 10).xinj (grid2.coords t) y) = G10 V c (((cfg2.win 10).blk t).view.emb y)
  rw [hx, acc10 V c ⟨(y 0).val, hy0⟩ t.val t.isLt, h31]
  unfold G10 g10
  refine Finset.sum_congr rfl fun s _ => ?_
  have e0 : (((cfg2.win 10).blk t).view.emb y 0).val = 32 * (t.val / 32) + (y 0).val := by rw [hb0, (idx2_10 t).1]; omega
  have em : (⟨(((cfg2.win 10).blk t).view.emb y 0).val % 32, Nat.mod_lt _ (by norm_num)⟩ : Fin 32) = ⟨(y 0).val, hy0⟩ :=
    Fin.ext (by show _ % 32 = (y 0).val; rw [e0]; omega)
  have ed : (((cfg2.win 10).blk t).view.emb y 0).val / 32 = t.val / 32 := by rw [e0]; omega
  rw [em, ed]

theorem flushed11_eq (c : Dev nD) (t : Fin cfg2.N) (hf : (cfg2.win 11).flush t = true) :
    (dat2 (F := Ideal) V c).flushed 11 t = ((cfg2.win 11).blk t).view.read (Elt Ideal) (G11 V c) := by
  show (cfg2.win 11).cut (grid2.coords t) ((dat2 (F := Ideal) V c).after 11 t) = _
  rw [after2_11]
  have hN : t.val < 64 := lt_of_lt_of_eq t.isLt (show cfg2.N = 64 from N_2)
  have h31 : t.val % 32 = 31 := (flush2_11 t).mp hf
  funext y
  have hy0 : (y 0).val < 32 := (y 0).isLt
  have hy1 : (y 1).val < 1 := (y 1).isLt
  have hb0 : (((cfg2.win 11).blk t).view.emb y 0).val = win2_11.index t (0 : Fin 2) * 32 + 1 * (y 0).val := rfl
  have hx : (cfg2.win 11).xinj (grid2.coords t) y = ix2 (⟨(y 0).val, hy0⟩ : Fin 32) (0 : Fin 1) := by
    funext a; apply Fin.ext
    match a with
    | ⟨0, _⟩ => rfl
    | ⟨1, _⟩ => show (y 1).val = 0; omega
  show (outsAt2 V c t.val t.isLt).2 ((cfg2.win 11).xinj (grid2.coords t) y) = G11 V c (((cfg2.win 11).blk t).view.emb y)
  rw [hx, acc11 V c ⟨(y 0).val, hy0⟩ t.val t.isLt, h31]
  unfold G11 g11
  refine Finset.sum_congr rfl fun s _ => ?_
  have e0 : (((cfg2.win 11).blk t).view.emb y 0).val = 32 * (t.val / 32) + (y 0).val := by rw [hb0, (idx2_11 t).1]; omega
  have em : (⟨(((cfg2.win 11).blk t).view.emb y 0).val % 32, Nat.mod_lt _ (by norm_num)⟩ : Fin 32) = ⟨(y 0).val, hy0⟩ :=
    Fin.ext (by show _ % 32 = (y 0).val; rw [e0]; omega)
  have ed : (((cfg2.win 11).blk t).view.emb y 0).val / 32 = t.val / 32 := by rw [e0]; omega
  rw [em, ed]

def lastOf (r : Fin 64) : Fin cfg2.N :=
  ⟨32 * (r.val / 32) + 31, by rw [show cfg2.N = 64 from N_2]; have := r.isLt; omega⟩

theorem mem_blk2_10 (t : Fin cfg2.N) (i : S64x1.Idx) :
    i ∈ ((cfg2.win 10).blk t).view.set ↔ ∀ a : Fin 2, win2_10.index t a * S32x1.size a ≤ (i a).val ∧ (i a).val < win2_10.index t a * S32x1.size a + S32x1.size a := by
  show i ∈ ((View.whole main_v76_0).slice (win2_10.rect t)).set ↔ _
  rw [View.set_slice_whole, Rect.mem_set_unit]
  exact Iff.rfl

theorem cover10 (i : S64x1.Idx) : ∃ t : Fin cfg2.N, (cfg2.win 10).flush t = true ∧ i ∈ ((cfg2.win 10).blk t).view.set := by
  have h0 : (i 0).val < 64 := (i 0).isLt
  have h1 : (i 1).val < 1 := (i 1).isLt
  refine ⟨lastOf (i 0), (flush2_10 _).mpr (by show (32 * ((i 0).val / 32) + 31) % 32 = 31; omega), ?_⟩
  rw [mem_blk2_10]
  have q0 : win2_10.index (lastOf (i 0)) (0 : Fin 2) = (i 0).val / 32 := by
    rw [(idx2_10 _).1]; show (32 * ((i 0).val / 32) + 31) / 32 = _; omega
  have q1 : win2_10.index (lastOf (i 0)) (1 : Fin 2) = 0 := (idx2_10 _).2
  intro a
  match a with
  | ⟨0, _⟩ => show win2_10.index (lastOf (i 0)) (0 : Fin 2) * 32 ≤ (i 0).val ∧ (i 0).val < win2_10.index (lastOf (i 0)) (0 : Fin 2) * 32 + 32; omega
  | ⟨1, _⟩ => show win2_10.index (lastOf (i 0)) (1 : Fin 2) * 1 ≤ (i 1).val ∧ (i 1).val < win2_10.index (lastOf (i 0)) (1 : Fin 2) * 1 + 1; omega

theorem mem_blk2_11 (t : Fin cfg2.N) (i : S64x1.Idx) :
    i ∈ ((cfg2.win 11).blk t).view.set ↔ ∀ a : Fin 2, win2_11.index t a * S32x1.size a ≤ (i a).val ∧ (i a).val < win2_11.index t a * S32x1.size a + S32x1.size a := by
  show i ∈ ((View.whole main_v76_1).slice (win2_11.rect t)).set ↔ _
  rw [View.set_slice_whole, Rect.mem_set_unit]
  exact Iff.rfl

theorem cover11 (i : S64x1.Idx) : ∃ t : Fin cfg2.N, (cfg2.win 11).flush t = true ∧ i ∈ ((cfg2.win 11).blk t).view.set := by
  have h0 : (i 0).val < 64 := (i 0).isLt
  have h1 : (i 1).val < 1 := (i 1).isLt
  refine ⟨lastOf (i 0), (flush2_11 _).mpr (by show (32 * ((i 0).val / 32) + 31) % 32 = 31; omega), ?_⟩
  rw [mem_blk2_11]
  have q0 : win2_11.index (lastOf (i 0)) (0 : Fin 2) = (i 0).val / 32 := by
    rw [(idx2_11 _).1]; show (32 * ((i 0).val / 32) + 31) / 32 = _; omega
  have q1 : win2_11.index (lastOf (i 0)) (1 : Fin 2) = 0 := (idx2_11 _).2
  intro a
  match a with
  | ⟨0, _⟩ => show win2_11.index (lastOf (i 0)) (0 : Fin 2) * 32 ≤ (i 0).val ∧ (i 0).val < win2_11.index (lastOf (i 0)) (0 : Fin 2) * 32 + 32; omega
  | ⟨1, _⟩ => show win2_11.index (lastOf (i 0)) (1 : Fin 2) * 1 ≤ (i 1).val ∧ (i 1).val < win2_11.index (lastOf (i 0)) (1 : Fin 2) * 1 + 1; omega

def gsum (c : Dev nD) (r : Fin 64) (q : ℕ) : EReal :=
  if hq : q < 524288 then
    H3 V c (halfRow ⟨r.val / 32, by have := r.isLt; omega⟩ ⟨q, hq⟩) ⟨r.val % 32, Nat.mod_lt _ (by norm_num)⟩
  else 0

def gsq (c : Dev nD) (r : Fin 64) (q : ℕ) : EReal :=
  if hq : q < 524288 then
    (H3 V c (halfRow ⟨r.val / 32, by have := r.isLt; omega⟩ ⟨q, hq⟩) ⟨r.val % 32, Nat.mod_lt _ (by norm_num)⟩
        - arr2_9 V c (ix2 (⟨r.val % 32, Nat.mod_lt _ (by norm_num)⟩ : Fin 32) (0 : Fin 1)))
      * (H3 V c (halfRow ⟨r.val / 32, by have := r.isLt; omega⟩ ⟨q, hq⟩) ⟨r.val % 32, Nat.mod_lt _ (by norm_num)⟩
        - arr2_9 V c (ix2 (⟨r.val % 32, Nat.mod_lt _ (by norm_num)⟩ : Fin 32) (0 : Fin 1)))
  else 0

theorem rowOf_half (r : Fin 64) (s : ℕ) (hu : 32 * (r.val / 32) + s < cfg2.N) (l : Fin 16384) (hq : s * 16384 + l.val < 524288) :
    rowOf ⟨32 * (r.val / 32) + s, hu⟩ l = halfRow ⟨r.val / 32, by have := r.isLt; omega⟩ ⟨s * 16384 + l.val, hq⟩ :=
  Fin.ext (by
    show (32 * (r.val / 32) + s) * 16384 + l.val = r.val / 32 * 524288 + (s * 16384 + l.val)
    omega)

theorem g10_eq (c : Dev nD) (r : Fin 64) :
    g10 V c (ix2 r (0 : Fin 1)) = ∑ q : Fin 524288, gsum V c r q.val := by
  have hr := r.isLt
  rw [sum_half_blocks (gsum V c r)]
  show (∑ s ∈ Finset.range 32, add10 V c ⟨r.val % 32, Nat.mod_lt _ (by norm_num)⟩ (32 * (r.val / 32) + s)) = _
  refine Finset.sum_congr rfl fun s hs => ?_
  have hs' : s < 32 := Finset.mem_range.mp hs
  have hu : 32 * (r.val / 32) + s < cfg2.N := by rw [show cfg2.N = 64 from N_2]; omega
  unfold add10
  rw [dif_pos hu]
  refine Finset.sum_congr rfl fun l _ => ?_
  have hl := l.isLt
  have hq : s * 16384 + l.val < 524288 := by omega
  unfold gsum
  rw [dif_pos hq, h3blk_apply, rowOf_half r s hu l hq]

theorem g11_eq (c : Dev nD) (r : Fin 64) :
    g11 V c (ix2 r (0 : Fin 1)) = ∑ q : Fin 524288, gsq V c r q.val := by
  have hr := r.isLt
  rw [sum_half_blocks (gsq V c r)]
  show (∑ s ∈ Finset.range 32, add11 V c ⟨r.val % 32, Nat.mod_lt _ (by norm_num)⟩ (32 * (r.val / 32) + s)) = _
  refine Finset.sum_congr rfl fun s hs => ?_
  have hs' : s < 32 := Finset.mem_range.mp hs
  have hu : 32 * (r.val / 32) + s < cfg2.N := by rw [show cfg2.N = 64 from N_2]; omega
  unfold add11
  rw [dif_pos hu]
  refine Finset.sum_congr rfl fun l _ => ?_
  have hl := l.isLt
  have hq : s * 16384 + l.val < 524288 := by omega
  unfold gsq
  rw [dif_pos hq, h3blk_apply, blk2_9_eq V c ⟨32 * (r.val / 32) + s, hu⟩, rowOf_half r s hu l hq]

end Value

end R2

open R2

section Columns

variable (V : (c : Dev nD) → (b : Ref sig .tc) → Buf (Elt Ideal) ((c : Thread nD τ).loc b))

theorem reg2_sum (c : Dev nD) (r : Fin 64) :
    (dat2 (F := Ideal) V c).arrAt 10 cfg2.N (ix2 r (0 : Fin 1))
      = halfSum ⟨r.val / 32, by have := r.isLt; omega⟩ (fun n =>
          preK (actK (actK (Xst (V c main_v8) (V c main_v15) (V c main_arg14) (V c main_arg15)) (mat (V c main_v48)) (col (V c main_v50)))
            (mat (V c main_v73)) (col (V c main_v75))) (mat (V c main_arg24)) (col (V c main_v18)) n
            ⟨r.val % 32, Nat.mod_lt _ (by norm_num)⟩) := by
  rw [(dat2 (F := Ideal) V c).arrAt_eq_of_cover 10 (G10 V c) (flushed10_eq V c) cover10]
  show g10 V c (ix2 r (0 : Fin 1)) = ∑ q : Fin 524288, H3 V c (halfRow ⟨r.val / 32, by have := r.isLt; omega⟩ q) ⟨r.val % 32, Nat.mod_lt _ (by norm_num)⟩
  rw [g10_eq]
  refine Finset.sum_congr rfl fun q _ => ?_
  unfold gsum
  rw [dif_pos q.isLt]

theorem reg2_sq (c : Dev nD) (r : Fin 64) :
    (dat2 (F := Ideal) V c).arrAt 11 cfg2.N (ix2 r (0 : Fin 1))
      = halfSum ⟨r.val / 32, by have := r.isLt; omega⟩ (fun n =>
          (preK (actK (actK (Xst (V c main_v8) (V c main_v15) (V c main_arg14) (V c main_arg15)) (mat (V c main_v48)) (col (V c main_v50)))
            (mat (V c main_v73)) (col (V c main_v75))) (mat (V c main_arg24)) (col (V c main_v18)) n
            ⟨r.val % 32, Nat.mod_lt _ (by norm_num)⟩ - col (V c main_v18) ⟨r.val % 32, Nat.mod_lt _ (by norm_num)⟩)
          * (preK (actK (actK (Xst (V c main_v8) (V c main_v15) (V c main_arg14) (V c main_arg15)) (mat (V c main_v48)) (col (V c main_v50)))
            (mat (V c main_v73)) (col (V c main_v75))) (mat (V c main_arg24)) (col (V c main_v18)) n
            ⟨r.val % 32, Nat.mod_lt _ (by norm_num)⟩ - col (V c main_v18) ⟨r.val % 32, Nat.mod_lt _ (by norm_num)⟩)) := by
  rw [(dat2 (F := Ideal) V c).arrAt_eq_of_cover 11 (G11 V c) (flushed11_eq V c) cover11]
  show g11 V c (ix2 r (0 : Fin 1)) = ∑ q : Fin 524288,
      (H3 V c (halfRow ⟨r.val / 32, by have := r.isLt; omega⟩ q) ⟨r.val % 32, Nat.mod_lt _ (by norm_num)⟩
          - arr2_9 V c (ix2 (⟨r.val % 32, Nat.mod_lt _ (by norm_num)⟩ : Fin 32) (0 : Fin 1)))
        * (H3 V c (halfRow ⟨r.val / 32, by have := r.isLt; omega⟩ q) ⟨r.val % 32, Nat.mod_lt _ (by norm_num)⟩
          - arr2_9 V c (ix2 (⟨r.val % 32, Nat.mod_lt _ (by norm_num)⟩ : Fin 32) (0 : Fin 1)))
  rw [g11_eq]
  refine Finset.sum_congr rfl fun q _ => ?_
  unfold gsq
  rw [dif_pos q.isLt]

end Columns

end Cert.KernelIdeal.Hand

end
-- ==== Proof.Reg3Pay.lean ====
import proofs.«412578_j66537633349983_3_alg».proof.Proof.Gen.KernelIdeal.Skeleton
import proofs.«412578_j66537633349983_3_alg».proof.Proof.EncOps
import proofs.«412578_j66537633349983_3_alg».proof.Proof.Reg0Enc
import proofs.«412578_j66537633349983_3_alg».proof.Proof.LayerOps

set_option maxRecDepth 16384

noncomputable section

namespace Cert.KernelIdeal.Hand

open Cert.KernelIdeal Cert.KernelIdeal.Gen Cert.Spec
open Idealize.ShloMosaic Idealize.ShloMosaic.ValueIdx
open scoped BigOperators

namespace R3

section Slabs
variable (x0 : IVec (Sh2 8 16384) 32) (x1 : FVec Ideal (Sh2 6 16384) .f32)
  (x2 : FVec Ideal (Sh2 15 8) .f32) (x3 : FVec Ideal (Sh2 9 8) .f32)

def enc3 : FVec Ideal (Sh2 50 16384) .f32 :=
  View.canon (encPieces (L := 16384)
    (k3_pay8 (F := Ideal) x0 x2)
    (k3_pay9 (F := Ideal) x0)
    (k3_pay11 (F := Ideal) (k3_pay10 (F := Ideal) x0) (Scalar.ofBits (F := Ideal) .f32 0x3F800000#32) (Scalar.ofBits (F := Ideal) .f32 0x00000000#32))
    (k3_pay12 (F := Ideal) x3 (k3_pay4 (F := Ideal) x0))
    (k3_pay13 (F := Ideal) (k3_pay5 (F := Ideal) x1))
    (k3_pay14 (F := Ideal) (k3_pay6 (F := Ideal) x1))
    (k3_pay15 (F := Ideal) (k3_pay7 (F := Ideal) x1))
    (k3_pay23 (F := Ideal) x2 (k3_pay16 (k3_pay2 (F := Ideal) x0)) (iota .tc S15x16384 32 [0] iota_S15x16384_d0_w32))
    (k3_pay24 (F := Ideal) (k3_pay17 (k3_pay2 (F := Ideal) x0)))
    (k3_pay25 (F := Ideal) (k3_pay18 (k3_pay2 (F := Ideal) x0)))
    (k3_pay27 (F := Ideal) (k3_pay26 (F := Ideal) x3 (k3_pay19 (k3_pay2 (F := Ideal) x0))))
    (k3_pay28 (F := Ideal) (k3_pay20 (F := Ideal) (k3_pay3 (F := Ideal) x1)))
    (k3_pay29 (F := Ideal) (k3_pay21 (F := Ideal) (k3_pay3 (F := Ideal) x1)))
    (k3_pay30 (F := Ideal) (k3_pay22 (F := Ideal) (k3_pay3 (F := Ideal) x1)))
    inb_S50x16384_S8x16384_0_0 inb_S50x16384_S3x16384_8_0 inb_S50x16384_S3x16384_11_0 inb_S50x16384_S8x16384_14_0 inb_S50x16384_S1x16384_22_0 inb_S50x16384_S1x16384_23_0 inb_S50x16384_S1x16384_24_0 inb_S50x16384_S8x16384_25_0 inb_S50x16384_S3x16384_33_0 inb_S50x16384_S3x16384_36_0 inb_S50x16384_S8x16384_39_0 inb_S50x16384_S1x16384_47_0 inb_S50x16384_S1x16384_48_0 inb_S50x16384_S1x16384_49_0)

theorem enc3_apply (k : Fin 50) (l : Fin 16384) : enc3 x0 x1 x2 x3 (ix2 k l) = Xlane x0 x1 x2 x3 l k :=
  enc_canon_apply (L := 16384) x0 x1 x2 x3 _ _ _ _ _ _ _ _ _ _ _ _ _ _
    inb_S50x16384_S8x16384_0_0 inb_S50x16384_S3x16384_8_0 inb_S50x16384_S3x16384_11_0 inb_S50x16384_S8x16384_14_0 inb_S50x16384_S1x16384_22_0 inb_S50x16384_S1x16384_23_0 inb_S50x16384_S1x16384_24_0 inb_S50x16384_S8x16384_25_0 inb_S50x16384_S3x16384_33_0 inb_S50x16384_S3x16384_36_0 inb_S50x16384_S8x16384_39_0 inb_S50x16384_S1x16384_47_0 inb_S50x16384_S1x16384_48_0 inb_S50x16384_S1x16384_49_0
    (R0.enc0 x0 x1 x2 x3) (R0.enc1 x0 x1 x2 x3) (R0.enc2 x0 x1 x2 x3) (R0.enc3 x0 x1 x2 x3) (R0.enc4 x0 x1 x2 x3) (R0.enc5 x0 x1 x2 x3) (R0.enc6 x0 x1 x2 x3) (R0.enc7 x0 x1 x2 x3) (R0.enc8 x0 x1 x2 x3) (R0.enc9 x0 x1 x2 x3) (R0.enc10 x0 x1 x2 x3) (R0.enc11 x0 x1 x2 x3) (R0.enc12 x0 x1 x2 x3) (R0.enc13 x0 x1 x2 x3) k l

end Slabs

theorem r3_mm {K J L : Nat} {φx : FTy} (wf : DotDims.WF (Sh2 J K) (Sh2 K L) (Sh2 J L) [1] [0] [0] [1] [] [])
    (W : FVec Ideal (Sh2 K J) .f32) (hb : FTy.bits .bf16 < FTy.bits .f32) (ht : (Sh2 K J).Transposes [1, 0] (Sh2 J K))
    (x : FVec Ideal (Sh2 K L) φx) (j : Fin J) (l : Fin L) :
    matmul (⟨[1], [0], [0], [1], [], [], wf⟩ : DotDims (Sh2 J K) (Sh2 K L) (Sh2 J L)) none
        (transpose (Sh2 J K) [1, 0] (truncf .bf16 W hb) ht) x
        (constant (F := Ideal) (Sh2 J L) .f32 0x00000000#32) (ix2 j l)
      = ∑ k : Fin K, W (ix2 k j) * x (ix2 k l) := by
  refine (enc_matmul_plain wf none _ x j l).trans ?_
  refine Finset.sum_congr rfl fun k _ => ?_
  exact congrArg (· * x (ix2 k l)) (transpose_ix2_apply (truncf .bf16 W hb) ht j k)

theorem r3_denseRelu {K J L : Nat} {φx : FTy} (wf : DotDims.WF (Sh2 J K) (Sh2 K L) (Sh2 J L) [1] [0] [0] [1] [] [])
    (W : FVec Ideal (Sh2 K J) .f32) (hb : FTy.bits .bf16 < FTy.bits .f32) (ht : (Sh2 K J).Transposes [1, 0] (Sh2 J K))
    (x : FVec Ideal (Sh2 K L) φx)
    (b : FVec Ideal (Sh2 J 1) .f32) (hsc : (Sh2 J 1).ShapeCasts (Sh2 J 1)) (hbc : (Sh2 J 1).Broadcasts (Sh2 J L))
    (j : Fin J) (l : Fin L) :
    (truncf .bf16 (maximumf (addf (matmul (⟨[1], [0], [0], [1], [], [], wf⟩ : DotDims (Sh2 J K) (Sh2 K L) (Sh2 J L)) none
          (transpose (Sh2 J K) [1, 0] (truncf .bf16 W hb) ht) x (constant (F := Ideal) (Sh2 J L) .f32 0x00000000#32))
        (broadcastTo (Sh2 J L) (shapeCast (Sh2 J 1) b hsc) hbc))
        (broadcast (Sh2 J L) (Scalar.ofBits (F := Ideal) .f32 0x00000000#32))) hb : FVec Ideal (Sh2 J L) .bf16) (ix2 j l)
      = max ((∑ k : Fin K, W (ix2 k j) * x (ix2 k l)) + b (ix2 j (0 : Fin 1))) 0 := by
  refine (truncf_apply _ hb (ix2 j l)).trans ?_
  refine (relu_apply _ (ix2 j l)).trans ?_
  refine congrArg (max · 0) ?_
  refine (addf_apply _ _ (ix2 j l)).trans ?_
  exact congrArg₂ (· + ·) (r3_mm wf W hb ht x j l) (colBroadcast_apply b hsc hbc j l)

section Layers
variable (E : FVec Ideal (Sh2 50 16384) .f32)
  (x4 : FVec Ideal (Sh2 50 128) .f32) (x5 : FVec Ideal (Sh2 128 1) .f32)
  (x6 : FVec Ideal (Sh2 128 64) .f32) (x7 : FVec Ideal (Sh2 64 1) .f32)
  (x8 : FVec Ideal (Sh2 64 32) .f32) (x9 : FVec Ideal (Sh2 32 1) .f32)
  (x10 : FVec Ideal (Sh2 32 1) .f32) (x11 : FVec Ideal (Sh2 1 1) .f32)

theorem r3_pay31_apply (j : Fin 64) (l : Fin 16384) :
    (k3_pay31 (F := Ideal) E x4 x5 x6 : FVec Ideal (Sh2 64 16384) .f32) (ix2 j l)
      = ∑ k : Fin 128, x6 (ix2 k j) * max ((∑ f : Fin 50, x4 (ix2 f k) * E (ix2 f l)) + x5 (ix2 k (0 : Fin 1))) 0 := by
  unfold k3_pay31
  dsimp only
  refine (r3_mm dot_S64x128_S128x16384_S64x16384_1_0_0_1_n_n_wf (shapeCast S128x64 x6 shapeCasts_S128x64_S128x64) bitsLt_bf16_f32
    transposes_S128x64_p1_0_S64x128 _ j l).trans ?_
  refine Finset.sum_congr rfl fun k _ => ?_
  refine congrArg₂ (· * ·) (congrFun (shapeCast_self x6 shapeCasts_S128x64_S128x64) (ix2 k j)) ?_
  refine (r3_denseRelu dot_S128x50_S50x16384_S128x16384_1_0_0_1_n_n_wf (shapeCast S50x128 x4 shapeCasts_S50x128_S50x128) bitsLt_bf16_f32
    transposes_S50x128_p1_0_S128x50 (truncf .bf16 E bitsLt_bf16_f32) x5 shapeCasts_S128x1_S128x1 broadcasts_S128x1_S128x16384 k l).trans ?_
  refine congrArg (max · 0) ?_
  refine congrArg (· + x5 (ix2 k (0 : Fin 1))) ?_
  refine Finset.sum_congr rfl fun f _ => ?_
  exact congrArg (· * E (ix2 f l)) (congrFun (shapeCast_self x4 shapeCasts_S50x128_S50x128) (ix2 f k))

theorem r3_pay1_apply (v : FVec Ideal (Sh2 64 16384) .f32) (l : Fin 16384) :
    (k3_pay1 (F := Ideal) v x7 x8 x9 x10 x11 : FVec Ideal (Sh2 1 16384) .f32) (ix2 (0 : Fin 1) l)
      = Ideal.logistic ((∑ k : Fin 32, x10 (ix2 k (0 : Fin 1))
          * max ((∑ j : Fin 64, x8 (ix2 j k) * max (v (ix2 j l) + x7 (ix2 j (0 : Fin 1))) 0) + x9 (ix2 k (0 : Fin 1))) 0)
        + x11 (ix2 (0 : Fin 1) (0 : Fin 1))) := by
  unfold k3_pay1
  dsimp only
  refine congrArg Ideal.logistic ?_
  refine (addf_apply _ _ (ix2 (0 : Fin 1) l)).trans ?_
  refine congrArg₂ (· + ·) ?_ (colBroadcast_apply x11 shapeCasts_S1x1_S1x1 broadcasts_S1x1_S1x16384 (0 : Fin 1) l)
  refine (r3_mm dot_S1x32_S32x16384_S1x16384_1_0_0_1_n_n_wf x10 bitsLt_bf16_f32 transposes_S32x1_p1_0_S1x32 _ (0 : Fin 1) l).trans ?_
  refine Finset.sum_congr rfl fun k _ => ?_
  refine congrArg (x10 (ix2 k (0 : Fin 1)) * ·) ?_
  refine (r3_denseRelu dot_S32x64_S64x16384_S32x16384_1_0_0_1_n_n_wf (shapeCast S64x32 x8 shapeCasts_S64x32_S64x32) bitsLt_bf16_f32
    transposes_S64x32_p1_0_S32x64 _ x9 shapeCasts_S32x1_S32x1 broadcasts_S32x1_S32x16384 k l).trans ?_
  refine congrArg (max · 0) ?_
  refine congrArg (· + x9 (ix2 k (0 : Fin 1))) ?_
  refine Finset.sum_congr rfl fun j _ => ?_
  refine congrArg₂ (· * ·) (congrFun (shapeCast_self x8 shapeCasts_S64x32_S64x32) (ix2 j k)) ?_
  refine (truncf_apply _ bitsLt_bf16_f32 (ix2 j l)).trans ?_
  refine (relu_apply _ (ix2 j l)).trans ?_
  refine congrArg (max · 0) ?_
  refine (addf_apply _ _ (ix2 j l)).trans ?_
  exact congrArg (v (ix2 j l) + ·) (colBroadcast_apply x7 shapeCasts_S64x1_S64x1 broadcasts_S64x1_S64x16384 j l)

end Layers

theorem r3_block_value (x0 : IVec (Sh2 8 16384) 32) (x1 : FVec Ideal (Sh2 6 16384) .f32)
    (x2 : FVec Ideal (Sh2 15 8) .f32) (x3 : FVec Ideal (Sh2 9 8) .f32)
    (x4 : FVec Ideal (Sh2 50 128) .f32) (x5 : FVec Ideal (Sh2 128 1) .f32)
    (x6 : FVec Ideal (Sh2 128 64) .f32) (x7 : FVec Ideal (Sh2 64 1) .f32)
    (x8 : FVec Ideal (Sh2 64 32) .f32) (x9 : FVec Ideal (Sh2 32 1) .f32)
    (x10 : FVec Ideal (Sh2 32 1) .f32) (x11 : FVec Ideal (Sh2 1 1) .f32) (l : Fin 16384) :
    (k3_pay1 (F := Ideal) (k3_pay31 (F := Ideal) (enc3 x0 x1 x2 x3) x4 x5 x6) x7 x8 x9 x10 x11 : FVec Ideal (Sh2 1 16384) .f32) (ix2 (0 : Fin 1) l)
      = Ideal.logistic ((∑ k : Fin 32, col x10 k
          * (actK (actK (actK (Xlane x0 x1 x2 x3) (mat x4) (col x5)) (mat x6) (col x7)) (mat x8) (col x9)) l k)
        + x11 (ix2 (0 : Fin 1) (0 : Fin 1))) := by
  rw [r3_pay1_apply]
  simp only [r3_pay31_apply, enc3_apply]
  rfl

end R3

end Cert.KernelIdeal.Hand

end
-- ==== Proof.Reg3Val.lean ====
import proofs.«412578_j66537633349983_3_alg».proof.Proof.Reg3
import proofs.«412578_j66537633349983_3_alg».proof.Proof.KForm
import proofs.«412578_j66537633349983_3_alg».proof.Proof.Reg3Pay
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

namespace R3

theorem idx_facts3 : ∀ t : Fin cfg3.N,
    win3_12.index t (0 : Fin 2) = 0 ∧ win3_12.index t (1 : Fin 2) = t.val
    ∧ win3_0.index t (0 : Fin 2) = 0 ∧ win3_0.index t (1 : Fin 2) = t.val
    ∧ win3_1.index t (0 : Fin 2) = 0 ∧ win3_1.index t (1 : Fin 2) = t.val :=
  (by decide +kernel : ∀ t : Fin grid3.N, _)

theorem idx_zero3_2 : ∀ t : Fin cfg3.N, win3_2.index t (0 : Fin 2) = 0 ∧ win3_2.index t (1 : Fin 2) = 0 :=
  (by decide +kernel : ∀ t : Fin grid3.N, _)
theorem idx_zero3_3 : ∀ t : Fin cfg3.N, win3_3.index t (0 : Fin 2) = 0 ∧ win3_3.index t (1 : Fin 2) = 0 :=
  (by decide +kernel : ∀ t : Fin grid3.N, _)
theorem idx_zero3_4 : ∀ t : Fin cfg3.N, win3_4.index t (0 : Fin 2) = 0 ∧ win3_4.index t (1 : Fin 2) = 0 :=
  (by decide +kernel : ∀ t : Fin grid3.N, _)
theorem idx_zero3_5 : ∀ t : Fin cfg3.N, win3_5.index t (0 : Fin 2) = 0 ∧ win3_5.index t (1 : Fin 2) = 0 :=
  (by decide +kernel : ∀ t : Fin grid3.N, _)
theorem idx_zero3_6 : ∀ t : Fin cfg3.N, win3_6.index t (0 : Fin 2) = 0 ∧ win3_6.index t (1 : Fin 2) = 0 :=
  (by decide +kernel : ∀ t : Fin grid3.N, _)
theorem idx_zero3_7 : ∀ t : Fin cfg3.N, win3_7.index t (0 : Fin 2) = 0 ∧ win3_7.index t (1 : Fin 2) = 0 :=
  (by decide +kernel : ∀ t : Fin grid3.N, _)
theorem idx_zero3_8 : ∀ t : Fin cfg3.N, win3_8.index t (0 : Fin 2) = 0 ∧ win3_8.index t (1 : Fin 2) = 0 :=
  (by decide +kernel : ∀ t : Fin grid3.N, _)
theorem idx_zero3_9 : ∀ t : Fin cfg3.N, win3_9.index t (0 : Fin 2) = 0 ∧ win3_9.index t (1 : Fin 2) = 0 :=
  (by decide +kernel : ∀ t : Fin grid3.N, _)
theorem idx_zero3_10 : ∀ t : Fin cfg3.N, win3_10.index t (0 : Fin 2) = 0 ∧ win3_10.index t (1 : Fin 2) = 0 :=
  (by decide +kernel : ∀ t : Fin grid3.N, _)
theorem idx_zero3_11 : ∀ t : Fin cfg3.N, win3_11.index t (0 : Fin 2) = 0 ∧ win3_11.index t (1 : Fin 2) = 0 :=
  (by decide +kernel : ∀ t : Fin grid3.N, _)

theorem iblk3_whole_2 (c : Dev nD) (t : Fin cfg3.N) (a : Fin 15) (b : Fin 8) :
    iblk3 V c 2 t (ix2 a b) = V c main_arg14 (ix2 a b) := by
  obtain ⟨e0, e1⟩ := idx_zero3_2 t
  show V c main_arg14 (((cfg3.win 2).blk t).view.emb (ix2 a b)) = V c main_arg14 (ix2 a b)
  refine congrArg (V c main_arg14) (funext fun ax => Fin.ext ?_)
  match ax with
  | ⟨0, _⟩ => show win3_2.index t (0 : Fin 2) * 15 + 1 * a.val = a.val; omega
  | ⟨1, _⟩ => show win3_2.index t (1 : Fin 2) * 8 + 1 * b.val = b.val; omega

theorem iblk3_whole_3 (c : Dev nD) (t : Fin cfg3.N) (a : Fin 9) (b : Fin 8) :
    iblk3 V c 3 t (ix2 a b) = V c main_arg15 (ix2 a b) := by
  obtain ⟨e0, e1⟩ := idx_zero3_3 t
  show V c main_arg15 (((cfg3.win 3).blk t).view.emb (ix2 a b)) = V c main_arg15 (ix2 a b)
  refine congrArg (V c main_arg15) (funext fun ax => Fin.ext ?_)
  match ax with
  | ⟨0, _⟩ => show win3_3.index t (0 : Fin 2) * 9 + 1 * a.val = a.val; omega
  | ⟨1, _⟩ => show win3_3.index t (1 : Fin 2) * 8 + 1 * b.val = b.val; omega

theorem iblk3_whole_4 (c : Dev nD) (t : Fin cfg3.N) (a : Fin 50) (b : Fin 128) :
    iblk3 V c 4 t (ix2 a b) = V c main_v48 (ix2 a b) := by
  obtain ⟨e0, e1⟩ := idx_zero3_4 t
  show V c main_v48 (((cfg3.win 4).blk t).view.emb (ix2 a b)) = V c main_v48 (ix2 a b)
  refine congrArg (V c main_v48) (funext fun ax => Fin.ext ?_)
  match ax with
  | ⟨0, _⟩ => show win3_4.index t (0 : Fin 2) * 50 + 1 * a.val = a.val; omega
  | ⟨1, _⟩ => show win3_4.index t (1 : Fin 2) * 128 + 1 * b.val = b.val; omega

theorem iblk3_whole_5 (c : Dev nD) (t : Fin cfg3.N) (a : Fin 128) (b : Fin 1) :
    iblk3 V c 5 t (ix2 a b) = V c main_v50 (ix2 a b) := by
  obtain ⟨e0, e1⟩ := idx_zero3_5 t
  show V c main_v50 (((cfg3.win 5).blk t).view.emb (ix2 a b)) = V c main_v50 (ix2 a b)
  refine congrArg (V c main_v50) (funext fun ax => Fin.ext ?_)
  match ax with
  | ⟨0, _⟩ => show win3_5.index t (0 : Fin 2) * 128 + 1 * a.val = a.val; omega
  | ⟨1, _⟩ => show win3_5.index t (1 : Fin 2) * 1 + 1 * b.val = b.val; omega

theorem iblk3_whole_6 (c : Dev nD) (t : Fin cfg3.N) (a : Fin 128) (b : Fin 64) :
    iblk3 V c 6 t (ix2 a b) = V c main_v73 (ix2 a b) := by
  obtain ⟨e0, e1⟩ := idx_zero3_6 t
  show V c main_v73 (((cfg3.win 6).blk t).view.emb (ix2 a b)) = V c main_v73 (ix2 a b)
  refine congrArg (V c main_v73) (funext fun ax => Fin.ext ?_)
  match ax with
  | ⟨0, _⟩ => show win3_6.index t (0 : Fin 2) * 128 + 1 * a.val = a.val; omega
  | ⟨1, _⟩ => show win3_6.index t (1 : Fin 2) * 64 + 1 * b.val = b.val; omega

theorem iblk3_whole_7 (c : Dev nD) (t : Fin cfg3.N) (a : Fin 64) (b : Fin 1) :
    iblk3 V c 7 t (ix2 a b) = V c main_v75 (ix2 a b) := by
  obtain ⟨e0, e1⟩ := idx_zero3_7 t
  show V c main_v75 (((cfg3.win 7).blk t).view.emb (ix2 a b)) = V c main_v75 (ix2 a b)
  refine congrArg (V c main_v75) (funext fun ax => Fin.ext ?_)
  match ax with
  | ⟨0, _⟩ => show win3_7.index t (0 : Fin 2) * 64 + 1 * a.val = a.val; omega
  | ⟨1, _⟩ => show win3_7.index t (1 : Fin 2) * 1 + 1 * b.val = b.val; omega

theorem iblk3_whole_8 (c : Dev nD) (t : Fin cfg3.N) (a : Fin 64) (b : Fin 32) :
    iblk3 V c 8 t (ix2 a b) = V c main_v98 (ix2 a b) := by
  obtain ⟨e0, e1⟩ := idx_zero3_8 t
  show V c main_v98 (((cfg3.win 8).blk t).view.emb (ix2 a b)) = V c main_v98 (ix2 a b)
  refine congrArg (V c main_v98) (funext fun ax => Fin.ext ?_)
  match ax with
  | ⟨0, _⟩ => show win3_8.index t (0 : Fin 2) * 64 + 1 * a.val = a.val; omega
  | ⟨1, _⟩ => show win3_8.index t (1 : Fin 2) * 32 + 1 * b.val = b.val; omega

theorem iblk3_whole_9 (c : Dev nD) (t : Fin cfg3.N) (a : Fin 32) (b : Fin 1) :
    iblk3 V c 9 t (ix2 a b) = V c main_v100 (ix2 a b) := by
  obtain ⟨e0, e1⟩ := idx_zero3_9 t
  show V c main_v100 (((cfg3.win 9).blk t).view.emb (ix2 a b)) = V c main_v100 (ix2 a b)
  refine congrArg (V c main_v100) (funext fun ax => Fin.ext ?_)
  match ax with
  | ⟨0, _⟩ => show win3_9.index t (0 : Fin 2) * 32 + 1 * a.val = a.val; omega
  | ⟨1, _⟩ => show win3_9.index t (1 : Fin 2) * 1 + 1 * b.val = b.val; omega

theorem iblk3_whole_10 (c : Dev nD) (t : Fin cfg3.N) (a : Fin 32) (b : Fin 1) :
    iblk3 V c 10 t (ix2 a b) = V c main_arg28 (ix2 a b) := by
  obtain ⟨e0, e1⟩ := idx_zero3_10 t
  show V c main_arg28 (((cfg3.win 10).blk t).view.emb (ix2 a b)) = V c main_arg28 (ix2 a b)
  refine congrArg (V c main_arg28) (funext fun ax => Fin.ext ?_)
  match ax with
  | ⟨0, _⟩ => show win3_10.index t (0 : Fin 2) * 32 + 1 * a.val = a.val; omega
  | ⟨1, _⟩ => show win3_10.index t (1 : Fin 2) * 1 + 1 * b.val = b.val; omega

theorem iblk3_whole_11 (c : Dev nD) (t : Fin cfg3.N) (a : Fin 1) (b : Fin 1) :
    iblk3 V c 11 t (ix2 a b) = V c main_v19 (ix2 a b) := by
  obtain ⟨e0, e1⟩ := idx_zero3_11 t
  show V c main_v19 (((cfg3.win 11).blk t).view.emb (ix2 a b)) = V c main_v19 (ix2 a b)
  refine congrArg (V c main_v19) (funext fun ax => Fin.ext ?_)
  match ax with
  | ⟨0, _⟩ => show win3_11.index t (0 : Fin 2) * 1 + 1 * a.val = a.val; omega
  | ⟨1, _⟩ => show win3_11.index t (1 : Fin 2) * 1 + 1 * b.val = b.val; omega

def rowOf (t : Fin cfg3.N) (r : Fin 16384) : Fin 1048576 :=
  ⟨t.val * 16384 + r.val, by have h : t.val < 64 := lt_of_lt_of_eq t.isLt N_3; have := r.isLt; omega⟩

theorem iblk3_ints (c : Dev nD) (t : Fin cfg3.N) (a : Fin 8) (r : Fin 16384) :
    iblk3 V c 0 t (ix2 a r) = V c main_v8 (ix2 a (rowOf t r)) := by
  obtain ⟨-, -, e0, e1, -, -⟩ := idx_facts3 t
  show V c main_v8 (((cfg3.win 0).blk t).view.emb (ix2 a r)) = V c main_v8 (ix2 a (rowOf t r))
  refine congrArg (V c main_v8) (funext fun ax => Fin.ext ?_)
  match ax with
  | ⟨0, _⟩ => show win3_0.index t (0 : Fin 2) * 8 + 1 * a.val = a.val; omega
  | ⟨1, _⟩ => show win3_0.index t (1 : Fin 2) * 16384 + 1 * r.val = t.val * 16384 + r.val; omega

theorem iblk3_flts (c : Dev nD) (t : Fin cfg3.N) (a : Fin 6) (r : Fin 16384) :
    iblk3 V c 1 t (ix2 a r) = V c main_v15 (ix2 a (rowOf t r)) := by
  obtain ⟨-, -, -, -, e0, e1⟩ := idx_facts3 t
  show V c main_v15 (((cfg3.win 1).blk t).view.emb (ix2 a r)) = V c main_v15 (ix2 a (rowOf t r))
  refine congrArg (V c main_v15) (funext fun ax => Fin.ext ?_)
  match ax with
  | ⟨0, _⟩ => show win3_1.index t (0 : Fin 2) * 6 + 1 * a.val = a.val; omega
  | ⟨1, _⟩ => show win3_1.index t (1 : Fin 2) * 16384 + 1 * r.val = t.val * 16384 + r.val; omega

def res3 (c : Dev nD) (n : Fin 1048576) : EReal :=
  Ideal.logistic ((∑ k : Fin 32, col (V c main_arg28) k
      * (actK (actK (actK (Xst (V c main_v8) (V c main_v15) (V c main_arg14) (V c main_arg15)) (mat (V c main_v48)) (col (V c main_v50)))
          (mat (V c main_v73)) (col (V c main_v75))) (mat (V c main_v98)) (col (V c main_v100))) n k)
    + (V c main_v19 : FVec Ideal (Sh2 1 1) .f32) (ix2 (0 : Fin 1) (0 : Fin 1)))

def G3 (c : Dev nD) : S1x1048576.Idx → EReal := fun i => res3 V c ⟨(i 1).val, idx2_lt1 i⟩

theorem mem_blk3 (t : Fin cfg3.N) (i : S1x1048576.Idx) :
    i ∈ ((cfg3.win 12).blk t).view.set ↔ ∀ a : Fin 2, win3_12.index t a * S1x16384.size a ≤ (i a).val ∧ (i a).val < win3_12.index t a * S1x16384.size a + S1x16384.size a := by
  show i ∈ ((View.whole main_v101).slice (win3_12.rect t)).set ↔ _
  rw [View.set_slice_whole, Rect.mem_set_unit]
  exact Iff.rfl

theorem cover3 (i : S1x1048576.Idx) :
    ∃ t : Fin cfg3.N, (cfg3.win 12).flush t = true ∧ i ∈ ((cfg3.win 12).blk t).view.set := by
  have hi0 : (i 0).val < 1 := idx2_lt0 i
  have hi1 : (i 1).val < 1048576 := idx2_lt1 i
  have hN : cfg3.N = 64 := N_3
  let t : Fin cfg3.N := ⟨(i 1).val / 16384, by rw [hN]; omega⟩
  obtain ⟨e0, e1, -, -, -, -⟩ := idx_facts3 t
  have e1' : win3_12.index t (1 : Fin 2) = (i 1).val / 16384 := e1
  refine ⟨t, flush3_12 t, ?_⟩
  rw [mem_blk3]
  intro a
  match a with
  | ⟨0, _⟩ => show win3_12.index t (0 : Fin 2) * 1 ≤ (i 0).val ∧ (i 0).val < win3_12.index t (0 : Fin 2) * 1 + 1; omega
  | ⟨1, _⟩ => show win3_12.index t (1 : Fin 2) * 16384 ≤ (i 1).val ∧ (i 1).val < win3_12.index t (1 : Fin 2) * 16384 + 16384; omega

theorem hz3 : (![0, 0] : Fin 2 → Nat) = fun _ => 0 := funext fun a => by fin_cases a <;> rfl

theorem out3_12_found (c : Dev nD) (i : grid3.Coords) (arg1 : Memref sig .tc .vmem S8x16384 .i32) (harg1 : arg1.IsWhole) (arg2 : Memref sig .tc .vmem S6x16384 .f32) (harg2 : arg2.IsWhole) (arg3 : Memref sig .tc .vmem S15x8 .f32) (harg3 : arg3.IsWhole) (arg4 : Memref sig .tc .vmem S9x8 .f32) (harg4 : arg4.IsWhole) (arg5 : Memref sig .tc .vmem S50x128 .f32) (harg5 : arg5.IsWhole) (arg6 : Memref sig .tc .vmem S128x1 .f32) (harg6 : arg6.IsWhole) (arg7 : Memref sig .tc .vmem S128x64 .f32) (harg7 : arg7.IsWhole) (arg8 : Memref sig .tc .vmem S64x1 .f32) (harg8 : arg8.IsWhole) (arg9 : Memref sig .tc .vmem S64x32 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S1x1 .f32) (harg12 : arg12.IsWhole) (arg13 : Memref sig .tc .vmem S1x16384 .f32) (harg13 : arg13.IsWhole) (arg14 : Memref sig .tc .vmem S50x16384 .f32) (harg14 : arg14.IsWhole)
    (x0 : Vec Ideal S8x16384 .i32) (x1 : Vec Ideal S6x16384 .f32) (x2 : Vec Ideal S15x8 .f32) (x3 : Vec Ideal S9x8 .f32) (x4 : Vec Ideal S50x128 .f32) (x5 : Vec Ideal S128x1 .f32) (x6 : Vec Ideal S128x64 .f32) (x7 : Vec Ideal S64x1 .f32) (x8 : Vec Ideal S64x32 .f32) (x9 : Vec Ideal S32x1 .f32) (x10 : Vec Ideal S32x1 .f32) (x11 : Vec Ideal S1x1 .f32) :
    out3_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11
      = k3_pay1 (F := Ideal) (k3_pay31 (F := Ideal) (enc3 x0 x1 x2 x3) x4 x5 x6) x7 x8 x9 x10 x11 := by
  unfold out3_12
  rw [View.read_writes_eq_canon _ _ _ (cover3_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun3
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread,
    View.ld_unit_zero (S := S8x16384) hz3, View.ld_unit_zero (S := S6x16384) hz3, View.ld_unit_zero (S := S15x8) hz3, View.ld_unit_zero (S := S9x8) hz3, View.ld_unit_zero (S := S50x128) hz3, View.ld_unit_zero (S := S128x1) hz3, View.ld_unit_zero (S := S128x64) hz3, View.ld_unit_zero (S := S64x1) hz3, View.ld_unit_zero (S := S64x32) hz3, View.ld_unit_zero (S := S32x1) hz3, View.ld_unit_zero (S := S1x1) hz3]
  refine congrArg (fun E => k3_pay1 (F := Ideal) (k3_pay31 (F := Ideal) E x4 x5 x6) x7 x8 x9 x10 x11) ?_
  refine (View.readCov_eq_canon' _ _ _).trans ?_
  exact View.ld_unit_zero (S := S50x16384) hz3 inb_S50x16384_S50x16384_0_0 _

theorem actK_row {ι ι' : Type} [Fintype ι] [Fintype ι'] {K J : Nat} (x : ι → Fin K → EReal) (x' : ι' → Fin K → EReal)
    (We : Fin K → Fin J → EReal) (be : Fin J → EReal) (n : ι) (n' : ι') (h : ∀ k, x n k = x' n' k) (j : Fin J) :
    actK x We be n j = actK x' We be n' j := by
  unfold actK preK
  have e : (∑ k : Fin K, We k j * x n k) = ∑ k : Fin K, We k j * x' n' k :=
    Finset.sum_congr rfl fun k _ => by rw [h k]
  rw [e]

theorem outsAt3_apply (c : Dev nD) (t : Fin cfg3.N) (r : Fin 16384) :
    outsAt3 V c t.val t.isLt (ix2 (0 : Fin 1) r) = res3 V c (rowOf t r) := by
  rw [outsAt3_eq, out3_12_found]
  refine (r3_block_value (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) (iblk3 V c 11 t) r).trans ?_
  unfold res3
  have hX : Xlane (L := 16384) (iblk3 V c 0 t) (iblk3 V c 1 t) (iblk3 V c 2 t) (iblk3 V c 3 t) r
      = Xst (V c main_v8) (V c main_v15) (V c main_arg14) (V c main_arg15) (rowOf t r) := by
    have e2 : (iblk3 V c 2 t : (Sh2 15 8).Idx → EReal) = V c main_arg14 :=
      funext fun y => by rw [eq_ix2 y]; exact iblk3_whole_2 V c t _ _
    have e3 : (iblk3 V c 3 t : (Sh2 9 8).Idx → EReal) = V c main_arg15 :=
      funext fun y => by rw [eq_ix2 y]; exact iblk3_whole_3 V c t _ _
    rw [e2, e3]
    exact Xlane_of_rows (V c main_v8) (V c main_v15) (V c main_arg14) (V c main_arg15) (iblk3 V c 0 t) (iblk3 V c 1 t)
      (rowOf t) (fun a l => iblk3_ints V c t a l) (fun a l => iblk3_flts V c t a l) r
  have e4 : (iblk3 V c 4 t : (Sh2 50 128).Idx → EReal) = V c main_v48 :=
    funext fun y => by rw [eq_ix2 y]; exact iblk3_whole_4 V c t _ _
  have e5 : (iblk3 V c 5 t : (Sh2 128 1).Idx → EReal) = V c main_v50 :=
    funext fun y => by rw [eq_ix2 y]; exact iblk3_whole_5 V c t _ _
  have e6 : (iblk3 V c 6 t : (Sh2 128 64).Idx → EReal) = V c main_v73 :=
    funext fun y => by rw [eq_ix2 y]; exact iblk3_whole_6 V c t _ _
  have e7 : (iblk3 V c 7 t : (Sh2 64 1).Idx → EReal) = V c main_v75 :=
    funext fun y => by rw [eq_ix2 y]; exact iblk3_whole_7 V c t _ _
  have e8 : (iblk3 V c 8 t : (Sh2 64 32).Idx → EReal) = V c main_v98 :=
    funext fun y => by rw [eq_ix2 y]; exact iblk3_whole_8 V c t _ _
  have e9 : (iblk3 V c 9 t : (Sh2 32 1).Idx → EReal) = V c main_v100 :=
    funext fun y => by rw [eq_ix2 y]; exact iblk3_whole_9 V c t _ _
  have e10 : (iblk3 V c 10 t : (Sh2 32 1).Idx → EReal) = V c main_arg28 :=
    funext fun y => by rw [eq_ix2 y]; exact iblk3_whole_10 V c t _ _
  have e11 : (iblk3 V c 11 t : (Sh2 1 1).Idx → EReal) = V c main_v19 :=
    funext fun y => by rw [eq_ix2 y]; exact iblk3_whole_11 V c t _ _
  rw [e4, e5, e6, e7, e8, e9, e10, e11]
  refine congrArg Ideal.logistic ?_
  refine congrArg (· + (V c main_v19 : FVec Ideal (Sh2 1 1) .f32) (ix2 (0 : Fin 1) (0 : Fin 1))) ?_
  refine Finset.sum_congr rfl fun k _ => ?_
  refine congrArg (col (V c main_arg28) k * ·) ?_
  refine actK_row _ _ _ _ r (rowOf t r) (fun k2 => ?_) k
  refine actK_row _ _ _ _ r (rowOf t r) (fun k1 => ?_) k2
  refine actK_row _ _ _ _ r (rowOf t r) (fun k0 => ?_) k1
  exact congrFun hX k0

theorem flushed3_eq (c : Dev nD) (t : Fin cfg3.N) :
    (dat3 V c).flushed 12 t = ((cfg3.win 12).blk t).view.read (Elt Ideal) (G3 V c) := by
  show (cfg3.win 12).cut (grid3.coords t) ((dat3 V c).after 12 t) = _
  rw [after3_12]
  funext j
  obtain ⟨p, r, rfl⟩ : ∃ (p : Fin 1) (r : Fin 16384), j = ix2 p r := ⟨j 0, j 1, eq_ix2 j⟩
  obtain rfl : p = 0 := Subsingleton.elim _ _
  obtain ⟨e0, e1, -, -, -, -⟩ := idx_facts3 t
  show outsAt3 V c t.val t.isLt (ix2 (0 : Fin 1) r) = G3 V c (((cfg3.win 12).blk t).view.emb (ix2 (0 : Fin 1) r))
  rw [outsAt3_apply]
  unfold G3
  refine congrArg (res3 V c) (Fin.ext ?_)
  show t.val * 16384 + r.val = win3_12.index t (1 : Fin 2) * 16384 + 1 * r.val
  omega

theorem final3 (c : Dev nD) : (dat3 V c).arrAt 12 cfg3.N = G3 V c :=
  (dat3 V c).arrAt_eq_of_cover 12 (G3 V c) (fun t _ => flushed3_eq V c t) cover3

end R3

open R3

theorem reg3_value (c : Dev nD) (n : Fin 1048576) :
    (dat3 (F := Ideal) V c).arrAt 12 cfg3.N (ix2 (0 : Fin 1) n)
      = Ideal.logistic ((∑ k : Fin 32, col (V c main_arg28) k
          * (actK (actK (actK (Xst (V c main_v8) (V c main_v15) (V c main_arg14) (V c main_arg15)) (mat (V c main_v48)) (col (V c main_v50)))
              (mat (V c main_v73)) (col (V c main_v75))) (mat (V c main_v98)) (col (V c main_v100))) n k)
        + (V c main_v19 : FVec Ideal (Sh2 1 1) .f32) (ix2 (0 : Fin 1) (0 : Fin 1))) := by
  rw [final3]
  rfl

end Cert.KernelIdeal.Hand

end
-- ==== Proof.KHostFold.lean ====
import proofs.«412578_j66537633349983_3_alg».proof.Proof.KForm
import Idealize.ShloMosaic.Lib.ValueLayout
import Idealize.ShloMosaic.PureOps.Ideal.Laws

noncomputable section

namespace Cert.KernelIdeal.Hand

open Idealize.ShloMosaic Idealize.ShloMosaic.ValueIdx
open Cert.Spec

abbrev Sh0 : Shape := ⟨0, ![]⟩
abbrev ShH (J : Nat) : Shape := ⟨3, ![2, J, 1]⟩

theorem ofBits_cnt : Ideal.ofBits .f32 0x49800000#32 = cntE := by
  unfold cntE
  simp [Ideal.ofBits, Ideal.ieee, -EReal.coe_mul]
  norm_num

section Layout
variable {α : Type}

theorem col_reshape_apply {a : Nat} (v : (Sh1 a).Idx → α) (h : (Sh1 a).ShapeCasts (Sh2 a 1)) (j : Fin a) :
    shapeCast (Sh2 a 1) v h (ix2 j (0 : Fin 1)) = v (ix1 j) :=
  shapeCast_apply v h _ _ (by
    rw [Shape.rowMajor_val_one, Shape.rowMajor_val_two]
    show j.val = j.val * 1 + 0
    omega)

theorem row_flatten_apply {B : Nat} (v : (Sh2 1 B).Idx → α) (h : (Sh2 1 B).ShapeCasts (Sh1 B)) (n : Fin B) :
    shapeCast (Sh1 B) v h (ix1 n) = v (ix2 (0 : Fin 1) n) :=
  shapeCast_1a_a_apply v h n

theorem row_bcast_apply {B : Nat} (v : (Sh1 B).Idx → α) (hb : (Sh1 B).BroadcastsInDim (Sh2 1 B) ![1]) (n : Fin B) :
    broadcastInDim (Sh2 1 B) ![1] hb v (ix2 (0 : Fin 1) n) = v (ix1 n) :=
  broadcastInDim_apply ![1] hb v _ (ix1 n) (fun a => by
    match a with
    | ⟨0, _⟩ =>
      show n.val = if B = 1 then 0 else n.val
      split
      · have := n.isLt; omega
      · rfl)

theorem stack_rows_apply {N B : Nat} (f : Fin N → ((Sh2 1 B).Idx → α))
    (h : Shape.Concatenates ((List.ofFn fun k : Fin N => (⟨Sh2 1 B, f k⟩ : (s : Shape) × (s.Idx → α))).map (·.1)) (Sh2 N B) 0)
    (r : Fin N) (n : Fin B) :
    concatenate (Sh2 N B) 0 (List.ofFn fun k : Fin N => (⟨Sh2 1 B, f k⟩ : (s : Shape) × (s.Idx → α))) h (ix2 r n)
      = f r (ix2 (0 : Fin 1) n) :=
  concatenate_ofFn_unit_apply (t := Sh2 N B) (s₁ := Sh2 1 B) 0 f h rfl rfl (ix2 r n) r rfl (ix2 (0 : Fin 1) n) (fun b hb => by
    match b with
    | ⟨0, _⟩ => exact absurd rfl hb
    | ⟨1, _⟩ => rfl)

theorem bcast_transpose_apply {J K : Nat} (v : (Sh2 J 1).Idx → α) (ht : (Sh2 J 1).Transposes [1, 0] (Sh2 1 J))
    (hb : (Sh2 1 J).BroadcastsInDim (Sh2 K J) ![0, 1]) (k : Fin K) (j : Fin J) :
    broadcastInDim (Sh2 K J) ![0, 1] hb (transpose (Sh2 1 J) [1, 0] v ht) (ix2 k j) = v (ix2 j (0 : Fin 1)) := by
  refine (broadcastInDim_apply ![0, 1] hb _ (ix2 k j) (ix2 (0 : Fin 1) j) ?_).trans (transpose_ix2_apply v ht (0 : Fin 1) j)
  intro a
  match a with
  | ⟨0, _⟩ => rfl
  | ⟨1, _⟩ =>
    show j.val = if J = 1 then 0 else j.val
    split
    · have := j.isLt; omega
    · rfl

theorem bcast_const_apply {t : Shape} (h : Sh0.BroadcastsInDim t ![]) (w : BitVec 32) (i : t.Idx) :
    broadcastInDim t ![] h (constant (F := Ideal) Sh0 .f32 w) i = Ideal.ofBits .f32 w := rfl

end Layout

theorem Xst_of_rows (ints : IVec (Sh2 8 1048576) 32) (flts : FVec Ideal (Sh2 6 1048576) .f32)
    (bemb : FVec Ideal (Sh2 15 8) .f32) (temb : FVec Ideal (Sh2 9 8) .f32) (A : Arrays)
    (hI : ∀ (r : Fin 8) (n : Fin NB), ints (ix2 r n)
      = (![A.breed1, A.size1, A.energy1, A.temp1, A.breed2, A.size2, A.energy2, A.temp2] : Fin 8 → IVec (Sh1 1048576) 32) r (ix1 n))
    (hF : ∀ (r : Fin 6) (n : Fin NB), flts (ix2 r n)
      = (![A.age1, A.social1, A.weight1, A.age2, A.social2, A.weight2] : Fin 6 → FVec Ideal (Sh1 1048576) .f32) r (ix1 n))
    (hb : bemb = A.bemb) (ht : temb = A.temb) : Xst ints flts bemb temb = XK (inpOf A) := by
  subst hb ht
  funext n k
  unfold Xst XK
  rw [hI 0 n, hI 1 n, hI 2 n, hI 3 n, hI 4 n, hI 5 n, hI 6 n, hI 7 n, hF 0 n, hF 1 n, hF 2 n, hF 3 n, hF 4 n, hF 5 n]
  rfl

theorem reduce_halves_apply {J JJ : Nat} (hJJ : JJ = 2 * J) (o : FVec Ideal (Sh2 JJ 1) .f32)
    (hsc : (Sh2 JJ 1).ShapeCasts (ShH J)) (hrt : (ShH J).ReducesTo [0] (Sh2 J 1)) (hr : (ShH J).Reduces [0] (Sh2 J 1))
    (hu : 0 < Sh0.numel) (S : Fin 2 → Fin J → EReal)
    (hS : ∀ (c' : Fin 2) (j : Fin J) (hlt : c'.val * J + j.val < JJ), o (ix2 ⟨c'.val * J + j.val, hlt⟩ (0 : Fin 1)) = S c' j)
    (j : Fin J) :
    Host.reduceAdd (F := Ideal) (shapeCast (ShH J) o hsc) (constant (F := Ideal) Sh0 .f32 0x00000000#32) hrt hu (ix2 j (0 : Fin 1))
      = S 0 j + S 1 j := by
  have rd : ∀ c' : Fin 2, shapeCast (ShH J) o hsc (hr.lift (ix2 j (0 : Fin 1)) c') = S c' j := by
    intro c'
    have hlt : c'.val * J + j.val < JJ := by
      have := j.isLt
      have := c'.isLt
      have h2 : c'.val * J ≤ 1 * J := Nat.mul_le_mul_right J (by omega)
      omega
    refine (shapeCast_apply o hsc _ (ix2 ⟨c'.val * J + j.val, hlt⟩ (0 : Fin 1)) ?_).trans (hS c' j hlt)
    rw [Shape.rowMajor_val_two, Shape.rowMajor_val_three]
    rfl
  show Ideal.hostReduceAdd hrt (shapeCast (ShH J) o hsc) (Ideal.ofBits .f32 0x00000000#32) (ix2 j (0 : Fin 1)) = _
  rw [Ideal.hostReduceAdd_single hrt hr, Ideal.ofBits_zero_f32, zero_add]
  show (∑ c' : Fin 2, shapeCast (ShH J) o hsc (hr.lift (ix2 j (0 : Fin 1)) c')) = _
  rw [Fin.sum_univ_two, rd 0, rd 1]

section Fold
variable {J K JJ : Nat}
variable (hsc : (Sh2 JJ 1).ShapeCasts (ShH J)) (hrt : (ShH J).ReducesTo [0] (Sh2 J 1)) (hu : 0 < Sh0.numel)
  (hb0 : Sh0.BroadcastsInDim (Sh2 J 1) ![]) (ht : (Sh2 J 1).Transposes [1, 0] (Sh2 1 J))
  (hb : (Sh2 1 J).BroadcastsInDim (Sh2 K J) ![0, 1])

def meanT (o : FVec Ideal (Sh2 JJ 1) .f32) : FVec Ideal (Sh2 J 1) .f32 :=
  Host.divf (F := Ideal) (Host.reduceAdd (F := Ideal) (shapeCast (ShH J) o hsc) (constant (F := Ideal) Sh0 .f32 0x00000000#32) hrt hu)
    (broadcastInDim (Sh2 J 1) ![] hb0 (constant (F := Ideal) Sh0 .f32 0x49800000#32))

def scaleT (o0 o1 : FVec Ideal (Sh2 JJ 1) .f32) (vb vg : FVec Ideal (Sh2 J 1) .f32) : FVec Ideal (Sh2 J 1) .f32 :=
  mulf vg (Host.rsqrt (F := Ideal) (addf (maximumf
    (subf (meanT hsc hrt hu hb0 o1) (mulf (subf (meanT hsc hrt hu hb0 o0) vb) (subf (meanT hsc hrt hu hb0 o0) vb)))
    (broadcastInDim (Sh2 J 1) ![] hb0 (constant (F := Ideal) Sh0 .f32 0x00000000#32)))
    (broadcastInDim (Sh2 J 1) ![] hb0 (constant (F := Ideal) Sh0 .f32 0x3727C5AC#32))))

def WeT (o0 o1 : FVec Ideal (Sh2 JJ 1) .f32) (vb vg : FVec Ideal (Sh2 J 1) .f32) (W : FVec Ideal (Sh2 K J) .f32) :
    FVec Ideal (Sh2 K J) .f32 :=
  mulf W (broadcastInDim (Sh2 K J) ![0, 1] hb (transpose (Sh2 1 J) [1, 0] (scaleT hsc hrt hu hb0 o0 o1 vb vg) ht))

def beT (o0 o1 : FVec Ideal (Sh2 JJ 1) .f32) (vb vg vbt : FVec Ideal (Sh2 J 1) .f32) : FVec Ideal (Sh2 J 1) .f32 :=
  addf (mulf vb (scaleT hsc hrt hu hb0 o0 o1 vb vg)) (subf vbt (mulf (meanT hsc hrt hu hb0 o0) (scaleT hsc hrt hu hb0 o0 o1 vb vg)))

variable (hJJ : JJ = 2 * J) (hr : (ShH J).Reduces [0] (Sh2 J 1))
  (o0 o1 : FVec Ideal (Sh2 JJ 1) .f32) (vb vg vbt : FVec Ideal (Sh2 J 1) .f32) (W : FVec Ideal (Sh2 K J) .f32)
  (S Q : Fin 2 → Fin J → EReal)

include hJJ hr in

theorem meanT_apply (o : FVec Ideal (Sh2 JJ 1) .f32) (S : Fin 2 → Fin J → EReal)
    (hS : ∀ (c' : Fin 2) (j : Fin J) (hlt : c'.val * J + j.val < JJ), o (ix2 ⟨c'.val * J + j.val, hlt⟩ (0 : Fin 1)) = S c' j)
    (j : Fin J) :
    meanT hsc hrt hu hb0 o (ix2 j (0 : Fin 1)) = meanK cntE (fun j => S 0 j + S 1 j) j := by
  show Ideal.div (Host.reduceAdd (F := Ideal) (shapeCast (ShH J) o hsc) (constant (F := Ideal) Sh0 .f32 0x00000000#32) hrt hu (ix2 j (0 : Fin 1)))
      (Ideal.ofBits .f32 0x49800000#32) = Ideal.div (S 0 j + S 1 j) cntE
  rw [reduce_halves_apply hJJ o hsc hrt hr hu S hS j, ofBits_cnt]

include hJJ hr in

theorem scaleT_apply
    (hS : ∀ (c' : Fin 2) (j : Fin J) (hlt : c'.val * J + j.val < JJ), o0 (ix2 ⟨c'.val * J + j.val, hlt⟩ (0 : Fin 1)) = S c' j)
    (hQ : ∀ (c' : Fin 2) (j : Fin J) (hlt : c'.val * J + j.val < JJ), o1 (ix2 ⟨c'.val * J + j.val, hlt⟩ (0 : Fin 1)) = Q c' j)
    (j : Fin J) :
    scaleT hsc hrt hu hb0 o0 o1 vb vg (ix2 j (0 : Fin 1))
      = scaleK cntE epsE (fun j => S 0 j + S 1 j) (fun j => Q 0 j + Q 1 j) (col vb) (col vg) j := by
  show vg (ix2 j (0 : Fin 1)) * Ideal.rsqrt (max
      (meanT hsc hrt hu hb0 o1 (ix2 j (0 : Fin 1))
        - (meanT hsc hrt hu hb0 o0 (ix2 j (0 : Fin 1)) - vb (ix2 j (0 : Fin 1))) * (meanT hsc hrt hu hb0 o0 (ix2 j (0 : Fin 1)) - vb (ix2 j (0 : Fin 1))))
      (Ideal.ofBits .f32 0x00000000#32) + Ideal.ofBits .f32 0x3727C5AC#32) = _
  rw [meanT_apply hsc hrt hu hb0 hJJ hr o0 S hS j, meanT_apply hsc hrt hu hb0 hJJ hr o1 Q hQ j, Ideal.ofBits_zero_f32]
  rfl

include hJJ hr in

theorem WeT_eq
    (hS : ∀ (c' : Fin 2) (j : Fin J) (hlt : c'.val * J + j.val < JJ), o0 (ix2 ⟨c'.val * J + j.val, hlt⟩ (0 : Fin 1)) = S c' j)
    (hQ : ∀ (c' : Fin 2) (j : Fin J) (hlt : c'.val * J + j.val < JJ), o1 (ix2 ⟨c'.val * J + j.val, hlt⟩ (0 : Fin 1)) = Q c' j) :
    mat (WeT hsc hrt hu hb0 ht hb o0 o1 vb vg W)
      = WeK cntE epsE (mat W) (fun j => S 0 j + S 1 j) (fun j => Q 0 j + Q 1 j) (col vb) (col vg) := by
  funext k j
  show W (ix2 k j) * broadcastInDim (Sh2 K J) ![0, 1] hb (transpose (Sh2 1 J) [1, 0] (scaleT hsc hrt hu hb0 o0 o1 vb vg) ht) (ix2 k j) = _
  rw [bcast_transpose_apply, scaleT_apply hsc hrt hu hb0 hJJ hr o0 o1 vb vg S Q hS hQ j]
  rfl

include hJJ hr in

theorem beT_eq
    (hS : ∀ (c' : Fin 2) (j : Fin J) (hlt : c'.val * J + j.val < JJ), o0 (ix2 ⟨c'.val * J + j.val, hlt⟩ (0 : Fin 1)) = S c' j)
    (hQ : ∀ (c' : Fin 2) (j : Fin J) (hlt : c'.val * J + j.val < JJ), o1 (ix2 ⟨c'.val * J + j.val, hlt⟩ (0 : Fin 1)) = Q c' j) :
    col (beT hsc hrt hu hb0 o0 o1 vb vg vbt)
      = beK cntE epsE (fun j => S 0 j + S 1 j) (fun j => Q 0 j + Q 1 j) (col vb) (col vg) (col vbt) := by
  funext j
  show vb (ix2 j (0 : Fin 1)) * scaleT hsc hrt hu hb0 o0 o1 vb vg (ix2 j (0 : Fin 1))
      + (vbt (ix2 j (0 : Fin 1)) - meanT hsc hrt hu hb0 o0 (ix2 j (0 : Fin 1)) * scaleT hsc hrt hu hb0 o0 o1 vb vg (ix2 j (0 : Fin 1))) = _
  rw [scaleT_apply hsc hrt hu hb0 hJJ hr o0 o1 vb vg S Q hS hQ j, meanT_apply hsc hrt hu hb0 hJJ hr o0 S hS j]
  rfl

end Fold

end Cert.KernelIdeal.Hand

end
-- ==== Proof.KHost.lean ====
import proofs.«412578_j66537633349983_3_alg».proof.Proof.Gen.KernelIdeal.Regions
import proofs.«412578_j66537633349983_3_alg».proof.Proof.KArrays
import proofs.«412578_j66537633349983_3_alg».proof.Proof.KHostFold

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec

local macro "host_results" : tactic =>
  `(tactic| repeat (first
      | rw [StableHlo.nullary_result] | rw [StableHlo.unary_result] | rw [StableHlo.binary_result] | rw [StableHlo.reshape_result]
      | rw [StableHlo.nary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

section Ops0
variable (V : Valuation τ sig (Elt Ideal))

def argsI : Fin 8 → IVec S1048576 32 :=
  ![V (main_arg0 : DevRef τ sig), V (main_arg1 : DevRef τ sig), V (main_arg2 : DevRef τ sig), V (main_arg3 : DevRef τ sig),
    V (main_arg7 : DevRef τ sig), V (main_arg8 : DevRef τ sig), V (main_arg9 : DevRef τ sig), V (main_arg10 : DevRef τ sig)]

def argsF : Fin 6 → FVec Ideal S1048576 .f32 :=
  ![V (main_arg4 : DevRef τ sig), V (main_arg5 : DevRef τ sig), V (main_arg6 : DevRef τ sig),
    V (main_arg11 : DevRef τ sig), V (main_arg12 : DevRef τ sig), V (main_arg13 : DevRef τ sig)]

set_option maxHeartbeats 4000000 in

theorem ops0_v8 : StableHlo.after (hostOps0 (F := Ideal)) V (main_v8 : DevRef τ sig)
    = concatenate S8x1048576 0 (List.ofFn fun k : Fin 8 =>
        (⟨S1x1048576, broadcastInDim (s := S1048576) S1x1048576 ![1] bcast_S1048576_S1x1048576_1 (argsI V k)⟩ : (s : Shape) × (s.Idx → BitVec 32)))
        concatenates_S1x1048576_S1x1048576_S1x1048576_S1x1048576_S1x1048576_S1x1048576_S1x1048576_S1x1048576_S8x1048576_d0 := by
  after_results
  dsimp only [Matrix.cons_val]
  host_results
  rfl

set_option maxHeartbeats 4000000 in

theorem ops0_v15 : StableHlo.after (hostOps0 (F := Ideal)) V (main_v15 : DevRef τ sig)
    = concatenate S6x1048576 0 (List.ofFn fun k : Fin 6 =>
        (⟨S1x1048576, broadcastInDim (s := S1048576) S1x1048576 ![1] bcast_S1048576_S1x1048576_1 (argsF V k)⟩ : (s : Shape) × (s.Idx → Ideal .f32)))
        concatenates_S1x1048576_S1x1048576_S1x1048576_S1x1048576_S1x1048576_S1x1048576_S6x1048576_d0 := by
  after_results
  dsimp only [Matrix.cons_val]
  host_results
  rfl

theorem ops0_ints (r : Fin 8) (n : Fin NB) :
    StableHlo.after (hostOps0 (F := Ideal)) V (main_v8 : DevRef τ sig) (ix2 r n) = argsI V r (ix1 n) := by
  rw [ops0_v8]
  exact (stack_rows_apply (fun k : Fin 8 => broadcastInDim (s := S1048576) S1x1048576 ![1] bcast_S1048576_S1x1048576_1 (argsI V k)) _ r n).trans
    (row_bcast_apply (argsI V r) bcast_S1048576_S1x1048576_1 n)

theorem ops0_flts (r : Fin 6) (n : Fin NB) :
    StableHlo.after (hostOps0 (F := Ideal)) V (main_v15 : DevRef τ sig) (ix2 r n) = argsF V r (ix1 n) := by
  rw [ops0_v15]
  exact (stack_rows_apply (fun k : Fin 6 => broadcastInDim (s := S1048576) S1x1048576 ![1] bcast_S1048576_S1x1048576_1 (argsF V k)) _ r n).trans
    (row_bcast_apply (argsF V r) bcast_S1048576_S1x1048576_1 n)

theorem ops0_col16 (j : Fin 128) :
    StableHlo.after (hostOps0 (F := Ideal)) V (main_v16 : DevRef τ sig) (ix2 j (0 : Fin 1)) = V (main_arg17 : DevRef τ sig) (ix1 j) := by
  have e : StableHlo.after (hostOps0 (F := Ideal)) V (main_v16 : DevRef τ sig)
      = shapeCast S128x1 (V (main_arg17 : DevRef τ sig)) shapeCasts_S128_S128x1 := by
    after_results
    rfl
  rw [e]
  exact col_reshape_apply _ _ j
theorem ops0_col17 (j : Fin 64) :
    StableHlo.after (hostOps0 (F := Ideal)) V (main_v17 : DevRef τ sig) (ix2 j (0 : Fin 1)) = V (main_arg21 : DevRef τ sig) (ix1 j) := by
  have e : StableHlo.after (hostOps0 (F := Ideal)) V (main_v17 : DevRef τ sig)
      = shapeCast S64x1 (V (main_arg21 : DevRef τ sig)) shapeCasts_S64_S64x1 := by
    after_results
    rfl
  rw [e]
  exact col_reshape_apply _ _ j
theorem ops0_col18 (j : Fin 32) :
    StableHlo.after (hostOps0 (F := Ideal)) V (main_v18 : DevRef τ sig) (ix2 j (0 : Fin 1)) = V (main_arg25 : DevRef τ sig) (ix1 j) := by
  have e : StableHlo.after (hostOps0 (F := Ideal)) V (main_v18 : DevRef τ sig)
      = shapeCast S32x1 (V (main_arg25 : DevRef τ sig)) shapeCasts_S32_S32x1 := by
    after_results
    rfl
  rw [e]
  exact col_reshape_apply _ _ j
theorem ops0_col19 (j : Fin 1) :
    StableHlo.after (hostOps0 (F := Ideal)) V (main_v19 : DevRef τ sig) (ix2 j (0 : Fin 1)) = V (main_arg29 : DevRef τ sig) (ix1 j) := by
  have e : StableHlo.after (hostOps0 (F := Ideal)) V (main_v19 : DevRef τ sig)
      = shapeCast S1x1 (V (main_arg29 : DevRef τ sig)) shapeCasts_S1_S1x1 := by
    after_results
    rfl
  rw [e]
  exact col_reshape_apply _ _ j
theorem ops0_col20 (j : Fin 128) :
    StableHlo.after (hostOps0 (F := Ideal)) V (main_v20 : DevRef τ sig) (ix2 j (0 : Fin 1)) = V (main_arg18 : DevRef τ sig) (ix1 j) := by
  have e : StableHlo.after (hostOps0 (F := Ideal)) V (main_v20 : DevRef τ sig)
      = shapeCast S128x1 (V (main_arg18 : DevRef τ sig)) shapeCasts_S128_S128x1 := by
    after_results
    rfl
  rw [e]
  exact col_reshape_apply _ _ j
theorem ops0_col21 (j : Fin 128) :
    StableHlo.after (hostOps0 (F := Ideal)) V (main_v21 : DevRef τ sig) (ix2 j (0 : Fin 1)) = V (main_arg19 : DevRef τ sig) (ix1 j) := by
  have e : StableHlo.after (hostOps0 (F := Ideal)) V (main_v21 : DevRef τ sig)
      = shapeCast S128x1 (V (main_arg19 : DevRef τ sig)) shapeCasts_S128_S128x1 := by
    after_results
    rfl
  rw [e]
  exact col_reshape_apply _ _ j
theorem ops0_col22 (j : Fin 64) :
    StableHlo.after (hostOps0 (F := Ideal)) V (main_v22 : DevRef τ sig) (ix2 j (0 : Fin 1)) = V (main_arg22 : DevRef τ sig) (ix1 j) := by
  have e : StableHlo.after (hostOps0 (F := Ideal)) V (main_v22 : DevRef τ sig)
      = shapeCast S64x1 (V (main_arg22 : DevRef τ sig)) shapeCasts_S64_S64x1 := by
    after_results
    rfl
  rw [e]
  exact col_reshape_apply _ _ j
theorem ops0_col23 (j : Fin 64) :
    StableHlo.after (hostOps0 (F := Ideal)) V (main_v23 : DevRef τ sig) (ix2 j (0 : Fin 1)) = V (main_arg23 : DevRef τ sig) (ix1 j) := by
  have e : StableHlo.after (hostOps0 (F := Ideal)) V (main_v23 : DevRef τ sig)
      = shapeCast S64x1 (V (main_arg23 : DevRef τ sig)) shapeCasts_S64_S64x1 := by
    after_results
    rfl
  rw [e]
  exact col_reshape_apply _ _ j
theorem ops0_col24 (j : Fin 32) :
    StableHlo.after (hostOps0 (F := Ideal)) V (main_v24 : DevRef τ sig) (ix2 j (0 : Fin 1)) = V (main_arg26 : DevRef τ sig) (ix1 j) := by
  have e : StableHlo.after (hostOps0 (F := Ideal)) V (main_v24 : DevRef τ sig)
      = shapeCast S32x1 (V (main_arg26 : DevRef τ sig)) shapeCasts_S32_S32x1 := by
    after_results
    rfl
  rw [e]
  exact col_reshape_apply _ _ j
theorem ops0_col25 (j : Fin 32) :
    StableHlo.after (hostOps0 (F := Ideal)) V (main_v25 : DevRef τ sig) (ix2 j (0 : Fin 1)) = V (main_arg27 : DevRef τ sig) (ix1 j) := by
  have e : StableHlo.after (hostOps0 (F := Ideal)) V (main_v25 : DevRef τ sig)
      = shapeCast S32x1 (V (main_arg27 : DevRef τ sig)) shapeCasts_S32_S32x1 := by
    after_results
    rfl
  rw [e]
  exact col_reshape_apply _ _ j

end Ops0

variable (m : (ℓ : Loc nD τ sig) → Buf (Elt Ideal) ℓ) (outs : Outs (F := Ideal)) (c : Dev nD)

theorem Xst_V1 : Xst (V1 m c main_v8) (V1 m c main_v15) (V1 m c main_arg14) (V1 m c main_arg15)
    = XK (inpOf (arraysOfK m c)) :=
  Xst_of_rows _ _ _ _ (arraysOfK m c) (fun r n => ops0_ints (V0 m c) r n) (fun r n => ops0_flts (V0 m c) r n)
    (V1_of m c main_arg14 (by decide)) (V1_of m c main_arg15 (by decide))

theorem col_V1_b1 : col (V1 m c main_v16) = (inpOf (arraysOfK m c)).b1 :=
  funext fun j => ops0_col16 (V0 m c) j
theorem col_V1_b2 : col (V1 m c main_v17) = (inpOf (arraysOfK m c)).b2 :=
  funext fun j => ops0_col17 (V0 m c) j
theorem col_V1_b3 : col (V1 m c main_v18) = (inpOf (arraysOfK m c)).b3 :=
  funext fun j => ops0_col18 (V0 m c) j

theorem V1_b4 : V1 m c main_v19 (ix2 (0 : Fin 1) (0 : Fin 1)) = (inpOf (arraysOfK m c)).b4 :=
  ops0_col19 (V0 m c) 0
theorem col_V1_g1 : col (V1 m c main_v20) = (inpOf (arraysOfK m c)).g1 :=
  funext fun j => ops0_col20 (V0 m c) j
theorem col_V1_bt1 : col (V1 m c main_v21) = (inpOf (arraysOfK m c)).bt1 :=
  funext fun j => ops0_col21 (V0 m c) j
theorem col_V1_g2 : col (V1 m c main_v22) = (inpOf (arraysOfK m c)).g2 :=
  funext fun j => ops0_col22 (V0 m c) j
theorem col_V1_bt2 : col (V1 m c main_v23) = (inpOf (arraysOfK m c)).bt2 :=
  funext fun j => ops0_col23 (V0 m c) j
theorem col_V1_g3 : col (V1 m c main_v24) = (inpOf (arraysOfK m c)).g3 :=
  funext fun j => ops0_col24 (V0 m c) j
theorem col_V1_bt3 : col (V1 m c main_v25) = (inpOf (arraysOfK m c)).bt3 :=
  funext fun j => ops0_col25 (V0 m c) j

theorem V2_v26_0 : V2 m outs c main_v26_0 = outs 2 main_v26_0 c :=
  (Function.update_of_ne (StableHlo.devRef_ne_of_ne (by decide)) ..).trans (Function.update_self ..)
theorem V2_v26_1 : V2 m outs c main_v26_1 = outs 2 main_v26_1 c := Function.update_self ..
theorem V4_v51_0 : V4 m outs c main_v51_0 = outs 4 main_v51_0 c :=
  (Function.update_of_ne (StableHlo.devRef_ne_of_ne (by decide)) ..).trans (Function.update_self ..)
theorem V4_v51_1 : V4 m outs c main_v51_1 = outs 4 main_v51_1 c := Function.update_self ..
theorem V6_v76_0 : V6 m outs c main_v76_0 = outs 6 main_v76_0 c :=
  (Function.update_of_ne (StableHlo.devRef_ne_of_ne (by decide)) ..).trans (Function.update_self ..)
theorem V6_v76_1 : V6 m outs c main_v76_1 = outs 6 main_v76_1 c := Function.update_self ..
theorem V8_v101 : V8 m outs c main_v101 = outs 8 main_v101 c := Function.update_self ..

section Ops1
variable (V : Valuation τ sig (Elt Ideal))

set_option maxHeartbeats 40000000 in

theorem ops1_We : StableHlo.after (hostOps1 (F := Ideal)) V (main_v48 : DevRef τ sig)
    = WeT (J := 128) (K := 50) (JJ := 256) shapeCasts_S256x1_S2x128x1 reducesTo_S2x128x1_S128x1_d0 h_S_ bcast_S_S128x1 transposes_S128x1_S1x128_1_0 bcast_S1x128_S50x128_0_1
        (V (main_v26_0 : DevRef τ sig)) (V (main_v26_1 : DevRef τ sig)) (V (main_v16 : DevRef τ sig)) (V (main_v20 : DevRef τ sig)) (V (main_arg16 : DevRef τ sig)) := by
  after_results_simp
  rfl

set_option maxHeartbeats 40000000 in

theorem ops1_be : StableHlo.after (hostOps1 (F := Ideal)) V (main_v50 : DevRef τ sig)
    = beT (J := 128) (JJ := 256) shapeCasts_S256x1_S2x128x1 reducesTo_S2x128x1_S128x1_d0 h_S_ bcast_S_S128x1
        (V (main_v26_0 : DevRef τ sig)) (V (main_v26_1 : DevRef τ sig)) (V (main_v16 : DevRef τ sig)) (V (main_v20 : DevRef τ sig)) (V (main_v21 : DevRef τ sig)) := by
  after_results_simp
  rfl

end Ops1

theorem V2_b1 : col (V2 m outs c main_v16) = (inpOf (arraysOfK m c)).b1 := by
  rw [(V2_of m outs c main_v16 (by decide))]
  exact col_V1_b1 m c
theorem V2_g1 : col (V2 m outs c main_v20) = (inpOf (arraysOfK m c)).g1 := by
  rw [(V2_of m outs c main_v20 (by decide))]
  exact col_V1_g1 m c
theorem V2_bt1 : col (V2 m outs c main_v21) = (inpOf (arraysOfK m c)).bt1 := by
  rw [(V2_of m outs c main_v21 (by decide))]
  exact col_V1_bt1 m c
theorem V2_W1 : mat (V2 m outs c main_arg16) = (inpOf (arraysOfK m c)).W1 := by
  rw [(V2_of m outs c main_arg16 (by decide)).trans (V1_of m c main_arg16 (by decide))]
  rfl

theorem V3_We (S Q : Fin 2 → Fin 128 → EReal)
    (hS : ∀ (c' : Fin 2) (j : Fin 128), V2 m outs c main_v26_0
      (ix2 (⟨c'.val * 128 + j.val, by have := c'.isLt; have := j.isLt; omega⟩ : Fin 256) (0 : Fin 1)) = S c' j)
    (hQ : ∀ (c' : Fin 2) (j : Fin 128), V2 m outs c main_v26_1
      (ix2 (⟨c'.val * 128 + j.val, by have := c'.isLt; have := j.isLt; omega⟩ : Fin 256) (0 : Fin 1)) = Q c' j) :
    mat (V3 m outs c main_v48) = WeK cntE epsE (inpOf (arraysOfK m c)).W1 (fun j => S 0 j + S 1 j) (fun j => Q 0 j + Q 1 j)
      (inpOf (arraysOfK m c)).b1 (inpOf (arraysOfK m c)).g1 := by
  have key := WeT_eq (J := 128) (K := 50) (JJ := 256) shapeCasts_S256x1_S2x128x1 reducesTo_S2x128x1_S128x1_d0 h_S_ bcast_S_S128x1 transposes_S128x1_S1x128_1_0 bcast_S1x128_S50x128_0_1 (by omega) (by decide)
    (V2 m outs c main_v26_0) (V2 m outs c main_v26_1) (V2 m outs c main_v16) (V2 m outs c main_v20) (V2 m outs c main_arg16) S Q
    (fun c' j _ => hS c' j) (fun c' j _ => hQ c' j)
  rw [V2_W1, V2_b1, V2_g1] at key
  exact (congrArg (mat (a := 50) (b := 128)) (ops1_We (V2 m outs c))).trans key

theorem V3_be (S Q : Fin 2 → Fin 128 → EReal)
    (hS : ∀ (c' : Fin 2) (j : Fin 128), V2 m outs c main_v26_0
      (ix2 (⟨c'.val * 128 + j.val, by have := c'.isLt; have := j.isLt; omega⟩ : Fin 256) (0 : Fin 1)) = S c' j)
    (hQ : ∀ (c' : Fin 2) (j : Fin 128), V2 m outs c main_v26_1
      (ix2 (⟨c'.val * 128 + j.val, by have := c'.isLt; have := j.isLt; omega⟩ : Fin 256) (0 : Fin 1)) = Q c' j) :
    col (V3 m outs c main_v50) = beK cntE epsE (fun j => S 0 j + S 1 j) (fun j => Q 0 j + Q 1 j)
      (inpOf (arraysOfK m c)).b1 (inpOf (arraysOfK m c)).g1 (inpOf (arraysOfK m c)).bt1 := by
  have key := beT_eq (J := 128) (JJ := 256) shapeCasts_S256x1_S2x128x1 reducesTo_S2x128x1_S128x1_d0 h_S_ bcast_S_S128x1 (by omega) (by decide)
    (V2 m outs c main_v26_0) (V2 m outs c main_v26_1) (V2 m outs c main_v16) (V2 m outs c main_v20) (V2 m outs c main_v21) S Q
    (fun c' j _ => hS c' j) (fun c' j _ => hQ c' j)
  rw [V2_b1, V2_g1, V2_bt1] at key
  exact (congrArg (col (a := 128)) (ops1_be (V2 m outs c))).trans key

section Ops2
variable (V : Valuation τ sig (Elt Ideal))

set_option maxHeartbeats 40000000 in

theorem ops2_We : StableHlo.after (hostOps2 (F := Ideal)) V (main_v73 : DevRef τ sig)
    = WeT (J := 64) (K := 128) (JJ := 128) shapeCasts_S128x1_S2x64x1 reducesTo_S2x64x1_S64x1_d0 h_S_ bcast_S_S64x1 transposes_S64x1_S1x64_1_0 bcast_S1x64_S128x64_0_1
        (V (main_v51_0 : DevRef τ sig)) (V (main_v51_1 : DevRef τ sig)) (V (main_v17 : DevRef τ sig)) (V (main_v22 : DevRef τ sig)) (V (main_arg20 : DevRef τ sig)) := by
  after_results_simp
  rfl

set_option maxHeartbeats 40000000 in

theorem ops2_be : StableHlo.after (hostOps2 (F := Ideal)) V (main_v75 : DevRef τ sig)
    = beT (J := 64) (JJ := 128) shapeCasts_S128x1_S2x64x1 reducesTo_S2x64x1_S64x1_d0 h_S_ bcast_S_S64x1
        (V (main_v51_0 : DevRef τ sig)) (V (main_v51_1 : DevRef τ sig)) (V (main_v17 : DevRef τ sig)) (V (main_v22 : DevRef τ sig)) (V (main_v23 : DevRef τ sig)) := by
  after_results_simp
  rfl

end Ops2

theorem V4_b2 : col (V4 m outs c main_v17) = (inpOf (arraysOfK m c)).b2 := by
  rw [(V4_of m outs c main_v17 (by decide)).trans ((V3_of m outs c main_v17 (by decide)).trans (V2_of m outs c main_v17 (by decide)))]
  exact col_V1_b2 m c
theorem V4_g2 : col (V4 m outs c main_v22) = (inpOf (arraysOfK m c)).g2 := by
  rw [(V4_of m outs c main_v22 (by decide)).trans ((V3_of m outs c main_v22 (by decide)).trans (V2_of m outs c main_v22 (by decide)))]
  exact col_V1_g2 m c
theorem V4_bt2 : col (V4 m outs c main_v23) = (inpOf (arraysOfK m c)).bt2 := by
  rw [(V4_of m outs c main_v23 (by decide)).trans ((V3_of m outs c main_v23 (by decide)).trans (V2_of m outs c main_v23 (by decide)))]
  exact col_V1_bt2 m c
theorem V4_W2 : mat (V4 m outs c main_arg20) = (inpOf (arraysOfK m c)).W2 := by
  rw [(V4_of m outs c main_arg20 (by decide)).trans ((V3_of m outs c main_arg20 (by decide)).trans ((V2_of m outs c main_arg20 (by decide)).trans (V1_of m c main_arg20 (by decide))))]
  rfl

theorem V5_We (S Q : Fin 2 → Fin 64 → EReal)
    (hS : ∀ (c' : Fin 2) (j : Fin 64), V4 m outs c main_v51_0
      (ix2 (⟨c'.val * 64 + j.val, by have := c'.isLt; have := j.isLt; omega⟩ : Fin 128) (0 : Fin 1)) = S c' j)
    (hQ : ∀ (c' : Fin 2) (j : Fin 64), V4 m outs c main_v51_1
      (ix2 (⟨c'.val * 64 + j.val, by have := c'.isLt; have := j.isLt; omega⟩ : Fin 128) (0 : Fin 1)) = Q c' j) :
    mat (V5 m outs c main_v73) = WeK cntE epsE (inpOf (arraysOfK m c)).W2 (fun j => S 0 j + S 1 j) (fun j => Q 0 j + Q 1 j)
      (inpOf (arraysOfK m c)).b2 (inpOf (arraysOfK m c)).g2 := by
  have key := WeT_eq (J := 64) (K := 128) (JJ := 128) shapeCasts_S128x1_S2x64x1 reducesTo_S2x64x1_S64x1_d0 h_S_ bcast_S_S64x1 transposes_S64x1_S1x64_1_0 bcast_S1x64_S128x64_0_1 (by omega) (by decide)
    (V4 m outs c main_v51_0) (V4 m outs c main_v51_1) (V4 m outs c main_v17) (V4 m outs c main_v22) (V4 m outs c main_arg20) S Q
    (fun c' j _ => hS c' j) (fun c' j _ => hQ c' j)
  rw [V4_W2, V4_b2, V4_g2] at key
  exact (congrArg (mat (a := 128) (b := 64)) (ops2_We (V4 m outs c))).trans key

theorem V5_be (S Q : Fin 2 → Fin 64 → EReal)
    (hS : ∀ (c' : Fin 2) (j : Fin 64), V4 m outs c main_v51_0
      (ix2 (⟨c'.val * 64 + j.val, by have := c'.isLt; have := j.isLt; omega⟩ : Fin 128) (0 : Fin 1)) = S c' j)
    (hQ : ∀ (c' : Fin 2) (j : Fin 64), V4 m outs c main_v51_1
      (ix2 (⟨c'.val * 64 + j.val, by have := c'.isLt; have := j.isLt; omega⟩ : Fin 128) (0 : Fin 1)) = Q c' j) :
    col (V5 m outs c main_v75) = beK cntE epsE (fun j => S 0 j + S 1 j) (fun j => Q 0 j + Q 1 j)
      (inpOf (arraysOfK m c)).b2 (inpOf (arraysOfK m c)).g2 (inpOf (arraysOfK m c)).bt2 := by
  have key := beT_eq (J := 64) (JJ := 128) shapeCasts_S128x1_S2x64x1 reducesTo_S2x64x1_S64x1_d0 h_S_ bcast_S_S64x1 (by omega) (by decide)
    (V4 m outs c main_v51_0) (V4 m outs c main_v51_1) (V4 m outs c main_v17) (V4 m outs c main_v22) (V4 m outs c main_v23) S Q
    (fun c' j _ => hS c' j) (fun c' j _ => hQ c' j)
  rw [V4_b2, V4_g2, V4_bt2] at key
  exact (congrArg (col (a := 64)) (ops2_be (V4 m outs c))).trans key

section Ops3
variable (V : Valuation τ sig (Elt Ideal))

set_option maxHeartbeats 40000000 in

theorem ops3_We : StableHlo.after (hostOps3 (F := Ideal)) V (main_v98 : DevRef τ sig)
    = WeT (J := 32) (K := 64) (JJ := 64) shapeCasts_S64x1_S2x32x1 reducesTo_S2x32x1_S32x1_d0 h_S_ bcast_S_S32x1 transposes_S32x1_S1x32_1_0 bcast_S1x32_S64x32_0_1
        (V (main_v76_0 : DevRef τ sig)) (V (main_v76_1 : DevRef τ sig)) (V (main_v18 : DevRef τ sig)) (V (main_v24 : DevRef τ sig)) (V (main_arg24 : DevRef τ sig)) := by
  after_results_simp
  rfl

set_option maxHeartbeats 40000000 in

theorem ops3_be : StableHlo.after (hostOps3 (F := Ideal)) V (main_v100 : DevRef τ sig)
    = beT (J := 32) (JJ := 64) shapeCasts_S64x1_S2x32x1 reducesTo_S2x32x1_S32x1_d0 h_S_ bcast_S_S32x1
        (V (main_v76_0 : DevRef τ sig)) (V (main_v76_1 : DevRef τ sig)) (V (main_v18 : DevRef τ sig)) (V (main_v24 : DevRef τ sig)) (V (main_v25 : DevRef τ sig)) := by
  after_results_simp
  rfl

end Ops3

theorem V6_b3 : col (V6 m outs c main_v18) = (inpOf (arraysOfK m c)).b3 := by
  rw [(V6_of m outs c main_v18 (by decide)).trans ((V5_of m outs c main_v18 (by decide)).trans ((V4_of m outs c main_v18 (by decide)).trans ((V3_of m outs c main_v18 (by decide)).trans (V2_of m outs c main_v18 (by decide)))))]
  exact col_V1_b3 m c
theorem V6_g3 : col (V6 m outs c main_v24) = (inpOf (arraysOfK m c)).g3 := by
  rw [(V6_of m outs c main_v24 (by decide)).trans ((V5_of m outs c main_v24 (by decide)).trans ((V4_of m outs c main_v24 (by decide)).trans ((V3_of m outs c main_v24 (by decide)).trans (V2_of m outs c main_v24 (by decide)))))]
  exact col_V1_g3 m c
theorem V6_bt3 : col (V6 m outs c main_v25) = (inpOf (arraysOfK m c)).bt3 := by
  rw [(V6_of m outs c main_v25 (by decide)).trans ((V5_of m outs c main_v25 (by decide)).trans ((V4_of m outs c main_v25 (by decide)).trans ((V3_of m outs c main_v25 (by decide)).trans (V2_of m outs c main_v25 (by decide)))))]
  exact col_V1_bt3 m c
theorem V6_W3 : mat (V6 m outs c main_arg24) = (inpOf (arraysOfK m c)).W3 := by
  rw [(V6_of m outs c main_arg24 (by decide)).trans ((V5_of m outs c main_arg24 (by decide)).trans ((V4_of m outs c main_arg24 (by decide)).trans ((V3_of m outs c main_arg24 (by decide)).trans ((V2_of m outs c main_arg24 (by decide)).trans (V1_of m c main_arg24 (by decide))))))]
  rfl

theorem V7_We (S Q : Fin 2 → Fin 32 → EReal)
    (hS : ∀ (c' : Fin 2) (j : Fin 32), V6 m outs c main_v76_0
      (ix2 (⟨c'.val * 32 + j.val, by have := c'.isLt; have := j.isLt; omega⟩ : Fin 64) (0 : Fin 1)) = S c' j)
    (hQ : ∀ (c' : Fin 2) (j : Fin 32), V6 m outs c main_v76_1
      (ix2 (⟨c'.val * 32 + j.val, by have := c'.isLt; have := j.isLt; omega⟩ : Fin 64) (0 : Fin 1)) = Q c' j) :
    mat (V7 m outs c main_v98) = WeK cntE epsE (inpOf (arraysOfK m c)).W3 (fun j => S 0 j + S 1 j) (fun j => Q 0 j + Q 1 j)
      (inpOf (arraysOfK m c)).b3 (inpOf (arraysOfK m c)).g3 := by
  have key := WeT_eq (J := 32) (K := 64) (JJ := 64) shapeCasts_S64x1_S2x32x1 reducesTo_S2x32x1_S32x1_d0 h_S_ bcast_S_S32x1 transposes_S32x1_S1x32_1_0 bcast_S1x32_S64x32_0_1 (by omega) (by decide)
    (V6 m outs c main_v76_0) (V6 m outs c main_v76_1) (V6 m outs c main_v18) (V6 m outs c main_v24) (V6 m outs c main_arg24) S Q
    (fun c' j _ => hS c' j) (fun c' j _ => hQ c' j)
  rw [V6_W3, V6_b3, V6_g3] at key
  exact (congrArg (mat (a := 64) (b := 32)) (ops3_We (V6 m outs c))).trans key

theorem V7_be (S Q : Fin 2 → Fin 32 → EReal)
    (hS : ∀ (c' : Fin 2) (j : Fin 32), V6 m outs c main_v76_0
      (ix2 (⟨c'.val * 32 + j.val, by have := c'.isLt; have := j.isLt; omega⟩ : Fin 64) (0 : Fin 1)) = S c' j)
    (hQ : ∀ (c' : Fin 2) (j : Fin 32), V6 m outs c main_v76_1
      (ix2 (⟨c'.val * 32 + j.val, by have := c'.isLt; have := j.isLt; omega⟩ : Fin 64) (0 : Fin 1)) = Q c' j) :
    col (V7 m outs c main_v100) = beK cntE epsE (fun j => S 0 j + S 1 j) (fun j => Q 0 j + Q 1 j)
      (inpOf (arraysOfK m c)).b3 (inpOf (arraysOfK m c)).g3 (inpOf (arraysOfK m c)).bt3 := by
  have key := beT_eq (J := 32) (JJ := 64) shapeCasts_S64x1_S2x32x1 reducesTo_S2x32x1_S32x1_d0 h_S_ bcast_S_S32x1 (by omega) (by decide)
    (V6 m outs c main_v76_0) (V6 m outs c main_v76_1) (V6 m outs c main_v18) (V6 m outs c main_v24) (V6 m outs c main_v25) S Q
    (fun c' j _ => hS c' j) (fun c' j _ => hQ c' j)
  rw [V6_b3, V6_g3, V6_bt3] at key
  exact (congrArg (col (a := 32)) (ops3_be (V6 m outs c))).trans key

theorem ops4_out (V : Valuation τ sig (Elt Ideal)) : StableHlo.after (hostOps4 (F := Ideal)) V (main_v102 : DevRef τ sig)
    = shapeCast S1048576 (V (main_v101 : DevRef τ sig)) shapeCasts_S1x1048576_S1048576 := by
  after_results
  rfl

theorem V9_out (n : Fin NB) : V9 m outs c main_v102 (ix1 n) = V8 m outs c main_v101 (ix2 (0 : Fin 1) n) := by
  show StableHlo.after (hostOps4 (F := Ideal)) (V8 m outs c) (main_v102 : DevRef τ sig) (ix1 n) = _
  rw [ops4_out]
  exact row_flatten_apply _ _ n

end Cert.KernelIdeal.Hand

end
-- ==== Proof.KValue.lean ====
import proofs.«412578_j66537633349983_3_alg».proof.Proof.KRun
import proofs.«412578_j66537633349983_3_alg».proof.Proof.KArrays
import proofs.«412578_j66537633349983_3_alg».proof.Proof.MathModel
import proofs.«412578_j66537633349983_3_alg».proof.Proof.Reg0Val
import proofs.«412578_j66537633349983_3_alg».proof.Proof.Reg1Val
import proofs.«412578_j66537633349983_3_alg».proof.Proof.Reg2Val
import proofs.«412578_j66537633349983_3_alg».proof.Proof.Reg3Val
import proofs.«412578_j66537633349983_3_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec

abbrev Iof (m : (ℓ : Loc nD τ sig) → Buf (Elt Ideal) ℓ) (c : Dev nD) : Inp := inpOf (arraysOfK m c)

theorem halfSum_at {J : Nat} (g : Fin NB → Fin J → EReal) (c' a : Fin 2) (j b : Fin J)
    (ha : a.val = c'.val) (hb : b.val = j.val) :
    halfSum a (fun n => g n b) = halfSum c' (fun n => g n j) := by
  obtain rfl : a = c' := Fin.ext ha
  obtain rfl : b = j := Fin.ext hb
  rfl

theorem halves_sum {J : Nat} (g : Fin NB → Fin J → EReal) :
    (fun j => halfSum 0 (fun n => g n j) + halfSum 1 (fun n => g n j)) = sumK g := by
  funext j; exact halfSum_add (fun n => g n j)

theorem halves_sq {J : Nat} (g : Fin NB → Fin J → EReal) (b : Fin J → EReal) :
    (fun j => halfSum 0 (fun n => (g n j - b j) * (g n j - b j)) + halfSum 1 (fun n => (g n j - b j) * (g n j - b j)))
      = sqK g b := by
  funext j; exact halfSum_add (fun n => (g n j - b j) * (g n j - b j))

theorem fold_congr {α β γ : Type} (f : α → β → γ) {s s' : α} {q q' : β} (hs : s = s') (hq : q = q') : f s q = f s' q' := by
  subst hs; subst hq; rfl

section Stages
variable (V : (c : Dev nD) → (b : Ref sig .tc) → Buf (Elt Ideal) ((c : Thread nD τ).loc b)) (c : Dev nD) (I : Inp)

theorem sum0_of (hX : (Xst (V c main_v8) (V c main_v15) (V c main_arg14) (V c main_arg15)) = XK I) (hW : mat (V c main_arg16) = I.W1) (hb : col (V c main_v16) = I.b1) (c' : Fin 2) (j : Fin 128) :
    (dat0 V c).arrAt 6 cfg0.N (ix2 (⟨c'.val * 128 + j.val, by have := c'.isLt; have := j.isLt; omega⟩ : Fin 256) (0 : Fin 1)) = halfSum c' (fun n => h1K I n j) := by
  rw [reg0_sum V c, hX, hW, hb]
  exact halfSum_at (h1K I) c' _ j _ (by have := c'.isLt; have := j.isLt; show (c'.val * 128 + j.val) / 128 = c'.val; omega) (by have := c'.isLt; have := j.isLt; show (c'.val * 128 + j.val) % 128 = j.val; omega)

theorem sq0_of (hX : (Xst (V c main_v8) (V c main_v15) (V c main_arg14) (V c main_arg15)) = XK I) (hW : mat (V c main_arg16) = I.W1) (hb : col (V c main_v16) = I.b1) (c' : Fin 2) (j : Fin 128) :
    (dat0 V c).arrAt 7 cfg0.N (ix2 (⟨c'.val * 128 + j.val, by have := c'.isLt; have := j.isLt; omega⟩ : Fin 256) (0 : Fin 1)) = halfSum c' (fun n => (h1K I n j - I.b1 j) * (h1K I n j - I.b1 j)) := by
  rw [reg0_sq V c, hX, hW, hb]
  exact halfSum_at (fun n j => (h1K I n j - I.b1 j) * (h1K I n j - I.b1 j)) c' _ j _ (by have := c'.isLt; have := j.isLt; show (c'.val * 128 + j.val) / 128 = c'.val; omega) (by have := c'.isLt; have := j.isLt; show (c'.val * 128 + j.val) % 128 = j.val; omega)

theorem sum1_of (hX : (Xst (V c main_v8) (V c main_v15) (V c main_arg14) (V c main_arg15)) = XK I) (hW1 : mat (V c main_v48) = W1e I) (hb1 : col (V c main_v50) = b1e I) (hW : mat (V c main_arg20) = I.W2) (hb : col (V c main_v17) = I.b2) (c' : Fin 2) (j : Fin 64) :
    (dat1 V c).arrAt 8 cfg1.N (ix2 (⟨c'.val * 64 + j.val, by have := c'.isLt; have := j.isLt; omega⟩ : Fin 128) (0 : Fin 1)) = halfSum c' (fun n => h2K I n j) := by
  rw [reg1_sum V c, hX, hW1, hb1, hW, hb]
  exact halfSum_at (h2K I) c' _ j _ (by have := c'.isLt; have := j.isLt; show (c'.val * 64 + j.val) / 64 = c'.val; omega) (by have := c'.isLt; have := j.isLt; show (c'.val * 64 + j.val) % 64 = j.val; omega)

theorem sq1_of (hX : (Xst (V c main_v8) (V c main_v15) (V c main_arg14) (V c main_arg15)) = XK I) (hW1 : mat (V c main_v48) = W1e I) (hb1 : col (V c main_v50) = b1e I) (hW : mat (V c main_arg20) = I.W2) (hb : col (V c main_v17) = I.b2) (c' : Fin 2) (j : Fin 64) :
    (dat1 V c).arrAt 9 cfg1.N (ix2 (⟨c'.val * 64 + j.val, by have := c'.isLt; have := j.isLt; omega⟩ : Fin 128) (0 : Fin 1)) = halfSum c' (fun n => (h2K I n j - I.b2 j) * (h2K I n j - I.b2 j)) := by
  rw [reg1_sq V c, hX, hW1, hb1, hW, hb]
  exact halfSum_at (fun n j => (h2K I n j - I.b2 j) * (h2K I n j - I.b2 j)) c' _ j _ (by have := c'.isLt; have := j.isLt; show (c'.val * 64 + j.val) / 64 = c'.val; omega) (by have := c'.isLt; have := j.isLt; show (c'.val * 64 + j.val) % 64 = j.val; omega)

theorem sum2_of (hX : (Xst (V c main_v8) (V c main_v15) (V c main_arg14) (V c main_arg15)) = XK I) (hW1 : mat (V c main_v48) = W1e I) (hb1 : col (V c main_v50) = b1e I) (hW2 : mat (V c main_v73) = W2e I) (hb2 : col (V c main_v75) = b2e I) (hW : mat (V c main_arg24) = I.W3) (hb : col (V c main_v18) = I.b3) (c' : Fin 2) (j : Fin 32) :
    (dat2 V c).arrAt 10 cfg2.N (ix2 (⟨c'.val * 32 + j.val, by have := c'.isLt; have := j.isLt; omega⟩ : Fin 64) (0 : Fin 1)) = halfSum c' (fun n => h3K I n j) := by
  rw [reg2_sum V c, hX, hW1, hb1, hW2, hb2, hW, hb]
  exact halfSum_at (h3K I) c' _ j _ (by have := c'.isLt; have := j.isLt; show (c'.val * 32 + j.val) / 32 = c'.val; omega) (by have := c'.isLt; have := j.isLt; show (c'.val * 32 + j.val) % 32 = j.val; omega)

theorem sq2_of (hX : (Xst (V c main_v8) (V c main_v15) (V c main_arg14) (V c main_arg15)) = XK I) (hW1 : mat (V c main_v48) = W1e I) (hb1 : col (V c main_v50) = b1e I) (hW2 : mat (V c main_v73) = W2e I) (hb2 : col (V c main_v75) = b2e I) (hW : mat (V c main_arg24) = I.W3) (hb : col (V c main_v18) = I.b3) (c' : Fin 2) (j : Fin 32) :
    (dat2 V c).arrAt 11 cfg2.N (ix2 (⟨c'.val * 32 + j.val, by have := c'.isLt; have := j.isLt; omega⟩ : Fin 64) (0 : Fin 1)) = halfSum c' (fun n => (h3K I n j - I.b3 j) * (h3K I n j - I.b3 j)) := by
  rw [reg2_sq V c, hX, hW1, hb1, hW2, hb2, hW, hb]
  exact halfSum_at (fun n j => (h3K I n j - I.b3 j) * (h3K I n j - I.b3 j)) c' _ j _ (by have := c'.isLt; have := j.isLt; show (c'.val * 32 + j.val) / 32 = c'.val; omega) (by have := c'.isLt; have := j.isLt; show (c'.val * 32 + j.val) % 32 = j.val; omega)

theorem value3_of (hX : (Xst (V c main_v8) (V c main_v15) (V c main_arg14) (V c main_arg15)) = XK I) (hW1 : mat (V c main_v48) = W1e I) (hb1 : col (V c main_v50) = b1e I) (hW2 : mat (V c main_v73) = W2e I) (hb2 : col (V c main_v75) = b2e I) (hW3 : mat (V c main_v98) = W3e I) (hb3 : col (V c main_v100) = b3e I)
    (hW : col (V c main_arg28) = I.W4) (hb : (V c main_v19) (ix2 (0 : Fin 1) (0 : Fin 1)) = I.b4) (n : Fin 1048576) :
    (dat3 V c).arrAt 12 cfg3.N (ix2 (0 : Fin 1) n) = outK I n := by
  rw [reg3_value V c, hX, hW1, hb1, hW2, hb2, hW3, hb3, hW, hb]
  rfl

end Stages

section Chain
variable (m : (ℓ : Loc nD τ sig) → Buf (Elt Ideal) ℓ) (c : Dev nD)

theorem keepR1 (r : Ref sig .tc) (h : r ∉ hostOps0_W) : R1 m c r = m ((c.tc : Thread nD τ).loc r) :=
  (V1_of m c r h).trans rfl

theorem keepR3 (r : Ref sig .tc) (h2 : r ∉ ([main_v26_0, main_v26_1] : List (Ref sig .tc))) (h3 : r ∉ hostOps1_W) :
    R3 m c r = R1 m c r :=
  (congrFun (V3_eq m c).symm (r : DevRef τ sig)).trans ((V3_of m (outs m) c r h3).trans (V2_of m (outs m) c r h2))

theorem keepR5 (r : Ref sig .tc) (h4 : r ∉ ([main_v51_0, main_v51_1] : List (Ref sig .tc))) (h5 : r ∉ hostOps2_W) :
    R5 m c r = R3 m c r :=
  (congrFun (V5_eq m c).symm (r : DevRef τ sig)).trans ((V5_of m (outs m) c r h5).trans
    ((V4_of m (outs m) c r h4).trans (congrFun (V3_eq m c) (r : DevRef τ sig))))

theorem keepR7 (r : Ref sig .tc) (h6 : r ∉ ([main_v76_0, main_v76_1] : List (Ref sig .tc))) (h7 : r ∉ hostOps3_W) :
    R7 m c r = R5 m c r :=
  (congrFun (V7_eq m c).symm (r : DevRef τ sig)).trans ((V7_of m (outs m) c r h7).trans
    ((V6_of m (outs m) c r h6).trans (congrFun (V5_eq m c) (r : DevRef τ sig))))

theorem feat1 : Xst (R1 m c main_v8) (R1 m c main_v15) (R1 m c main_arg14) (R1 m c main_arg15) = XK (Iof m c) := Xst_V1 m c

theorem W1_at1 : mat (R1 m c main_arg16) = (Iof m c).W1 := by
  have h : R1 m c main_arg16 = m ((c.tc : Thread nD τ).loc main_arg16) := keepR1 m c main_arg16 (by decide)
  rw [h]; rfl
theorem b1_at1 : col (R1 m c main_v16) = (Iof m c).b1 := col_V1_b1 m c

theorem sum_after0 (c' : Fin 2) (j : Fin 128) :
    (V2 m (outs m) c main_v26_0 : FVec Ideal (Sh2 256 1) .f32) (ix2 (⟨c'.val * 128 + j.val, by have := c'.isLt; have := j.isLt; omega⟩ : Fin 256) (0 : Fin 1)) = halfSum c' (fun n => h1K (Iof m c) n j) := by
  have h : (V2 m (outs m) c main_v26_0 : FVec Ideal (Sh2 256 1) .f32) = (dat0 (R1 m) c).arrAt 6 cfg0.N := (hF0 m c 6).symm
  exact (congrFun h _).trans (sum0_of (R1 m) c (Iof m c) (feat1 m c) (W1_at1 m c) (b1_at1 m c) c' j)

theorem sq_after0 (c' : Fin 2) (j : Fin 128) :
    (V2 m (outs m) c main_v26_1 : FVec Ideal (Sh2 256 1) .f32) (ix2 (⟨c'.val * 128 + j.val, by have := c'.isLt; have := j.isLt; omega⟩ : Fin 256) (0 : Fin 1))
      = halfSum c' (fun n => (h1K (Iof m c) n j - (Iof m c).b1 j) * (h1K (Iof m c) n j - (Iof m c).b1 j)) := by
  have h : (V2 m (outs m) c main_v26_1 : FVec Ideal (Sh2 256 1) .f32) = (dat0 (R1 m) c).arrAt 7 cfg0.N := (hF0 m c 7).symm
  exact (congrFun h _).trans (sq0_of (R1 m) c (Iof m c) (feat1 m c) (W1_at1 m c) (b1_at1 m c) c' j)

theorem fold1 : mat (R3 m c main_v48) = W1e (Iof m c) ∧ col (R3 m c main_v50) = b1e (Iof m c) := by
  have hW := V3_We m (outs m) c (fun c' j => halfSum c' (fun n => h1K (Iof m c) n j))
    (fun c' j => halfSum c' (fun n => (h1K (Iof m c) n j - (Iof m c).b1 j) * (h1K (Iof m c) n j - (Iof m c).b1 j)))
    (sum_after0 m c) (sq_after0 m c)
  have hB := V3_be m (outs m) c (fun c' j => halfSum c' (fun n => h1K (Iof m c) n j))
    (fun c' j => halfSum c' (fun n => (h1K (Iof m c) n j - (Iof m c).b1 j) * (h1K (Iof m c) n j - (Iof m c).b1 j)))
    (sum_after0 m c) (sq_after0 m c)
  have hs := halves_sum (h1K (Iof m c))
  have hq := halves_sq (h1K (Iof m c)) (Iof m c).b1
  exact ⟨hW.trans (fold_congr (fun s q => WeK cntE epsE (Iof m c).W1 s q (Iof m c).b1 (Iof m c).g1) hs hq),
    hB.trans (fold_congr (fun s q => beK cntE epsE s q (Iof m c).b1 (Iof m c).g1 (Iof m c).bt1) hs hq)⟩

theorem feat3 : Xst (R3 m c main_v8) (R3 m c main_v15) (R3 m c main_arg14) (R3 m c main_arg15) = XK (Iof m c) := by
  rw [keepR3 m c main_v8 (by decide) (by decide), keepR3 m c main_v15 (by decide) (by decide), keepR3 m c main_arg14 (by decide) (by decide), keepR3 m c main_arg15 (by decide) (by decide)]
  exact feat1 m c

theorem W2_at3 : mat (R3 m c main_arg20) = (Iof m c).W2 := by
  have h : R3 m c main_arg20 = m ((c.tc : Thread nD τ).loc main_arg20) := (keepR3 m c main_arg20 (by decide) (by decide)).trans (keepR1 m c main_arg20 (by decide))
  rw [h]; rfl
theorem b2_at3 : col (R3 m c main_v17) = (Iof m c).b2 := by
  rw [keepR3 m c main_v17 (by decide) (by decide)]; exact col_V1_b2 m c

theorem sum_after1 (c' : Fin 2) (j : Fin 64) :
    (V4 m (outs m) c main_v51_0 : FVec Ideal (Sh2 128 1) .f32) (ix2 (⟨c'.val * 64 + j.val, by have := c'.isLt; have := j.isLt; omega⟩ : Fin 128) (0 : Fin 1)) = halfSum c' (fun n => h2K (Iof m c) n j) := by
  have h : (V4 m (outs m) c main_v51_0 : FVec Ideal (Sh2 128 1) .f32) = (dat1 (R3 m) c).arrAt 8 cfg1.N := (hF1 m c 8).symm
  exact (congrFun h _).trans (sum1_of (R3 m) c (Iof m c) (feat3 m c) (fold1 m c).1 (fold1 m c).2 (W2_at3 m c) (b2_at3 m c) c' j)

theorem sq_after1 (c' : Fin 2) (j : Fin 64) :
    (V4 m (outs m) c main_v51_1 : FVec Ideal (Sh2 128 1) .f32) (ix2 (⟨c'.val * 64 + j.val, by have := c'.isLt; have := j.isLt; omega⟩ : Fin 128) (0 : Fin 1))
      = halfSum c' (fun n => (h2K (Iof m c) n j - (Iof m c).b2 j) * (h2K (Iof m c) n j - (Iof m c).b2 j)) := by
  have h : (V4 m (outs m) c main_v51_1 : FVec Ideal (Sh2 128 1) .f32) = (dat1 (R3 m) c).arrAt 9 cfg1.N := (hF1 m c 9).symm
  exact (congrFun h _).trans (sq1_of (R3 m) c (Iof m c) (feat3 m c) (fold1 m c).1 (fold1 m c).2 (W2_at3 m c) (b2_at3 m c) c' j)

theorem fold2 : mat (R5 m c main_v73) = W2e (Iof m c) ∧ col (R5 m c main_v75) = b2e (Iof m c) := by
  have hW := V5_We m (outs m) c (fun c' j => halfSum c' (fun n => h2K (Iof m c) n j))
    (fun c' j => halfSum c' (fun n => (h2K (Iof m c) n j - (Iof m c).b2 j) * (h2K (Iof m c) n j - (Iof m c).b2 j)))
    (sum_after1 m c) (sq_after1 m c)
  have hB := V5_be m (outs m) c (fun c' j => halfSum c' (fun n => h2K (Iof m c) n j))
    (fun c' j => halfSum c' (fun n => (h2K (Iof m c) n j - (Iof m c).b2 j) * (h2K (Iof m c) n j - (Iof m c).b2 j)))
    (sum_after1 m c) (sq_after1 m c)
  have hs := halves_sum (h2K (Iof m c))
  have hq := halves_sq (h2K (Iof m c)) (Iof m c).b2
  exact ⟨hW.trans (fold_congr (fun s q => WeK cntE epsE (Iof m c).W2 s q (Iof m c).b2 (Iof m c).g2) hs hq),
    hB.trans (fold_congr (fun s q => beK cntE epsE s q (Iof m c).b2 (Iof m c).g2 (Iof m c).bt2) hs hq)⟩

theorem feat5 : Xst (R5 m c main_v8) (R5 m c main_v15) (R5 m c main_arg14) (R5 m c main_arg15) = XK (Iof m c) := by
  rw [keepR5 m c main_v8 (by decide) (by decide), keepR5 m c main_v15 (by decide) (by decide), keepR5 m c main_arg14 (by decide) (by decide), keepR5 m c main_arg15 (by decide) (by decide)]
  exact feat3 m c
theorem W1e_at5 : mat (R5 m c main_v48) = W1e (Iof m c) := by
  rw [keepR5 m c main_v48 (by decide) (by decide)]; exact (fold1 m c).1
theorem b1e_at5 : col (R5 m c main_v50) = b1e (Iof m c) := by
  rw [keepR5 m c main_v50 (by decide) (by decide)]; exact (fold1 m c).2

theorem W3_at5 : mat (R5 m c main_arg24) = (Iof m c).W3 := by
  have h : R5 m c main_arg24 = m ((c.tc : Thread nD τ).loc main_arg24) := (keepR5 m c main_arg24 (by decide) (by decide)).trans ((keepR3 m c main_arg24 (by decide) (by decide)).trans (keepR1 m c main_arg24 (by decide)))
  rw [h]; rfl
theorem b3_at5 : col (R5 m c main_v18) = (Iof m c).b3 := by
  rw [keepR5 m c main_v18 (by decide) (by decide), keepR3 m c main_v18 (by decide) (by decide)]; exact col_V1_b3 m c

theorem sum_after2 (c' : Fin 2) (j : Fin 32) :
    (V6 m (outs m) c main_v76_0 : FVec Ideal (Sh2 64 1) .f32) (ix2 (⟨c'.val * 32 + j.val, by have := c'.isLt; have := j.isLt; omega⟩ : Fin 64) (0 : Fin 1)) = halfSum c' (fun n => h3K (Iof m c) n j) := by
  have h : (V6 m (outs m) c main_v76_0 : FVec Ideal (Sh2 64 1) .f32) = (dat2 (R5 m) c).arrAt 10 cfg2.N := (hF2 m c 10).symm
  exact (congrFun h _).trans (sum2_of (R5 m) c (Iof m c) (feat5 m c) (W1e_at5 m c) (b1e_at5 m c) (fold2 m c).1 (fold2 m c).2 (W3_at5 m c) (b3_at5 m c) c' j)

theorem sq_after2 (c' : Fin 2) (j : Fin 32) :
    (V6 m (outs m) c main_v76_1 : FVec Ideal (Sh2 64 1) .f32) (ix2 (⟨c'.val * 32 + j.val, by have := c'.isLt; have := j.isLt; omega⟩ : Fin 64) (0 : Fin 1))
      = halfSum c' (fun n => (h3K (Iof m c) n j - (Iof m c).b3 j) * (h3K (Iof m c) n j - (Iof m c).b3 j)) := by
  have h : (V6 m (outs m) c main_v76_1 : FVec Ideal (Sh2 64 1) .f32) = (dat2 (R5 m) c).arrAt 11 cfg2.N := (hF2 m c 11).symm
  exact (congrFun h _).trans (sq2_of (R5 m) c (Iof m c) (feat5 m c) (W1e_at5 m c) (b1e_at5 m c) (fold2 m c).1 (fold2 m c).2 (W3_at5 m c) (b3_at5 m c) c' j)

theorem fold3 : mat (R7 m c main_v98) = W3e (Iof m c) ∧ col (R7 m c main_v100) = b3e (Iof m c) := by
  have hW := V7_We m (outs m) c (fun c' j => halfSum c' (fun n => h3K (Iof m c) n j))
    (fun c' j => halfSum c' (fun n => (h3K (Iof m c) n j - (Iof m c).b3 j) * (h3K (Iof m c) n j - (Iof m c).b3 j)))
    (sum_after2 m c) (sq_after2 m c)
  have hB := V7_be m (outs m) c (fun c' j => halfSum c' (fun n => h3K (Iof m c) n j))
    (fun c' j => halfSum c' (fun n => (h3K (Iof m c) n j - (Iof m c).b3 j) * (h3K (Iof m c) n j - (Iof m c).b3 j)))
    (sum_after2 m c) (sq_after2 m c)
  have hs := halves_sum (h3K (Iof m c))
  have hq := halves_sq (h3K (Iof m c)) (Iof m c).b3
  exact ⟨hW.trans (fold_congr (fun s q => WeK cntE epsE (Iof m c).W3 s q (Iof m c).b3 (Iof m c).g3) hs hq),
    hB.trans (fold_congr (fun s q => beK cntE epsE s q (Iof m c).b3 (Iof m c).g3 (Iof m c).bt3) hs hq)⟩

theorem feat7 : Xst (R7 m c main_v8) (R7 m c main_v15) (R7 m c main_arg14) (R7 m c main_arg15) = XK (Iof m c) := by
  rw [keepR7 m c main_v8 (by decide) (by decide), keepR7 m c main_v15 (by decide) (by decide), keepR7 m c main_arg14 (by decide) (by decide), keepR7 m c main_arg15 (by decide) (by decide)]
  exact feat5 m c
theorem W1e_at7 : mat (R7 m c main_v48) = W1e (Iof m c) := by
  rw [keepR7 m c main_v48 (by decide) (by decide)]; exact W1e_at5 m c
theorem b1e_at7 : col (R7 m c main_v50) = b1e (Iof m c) := by
  rw [keepR7 m c main_v50 (by decide) (by decide)]; exact b1e_at5 m c
theorem W2e_at7 : mat (R7 m c main_v73) = W2e (Iof m c) := by
  rw [keepR7 m c main_v73 (by decide) (by decide)]; exact (fold2 m c).1
theorem b2e_at7 : col (R7 m c main_v75) = b2e (Iof m c) := by
  rw [keepR7 m c main_v75 (by decide) (by decide)]; exact (fold2 m c).2

theorem W4_at7 : col (R7 m c main_arg28) = (Iof m c).W4 := by
  have h : R7 m c main_arg28 = m ((c.tc : Thread nD τ).loc main_arg28) := (keepR7 m c main_arg28 (by decide) (by decide)).trans ((keepR5 m c main_arg28 (by decide) (by decide)).trans ((keepR3 m c main_arg28 (by decide) (by decide)).trans (keepR1 m c main_arg28 (by decide))))
  rw [h]; rfl
theorem b4_at7 : (R7 m c main_v19) (ix2 (0 : Fin 1) (0 : Fin 1)) = (Iof m c).b4 := by
  rw [keepR7 m c main_v19 (by decide) (by decide), keepR5 m c main_v19 (by decide) (by decide), keepR3 m c main_v19 (by decide) (by decide)]; exact V1_b4 m c

theorem value_after3 (n : Fin 1048576) :
    (V8 m (outs m) c main_v101 : FVec Ideal (Sh2 1 1048576) .f32) (ix2 (0 : Fin 1) n) = outK (Iof m c) n := by
  have h : (V8 m (outs m) c main_v101 : FVec Ideal (Sh2 1 1048576) .f32) = (dat3 (R7 m) c).arrAt 12 cfg3.N := (hF3 m c 12).symm
  exact (congrFun h _).trans (value3_of (R7 m) c (Iof m c) (feat7 m c) (W1e_at7 m c) (b1e_at7 m c) (W2e_at7 m c) (b2e_at7 m c)
    (fold3 m c).1 (fold3 m c).2 (W4_at7 m c) (b4_at7 m c) n)

theorem kernel_result :
    (V9 m (outs m) c main_v102 : FVec Ideal (Cert.Spec.Sh1 1048576) .f32) = Cert.Spec.resK (arraysOfK m c) := by
  funext i
  obtain ⟨n, rfl⟩ : ∃ n : Fin 1048576, i = ix1 n := ⟨i 0, eq_ix1 i⟩
  exact (V9_out m (outs m) c n).trans (value_after3 m c n)

end Chain

end Cert.KernelIdeal.Hand

end
-- ==== Proof.RefRunHand.lean ====
import proofs.«412578_j66537633349983_3_alg».proof.Proof.RefStages
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

section NaryResults
variable {τ : Topo} {sig : RefSig} {Val : EltTy → Type} {x a b c e y : Ref sig .tc}

theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

theorem nary5_result'
    (f : ((k : Fin 5) → ((![x, a, b, c, e] : Fin 5 → Ref sig .tc) k).ty.Contents Val) → y.ty.Contents Val) (hxs hy)
    (G : Valuation τ sig Val) :
    (nary (τ := τ) ![x, a, b, c, e] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [nary_result]; congr 1; funext k; fin_cases k <;> rfl
end NaryResults

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff]
  exact List.mem_toFinset.mpr (List.mem_map.mpr ⟨y, hy, rfl⟩)

abbrev K1 : List (HloOp τ sig (Elt F)) :=
  [ nullary main_c (constantI S_ 32 0#32),
    unary main_c main_v0 (broadcastInDim S1048576 ![] bcast_S_S1048576 : (⟨S_, .i32⟩ : BufTy).Contents (Elt F) → (⟨S1048576, .i32⟩ : BufTy).Contents (Elt F)),
    binary main_arg0 main_v0 main_v1 (cmpi .slt : (⟨S1048576, .i32⟩ : BufTy).Contents (Elt F) → (⟨S1048576, .i32⟩ : BufTy).Contents (Elt F) → (⟨S1048576, .i1⟩ : BufTy).Contents (Elt F)),
    nullary main_c_0 (constantI S_ 32 15#32),
    unary main_c_0 main_v2 (broadcastInDim S1048576 ![] bcast_S_S1048576 : (⟨S_, .i32⟩ : BufTy).Contents (Elt F) → (⟨S1048576, .i32⟩ : BufTy).Contents (Elt F)),
    binary main_arg0 main_v2 main_v3 (addi : (⟨S1048576, .i32⟩ : BufTy).Contents (Elt F) → (⟨S1048576, .i32⟩ : BufTy).Contents (Elt F) → (⟨S1048576, .i32⟩ : BufTy).Contents (Elt F)),
    ternary main_v1 main_v3 main_arg0 main_v4 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v4 main_v5 (broadcastInDim S1048576x1 ![0] bcast_S1048576_S1048576x1_0 : (⟨S1048576, .i32⟩ : BufTy).Contents (Elt F) → (⟨S1048576x1, .i32⟩ : BufTy).Contents (Elt F)),
    binary main_arg14 main_v5 main_v6 ((fun x i => Host.gather gather_S15x8_S1048576x1_S1048576x8_1_0_n_n_0_1_18 x i) : (⟨S15x8, .f32⟩ : BufTy).Contents (Elt F) → (⟨S1048576x1, .i32⟩ : BufTy).Contents (Elt F) → (⟨S1048576x8, .f32⟩ : BufTy).Contents (Elt F)),
    nullary main_c_1 (constantI S_ 32 0#32),
    unary main_c_1 main_v7 (broadcastInDim S1048576 ![] bcast_S_S1048576 : (⟨S_, .i32⟩ : BufTy).Contents (Elt F) → (⟨S1048576, .i32⟩ : BufTy).Contents (Elt F)),
    binary main_arg3 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 9#32),
    unary main_c_2 main_v9 (broadcastInDim S1048576 ![] bcast_S_S1048576 : (⟨S_, .i32⟩ : BufTy).Contents (Elt F) → (⟨S1048576, .i32⟩ : BufTy).Contents (Elt F)),
    binary main_arg3 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_arg3 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    binary main_arg15 main_v12 main_v13 ((fun x i => Host.gather gather_S9x8_S1048576x1_S1048576x8_1_0_n_n_0_1_18 x i) : (⟨S9x8, .f32⟩ : BufTy).Contents (Elt F) → (⟨S1048576x1, .i32⟩ : BufTy).Contents (Elt F) → (⟨S1048576x8, .f32⟩ : BufTy).Contents (Elt F)),
    TRef.unary (TRef.of (T := ⟨S1048576, .i32⟩) main_arg1) (TRef.of (T := ⟨S1048576x1, .i32⟩) main_call0_v0) (broadcastInDim S1048576x1 ![0] bcast_S1048576_S1048576x1_0),
    TRef.nullary (TRef.of (T := ⟨S1x3, .i32⟩) main_call0_v1) (iotaInDim S1x3 32 1),
    TRef.unary (TRef.of (T := ⟨S1048576x1, .i32⟩) main_call0_v0) (TRef.of (T := ⟨S1048576x3, .i32⟩) main_call0_v2) (broadcastInDim S1048576x3 ![0, 1] bcast_S1048576x1_S1048576x3_0_1),
    TRef.unary (TRef.of (T := ⟨S1x3, .i32⟩) main_call0_v1) (TRef.of (T := ⟨S1048576x3, .i32⟩) main_call0_v3) (broadcastInDim S1048576x3 ![0, 1] bcast_S1x3_S1048576x3_0_1),
    TRef.binary (TRef.of (T := ⟨S1048576x3, .i32⟩) main_call0_v2) (TRef.of (T := ⟨S1048576x3, .i32⟩) main_call0_v3) (TRef.of (T := ⟨S1048576x3, .i1⟩) main_call0_v4) (cmpi .eq),
    TRef.unary (TRef.of (T := ⟨S1048576x3, .i1⟩) main_call0_v4) (TRef.of (T := ⟨S1048576x3, .f32⟩) main_v14) (uitofp .f32),
    TRef.unary (TRef.of (T := ⟨S1048576, .i32⟩) main_arg2) (TRef.of (T := ⟨S1048576x1, .i32⟩) main_call1_v0) (broadcastInDim S1048576x1 ![0] bcast_S1048576_S1048576x1_0),
    TRef.nullary (TRef.of (T := ⟨S1x3, .i32⟩) main_call1_v1) (iotaInDim S1x3 32 1),
    TRef.unary (TRef.of (T := ⟨S1048576x1, .i32⟩) main_call1_v0) (TRef.of (T := ⟨S1048576x3, .i32⟩) main_call1_v2) (broadcastInDim S1048576x3 ![0, 1] bcast_S1048576x1_S1048576x3_0_1),
    TRef.unary (TRef.of (T := ⟨S1x3, .i32⟩) main_call1_v1) (TRef.of (T := ⟨S1048576x3, .i32⟩) main_call1_v3) (broadcastInDim S1048576x3 ![0, 1] bcast_S1x3_S1048576x3_0_1),
    TRef.binary (TRef.of (T := ⟨S1048576x3, .i32⟩) main_call1_v2) (TRef.of (T := ⟨S1048576x3, .i32⟩) main_call1_v3) (TRef.of (T := ⟨S1048576x3, .i1⟩) main_call1_v4) (cmpi .eq),
    TRef.unary (TRef.of (T := ⟨S1048576x3, .i1⟩) main_call1_v4) (TRef.of (T := ⟨S1048576x3, .f32⟩) main_v15) (uitofp .f32),
    nullary main_cst (constant S_ .f32 0x41700000#32),
    unary main_cst main_v16 (broadcastInDim S1048576 ![] bcast_S_S1048576 : (⟨S_, .f32⟩ : BufTy).Contents (Elt F) → (⟨S1048576, .f32⟩ : BufTy).Contents (Elt F)),
    binary main_arg4 main_v16 main_v17 (Host.divf : (⟨S1048576, .f32⟩ : BufTy).Contents (Elt F) → (⟨S1048576, .f32⟩ : BufTy).Contents (Elt F) → (⟨S1048576, .f32⟩ : BufTy).Contents (Elt F)),
    nullary main_cst_3 (constant S_ .f32 0x42C80000#32),
    unary main_cst_3 main_v18 (broadcastInDim S1048576 ![] bcast_S_S1048576 : (⟨S_, .f32⟩ : BufTy).Contents (Elt F) → (⟨S1048576, .f32⟩ : BufTy).Contents (Elt F)),
    binary main_arg6 main_v18 main_v19 (Host.divf : (⟨S1048576, .f32⟩ : BufTy).Contents (Elt F) → (⟨S1048576, .f32⟩ : BufTy).Contents (Elt F) → (⟨S1048576, .f32⟩ : BufTy).Contents (Elt F)),
    unary main_v17 main_v20 (broadcastInDim S1048576x1 ![0] bcast_S1048576_S1048576x1_0 : (⟨S1048576, .f32⟩ : BufTy).Contents (Elt F) → (⟨S1048576x1, .f32⟩ : BufTy).Contents (Elt F)),
    unary main_arg5 main_v21 (broadcastInDim S1048576x1 ![0] bcast_S1048576_S1048576x1_0 : (⟨S1048576, .f32⟩ : BufTy).Contents (Elt F) → (⟨S1048576x1, .f32⟩ : BufTy).Contents (Elt F)),
    unary main_v19 main_v22 (broadcastInDim S1048576x1 ![0] bcast_S1048576_S1048576x1_0 : (⟨S1048576, .f32⟩ : BufTy).Contents (Elt F) → (⟨S1048576x1, .f32⟩ : BufTy).Contents (Elt F)),
    nary ![main_v20, main_v21, main_v22] main_v23 (fun u => concatenate S1048576x3 1 [⟨S1048576x1, u 0⟩, ⟨S1048576x1, u 1⟩, ⟨S1048576x1, u 2⟩] concatenates_S1048576x1_S1048576x1_S1048576x1_S1048576x3_d1),
    nary ![main_v6, main_v14, main_v15, main_v13, main_v23] main_v24 (fun u => concatenate S1048576x25 1 [⟨S1048576x8, u 0⟩, ⟨S1048576x3, u 1⟩, ⟨S1048576x3, u 2⟩, ⟨S1048576x8, u 3⟩, ⟨S1048576x3, u 4⟩] concatenates_S1048576x8_S1048576x3_S1048576x3_S1048576x8_S1048576x3_S1048576x25_d1) ]

variable {x0 x1 x2 x3 : (⟨S1048576, .i32⟩ : BufTy).Contents (Elt F)} {x4 x5 x6 : (⟨S1048576, .f32⟩ : BufTy).Contents (Elt F)} {x7 x8 x9 x10 : (⟨S1048576, .i32⟩ : BufTy).Contents (Elt F)} {x11 x12 x13 : (⟨S1048576, .f32⟩ : BufTy).Contents (Elt F)} {x14 : (⟨S15x8, .f32⟩ : BufTy).Contents (Elt F)} {x15 : (⟨S9x8, .f32⟩ : BufTy).Contents (Elt F)} {x16 : (⟨S50x128, .f32⟩ : BufTy).Contents (Elt F)} {x17 x18 x19 : (⟨S128, .f32⟩ : BufTy).Contents (Elt F)} {x20 : (⟨S128x64, .f32⟩ : BufTy).Contents (Elt F)} {x21 x22 x23 : (⟨S64, .f32⟩ : BufTy).Contents (Elt F)} {x24 : (⟨S64x32, .f32⟩ : BufTy).Contents (Elt F)} {x25 x26 x27 : (⟨S32, .f32⟩ : BufTy).Contents (Elt F)} {x28 : (⟨S32x1, .f32⟩ : BufTy).Contents (Elt F)} {x29 : (⟨S1, .f32⟩ : BufTy).Contents (Elt F)}

theorem K1_out (V : Valuation τ sig (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h14 : V (Proc.devRef .tc main_arg14) = x14)
    (h15 : V (Proc.devRef .tc main_arg15) = x15) :
    after K1 V (Proc.devRef .tc main_v24) = val_main_v24 (F := F) x0 x1 x2 x3 x4 x5 x6 x14 x15 := by
  subst h0 h1 h2 h3 h4 h5 h6 h14 h15
  simp (disch := decide) only [K1, after_cons, after_nil, nullary_result', unary_result', binary_result', ternary_result', reshape_result', nary3_result', nary5_result', nullary_result_ne', unary_result_ne', binary_result_ne', ternary_result_ne', reshape_result_ne', nary_result_ne']
  first | rfl | (simp only [TRef.ofBuf, TRef.toBuf, cast_eq]; rfl)

abbrev K1_W : List (Ref sig .tc) := [main_c, main_v0, main_v1, main_c_0, main_v2, main_v3, main_v4, main_v5, main_v6, main_c_1, main_v7, main_v8, main_c_2, main_v9, main_v10, main_v11, main_v12, main_v13, main_call0_v0, main_call0_v1, main_call0_v2, main_call0_v3, main_call0_v4, main_v14, main_call1_v0, main_call1_v1, main_call1_v2, main_call1_v3, main_call1_v4, main_v15, main_cst, main_v16, main_v17, main_cst_3, main_v18, main_v19, main_v20, main_v21, main_v22, main_v23, main_v24]
theorem K1_writes : (K1 : List (HloOp τ sig (Elt F))).Forall fun op =>
    op.writes ⊆ ((K1_W).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem K1_pass (V : Valuation τ sig (Elt F)) (r : Ref sig .tc) (hr : r ∈ argRefs) :
    after K1 V (Proc.devRef .tc r) = V (Proc.devRef .tc r) :=
  after_of_writes_sub K1 V K1_writes ((by decide : ∀ r ∈ argRefs, r ∉ K1_W) r hr)

abbrev K2 : List (HloOp τ sig (Elt F)) :=
  [ nullary main_c_4 (constantI S_ 32 0#32),
    unary main_c_4 main_v25 (broadcastInDim S1048576 ![] bcast_S_S1048576 : (⟨S_, .i32⟩ : BufTy).Contents (Elt F) → (⟨S1048576, .i32⟩ : BufTy).Contents (Elt F)),
    binary main_arg7 main_v25 main_v26 (cmpi .slt : (⟨S1048576, .i32⟩ : BufTy).Contents (Elt F) → (⟨S1048576, .i32⟩ : BufTy).Contents (Elt F) → (⟨S1048576, .i1⟩ : BufTy).Contents (Elt F)),
    nullary main_c_5 (constantI S_ 32 15#32),
    unary main_c_5 main_v27 (broadcastInDim S1048576 ![] bcast_S_S1048576 : (⟨S_, .i32⟩ : BufTy).Contents (Elt F) → (⟨S1048576, .i32⟩ : BufTy).Contents (Elt F)),
    binary main_arg7 main_v27 main_v28 (addi : (⟨S1048576, .i32⟩ : BufTy).Contents (Elt F) → (⟨S1048576, .i32⟩ : BufTy).Contents (Elt F) → (⟨S1048576, .i32⟩ : BufTy).Contents (Elt F)),
    ternary main_v26 main_v28 main_arg7 main_v29 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v29 main_v30 (broadcastInDim S1048576x1 ![0] bcast_S1048576_S1048576x1_0 : (⟨S1048576, .i32⟩ : BufTy).Contents (Elt F) → (⟨S1048576x1, .i32⟩ : BufTy).Contents (Elt F)),
    binary main_arg14 main_v30 main_v31 ((fun x i => Host.gather gather_S15x8_S1048576x1_S1048576x8_1_0_n_n_0_1_18 x i) : (⟨S15x8, .f32⟩ : BufTy).Contents (Elt F) → (⟨S1048576x1, .i32⟩ : BufTy).Contents (Elt F) → (⟨S1048576x8, .f32⟩ : BufTy).Contents (Elt F)),
    nullary main_c_6 (constantI S_ 32 0#32),
    unary main_c_6 main_v32 (broadcastInDim S1048576 ![] bcast_S_S1048576 : (⟨S_, .i32⟩ : BufTy).Contents (Elt F) → (⟨S1048576, .i32⟩ : BufTy).Contents (Elt F)),
    binary main_arg10 main_v32 main_v33 (cmpi .slt : (⟨S1048576, .i32⟩ : BufTy).Contents (Elt F) → (⟨S1048576, .i32⟩ : BufTy).Contents (Elt F) → (⟨S1048576, .i1⟩ : BufTy).Contents (Elt F)),
    nullary main_c_7 (constantI S_ 32 9#32),
    unary main_c_7 main_v34 (broadcastInDim S1048576 ![] bcast_S_S1048576 : (⟨S_, .i32⟩ : BufTy).Contents (Elt F) → (⟨S1048576, .i32⟩ : BufTy).Contents (Elt F)),
    binary main_arg10 main_v34 main_v35 (addi : (⟨S1048576, .i32⟩ : BufTy).Contents (Elt F) → (⟨S1048576, .i32⟩ : BufTy).Contents (Elt F) → (⟨S1048576, .i32⟩ : BufTy).Contents (Elt F)),
    ternary main_v33 main_v35 main_arg10 main_v36 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v36 main_v37 (broadcastInDim S1048576x1 ![0] bcast_S1048576_S1048576x1_0 : (⟨S1048576, .i32⟩ : BufTy).Contents (Elt F) → (⟨S1048576x1, .i32⟩ : BufTy).Contents (Elt F)),
    binary main_arg15 main_v37 main_v38 ((fun x i => Host.gather gather_S9x8_S1048576x1_S1048576x8_1_0_n_n_0_1_18 x i) : (⟨S9x8, .f32⟩ : BufTy).Contents (Elt F) → (⟨S1048576x1, .i32⟩ : BufTy).Contents (Elt F) → (⟨S1048576x8, .f32⟩ : BufTy).Contents (Elt F)),
    TRef.unary (TRef.of (T := ⟨S1048576, .i32⟩) main_arg8) (TRef.of (T := ⟨S1048576x1, .i32⟩) main_call2_v0) (broadcastInDim S1048576x1 ![0] bcast_S1048576_S1048576x1_0),
    TRef.nullary (TRef.of (T := ⟨S1x3, .i32⟩) main_call2_v1) (iotaInDim S1x3 32 1),
    TRef.unary (TRef.of (T := ⟨S1048576x1, .i32⟩) main_call2_v0) (TRef.of (T := ⟨S1048576x3, .i32⟩) main_call2_v2) (broadcastInDim S1048576x3 ![0, 1] bcast_S1048576x1_S1048576x3_0_1),
    TRef.unary (TRef.of (T := ⟨S1x3, .i32⟩) main_call2_v1) (TRef.of (T := ⟨S1048576x3, .i32⟩) main_call2_v3) (broadcastInDim S1048576x3 ![0, 1] bcast_S1x3_S1048576x3_0_1),
    TRef.binary (TRef.of (T := ⟨S1048576x3, .i32⟩) main_call2_v2) (TRef.of (T := ⟨S1048576x3, .i32⟩) main_call2_v3) (TRef.of (T := ⟨S1048576x3, .i1⟩) main_call2_v4) (cmpi .eq),
    TRef.unary (TRef.of (T := ⟨S1048576x3, .i1⟩) main_call2_v4) (TRef.of (T := ⟨S1048576x3, .f32⟩) main_v39) (uitofp .f32),
    TRef.unary (TRef.of (T := ⟨S1048576, .i32⟩) main_arg9) (TRef.of (T := ⟨S1048576x1, .i32⟩) main_call3_v0) (broadcastInDim S1048576x1 ![0] bcast_S1048576_S1048576x1_0),
    TRef.nullary (TRef.of (T := ⟨S1x3, .i32⟩) main_call3_v1) (iotaInDim S1x3 32 1),
    TRef.unary (TRef.of (T := ⟨S1048576x1, .i32⟩) main_call3_v0) (TRef.of (T := ⟨S1048576x3, .i32⟩) main_call3_v2) (broadcastInDim S1048576x3 ![0, 1] bcast_S1048576x1_S1048576x3_0_1),
    TRef.unary (TRef.of (T := ⟨S1x3, .i32⟩) main_call3_v1) (TRef.of (T := ⟨S1048576x3, .i32⟩) main_call3_v3) (broadcastInDim S1048576x3 ![0, 1] bcast_S1x3_S1048576x3_0_1),
    TRef.binary (TRef.of (T := ⟨S1048576x3, .i32⟩) main_call3_v2) (TRef.of (T := ⟨S1048576x3, .i32⟩) main_call3_v3) (TRef.of (T := ⟨S1048576x3, .i1⟩) main_call3_v4) (cmpi .eq),
    TRef.unary (TRef.of (T := ⟨S1048576x3, .i1⟩) main_call3_v4) (TRef.of (T := ⟨S1048576x3, .f32⟩) main_v40) (uitofp .f32),
    nullary main_cst_8 (constant S_ .f32 0x41700000#32),
    unary main_cst_8 main_v41 (broadcastInDim S1048576 ![] bcast_S_S1048576 : (⟨S_, .f32⟩ : BufTy).Contents (Elt F) → (⟨S1048576, .f32⟩ : BufTy).Contents (Elt F)),
    binary main_arg11 main_v41 main_v42 (Host.divf : (⟨S1048576, .f32⟩ : BufTy).Contents (Elt F) → (⟨S1048576, .f32⟩ : BufTy).Contents (Elt F) → (⟨S1048576, .f32⟩ : BufTy).Contents (Elt F)),
    nullary main_cst_9 (constant S_ .f32 0x42C80000#32),
    unary main_cst_9 main_v43 (broadcastInDim S1048576 ![] bcast_S_S1048576 : (⟨S_, .f32⟩ : BufTy).Contents (Elt F) → (⟨S1048576, .f32⟩ : BufTy).Contents (Elt F)),
    binary main_arg13 main_v43 main_v44 (Host.divf : (⟨S1048576, .f32⟩ : BufTy).Contents (Elt F) → (⟨S1048576, .f32⟩ : BufTy).Contents (Elt F) → (⟨S1048576, .f32⟩ : BufTy).Contents (Elt F)),
    unary main_v42 main_v45 (broadcastInDim S1048576x1 ![0] bcast_S1048576_S1048576x1_0 : (⟨S1048576, .f32⟩ : BufTy).Contents (Elt F) → (⟨S1048576x1, .f32⟩ : BufTy).Contents (Elt F)),
    unary main_arg12 main_v46 (broadcastInDim S1048576x1 ![0] bcast_S1048576_S1048576x1_0 : (⟨S1048576, .f32⟩ : BufTy).Contents (Elt F) → (⟨S1048576x1, .f32⟩ : BufTy).Contents (Elt F)),
    unary main_v44 main_v47 (broadcastInDim S1048576x1 ![0] bcast_S1048576_S1048576x1_0 : (⟨S1048576, .f32⟩ : BufTy).Contents (Elt F) → (⟨S1048576x1, .f32⟩ : BufTy).Contents (Elt F)),
    nary ![main_v45, main_v46, main_v47] main_v48 (fun u => concatenate S1048576x3 1 [⟨S1048576x1, u 0⟩, ⟨S1048576x1, u 1⟩, ⟨S1048576x1, u 2⟩] concatenates_S1048576x1_S1048576x1_S1048576x1_S1048576x3_d1),
    nary ![main_v31, main_v39, main_v40, main_v38, main_v48] main_v49 (fun u => concatenate S1048576x25 1 [⟨S1048576x8, u 0⟩, ⟨S1048576x3, u 1⟩, ⟨S1048576x3, u 2⟩, ⟨S1048576x8, u 3⟩, ⟨S1048576x3, u 4⟩] concatenates_S1048576x8_S1048576x3_S1048576x3_S1048576x8_S1048576x3_S1048576x25_d1) ]

theorem K2_out (V : Valuation τ sig (Elt F))
    (h7 : V (Proc.devRef .tc main_arg7) = x7)
    (h8 : V (Proc.devRef .tc main_arg8) = x8)
    (h9 : V (Proc.devRef .tc main_arg9) = x9)
    (h10 : V (Proc.devRef .tc main_arg10) = x10)
    (h11 : V (Proc.devRef .tc main_arg11) = x11)
    (h12 : V (Proc.devRef .tc main_arg12) = x12)
    (h13 : V (Proc.devRef .tc main_arg13) = x13)
    (h14 : V (Proc.devRef .tc main_arg14) = x14)
    (h15 : V (Proc.devRef .tc main_arg15) = x15) :
    after K2 V (Proc.devRef .tc main_v49) = val_main_v49 (F := F) x7 x8 x9 x10 x11 x12 x13 x14 x15 := by
  subst h7 h8 h9 h10 h11 h12 h13 h14 h15
  simp (disch := decide) only [K2, after_cons, after_nil, nullary_result', unary_result', binary_result', ternary_result', reshape_result', nary3_result', nary5_result', nullary_result_ne', unary_result_ne', binary_result_ne', ternary_result_ne', reshape_result_ne', nary_result_ne']
  first | rfl | (simp only [TRef.ofBuf, TRef.toBuf, cast_eq]; rfl)

abbrev K2_W : List (Ref sig .tc) := [main_c_4, main_v25, main_v26, main_c_5, main_v27, main_v28, main_v29, main_v30, main_v31, main_c_6, main_v32, main_v33, main_c_7, main_v34, main_v35, main_v36, main_v37, main_v38, main_call2_v0, main_call2_v1, main_call2_v2, main_call2_v3, main_call2_v4, main_v39, main_call3_v0, main_call3_v1, main_call3_v2, main_call3_v3, main_call3_v4, main_v40, main_cst_8, main_v41, main_v42, main_cst_9, main_v43, main_v44, main_v45, main_v46, main_v47, main_v48, main_v49]
theorem K2_writes : (K2 : List (HloOp τ sig (Elt F))).Forall fun op =>
    op.writes ⊆ ((K2_W).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem K2_pass (V : Valuation τ sig (Elt F)) (r : Ref sig .tc) (hr : r ∈ argRefs) :
    after K2 V (Proc.devRef .tc r) = V (Proc.devRef .tc r) :=
  after_of_writes_sub K2 V K2_writes ((by decide : ∀ r ∈ argRefs, r ∉ K2_W) r hr)

abbrev KJ : List (HloOp τ sig (Elt F)) :=
  [ binary main_v24 main_v49 main_v50 ((fun a b => concatenate S1048576x50 1 [⟨S1048576x25, a⟩, ⟨S1048576x25, b⟩] concatenates_S1048576x25_S1048576x25_S1048576x50_d1) : (⟨S1048576x25, .f32⟩ : BufTy).Contents (Elt F) → (⟨S1048576x25, .f32⟩ : BufTy).Contents (Elt F) → (⟨S1048576x50, .f32⟩ : BufTy).Contents (Elt F)) ]

def joinPets (a b : (⟨S1048576x25, .f32⟩ : BufTy).Contents (Elt F)) : (⟨S1048576x50, .f32⟩ : BufTy).Contents (Elt F) :=
  concatenate S1048576x50 1 [⟨S1048576x25, a⟩, ⟨S1048576x25, b⟩] concatenates_S1048576x25_S1048576x25_S1048576x50_d1

theorem KJ_out (V : Valuation τ sig (Elt F))
    (h24 : V (Proc.devRef .tc main_v24) = val_main_v24 (F := F) x0 x1 x2 x3 x4 x5 x6 x14 x15)
    (h49 : V (Proc.devRef .tc main_v49) = val_main_v49 (F := F) x7 x8 x9 x10 x11 x12 x13 x14 x15) :
    after KJ V (Proc.devRef .tc main_v50) = val_main_v50 (F := F) x0 x1 x2 x3 x4 x5 x6 x7 x8 x9 x10 x11 x12 x13 x14 x15 := by
  have e : after KJ V (Proc.devRef .tc main_v50)
      = joinPets (V (Proc.devRef .tc main_v24)) (V (Proc.devRef .tc main_v49)) := by
    simp (disch := decide) only [KJ, after_cons, after_nil, binary_result']
    rfl
  rw [e, h24, h49]
  rfl

abbrev KJ_W : List (Ref sig .tc) := [main_v50]
theorem KJ_writes : (KJ : List (HloOp τ sig (Elt F))).Forall fun op =>
    op.writes ⊆ ((KJ_W).map (Proc.devRef (τ := τ) .tc)).toFinset :=
  writes_sub_of_mem rfl (by decide)

theorem KJ_pass (V : Valuation τ sig (Elt F)) (r : Ref sig .tc) (hr : r ∈ argRefs) :
    after KJ V (Proc.devRef .tc r) = V (Proc.devRef .tc r) :=
  after_of_writes_sub KJ V KJ_writes ((by decide : ∀ r ∈ argRefs, r ∉ KJ_W) r hr)

abbrev K3 : List (HloOp τ sig (Elt F)) :=
  [ binary main_v50 main_arg16 main_v51 ((fun l r => Host.dotGeneral dot_S1048576x50_S50x128_S1048576x128_1_0_0_1_n_n none l r) : (⟨S1048576x50, .f32⟩ : BufTy).Contents (Elt F) → (⟨S50x128, .f32⟩ : BufTy).Contents (Elt F) → (⟨S1048576x128, .f32⟩ : BufTy).Contents (Elt F)),
    unary main_arg17 main_v52 (broadcastInDim S1x128 ![1] bcast_S128_S1x128_1 : (⟨S128, .f32⟩ : BufTy).Contents (Elt F) → (⟨S1x128, .f32⟩ : BufTy).Contents (Elt F)),
    unary main_v52 main_v53 (broadcastInDim S1048576x128 ![0, 1] bcast_S1x128_S1048576x128_0_1 : (⟨S1x128, .f32⟩ : BufTy).Contents (Elt F) → (⟨S1048576x128, .f32⟩ : BufTy).Contents (Elt F)),
    binary main_v51 main_v53 main_v54 (addf : (⟨S1048576x128, .f32⟩ : BufTy).Contents (Elt F) → (⟨S1048576x128, .f32⟩ : BufTy).Contents (Elt F) → (⟨S1048576x128, .f32⟩ : BufTy).Contents (Elt F)),
    nullary main_cst_10 (constant S_ .f32 0x00000000#32),
    binary main_v54 main_cst_10 main_v55 ((fun x v => Host.reduceAdd x v reducesTo_S1048576x128_S128_d0 h_S_) : (⟨S1048576x128, .f32⟩ : BufTy).Contents (Elt F) → (⟨S_, .f32⟩ : BufTy).Contents (Elt F) → (⟨S128, .f32⟩ : BufTy).Contents (Elt F)),
    nullary main_cst_11 (constant S_ .f32 0x49800000#32),
    unary main_cst_11 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S1048576x128 ![0, 1] bcast_S1x128_S1048576x128_0_1 : (⟨S1x128, .f32⟩ : BufTy).Contents (Elt F) → (⟨S1048576x128, .f32⟩ : BufTy).Contents (Elt F)),
    binary main_v54 main_v59 main_v60 (subf : (⟨S1048576x128, .f32⟩ : BufTy).Contents (Elt F) → (⟨S1048576x128, .f32⟩ : BufTy).Contents (Elt F) → (⟨S1048576x128, .f32⟩ : BufTy).Contents (Elt F)),
    binary main_v60 main_v60 main_v61 (mulf : (⟨S1048576x128, .f32⟩ : BufTy).Contents (Elt F) → (⟨S1048576x128, .f32⟩ : BufTy).Contents (Elt F) → (⟨S1048576x128, .f32⟩ : BufTy).Contents (Elt F)),
    nullary main_cst_12 (constant S_ .f32 0x00000000#32),
    binary main_v61 main_cst_12 main_v62 ((fun x v => Host.reduceAdd x v reducesTo_S1048576x128_S128_d0 h_S_) : (⟨S1048576x128, .f32⟩ : BufTy).Contents (Elt F) → (⟨S_, .f32⟩ : BufTy).Contents (Elt F) → (⟨S128, .f32⟩ : BufTy).Contents (Elt F)),
    nullary main_cst_13 (constant S_ .f32 0x49800000#32),
    unary main_cst_13 main_v63 (broadcastInDim S128 ![] bcast_S_S128 : (⟨S_, .f32⟩ : BufTy).Contents (Elt F) → (⟨S128, .f32⟩ : BufTy).Contents (Elt F)),
    binary main_v62 main_v63 main_v64 (Host.divf : (⟨S128, .f32⟩ : BufTy).Contents (Elt F) → (⟨S128, .f32⟩ : BufTy).Contents (Elt F) → (⟨S128, .f32⟩ : BufTy).Contents (Elt F)),
    unary main_v57 main_v65 (broadcastInDim S1x128 ![1] bcast_S128_S1x128_1 : (⟨S128, .f32⟩ : BufTy).Contents (Elt F) → (⟨S1x128, .f32⟩ : BufTy).Contents (Elt F)),
    unary main_v65 main_v66 (broadcastInDim S1048576x128 ![0, 1] bcast_S1x128_S1048576x128_0_1 : (⟨S1x128, .f32⟩ : BufTy).Contents (Elt F) → (⟨S1048576x128, .f32⟩ : BufTy).Contents (Elt F)),
    binary main_v54 main_v66 main_v67 (subf : (⟨S1048576x128, .f32⟩ : BufTy).Contents (Elt F) → (⟨S1048576x128, .f32⟩ : BufTy).Contents (Elt F) → (⟨S1048576x128, .f32⟩ : BufTy).Contents (Elt F)),
    nullary main_cst_14 (constant S_ .f32 0x3727C5AC#32),
    unary main_cst_14 main_v68 (broadcastInDim S128 ![] bcast_S_S128 : (⟨S_, .f32⟩ : BufTy).Contents (Elt F) → (⟨S128, .f32⟩ : BufTy).Contents (Elt F)),
    binary main_v64 main_v68 main_v69 (addf : (⟨S128, .f32⟩ : BufTy).Contents (Elt F) → (⟨S128, .f32⟩ : BufTy).Contents (Elt F) → (⟨S128, .f32⟩ : BufTy).Contents (Elt F)),
    unary main_v69 main_v70 (Host.rsqrt : (⟨S128, .f32⟩ : BufTy).Contents (Elt F) → (⟨S128, .f32⟩ : BufTy).Contents (Elt F)),
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S1048576x128 ![0, 1] bcast_S1x128_S1048576x128_0_1 : (⟨S1x128, .f32⟩ : BufTy).Contents (Elt F) → (⟨S1048576x128, .f32⟩ : BufTy).Contents (Elt F)),
    binary main_v67 main_v72 main_v73 (mulf : (⟨S1048576x128, .f32⟩ : BufTy).Contents (Elt F) → (⟨S1048576x128, .f32⟩ : BufTy).Contents (Elt F) → (⟨S1048576x128, .f32⟩ : BufTy).Contents (Elt F)),
    unary main_arg18 main_v74 (broadcastInDim S1x128 ![1] bcast_S128_S1x128_1 : (⟨S128, .f32⟩ : BufTy).Contents (Elt F) → (⟨S1x128, .f32⟩ : BufTy).Contents (Elt F)),
    unary main_v74 main_v75 (broadcastInDim S1048576x128 ![0, 1] bcast_S1x128_S1048576x128_0_1 : (⟨S1x128, .f32⟩ : BufTy).Contents (Elt F) → (⟨S1048576x128, .f32⟩ : BufTy).Contents (Elt F)),
    binary main_v73 main_v75 main_v76 (mulf : (⟨S1048576x128, .f32⟩ : BufTy).Contents (Elt F) → (⟨S1048576x128, .f32⟩ : BufTy).Contents (Elt F) → (⟨S1048576x128, .f32⟩ : BufTy).Contents (Elt F)),
    unary main_arg19 main_v77 (broadcastInDim S1x128 ![1] bcast_S128_S1x128_1 : (⟨S128, .f32⟩ : BufTy).Contents (Elt F) → (⟨S1x128, .f32⟩ : BufTy).Contents (Elt F)),
    unary main_v77 main_v78 (broadcastInDim S1048576x128 ![0, 1] bcast_S1x128_S1048576x128_0_1 : (⟨S1x128, .f32⟩ : BufTy).Contents (Elt F) → (⟨S1048576x128, .f32⟩ : BufTy).Contents (Elt F)),
    binary main_v76 main_v78 main_v79 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1048576x128, .f32⟩) main_call4_v0) (broadcastInDim S1048576x128 ![] bcast_S_S1048576x128),
    TRef.binary (TRef.of (T := ⟨S1048576x128, .f32⟩) main_v79) (TRef.of (T := ⟨S1048576x128, .f32⟩) main_call4_v0) (TRef.of (T := ⟨S1048576x128, .f32⟩) main_v80) maximumf ]

theorem K3_out (V : Valuation τ sig (Elt F))
    (hin : V (Proc.devRef .tc main_v50) = val_main_v50 (F := F) x0 x1 x2 x3 x4 x5 x6 x7 x8 x9 x10 x11 x12 x13 x14 x15)
    (h16 : V (Proc.devRef .tc main_arg16) = x16)
    (h17 : V (Proc.devRef .tc main_arg17) = x17)
    (h18 : V (Proc.devRef .tc main_arg18) = x18)
    (h19 : V (Proc.devRef .tc main_arg19) = x19) :
    after K3 V (Proc.devRef .tc main_v80) = val_main_v80 (F := F) x0 x1 x2 x3 x4 x5 x6 x7 x8 x9 x10 x11 x12 x13 x14 x15 x16 x17 x18 x19 := by
  subst h16 h17 h18 h19
  simp (disch := decide) only [K3, after_cons, after_nil, nullary_result', unary_result', binary_result', ternary_result', reshape_result', nary3_result', nary5_result', nullary_result_ne', unary_result_ne', binary_result_ne', ternary_result_ne', reshape_result_ne', nary_result_ne']
  rw [hin]
  first | rfl | (simp only [TRef.ofBuf, TRef.toBuf, cast_eq]; rfl)

abbrev K3_W : List (Ref sig .tc) := [main_v51, main_v52, main_v53, main_v54, main_cst_10, main_v55, main_cst_11, main_v56, main_v57, main_v58, main_v59, main_v60, main_v61, main_cst_12, main_v62, main_cst_13, main_v63, main_v64, main_v65, main_v66, main_v67, main_cst_14, main_v68, main_v69, main_v70, main_v71, main_v72, main_v73, main_v74, main_v75, main_v76, main_v77, main_v78, main_v79, main_call4_cst, main_call4_v0, main_v80]
theorem K3_writes : (K3 : List (HloOp τ sig (Elt F))).Forall fun op =>
    op.writes ⊆ ((K3_W).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem K3_pass (V : Valuation τ sig (Elt F)) (r : Ref sig .tc) (hr : r ∈ argRefs) :
    after K3 V (Proc.devRef .tc r) = V (Proc.devRef .tc r) :=
  after_of_writes_sub K3 V K3_writes ((by decide : ∀ r ∈ argRefs, r ∉ K3_W) r hr)

abbrev K4 : List (HloOp τ sig (Elt F)) :=
  [ binary main_v80 main_arg20 main_v81 ((fun l r => Host.dotGeneral dot_S1048576x128_S128x64_S1048576x64_1_0_0_1_n_n none l r) : (⟨S1048576x128, .f32⟩ : BufTy).Contents (Elt F) → (⟨S128x64, .f32⟩ : BufTy).Contents (Elt F) → (⟨S1048576x64, .f32⟩ : BufTy).Contents (Elt F)),
    unary main_arg21 main_v82 (broadcastInDim S1x64 ![1] bcast_S64_S1x64_1 : (⟨S64, .f32⟩ : BufTy).Contents (Elt F) → (⟨S1x64, .f32⟩ : BufTy).Contents (Elt F)),
    unary main_v82 main_v83 (broadcastInDim S1048576x64 ![0, 1] bcast_S1x64_S1048576x64_0_1 : (⟨S1x64, .f32⟩ : BufTy).Contents (Elt F) → (⟨S1048576x64, .f32⟩ : BufTy).Contents (Elt F)),
    binary main_v81 main_v83 main_v84 (addf : (⟨S1048576x64, .f32⟩ : BufTy).Contents (Elt F) → (⟨S1048576x64, .f32⟩ : BufTy).Contents (Elt F) → (⟨S1048576x64, .f32⟩ : BufTy).Contents (Elt F)),
    nullary main_cst_15 (constant S_ .f32 0x00000000#32),
    binary main_v84 main_cst_15 main_v85 ((fun x v => Host.reduceAdd x v reducesTo_S1048576x64_S64_d0 h_S_) : (⟨S1048576x64, .f32⟩ : BufTy).Contents (Elt F) → (⟨S_, .f32⟩ : BufTy).Contents (Elt F) → (⟨S64, .f32⟩ : BufTy).Contents (Elt F)),
    nullary main_cst_16 (constant S_ .f32 0x49800000#32),
    unary main_cst_16 main_v86 (broadcastInDim S64 ![] bcast_S_S64 : (⟨S_, .f32⟩ : BufTy).Contents (Elt F) → (⟨S64, .f32⟩ : BufTy).Contents (Elt F)),
    binary main_v85 main_v86 main_v87 (Host.divf : (⟨S64, .f32⟩ : BufTy).Contents (Elt F) → (⟨S64, .f32⟩ : BufTy).Contents (Elt F) → (⟨S64, .f32⟩ : BufTy).Contents (Elt F)),
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S1048576x64 ![0, 1] bcast_S1x64_S1048576x64_0_1 : (⟨S1x64, .f32⟩ : BufTy).Contents (Elt F) → (⟨S1048576x64, .f32⟩ : BufTy).Contents (Elt F)),
    binary main_v84 main_v89 main_v90 (subf : (⟨S1048576x64, .f32⟩ : BufTy).Contents (Elt F) → (⟨S1048576x64, .f32⟩ : BufTy).Contents (Elt F) → (⟨S1048576x64, .f32⟩ : BufTy).Contents (Elt F)),
    binary main_v90 main_v90 main_v91 (mulf : (⟨S1048576x64, .f32⟩ : BufTy).Contents (Elt F) → (⟨S1048576x64, .f32⟩ : BufTy).Contents (Elt F) → (⟨S1048576x64, .f32⟩ : BufTy).Contents (Elt F)),
    nullary main_cst_17 (constant S_ .f32 0x00000000#32),
    binary main_v91 main_cst_17 main_v92 ((fun x v => Host.reduceAdd x v reducesTo_S1048576x64_S64_d0 h_S_) : (⟨S1048576x64, .f32⟩ : BufTy).Contents (Elt F) → (⟨S_, .f32⟩ : BufTy).Contents (Elt F) → (⟨S64, .f32⟩ : BufTy).Contents (Elt F)),
    nullary main_cst_18 (constant S_ .f32 0x49800000#32),
    unary main_cst_18 main_v93 (broadcastInDim S64 ![] bcast_S_S64 : (⟨S_, .f32⟩ : BufTy).Contents (Elt F) → (⟨S64, .f32⟩ : BufTy).Contents (Elt F)),
    binary main_v92 main_v93 main_v94 (Host.divf : (⟨S64, .f32⟩ : BufTy).Contents (Elt F) → (⟨S64, .f32⟩ : BufTy).Contents (Elt F) → (⟨S64, .f32⟩ : BufTy).Contents (Elt F)),
    unary main_v87 main_v95 (broadcastInDim S1x64 ![1] bcast_S64_S1x64_1 : (⟨S64, .f32⟩ : BufTy).Contents (Elt F) → (⟨S1x64, .f32⟩ : BufTy).Contents (Elt F)),
    unary main_v95 main_v96 (broadcastInDim S1048576x64 ![0, 1] bcast_S1x64_S1048576x64_0_1 : (⟨S1x64, .f32⟩ : BufTy).Contents (Elt F) → (⟨S1048576x64, .f32⟩ : BufTy).Contents (Elt F)),
    binary main_v84 main_v96 main_v97 (subf : (⟨S1048576x64, .f32⟩ : BufTy).Contents (Elt F) → (⟨S1048576x64, .f32⟩ : BufTy).Contents (Elt F) → (⟨S1048576x64, .f32⟩ : BufTy).Contents (Elt F)),
    nullary main_cst_19 (constant S_ .f32 0x3727C5AC#32),
    unary main_cst_19 main_v98 (broadcastInDim S64 ![] bcast_S_S64 : (⟨S_, .f32⟩ : BufTy).Contents (Elt F) → (⟨S64, .f32⟩ : BufTy).Contents (Elt F)),
    binary main_v94 main_v98 main_v99 (addf : (⟨S64, .f32⟩ : BufTy).Contents (Elt F) → (⟨S64, .f32⟩ : BufTy).Contents (Elt F) → (⟨S64, .f32⟩ : BufTy).Contents (Elt F)),
    unary main_v99 main_v100 (Host.rsqrt : (⟨S64, .f32⟩ : BufTy).Contents (Elt F) → (⟨S64, .f32⟩ : BufTy).Contents (Elt F)),
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S1048576x64 ![0, 1] bcast_S1x64_S1048576x64_0_1 : (⟨S1x64, .f32⟩ : BufTy).Contents (Elt F) → (⟨S1048576x64, .f32⟩ : BufTy).Contents (Elt F)),
    binary main_v97 main_v102 main_v103 (mulf : (⟨S1048576x64, .f32⟩ : BufTy).Contents (Elt F) → (⟨S1048576x64, .f32⟩ : BufTy).Contents (Elt F) → (⟨S1048576x64, .f32⟩ : BufTy).Contents (Elt F)),
    unary main_arg22 main_v104 (broadcastInDim S1x64 ![1] bcast_S64_S1x64_1 : (⟨S64, .f32⟩ : BufTy).Contents (Elt F) → (⟨S1x64, .f32⟩ : BufTy).Contents (Elt F)),
    unary main_v104 main_v105 (broadcastInDim S1048576x64 ![0, 1] bcast_S1x64_S1048576x64_0_1 : (⟨S1x64, .f32⟩ : BufTy).Contents (Elt F) → (⟨S1048576x64, .f32⟩ : BufTy).Contents (Elt F)),
    binary main_v103 main_v105 main_v106 (mulf : (⟨S1048576x64, .f32⟩ : BufTy).Contents (Elt F) → (⟨S1048576x64, .f32⟩ : BufTy).Contents (Elt F) → (⟨S1048576x64, .f32⟩ : BufTy).Contents (Elt F)),
    unary main_arg23 main_v107 (broadcastInDim S1x64 ![1] bcast_S64_S1x64_1 : (⟨S64, .f32⟩ : BufTy).Contents (Elt F) → (⟨S1x64, .f32⟩ : BufTy).Contents (Elt F)),
    unary main_v107 main_v108 (broadcastInDim S1048576x64 ![0, 1] bcast_S1x64_S1048576x64_0_1 : (⟨S1x64, .f32⟩ : BufTy).Contents (Elt F) → (⟨S1048576x64, .f32⟩ : BufTy).Contents (Elt F)),
    binary main_v106 main_v108 main_v109 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1048576x64, .f32⟩) main_call5_v0) (broadcastInDim S1048576x64 ![] bcast_S_S1048576x64),
    TRef.binary (TRef.of (T := ⟨S1048576x64, .f32⟩) main_v109) (TRef.of (T := ⟨S1048576x64, .f32⟩) main_call5_v0) (TRef.of (T := ⟨S1048576x64, .f32⟩) main_v110) maximumf ]

theorem K4_out (V : Valuation τ sig (Elt F))
    (hin : V (Proc.devRef .tc main_v80) = val_main_v80 (F := F) x0 x1 x2 x3 x4 x5 x6 x7 x8 x9 x10 x11 x12 x13 x14 x15 x16 x17 x18 x19)
    (h20 : V (Proc.devRef .tc main_arg20) = x20)
    (h21 : V (Proc.devRef .tc main_arg21) = x21)
    (h22 : V (Proc.devRef .tc main_arg22) = x22)
    (h23 : V (Proc.devRef .tc main_arg23) = x23) :
    after K4 V (Proc.devRef .tc main_v110) = val_main_v110 (F := F) x0 x1 x2 x3 x4 x5 x6 x7 x8 x9 x10 x11 x12 x13 x14 x15 x16 x17 x18 x19 x20 x21 x22 x23 := by
  subst h20 h21 h22 h23
  simp (disch := decide) only [K4, after_cons, after_nil, nullary_result', unary_result', binary_result', ternary_result', reshape_result', nary3_result', nary5_result', nullary_result_ne', unary_result_ne', binary_result_ne', ternary_result_ne', reshape_result_ne', nary_result_ne']
  rw [hin]
  first | rfl | (simp only [TRef.ofBuf, TRef.toBuf, cast_eq]; rfl)

abbrev K4_W : List (Ref sig .tc) := [main_v81, main_v82, main_v83, main_v84, main_cst_15, main_v85, main_cst_16, main_v86, main_v87, main_v88, main_v89, main_v90, main_v91, main_cst_17, main_v92, main_cst_18, main_v93, main_v94, main_v95, main_v96, main_v97, main_cst_19, main_v98, main_v99, main_v100, main_v101, main_v102, main_v103, main_v104, main_v105, main_v106, main_v107, main_v108, main_v109, main_call5_cst, main_call5_v0, main_v110]
theorem K4_writes : (K4 : List (HloOp τ sig (Elt F))).Forall fun op =>
    op.writes ⊆ ((K4_W).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem K4_pass (V : Valuation τ sig (Elt F)) (r : Ref sig .tc) (hr : r ∈ argRefs) :
    after K4 V (Proc.devRef .tc r) = V (Proc.devRef .tc r) :=
  after_of_writes_sub K4 V K4_writes ((by decide : ∀ r ∈ argRefs, r ∉ K4_W) r hr)

abbrev K5 : List (HloOp τ sig (Elt F)) :=
  [ binary main_v110 main_arg24 main_v111 ((fun l r => Host.dotGeneral dot_S1048576x64_S64x32_S1048576x32_1_0_0_1_n_n none l r) : (⟨S1048576x64, .f32⟩ : BufTy).Contents (Elt F) → (⟨S64x32, .f32⟩ : BufTy).Contents (Elt F) → (⟨S1048576x32, .f32⟩ : BufTy).Contents (Elt F)),
    unary main_arg25 main_v112 (broadcastInDim S1x32 ![1] bcast_S32_S1x32_1 : (⟨S32, .f32⟩ : BufTy).Contents (Elt F) → (⟨S1x32, .f32⟩ : BufTy).Contents (Elt F)),
    unary main_v112 main_v113 (broadcastInDim S1048576x32 ![0, 1] bcast_S1x32_S1048576x32_0_1 : (⟨S1x32, .f32⟩ : BufTy).Contents (Elt F) → (⟨S1048576x32, .f32⟩ : BufTy).Contents (Elt F)),
    binary main_v111 main_v113 main_v114 (addf : (⟨S1048576x32, .f32⟩ : BufTy).Contents (Elt F) → (⟨S1048576x32, .f32⟩ : BufTy).Contents (Elt F) → (⟨S1048576x32, .f32⟩ : BufTy).Contents (Elt F)),
    nullary main_cst_20 (constant S_ .f32 0x00000000#32),
    binary main_v114 main_cst_20 main_v115 ((fun x v => Host.reduceAdd x v reducesTo_S1048576x32_S32_d0 h_S_) : (⟨S1048576x32, .f32⟩ : BufTy).Contents (Elt F) → (⟨S_, .f32⟩ : BufTy).Contents (Elt F) → (⟨S32, .f32⟩ : BufTy).Contents (Elt F)),
    nullary main_cst_21 (constant S_ .f32 0x49800000#32),
    unary main_cst_21 main_v116 (broadcastInDim S32 ![] bcast_S_S32 : (⟨S_, .f32⟩ : BufTy).Contents (Elt F) → (⟨S32, .f32⟩ : BufTy).Contents (Elt F)),
    binary main_v115 main_v116 main_v117 (Host.divf : (⟨S32, .f32⟩ : BufTy).Contents (Elt F) → (⟨S32, .f32⟩ : BufTy).Contents (Elt F) → (⟨S32, .f32⟩ : BufTy).Contents (Elt F)),
    unary main_v117 main_v118 (broadcastInDim S1x32 ![1] bcast_S32_S1x32_1 : (⟨S32, .f32⟩ : BufTy).Contents (Elt F) → (⟨S1x32, .f32⟩ : BufTy).Contents (Elt F)),
    unary main_v118 main_v119 (broadcastInDim S1048576x32 ![0, 1] bcast_S1x32_S1048576x32_0_1 : (⟨S1x32, .f32⟩ : BufTy).Contents (Elt F) → (⟨S1048576x32, .f32⟩ : BufTy).Contents (Elt F)),
    binary main_v114 main_v119 main_v120 (subf : (⟨S1048576x32, .f32⟩ : BufTy).Contents (Elt F) → (⟨S1048576x32, .f32⟩ : BufTy).Contents (Elt F) → (⟨S1048576x32, .f32⟩ : BufTy).Contents (Elt F)),
    binary main_v120 main_v120 main_v121 (mulf : (⟨S1048576x32, .f32⟩ : BufTy).Contents (Elt F) → (⟨S1048576x32, .f32⟩ : BufTy).Contents (Elt F) → (⟨S1048576x32, .f32⟩ : BufTy).Contents (Elt F)),
    nullary main_cst_22 (constant S_ .f32 0x00000000#32),
    binary main_v121 main_cst_22 main_v122 ((fun x v => Host.reduceAdd x v reducesTo_S1048576x32_S32_d0 h_S_) : (⟨S1048576x32, .f32⟩ : BufTy).Contents (Elt F) → (⟨S_, .f32⟩ : BufTy).Contents (Elt F) → (⟨S32, .f32⟩ : BufTy).Contents (Elt F)),
    nullary main_cst_23 (constant S_ .f32 0x49800000#32),
    unary main_cst_23 main_v123 (broadcastInDim S32 ![] bcast_S_S32 : (⟨S_, .f32⟩ : BufTy).Contents (Elt F) → (⟨S32, .f32⟩ : BufTy).Contents (Elt F)),
    binary main_v122 main_v123 main_v124 (Host.divf : (⟨S32, .f32⟩ : BufTy).Contents (Elt F) → (⟨S32, .f32⟩ : BufTy).Contents (Elt F) → (⟨S32, .f32⟩ : BufTy).Contents (Elt F)),
    unary main_v117 main_v125 (broadcastInDim S1x32 ![1] bcast_S32_S1x32_1 : (⟨S32, .f32⟩ : BufTy).Contents (Elt F) → (⟨S1x32, .f32⟩ : BufTy).Contents (Elt F)),
    unary main_v125 main_v126 (broadcastInDim S1048576x32 ![0, 1] bcast_S1x32_S1048576x32_0_1 : (⟨S1x32, .f32⟩ : BufTy).Contents (Elt F) → (⟨S1048576x32, .f32⟩ : BufTy).Contents (Elt F)),
    binary main_v114 main_v126 main_v127 (subf : (⟨S1048576x32, .f32⟩ : BufTy).Contents (Elt F) → (⟨S1048576x32, .f32⟩ : BufTy).Contents (Elt F) → (⟨S1048576x32, .f32⟩ : BufTy).Contents (Elt F)),
    nullary main_cst_24 (constant S_ .f32 0x3727C5AC#32),
    unary main_cst_24 main_v128 (broadcastInDim S32 ![] bcast_S_S32 : (⟨S_, .f32⟩ : BufTy).Contents (Elt F) → (⟨S32, .f32⟩ : BufTy).Contents (Elt F)),
    binary main_v124 main_v128 main_v129 (addf : (⟨S32, .f32⟩ : BufTy).Contents (Elt F) → (⟨S32, .f32⟩ : BufTy).Contents (Elt F) → (⟨S32, .f32⟩ : BufTy).Contents (Elt F)),
    unary main_v129 main_v130 (Host.rsqrt : (⟨S32, .f32⟩ : BufTy).Contents (Elt F) → (⟨S32, .f32⟩ : BufTy).Contents (Elt F)),
    unary main_v130 main_v131 (broadcastInDim S1x32 ![1] bcast_S32_S1x32_1 : (⟨S32, .f32⟩ : BufTy).Contents (Elt F) → (⟨S1x32, .f32⟩ : BufTy).Contents (Elt F)),
    unary main_v131 main_v132 (broadcastInDim S1048576x32 ![0, 1] bcast_S1x32_S1048576x32_0_1 : (⟨S1x32, .f32⟩ : BufTy).Contents (Elt F) → (⟨S1048576x32, .f32⟩ : BufTy).Contents (Elt F)),
    binary main_v127 main_v132 main_v133 (mulf : (⟨S1048576x32, .f32⟩ : BufTy).Contents (Elt F) → (⟨S1048576x32, .f32⟩ : BufTy).Contents (Elt F) → (⟨S1048576x32, .f32⟩ : BufTy).Contents (Elt F)),
    unary main_arg26 main_v134 (broadcastInDim S1x32 ![1] bcast_S32_S1x32_1 : (⟨S32, .f32⟩ : BufTy).Contents (Elt F) → (⟨S1x32, .f32⟩ : BufTy).Contents (Elt F)),
    unary main_v134 main_v135 (broadcastInDim S1048576x32 ![0, 1] bcast_S1x32_S1048576x32_0_1 : (⟨S1x32, .f32⟩ : BufTy).Contents (Elt F) → (⟨S1048576x32, .f32⟩ : BufTy).Contents (Elt F)),
    binary main_v133 main_v135 main_v136 (mulf : (⟨S1048576x32, .f32⟩ : BufTy).Contents (Elt F) → (⟨S1048576x32, .f32⟩ : BufTy).Contents (Elt F) → (⟨S1048576x32, .f32⟩ : BufTy).Contents (Elt F)),
    unary main_arg27 main_v137 (broadcastInDim S1x32 ![1] bcast_S32_S1x32_1 : (⟨S32, .f32⟩ : BufTy).Contents (Elt F) → (⟨S1x32, .f32⟩ : BufTy).Contents (Elt F)),
    unary main_v137 main_v138 (broadcastInDim S1048576x32 ![0, 1] bcast_S1x32_S1048576x32_0_1 : (⟨S1x32, .f32⟩ : BufTy).Contents (Elt F) → (⟨S1048576x32, .f32⟩ : BufTy).Contents (Elt F)),
    binary main_v136 main_v138 main_v139 (addf : (⟨S1048576x32, .f32⟩ : BufTy).Contents (Elt F) → (⟨S1048576x32, .f32⟩ : BufTy).Contents (Elt F) → (⟨S1048576x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1048576x32, .f32⟩) main_call6_v0) (broadcastInDim S1048576x32 ![] bcast_S_S1048576x32),
    TRef.binary (TRef.of (T := ⟨S1048576x32, .f32⟩) main_v139) (TRef.of (T := ⟨S1048576x32, .f32⟩) main_call6_v0) (TRef.of (T := ⟨S1048576x32, .f32⟩) main_v140) maximumf ]

theorem K5_out (V : Valuation τ sig (Elt F))
    (hin : V (Proc.devRef .tc main_v110) = val_main_v110 (F := F) x0 x1 x2 x3 x4 x5 x6 x7 x8 x9 x10 x11 x12 x13 x14 x15 x16 x17 x18 x19 x20 x21 x22 x23)
    (h24 : V (Proc.devRef .tc main_arg24) = x24)
    (h25 : V (Proc.devRef .tc main_arg25) = x25)
    (h26 : V (Proc.devRef .tc main_arg26) = x26)
    (h27 : V (Proc.devRef .tc main_arg27) = x27) :
    after K5 V (Proc.devRef .tc main_v140) = val_main_v140 (F := F) x0 x1 x2 x3 x4 x5 x6 x7 x8 x9 x10 x11 x12 x13 x14 x15 x16 x17 x18 x19 x20 x21 x22 x23 x24 x25 x26 x27 := by
  subst h24 h25 h26 h27
  simp (disch := decide) only [K5, after_cons, after_nil, nullary_result', unary_result', binary_result', ternary_result', reshape_result', nary3_result', nary5_result', nullary_result_ne', unary_result_ne', binary_result_ne', ternary_result_ne', reshape_result_ne', nary_result_ne']
  rw [hin]
  first | rfl | (simp only [TRef.ofBuf, TRef.toBuf, cast_eq]; rfl)

abbrev K5_W : List (Ref sig .tc) := [main_v111, main_v112, main_v113, main_v114, main_cst_20, main_v115, main_cst_21, main_v116, main_v117, main_v118, main_v119, main_v120, main_v121, main_cst_22, main_v122, main_cst_23, main_v123, main_v124, main_v125, main_v126, main_v127, main_cst_24, main_v128, main_v129, main_v130, main_v131, main_v132, main_v133, main_v134, main_v135, main_v136, main_v137, main_v138, main_v139, main_call6_cst, main_call6_v0, main_v140]
theorem K5_writes : (K5 : List (HloOp τ sig (Elt F))).Forall fun op =>
    op.writes ⊆ ((K5_W).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem K5_pass (V : Valuation τ sig (Elt F)) (r : Ref sig .tc) (hr : r ∈ argRefs) :
    after K5 V (Proc.devRef .tc r) = V (Proc.devRef .tc r) :=
  after_of_writes_sub K5 V K5_writes ((by decide : ∀ r ∈ argRefs, r ∉ K5_W) r hr)

abbrev K6 : List (HloOp τ sig (Elt F)) :=
  [ binary main_v140 main_arg28 main_v141 ((fun l r => Host.dotGeneral dot_S1048576x32_S32x1_S1048576x1_1_0_0_1_n_n none l r) : (⟨S1048576x32, .f32⟩ : BufTy).Contents (Elt F) → (⟨S32x1, .f32⟩ : BufTy).Contents (Elt F) → (⟨S1048576x1, .f32⟩ : BufTy).Contents (Elt F)),
    unary main_arg29 main_v142 (broadcastInDim S1x1 ![1] bcast_S1_S1x1_1 : (⟨S1, .f32⟩ : BufTy).Contents (Elt F) → (⟨S1x1, .f32⟩ : BufTy).Contents (Elt F)),
    unary main_v142 main_v143 (broadcastInDim S1048576x1 ![0, 1] bcast_S1x1_S1048576x1_0_1 : (⟨S1x1, .f32⟩ : BufTy).Contents (Elt F) → (⟨S1048576x1, .f32⟩ : BufTy).Contents (Elt F)),
    binary main_v141 main_v143 main_v144 (addf : (⟨S1048576x1, .f32⟩ : BufTy).Contents (Elt F) → (⟨S1048576x1, .f32⟩ : BufTy).Contents (Elt F) → (⟨S1048576x1, .f32⟩ : BufTy).Contents (Elt F)),
    unary main_v144 main_v145 (Host.negf : (⟨S1048576x1, .f32⟩ : BufTy).Contents (Elt F) → (⟨S1048576x1, .f32⟩ : BufTy).Contents (Elt F)),
    unary main_v145 main_v146 (Host.exp : (⟨S1048576x1, .f32⟩ : BufTy).Contents (Elt F) → (⟨S1048576x1, .f32⟩ : BufTy).Contents (Elt F)),
    nullary main_cst_25 (constant S_ .f32 0x3F800000#32),
    unary main_cst_25 main_v147 (broadcastInDim S1048576x1 ![] bcast_S_S1048576x1 : (⟨S_, .f32⟩ : BufTy).Contents (Elt F) → (⟨S1048576x1, .f32⟩ : BufTy).Contents (Elt F)),
    binary main_v147 main_v146 main_v148 (addf : (⟨S1048576x1, .f32⟩ : BufTy).Contents (Elt F) → (⟨S1048576x1, .f32⟩ : BufTy).Contents (Elt F) → (⟨S1048576x1, .f32⟩ : BufTy).Contents (Elt F)),
    nullary main_cst_26 (constant S_ .f32 0x3F800000#32),
    unary main_cst_26 main_v149 (broadcastInDim S1048576x1 ![] bcast_S_S1048576x1 : (⟨S_, .f32⟩ : BufTy).Contents (Elt F) → (⟨S1048576x1, .f32⟩ : BufTy).Contents (Elt F)),
    binary main_v149 main_v148 main_v150 (Host.divf : (⟨S1048576x1, .f32⟩ : BufTy).Contents (Elt F) → (⟨S1048576x1, .f32⟩ : BufTy).Contents (Elt F) → (⟨S1048576x1, .f32⟩ : BufTy).Contents (Elt F)),
    reshape main_v150 main_v151 rfl shapeCasts_S1048576x1_S1048576 ]

theorem K6_out (V : Valuation τ sig (Elt F))
    (hin : V (Proc.devRef .tc main_v140) = val_main_v140 (F := F) x0 x1 x2 x3 x4 x5 x6 x7 x8 x9 x10 x11 x12 x13 x14 x15 x16 x17 x18 x19 x20 x21 x22 x23 x24 x25 x26 x27)
    (h28 : V (Proc.devRef .tc main_arg28) = x28)
    (h29 : V (Proc.devRef .tc main_arg29) = x29) :
    after K6 V (Proc.devRef .tc main_v151) = val_main_v151 (F := F) x0 x1 x2 x3 x4 x5 x6 x7 x8 x9 x10 x11 x12 x13 x14 x15 x16 x17 x18 x19 x20 x21 x22 x23 x24 x25 x26 x27 x28 x29 := by
  subst h28 h29
  simp (disch := decide) only [K6, after_cons, after_nil, nullary_result', unary_result', binary_result', ternary_result', reshape_result', nary3_result', nary5_result', nullary_result_ne', unary_result_ne', binary_result_ne', ternary_result_ne', reshape_result_ne', nary_result_ne']
  rw [hin]
  first | rfl | (simp only [TRef.ofBuf, TRef.toBuf, cast_eq]; rfl)

abbrev K6_W : List (Ref sig .tc) := [main_v141, main_v142, main_v143, main_v144, main_v145, main_v146, main_cst_25, main_v147, main_v148, main_cst_26, main_v149, main_v150, main_v151]
theorem K6_writes : (K6 : List (HloOp τ sig (Elt F))).Forall fun op =>
    op.writes ⊆ ((K6_W).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

theorem K6_pass (V : Valuation τ sig (Elt F)) (r : Ref sig .tc) (hr : r ∈ argRefs) :
    after K6 V (Proc.devRef .tc r) = V (Proc.devRef .tc r) :=
  after_of_writes_sub K6 V K6_writes ((by decide : ∀ r ∈ argRefs, r ∉ K6_W) r hr)

abbrev ops : List (HloOp τ sig (Elt F)) := K1 ++ (K2 ++ (KJ ++ (K3 ++ (K4 ++ (K5 ++ K6)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  List.forall_append.mpr ⟨⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., binary_bufs_sub .., unary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., nary_bufs_sub .., nary_bufs_sub ..⟩,
    List.forall_append.mpr ⟨⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., binary_bufs_sub .., unary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., nary_bufs_sub .., nary_bufs_sub ..⟩,
    List.forall_append.mpr ⟨binary_bufs_sub ..,
    List.forall_append.mpr ⟨⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    List.forall_append.mpr ⟨⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    List.forall_append.mpr ⟨⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩,
    ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩⟩⟩⟩⟩⟩⟩

theorem ops_fresh : (ops : List (HloOp τ sig (Elt F))).Forall fun op => op.fresh = ∅ :=
  List.forall_append.mpr ⟨⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    List.forall_append.mpr ⟨⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    List.forall_append.mpr ⟨rfl,
    List.forall_append.mpr ⟨⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    List.forall_append.mpr ⟨⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    List.forall_append.mpr ⟨⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩,
    ⟨rfl, rfl, rfl, rfl, rfl, rfl, rfl, rfl, rfl, rfl, rfl, rfl, rfl⟩⟩⟩⟩⟩⟩⟩

theorem ops_split : (ops : List (HloOp τ sig (Elt F))) = K1 ++ (K2 ++ (KJ ++ (K3 ++ (K4 ++ (K5 ++ (K6)))))) := rfl

theorem ops_pass (V : Valuation τ sig (Elt F)) (r : Ref sig .tc) (hr : r ∈ argRefs) :
    after ops V (Proc.devRef .tc r) = V (Proc.devRef .tc r) := by
  rw [ops_split, StableHlo.after_append, StableHlo.after_append, StableHlo.after_append, StableHlo.after_append, StableHlo.after_append, StableHlo.after_append, K6_pass _ r hr, K5_pass _ r hr, K4_pass _ r hr, K3_pass _ r hr, KJ_pass _ r hr, K2_pass _ r hr, K1_pass _ r hr]

theorem after_ops (V : Valuation τ sig (Elt F)) :
    after ops V (Proc.devRef .tc main_v151) = val_main_v151 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) := by
  rw [ops_split, StableHlo.after_append, StableHlo.after_append, StableHlo.after_append, StableHlo.after_append, StableHlo.after_append, StableHlo.after_append]
  have p1 : ∀ r ∈ argRefs, (after K1 V) (Proc.devRef .tc r) = V (Proc.devRef .tc r) :=
    fun r hr => K1_pass V r hr
  have p2 : ∀ r ∈ argRefs, (after K2 (after K1 V)) (Proc.devRef .tc r) = V (Proc.devRef .tc r) :=
    fun r hr => (K2_pass _ r hr).trans (p1 r hr)
  have p3 : ∀ r ∈ argRefs, (after KJ (after K2 (after K1 V))) (Proc.devRef .tc r) = V (Proc.devRef .tc r) :=
    fun r hr => (KJ_pass _ r hr).trans (p2 r hr)
  have p4 : ∀ r ∈ argRefs, (after K3 (after KJ (after K2 (after K1 V)))) (Proc.devRef .tc r) = V (Proc.devRef .tc r) :=
    fun r hr => (K3_pass _ r hr).trans (p3 r hr)
  have p5 : ∀ r ∈ argRefs, (after K4 (after K3 (after KJ (after K2 (after K1 V))))) (Proc.devRef .tc r) = V (Proc.devRef .tc r) :=
    fun r hr => (K4_pass _ r hr).trans (p4 r hr)
  have p6 : ∀ r ∈ argRefs, (after K5 (after K4 (after K3 (after KJ (after K2 (after K1 V)))))) (Proc.devRef .tc r) = V (Proc.devRef .tc r) :=
    fun r hr => (K5_pass _ r hr).trans (p5 r hr)
  have s1 := K1_out V rfl rfl rfl rfl rfl rfl rfl rfl rfl
  have s2 := K2_out (after K1 V) (p1 main_arg7 (by decide)) (p1 main_arg8 (by decide)) (p1 main_arg9 (by decide)) (p1 main_arg10 (by decide)) (p1 main_arg11 (by decide)) (p1 main_arg12 (by decide)) (p1 main_arg13 (by decide)) (p1 main_arg14 (by decide)) (p1 main_arg15 (by decide))
  have s24 : (after K2 (after K1 V)) (Proc.devRef .tc main_v24) = _ :=
    (after_of_writes_sub K2 (after K1 V) K2_writes (by decide : main_v24 ∉ K2_W)).trans s1
  have sJ := KJ_out (after K2 (after K1 V)) s24 s2
  have s3 := K3_out (after KJ (after K2 (after K1 V))) sJ (p3 main_arg16 (by decide)) (p3 main_arg17 (by decide)) (p3 main_arg18 (by decide)) (p3 main_arg19 (by decide))
  have s4 := K4_out (after K3 (after KJ (after K2 (after K1 V)))) s3 (p4 main_arg20 (by decide)) (p4 main_arg21 (by decide)) (p4 main_arg22 (by decide)) (p4 main_arg23 (by decide))
  have s5 := K5_out (after K4 (after K3 (after KJ (after K2 (after K1 V))))) s4 (p5 main_arg24 (by decide)) (p5 main_arg25 (by decide)) (p5 main_arg26 (by decide)) (p5 main_arg27 (by decide))
  exact K6_out (after K5 (after K4 (after K3 (after KJ (after K2 (after K1 V)))))) s5 (p6 main_arg28 (by decide)) (p6 main_arg29 (by decide))

set_option maxRecDepth 8192 in

theorem run_hand (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151) = val_main_v151 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c main_v151).trans (after_ops (launchContents m c)),
      (h c main_arg0).trans (ops_pass (launchContents m c) main_arg0 (by decide)),
      (h c main_arg1).trans (ops_pass (launchContents m c) main_arg1 (by decide)),
      (h c main_arg2).trans (ops_pass (launchContents m c) main_arg2 (by decide)),
      (h c main_arg3).trans (ops_pass (launchContents m c) main_arg3 (by decide)),
      (h c main_arg4).trans (ops_pass (launchContents m c) main_arg4 (by decide)),
      (h c main_arg5).trans (ops_pass (launchContents m c) main_arg5 (by decide)),
      (h c main_arg6).trans (ops_pass (launchContents m c) main_arg6 (by decide)),
      (h c main_arg7).trans (ops_pass (launchContents m c) main_arg7 (by decide)),
      (h c main_arg8).trans (ops_pass (launchContents m c) main_arg8 (by decide)),
      (h c main_arg9).trans (ops_pass (launchContents m c) main_arg9 (by decide)),
      (h c main_arg10).trans (ops_pass (launchContents m c) main_arg10 (by decide)),
      (h c main_arg11).trans (ops_pass (launchContents m c) main_arg11 (by decide)),
      (h c main_arg12).trans (ops_pass (launchContents m c) main_arg12 (by decide)),
      (h c main_arg13).trans (ops_pass (launchContents m c) main_arg13 (by decide)),
      (h c main_arg14).trans (ops_pass (launchContents m c) main_arg14 (by decide)),
      (h c main_arg15).trans (ops_pass (launchContents m c) main_arg15 (by decide)),
      (h c main_arg16).trans (ops_pass (launchContents m c) main_arg16 (by decide)),
      (h c main_arg17).trans (ops_pass (launchContents m c) main_arg17 (by decide)),
      (h c main_arg18).trans (ops_pass (launchContents m c) main_arg18 (by decide)),
      (h c main_arg19).trans (ops_pass (launchContents m c) main_arg19 (by decide)),
      (h c main_arg20).trans (ops_pass (launchContents m c) main_arg20 (by decide)),
      (h c main_arg21).trans (ops_pass (launchContents m c) main_arg21 (by decide)),
      (h c main_arg22).trans (ops_pass (launchContents m c) main_arg22 (by decide)),
      (h c main_arg23).trans (ops_pass (launchContents m c) main_arg23 (by decide)),
      (h c main_arg24).trans (ops_pass (launchContents m c) main_arg24 (by decide)),
      (h c main_arg25).trans (ops_pass (launchContents m c) main_arg25 (by decide)),
      (h c main_arg26).trans (ops_pass (launchContents m c) main_arg26 (by decide)),
      (h c main_arg27).trans (ops_pass (launchContents m c) main_arg27 (by decide)),
      (h c main_arg28).trans (ops_pass (launchContents m c) main_arg28 (by decide)),
      (h c main_arg29).trans (ops_pass (launchContents m c) main_arg29 (by decide))⟩)
    (run_seq scopedRefs_eq scopedSems_eq defs main (fun _ => ops) main_eq (fun _ => ops_sub) m ρ
      (fun _ => List.forall_iff_forall_mem.mp ops_fresh))

end Cert.ReferenceIdeal.RefValue

end
-- ==== Proof.RefValueTools.lean ====
import Idealize.ShloMosaic.Lib.ValueIdx
import Idealize.ShloMosaic.Lib.IdealHost
import Idealize.ShloMosaic.Lib.Pipeline.Value
import Idealize.ShloMosaic.Lib.StableHlo.Predicate

noncomputable section

namespace Cert.ReferenceIdeal.RefValue

open Idealize.ShloMosaic Idealize.ShloMosaic.ValueIdx Idealize.ShloMosaic.StableHlo.Predicate

theorem ofBits_fifteen : Ideal.ofBits .f32 0x41700000#32 = ((15 : ℝ) : EReal) := by
  simp [Ideal.ofBits, Ideal.ieee, -EReal.coe_mul]; norm_num

theorem ofBits_hundred : Ideal.ofBits .f32 0x42C80000#32 = ((100 : ℝ) : EReal) := by
  simp [Ideal.ofBits, Ideal.ieee, -EReal.coe_mul]; norm_num

theorem ofBits_rows : Ideal.ofBits .f32 0x49800000#32 = ((1048576 : ℝ) : EReal) := by
  simp [Ideal.ofBits, Ideal.ieee, -EReal.coe_mul]; norm_num

theorem wrap_of_lt (w C : BitVec 32) (hw : w.toNat < 2 ^ 31) :
    Scalar.select (IntOp.cmpi .slt w 0#32) (IntOp.addi w C) w = w := by
  have h0 : ¬IntOp.cmpi .slt w 0#32 = 1#1 := fun h =>
    Nat.not_lt_zero _ ((slt_iff_toNat hw (by decide)).mp h)
  rw [eq_zero_of_ne_one h0, select_zero]

theorem clamp_of_lt (w : BitVec 32) (C : Nat) (hC : C ≤ 2 ^ 31) (hw : w.toNat < C) :
    min w.toInt.toNat (C - 1) = w.toNat := by
  have h : w.toInt = w.toNat := toInt_eq_toNat_of_lt (by omega)
  omega

theorem one_hot_entry (w : BitVec 32) (c : Nat) :
    FloatOps.uitofp (F := Ideal) .f32 (IntOp.cmpi .eq w (BitVec.ofNat 32 c))
      = if w = BitVec.ofNat 32 c then (1 : EReal) else 0 := by
  by_cases h : w = BitVec.ofNat 32 c
  · rw [if_pos h, cmpi_eq_iff.mpr h]
    show (((1#1 : BitVec 1).toNat : ℝ) : EReal) = 1
    simp
  · rw [if_neg h, eq_zero_of_ne_one (fun hc => h (cmpi_eq_iff.mp hc))]
    show (((0#1 : BitVec 1).toNat : ℝ) : EReal) = 0
    simp

section RowGather
variable {α : Type}

abbrev rowDims (C D R : Nat)
    (wf : GatherDims.WF ⟨2, ![C, D]⟩ ⟨2, ![R, 1]⟩ ⟨2, ![R, D]⟩ [1] [0] [] [0] [] 1 ![1, D]) :
    GatherDims ⟨2, ![C, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

theorem rowDims_operand_0 {C D R w : Nat}
    (wf : GatherDims.WF ⟨2, ![C, D]⟩ ⟨2, ![R, 1]⟩ ⟨2, ![R, D]⟩ [1] [0] [] [0] [] 1 ![1, D])
    (idx : IVec ⟨2, ![R, 1]⟩ w) (r : Fin R) (e : Fin D) :
    ((rowDims C D R wf).operandIdx (ix2 r e) idx 0).val = min (idx (ix2 r (0 : Fin 1))).toInt.toNat (C - 1) := by
  show (rowDims C D R wf).start (ix2 r e) idx 0 + (rowDims C D R wf).batchCoord (ix2 r e) 0
    + (rowDims C D R wf).offCoord (ix2 r e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin (⟨2, ![C, D]⟩ : Shape).rank) ∈ (rowDims C D R wf).startIndexMap from
    List.mem_singleton.mpr rfl)]
  have hsi : (rowDims C D R wf).siIdx (ix2 r e)
      ⟨List.idxOf (0 : Fin (⟨2, ![C, D]⟩ : Shape).rank) (rowDims C D R wf).startIndexMap,
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem rowDims_operand_1 {C D R w : Nat}
    (wf : GatherDims.WF ⟨2, ![C, D]⟩ ⟨2, ![R, 1]⟩ ⟨2, ![R, D]⟩ [1] [0] [] [0] [] 1 ![1, D])
    (idx : IVec ⟨2, ![R, 1]⟩ w) (r : Fin R) (e : Fin D) :
    ((rowDims C D R wf).operandIdx (ix2 r e) idx 1).val = e.val := by
  show (rowDims C D R wf).start (ix2 r e) idx 1 + (rowDims C D R wf).batchCoord (ix2 r e) 1
    + (rowDims C D R wf).offCoord (ix2 r e) 1 = _
  rw [GatherDims.batchCoord_eq_zero _ _ _ List.not_mem_nil]
  unfold GatherDims.start
  rw [dif_neg (show ¬(1 : Fin (⟨2, ![C, D]⟩ : Shape).rank) ∈ (rowDims C D R wf).startIndexMap from by
    show ¬(1 : Fin 2) ∈ ([0] : List (Fin 2)); decide)]
  unfold GatherDims.offCoord
  rw [dif_pos (show (1 : Fin (⟨2, ![C, D]⟩ : Shape).rank) ∈ (rowDims C D R wf).sKept from
    (GatherDims.mem_sKept _ _).mpr ⟨by show ¬(1 : Fin 2) ∈ ([0] : List (Fin 2)); decide, List.not_mem_nil⟩)]
  simp only [Nat.add_zero, Nat.zero_add]
  rfl

theorem gather_row_apply {C D R w : Nat} (hC : 0 < C)
    (wf : GatherDims.WF ⟨2, ![C, D]⟩ ⟨2, ![R, 1]⟩ ⟨2, ![R, D]⟩ [1] [0] [] [0] [] 1 ![1, D])
    (x : (⟨2, ![C, D]⟩ : Shape).Idx → α) (idx : IVec ⟨2, ![R, 1]⟩ w) (r : Fin R) (e : Fin D) :
    Host.gather (rowDims C D R wf) x idx (ix2 r e)
      = x (ix2 (⟨min (idx (ix2 r (0 : Fin 1))).toInt.toNat (C - 1), by omega⟩ : Fin C) e) := by
  unfold Host.gather
  congr 1
  funext a
  refine Fin.ext ?_
  match a with
  | ⟨0, _⟩ => exact rowDims_operand_0 wf idx r e
  | ⟨1, _⟩ => exact rowDims_operand_1 wf idx r e

end RowGather

section Concat
variable {α : Type}

theorem concat_cols {R T : Nat} (xs : List ((s : Shape) × (s.Idx → α)))
    (h : Shape.Concatenates (xs.map (·.1)) ⟨2, ![R, T]⟩ 1) (n : Fin R) (c : Fin T)
    (k : Nat) (hk : k < xs.length) (W : Nat) (x₁ : (⟨2, ![R, W]⟩ : Shape).Idx → α)
    (hxk : xs[k] = ⟨⟨2, ![R, W]⟩, x₁⟩) (pre : Nat)
    (hpre : (((xs.take k).map (·.1)).map fun s : Shape =>
      if h : s.rank = (⟨2, ![R, T]⟩ : Shape).rank then
        s.size ((1 : Fin (⟨2, ![R, T]⟩ : Shape).rank).cast h.symm) else 0).sum = pre)
    (c' : Fin W) (hc : pre + c'.val = c.val) :
    concatenate ⟨2, ![R, T]⟩ 1 xs h (ix2 n c) = x₁ (ix2 n c') :=
  concatenate_apply_piece 1 xs h (ix2 n c) k hk _ x₁ hxk rfl pre hpre (ix2 n c')
    (fun b => by
      match b with
      | ⟨0, _⟩ => exact fun _ => rfl
      | ⟨1, _⟩ => exact fun hb => absurd (Fin.ext rfl) hb)
    hc

end Concat

end Cert.ReferenceIdeal.RefValue

end
-- ==== Proof.RefValueMath.lean ====
import proofs.«412578_j66537633349983_3_alg».proof.Proof.Arrays
import proofs.«412578_j66537633349983_3_alg».proof.Proof.RefValueTools

noncomputable section

namespace Cert.ReferenceIdeal.RefValue

open Idealize.ShloMosaic Idealize.ShloMosaic.ValueIdx Cert.Spec

theorem nums_concat (q0 q1 q2 : (Sh2 NB 1).Idx → EReal)
    (h : Shape.Concatenates [Sh2 NB 1, Sh2 NB 1, Sh2 NB 1] (Sh2 NB 3) 1) (n : Fin NB) :
    concatenate (Sh2 NB 3) 1 [⟨Sh2 NB 1, q0⟩, ⟨Sh2 NB 1, q1⟩, ⟨Sh2 NB 1, q2⟩] h (ix2 n (0 : Fin 3)) = q0 (ix2 n (0 : Fin 1))
    ∧ concatenate (Sh2 NB 3) 1 [⟨Sh2 NB 1, q0⟩, ⟨Sh2 NB 1, q1⟩, ⟨Sh2 NB 1, q2⟩] h (ix2 n (1 : Fin 3)) = q1 (ix2 n (0 : Fin 1))
    ∧ concatenate (Sh2 NB 3) 1 [⟨Sh2 NB 1, q0⟩, ⟨Sh2 NB 1, q1⟩, ⟨Sh2 NB 1, q2⟩] h (ix2 n (2 : Fin 3)) = q2 (ix2 n (0 : Fin 1)) :=
  ⟨concat_cols [⟨Sh2 NB 1, q0⟩, ⟨Sh2 NB 1, q1⟩, ⟨Sh2 NB 1, q2⟩] h n (0 : Fin 3) 0 (by simp) 1 q0 rfl 0 rfl (0 : Fin 1) rfl,
   concat_cols [⟨Sh2 NB 1, q0⟩, ⟨Sh2 NB 1, q1⟩, ⟨Sh2 NB 1, q2⟩] h n (1 : Fin 3) 1 (by simp) 1 q1 rfl 1 rfl (0 : Fin 1) rfl,
   concat_cols [⟨Sh2 NB 1, q0⟩, ⟨Sh2 NB 1, q1⟩, ⟨Sh2 NB 1, q2⟩] h n (2 : Fin 3) 2 (by simp) 1 q2 rfl 2 rfl (0 : Fin 1) rfl⟩

theorem pet_concat (p0 : (Sh2 NB 8).Idx → EReal) (p1 p2 : (Sh2 NB 3).Idx → EReal) (p3 : (Sh2 NB 8).Idx → EReal)
    (p4 : (Sh2 NB 3).Idx → EReal)
    (h : Shape.Concatenates [Sh2 NB 8, Sh2 NB 3, Sh2 NB 3, Sh2 NB 8, Sh2 NB 3] (Sh2 NB 25) 1)
    (bemb : Fin 15 → Fin 8 → EReal) (temb : Fin 9 → Fin 8 → EReal) (breed size energy temp : BitVec 32)
    (age social weight : EReal) (n : Fin NB)
    (h0 : ∀ e : Fin 8, p0 (ix2 n e) = bemb (dec 15 breed) e)
    (h1 : ∀ c : Fin 3, p1 (ix2 n c) = oh size c.val)
    (h2 : ∀ c : Fin 3, p2 (ix2 n c) = oh energy c.val)
    (h3 : ∀ e : Fin 8, p3 (ix2 n e) = temb (dec 9 temp) e)
    (h4 : p4 (ix2 n (0 : Fin 3)) = Ideal.div age c15)
    (h5 : p4 (ix2 n (1 : Fin 3)) = social)
    (h6 : p4 (ix2 n (2 : Fin 3)) = Ideal.div weight c100)
    (j : Fin 25) :
    concatenate (Sh2 NB 25) 1 [⟨Sh2 NB 8, p0⟩, ⟨Sh2 NB 3, p1⟩, ⟨Sh2 NB 3, p2⟩, ⟨Sh2 NB 8, p3⟩, ⟨Sh2 NB 3, p4⟩] h (ix2 n j)
      = petR bemb temb breed size energy temp age social weight j := by
  have hj := j.isLt
  unfold petR
  by_cases c8 : j.val < 8
  · rw [dif_pos c8]
    exact (concat_cols [⟨Sh2 NB 8, p0⟩, ⟨Sh2 NB 3, p1⟩, ⟨Sh2 NB 3, p2⟩, ⟨Sh2 NB 8, p3⟩, ⟨Sh2 NB 3, p4⟩] h n j 0 (by simp) 8 p0 rfl 0 rfl ⟨j.val, c8⟩
      (by show 0 + j.val = j.val; omega)).trans (h0 ⟨j.val, c8⟩)
  rw [dif_neg c8]
  by_cases c11 : j.val < 11
  · rw [if_pos c11]
    exact (concat_cols [⟨Sh2 NB 8, p0⟩, ⟨Sh2 NB 3, p1⟩, ⟨Sh2 NB 3, p2⟩, ⟨Sh2 NB 8, p3⟩, ⟨Sh2 NB 3, p4⟩] h n j 1 (by simp) 3 p1 rfl 8 rfl ⟨j.val - 8, by omega⟩
      (by show 8 + (j.val - 8) = j.val; omega)).trans (h1 ⟨j.val - 8, by omega⟩)
  rw [if_neg c11]
  by_cases c14 : j.val < 14
  · rw [if_pos c14]
    exact (concat_cols [⟨Sh2 NB 8, p0⟩, ⟨Sh2 NB 3, p1⟩, ⟨Sh2 NB 3, p2⟩, ⟨Sh2 NB 8, p3⟩, ⟨Sh2 NB 3, p4⟩] h n j 2 (by simp) 3 p2 rfl 11 rfl ⟨j.val - 11, by omega⟩
      (by show 11 + (j.val - 11) = j.val; omega)).trans (h2 ⟨j.val - 11, by omega⟩)
  rw [if_neg c14]
  by_cases c22 : j.val < 22
  · rw [dif_pos c22]
    exact (concat_cols [⟨Sh2 NB 8, p0⟩, ⟨Sh2 NB 3, p1⟩, ⟨Sh2 NB 3, p2⟩, ⟨Sh2 NB 8, p3⟩, ⟨Sh2 NB 3, p4⟩] h n j 3 (by simp) 8 p3 rfl 14 rfl ⟨j.val - 14, by omega⟩
      (by show 14 + (j.val - 14) = j.val; omega)).trans (h3 ⟨j.val - 14, by omega⟩)
  rw [dif_neg c22]
  by_cases e22 : j.val = 22
  · rw [if_pos e22]
    exact (concat_cols [⟨Sh2 NB 8, p0⟩, ⟨Sh2 NB 3, p1⟩, ⟨Sh2 NB 3, p2⟩, ⟨Sh2 NB 8, p3⟩, ⟨Sh2 NB 3, p4⟩] h n j 4 (by simp) 3 p4 rfl 22 rfl (0 : Fin 3)
      (by show 22 + 0 = j.val; omega)).trans h4
  rw [if_neg e22]
  by_cases e23 : j.val = 23
  · rw [if_pos e23]
    exact (concat_cols [⟨Sh2 NB 8, p0⟩, ⟨Sh2 NB 3, p1⟩, ⟨Sh2 NB 3, p2⟩, ⟨Sh2 NB 8, p3⟩, ⟨Sh2 NB 3, p4⟩] h n j 4 (by simp) 3 p4 rfl 22 rfl (1 : Fin 3)
      (by show 22 + 1 = j.val; omega)).trans h5
  rw [if_neg e23]
  exact (concat_cols [⟨Sh2 NB 8, p0⟩, ⟨Sh2 NB 3, p1⟩, ⟨Sh2 NB 3, p2⟩, ⟨Sh2 NB 8, p3⟩, ⟨Sh2 NB 3, p4⟩] h n j 4 (by simp) 3 p4 rfl 22 rfl (2 : Fin 3)
    (by show 22 + 2 = j.val; omega)).trans h6

theorem pair_concat (f1 f2 : (Sh2 NB 25).Idx → EReal)
    (h : Shape.Concatenates [Sh2 NB 25, Sh2 NB 25] (Sh2 NB 50) 1) (n : Fin NB) (k : Fin 50) :
    concatenate (Sh2 NB 50) 1 [⟨Sh2 NB 25, f1⟩, ⟨Sh2 NB 25, f2⟩] h (ix2 n k)
      = if hk : k.val < 25 then f1 (ix2 n ⟨k.val, hk⟩) else f2 (ix2 n ⟨k.val - 25, by omega⟩) := by
  have hk50 := k.isLt
  by_cases hk : k.val < 25
  · rw [dif_pos hk]
    exact concat_cols [⟨Sh2 NB 25, f1⟩, ⟨Sh2 NB 25, f2⟩] h n k 0 (by simp) 25 f1 rfl 0 rfl ⟨k.val, hk⟩ (by show 0 + k.val = k.val; omega)
  · rw [dif_neg hk]
    exact concat_cols [⟨Sh2 NB 25, f1⟩, ⟨Sh2 NB 25, f2⟩] h n k 1 (by simp) 25 f2 rfl 25 rfl ⟨k.val - 25, by omega⟩
      (by show 25 + (k.val - 25) = k.val; omega)

theorem act_of_stages {J : Nat} (H : Fin NB → Fin J → EReal) (g bt : Fin J → EReal) (n : Fin NB) (j : Fin J)
    (m v : EReal)
    (hm : m = Ideal.div (Ideal.ofBits .f32 0x00000000#32 + ∑ k : Fin 1048576, H k j) (Ideal.ofBits .f32 0x49800000#32))
    (hv : v = Ideal.div (Ideal.ofBits .f32 0x00000000#32 + ∑ k : Fin 1048576, (H k j - m) * (H k j - m))
      (Ideal.ofBits .f32 0x49800000#32)) :
    max (((H n j - m) * Ideal.rsqrt (v + Ideal.ofBits .f32 0x3727C5AC#32)) * g j + bt j) (Ideal.ofBits .f32 0x00000000#32)
      = actR cntE epsE H g bt n j := by
  have hm' : m = muR cntE H j := by
    rw [hm, Ideal.ofBits_zero_f32, zero_add, ofBits_rows]; rfl
  have hv' : v = varR cntE H j := by
    rw [hv, Ideal.ofBits_zero_f32, zero_add, ofBits_rows, hm']; rfl
  rw [hm', hv', Ideal.ofBits_zero_f32]
  rfl

theorem logistic_of_stages (z : EReal) :
    Ideal.div (Ideal.ofBits .f32 0x3F800000#32) (Ideal.ofBits .f32 0x3F800000#32 + Ideal.exp (-z)) = Ideal.logistic z := by
  rw [Ideal.ofBits_one_f32]; rfl

end Cert.ReferenceIdeal.RefValue

end
-- ==== Proof.RefValueFeat.lean ====
import proofs.«412578_j66537633349983_3_alg».proof.Proof.RefStages
import proofs.«412578_j66537633349983_3_alg».proof.Proof.Arrays
import proofs.«412578_j66537633349983_3_alg».proof.Proof.RefValueMath

noncomputable section

namespace Cert.ReferenceIdeal.RefValue

open Cert.ReferenceIdeal Cert.ReferenceIdeal.Gen Cert.ReferenceIdeal.Read Idealize.ShloMosaic Idealize.ShloMosaic.ValueIdx Cert.Spec

theorem breed1_row (A : Arrays) (n : Fin NB) (hw : (A.breed1 (ix1 n)).toNat < 15) (e : Fin 8) :
    val_main_v6 (F := Ideal) A.breed1 A.bemb (ix2 n e) = A.bemb (ix2 (dec 15 (A.breed1 (ix1 n))) e) := by
  have hs : val_main_v5 (F := Ideal) A.breed1 (ix2 n (0 : Fin 1)) = A.breed1 (ix1 n) := by
    rw [val_main_v5_apply, val_main_v4_apply, val_main_v1_apply, val_main_v3_apply, val_main_v0_apply,
      val_main_v2_apply, val_main_c_apply, val_main_c_0_apply]
    have e5 : idx_main_v5 (ix2 n (0 : Fin 1)) = ix1 n := funext fun a => Fin.ext (by match a with | ⟨0, _⟩ => rfl)
    rw [e5]
    exact wrap_of_lt _ _ (by omega)
  unfold val_main_v6
  refine (gather_row_apply (by decide) _ A.bemb _ n e).trans
    (congrArg (fun r : Fin 15 => A.bemb (ix2 r e)) (Fin.ext ?_))
  show min (val_main_v5 (F := Ideal) A.breed1 (ix2 n (0 : Fin 1))).toInt.toNat (15 - 1) = (A.breed1 (ix1 n)).toNat % 15
  rw [hs, clamp_of_lt _ 15 (by norm_num) hw, Nat.mod_eq_of_lt hw]

theorem temp1_row (A : Arrays) (n : Fin NB) (hw : (A.temp1 (ix1 n)).toNat < 9) (e : Fin 8) :
    val_main_v13 (F := Ideal) A.temp1 A.temb (ix2 n e) = A.temb (ix2 (dec 9 (A.temp1 (ix1 n))) e) := by
  have hs : val_main_v12 (F := Ideal) A.temp1 (ix2 n (0 : Fin 1)) = A.temp1 (ix1 n) := by
    rw [val_main_v12_apply, val_main_v11_apply, val_main_v8_apply, val_main_v10_apply, val_main_v7_apply,
      val_main_v9_apply, val_main_c_1_apply, val_main_c_2_apply]
    have e5 : idx_main_v12 (ix2 n (0 : Fin 1)) = ix1 n := funext fun a => Fin.ext (by match a with | ⟨0, _⟩ => rfl)
    rw [e5]
    exact wrap_of_lt _ _ (by omega)
  unfold val_main_v13
  refine (gather_row_apply (by decide) _ A.temb _ n e).trans
    (congrArg (fun r : Fin 9 => A.temb (ix2 r e)) (Fin.ext ?_))
  show min (val_main_v12 (F := Ideal) A.temp1 (ix2 n (0 : Fin 1))).toInt.toNat (9 - 1) = (A.temp1 (ix1 n)).toNat % 9
  rw [hs, clamp_of_lt _ 9 (by norm_num) hw, Nat.mod_eq_of_lt hw]

theorem size1_oh (A : Arrays) (n : Fin NB) (c : Fin 3) :
    val_main_v14 (F := Ideal) A.size1 (ix2 n c) = oh (A.size1 (ix1 n)) c.val := by
  rw [val_main_v14_apply, val_main_call0_v4_apply, val_main_call0_v2_apply, val_main_call0_v0_apply,
    val_main_call0_v3_apply, val_main_call0_v1_apply]
  have e0 : idx_main_call0_v0 (idx_main_call0_v2 (ix2 n c)) = ix1 n := funext fun a => Fin.ext (by match a with | ⟨0, _⟩ => rfl)
  rw [e0]
  exact one_hot_entry _ _

theorem energy1_oh (A : Arrays) (n : Fin NB) (c : Fin 3) :
    val_main_v15 (F := Ideal) A.energy1 (ix2 n c) = oh (A.energy1 (ix1 n)) c.val := by
  rw [val_main_v15_apply, val_main_call1_v4_apply, val_main_call1_v2_apply, val_main_call1_v0_apply,
    val_main_call1_v3_apply, val_main_call1_v1_apply]
  have e0 : idx_main_call1_v0 (idx_main_call1_v2 (ix2 n c)) = ix1 n := funext fun a => Fin.ext (by match a with | ⟨0, _⟩ => rfl)
  rw [e0]
  exact one_hot_entry _ _

theorem age1_num (A : Arrays) (n : Fin NB) :
    val_main_v20 (F := Ideal) A.age1 (ix2 n (0 : Fin 1)) = Ideal.div (A.age1 (ix1 n)) c15 := by
  rw [val_main_v20_apply, val_main_v17_apply, val_main_v16_apply, val_main_cst_apply]
  have e0 : idx_main_v20 (ix2 n (0 : Fin 1)) = ix1 n := funext fun a => Fin.ext (by match a with | ⟨0, _⟩ => rfl)
  rw [e0]
  show Ideal.div (A.age1 (ix1 n)) (Ideal.ofBits .f32 0x41700000#32) = _
  rw [ofBits_fifteen]
  rfl

theorem social1_num (A : Arrays) (n : Fin NB) :
    val_main_v21 (F := Ideal) A.social1 (ix2 n (0 : Fin 1)) = A.social1 (ix1 n) := by
  rw [val_main_v21_apply]
  have e0 : idx_main_v21 (ix2 n (0 : Fin 1)) = ix1 n := funext fun a => Fin.ext (by match a with | ⟨0, _⟩ => rfl)
  rw [e0]

theorem weight1_num (A : Arrays) (n : Fin NB) :
    val_main_v22 (F := Ideal) A.weight1 (ix2 n (0 : Fin 1)) = Ideal.div (A.weight1 (ix1 n)) c100 := by
  rw [val_main_v22_apply, val_main_v19_apply, val_main_v18_apply, val_main_cst_3_apply]
  have e0 : idx_main_v22 (ix2 n (0 : Fin 1)) = ix1 n := funext fun a => Fin.ext (by match a with | ⟨0, _⟩ => rfl)
  rw [e0]
  show Ideal.div (A.weight1 (ix1 n)) (Ideal.ofBits .f32 0x42C80000#32) = _
  rw [ofBits_hundred]
  rfl

theorem pet1_feat (A : Arrays) (n : Fin NB) (hb : (A.breed1 (ix1 n)).toNat < 15) (ht : (A.temp1 (ix1 n)).toNat < 9)
    (j : Fin 25) :
    val_main_v24 (F := Ideal) A.breed1 A.size1 A.energy1 A.temp1 A.age1 A.social1 A.weight1 A.bemb A.temb (ix2 n j)
      = petR (inpOf A).bemb (inpOf A).temb ((inpOf A).breed1 n) ((inpOf A).size1 n) ((inpOf A).energy1 n)
          ((inpOf A).temp1 n) ((inpOf A).age1 n) ((inpOf A).social1 n) ((inpOf A).weight1 n) j := by
  have hnum := nums_concat (val_main_v20 (F := Ideal) A.age1) (val_main_v21 (F := Ideal) A.social1)
    (val_main_v22 (F := Ideal) A.weight1) concatenates_S1048576x1_S1048576x1_S1048576x1_S1048576x3_d1 n
  unfold val_main_v24
  exact pet_concat (val_main_v6 (F := Ideal) A.breed1 A.bemb) (val_main_v14 (F := Ideal) A.size1)
    (val_main_v15 (F := Ideal) A.energy1) (val_main_v13 (F := Ideal) A.temp1 A.temb)
    (val_main_v23 (F := Ideal) A.age1 A.social1 A.weight1)
    concatenates_S1048576x8_S1048576x3_S1048576x3_S1048576x8_S1048576x3_S1048576x25_d1
    (inpOf A).bemb (inpOf A).temb ((inpOf A).breed1 n) ((inpOf A).size1 n) ((inpOf A).energy1 n) ((inpOf A).temp1 n)
    ((inpOf A).age1 n) ((inpOf A).social1 n) ((inpOf A).weight1 n) n
    (fun e => breed1_row A n hb e) (fun c => size1_oh A n c) (fun c => energy1_oh A n c)
    (fun e => temp1_row A n ht e)
    (hnum.1.trans (age1_num A n)) (hnum.2.1.trans (social1_num A n)) (hnum.2.2.trans (weight1_num A n)) j

theorem breed2_row (A : Arrays) (n : Fin NB) (hw : (A.breed2 (ix1 n)).toNat < 15) (e : Fin 8) :
    val_main_v31 (F := Ideal) A.breed2 A.bemb (ix2 n e) = A.bemb (ix2 (dec 15 (A.breed2 (ix1 n))) e) := by
  have hs : val_main_v30 (F := Ideal) A.breed2 (ix2 n (0 : Fin 1)) = A.breed2 (ix1 n) := by
    rw [val_main_v30_apply, val_main_v29_apply, val_main_v26_apply, val_main_v28_apply, val_main_v25_apply,
      val_main_v27_apply, val_main_c_4_apply, val_main_c_5_apply]
    have e5 : idx_main_v30 (ix2 n (0 : Fin 1)) = ix1 n := funext fun a => Fin.ext (by match a with | ⟨0, _⟩ => rfl)
    rw [e5]
    exact wrap_of_lt _ _ (by omega)
  unfold val_main_v31
  refine (gather_row_apply (by decide) _ A.bemb _ n e).trans
    (congrArg (fun r : Fin 15 => A.bemb (ix2 r e)) (Fin.ext ?_))
  show min (val_main_v30 (F := Ideal) A.breed2 (ix2 n (0 : Fin 1))).toInt.toNat (15 - 1) = (A.breed2 (ix1 n)).toNat % 15
  rw [hs, clamp_of_lt _ 15 (by norm_num) hw, Nat.mod_eq_of_lt hw]

theorem temp2_row (A : Arrays) (n : Fin NB) (hw : (A.temp2 (ix1 n)).toNat < 9) (e : Fin 8) :
    val_main_v38 (F := Ideal) A.temp2 A.temb (ix2 n e) = A.temb (ix2 (dec 9 (A.temp2 (ix1 n))) e) := by
  have hs : val_main_v37 (F := Ideal) A.temp2 (ix2 n (0 : Fin 1)) = A.temp2 (ix1 n) := by
    rw [val_main_v37_apply, val_main_v36_apply, val_main_v33_apply, val_main_v35_apply, val_main_v32_apply,
      val_main_v34_apply, val_main_c_6_apply, val_main_c_7_apply]
    have e5 : idx_main_v37 (ix2 n (0 : Fin 1)) = ix1 n := funext fun a => Fin.ext (by match a with | ⟨0, _⟩ => rfl)
    rw [e5]
    exact wrap_of_lt _ _ (by omega)
  unfold val_main_v38
  refine (gather_row_apply (by decide) _ A.temb _ n e).trans
    (congrArg (fun r : Fin 9 => A.temb (ix2 r e)) (Fin.ext ?_))
  show min (val_main_v37 (F := Ideal) A.temp2 (ix2 n (0 : Fin 1))).toInt.toNat (9 - 1) = (A.temp2 (ix1 n)).toNat % 9
  rw [hs, clamp_of_lt _ 9 (by norm_num) hw, Nat.mod_eq_of_lt hw]

theorem size2_oh (A : Arrays) (n : Fin NB) (c : Fin 3) :
    val_main_v39 (F := Ideal) A.size2 (ix2 n c) = oh (A.size2 (ix1 n)) c.val := by
  rw [val_main_v39_apply, val_main_call2_v4_apply, val_main_call2_v2_apply, val_main_call2_v0_apply,
    val_main_call2_v3_apply, val_main_call2_v1_apply]
  have e0 : idx_main_call2_v0 (idx_main_call2_v2 (ix2 n c)) = ix1 n := funext fun a => Fin.ext (by match a with | ⟨0, _⟩ => rfl)
  rw [e0]
  exact one_hot_entry _ _

theorem energy2_oh (A : Arrays) (n : Fin NB) (c : Fin 3) :
    val_main_v40 (F := Ideal) A.energy2 (ix2 n c) = oh (A.energy2 (ix1 n)) c.val := by
  rw [val_main_v40_apply, val_main_call3_v4_apply, val_main_call3_v2_apply, val_main_call3_v0_apply,
    val_main_call3_v3_apply, val_main_call3_v1_apply]
  have e0 : idx_main_call3_v0 (idx_main_call3_v2 (ix2 n c)) = ix1 n := funext fun a => Fin.ext (by match a with | ⟨0, _⟩ => rfl)
  rw [e0]
  exact one_hot_entry _ _

theorem age2_num (A : Arrays) (n : Fin NB) :
    val_main_v45 (F := Ideal) A.age2 (ix2 n (0 : Fin 1)) = Ideal.div (A.age2 (ix1 n)) c15 := by
  rw [val_main_v45_apply, val_main_v42_apply, val_main_v41_apply, val_main_cst_8_apply]
  have e0 : idx_main_v45 (ix2 n (0 : Fin 1)) = ix1 n := funext fun a => Fin.ext (by match a with | ⟨0, _⟩ => rfl)
  rw [e0]
  show Ideal.div (A.age2 (ix1 n)) (Ideal.ofBits .f32 0x41700000#32) = _
  rw [ofBits_fifteen]
  rfl

theorem social2_num (A : Arrays) (n : Fin NB) :
    val_main_v46 (F := Ideal) A.social2 (ix2 n (0 : Fin 1)) = A.social2 (ix1 n) := by
  rw [val_main_v46_apply]
  have e0 : idx_main_v46 (ix2 n (0 : Fin 1)) = ix1 n := funext fun a => Fin.ext (by match a with | ⟨0, _⟩ => rfl)
  rw [e0]

theorem weight2_num (A : Arrays) (n : Fin NB) :
    val_main_v47 (F := Ideal) A.weight2 (ix2 n (0 : Fin 1)) = Ideal.div (A.weight2 (ix1 n)) c100 := by
  rw [val_main_v47_apply, val_main_v44_apply, val_main_v43_apply, val_main_cst_9_apply]
  have e0 : idx_main_v47 (ix2 n (0 : Fin 1)) = ix1 n := funext fun a => Fin.ext (by match a with | ⟨0, _⟩ => rfl)
  rw [e0]
  show Ideal.div (A.weight2 (ix1 n)) (Ideal.ofBits .f32 0x42C80000#32) = _
  rw [ofBits_hundred]
  rfl

theorem pet2_feat (A : Arrays) (n : Fin NB) (hb : (A.breed2 (ix1 n)).toNat < 15) (ht : (A.temp2 (ix1 n)).toNat < 9)
    (j : Fin 25) :
    val_main_v49 (F := Ideal) A.breed2 A.size2 A.energy2 A.temp2 A.age2 A.social2 A.weight2 A.bemb A.temb (ix2 n j)
      = petR (inpOf A).bemb (inpOf A).temb ((inpOf A).breed2 n) ((inpOf A).size2 n) ((inpOf A).energy2 n)
          ((inpOf A).temp2 n) ((inpOf A).age2 n) ((inpOf A).social2 n) ((inpOf A).weight2 n) j := by
  have hnum := nums_concat (val_main_v45 (F := Ideal) A.age2) (val_main_v46 (F := Ideal) A.social2)
    (val_main_v47 (F := Ideal) A.weight2) concatenates_S1048576x1_S1048576x1_S1048576x1_S1048576x3_d1 n
  unfold val_main_v49
  exact pet_concat (val_main_v31 (F := Ideal) A.breed2 A.bemb) (val_main_v39 (F := Ideal) A.size2)
    (val_main_v40 (F := Ideal) A.energy2) (val_main_v38 (F := Ideal) A.temp2 A.temb)
    (val_main_v48 (F := Ideal) A.age2 A.social2 A.weight2)
    concatenates_S1048576x8_S1048576x3_S1048576x3_S1048576x8_S1048576x3_S1048576x25_d1
    (inpOf A).bemb (inpOf A).temb ((inpOf A).breed2 n) ((inpOf A).size2 n) ((inpOf A).energy2 n) ((inpOf A).temp2 n)
    ((inpOf A).age2 n) ((inpOf A).social2 n) ((inpOf A).weight2 n) n
    (fun e => breed2_row A n hb e) (fun c => size2_oh A n c) (fun c => energy2_oh A n c)
    (fun e => temp2_row A n ht e)
    (hnum.1.trans (age2_num A n)) (hnum.2.1.trans (social2_num A n)) (hnum.2.2.trans (weight2_num A n)) j

theorem feat (A : Arrays) (hR : Range (inpOf A)) (n : Fin NB) (k : Fin 50) :
    val_main_v50 (F := Ideal) A.breed1 A.size1 A.energy1 A.temp1 A.age1 A.social1 A.weight1 A.breed2 A.size2 A.energy2 A.temp2 A.age2 A.social2 A.weight2 A.bemb A.temb (ix2 n k) = XR (inpOf A) n k := by
  have hk50 := k.isLt
  unfold val_main_v50
  refine (pair_concat _ _ _ n k).trans ?_
  unfold XR
  by_cases hk : k.val < 25
  · rw [dif_pos hk, dif_pos hk]
    exact pet1_feat A n (hR.breed1 n) (hR.temp1 n) ⟨k.val, hk⟩
  · rw [dif_neg hk, dif_neg hk]
    exact pet2_feat A n (hR.breed2 n) (hR.temp2 n) ⟨k.val - 25, by omega⟩

end Cert.ReferenceIdeal.RefValue

end
-- ==== Proof.RefValueL1.lean ====
import proofs.«412578_j66537633349983_3_alg».proof.Proof.RefStages
import proofs.«412578_j66537633349983_3_alg».proof.Proof.Arrays
import proofs.«412578_j66537633349983_3_alg».proof.Proof.RefValueMath

noncomputable section

namespace Cert.ReferenceIdeal.RefValue

open Cert.ReferenceIdeal Cert.ReferenceIdeal.Gen Cert.ReferenceIdeal.Read Idealize.ShloMosaic Idealize.ShloMosaic.ValueIdx Cert.Spec

theorem pre1 (A : Arrays) (X : Fin NB → Fin 50 → EReal)
    (hX : ∀ (n : Fin NB) (k : Fin 50), val_main_v50 (F := Ideal) A.breed1 A.size1 A.energy1 A.temp1 A.age1 A.social1 A.weight1 A.breed2 A.size2 A.energy2 A.temp2 A.age2 A.social2 A.weight2 A.bemb A.temb (ix2 n k) = X n k)
    (n : Fin NB) (j : Fin 128) :
    val_main_v54 (F := Ideal) A.breed1 A.size1 A.energy1 A.temp1 A.age1 A.social1 A.weight1 A.breed2 A.size2 A.energy2 A.temp2 A.age2 A.social2 A.weight2 A.bemb A.temb A.W1 A.b1 (ix2 n j) = preR X (inpOf A).W1 (inpOf A).b1 n j := by
  rw [val_main_v54_apply, val_main_v51_apply, val_main_v53_apply, val_main_v52_apply]
  have el : ∀ k : Fin 50, lidx_main_v51 (ix2 n j) k = ix2 n k := fun k => funext fun a => Fin.ext (by match a with | ⟨0, _⟩ => rfl | ⟨1, _⟩ => rfl)
  have er : ∀ k : Fin 50, ridx_main_v51 (ix2 n j) k = ix2 k j := fun k => funext fun a => Fin.ext (by match a with | ⟨0, _⟩ => rfl | ⟨1, _⟩ => rfl)
  have eb : idx_main_v52 (idx_main_v53 (ix2 n j)) = ix1 j := funext fun a => Fin.ext (by match a with | ⟨0, _⟩ => rfl)
  simp only [el, er, eb, hX, Ideal.addf_def]
  rfl

theorem mean1 (A : Arrays) (j : Fin 128) :
    val_main_v57 (F := Ideal) A.breed1 A.size1 A.energy1 A.temp1 A.age1 A.social1 A.weight1 A.breed2 A.size2 A.energy2 A.temp2 A.age2 A.social2 A.weight2 A.bemb A.temb A.W1 A.b1 (ix1 j)
      = Ideal.div (Ideal.ofBits .f32 0x00000000#32 + ∑ k : Fin 1048576, val_main_v54 (F := Ideal) A.breed1 A.size1 A.energy1 A.temp1 A.age1 A.social1 A.weight1 A.breed2 A.size2 A.energy2 A.temp2 A.age2 A.social2 A.weight2 A.bemb A.temb A.W1 A.b1 (ix2 k j))
          (Ideal.ofBits .f32 0x49800000#32) := by
  rw [val_main_v57_apply, val_main_v55_apply, val_main_v56_apply, val_main_cst_11_apply, val_main_cst_10_apply]
  have e : ∀ k : Fin 1048576, idx_main_v55 (ix1 j) k = ix2 k j := fun k => funext fun a => Fin.ext (by match a with | ⟨0, _⟩ => rfl | ⟨1, _⟩ => rfl)
  simp only [e, Ideal.hostDivf_def, Ideal.ofBits_def]

theorem var1 (A : Arrays) (j : Fin 128) :
    val_main_v64 (F := Ideal) A.breed1 A.size1 A.energy1 A.temp1 A.age1 A.social1 A.weight1 A.breed2 A.size2 A.energy2 A.temp2 A.age2 A.social2 A.weight2 A.bemb A.temb A.W1 A.b1 (ix1 j)
      = Ideal.div (Ideal.ofBits .f32 0x00000000#32 + ∑ k : Fin 1048576,
            (val_main_v54 (F := Ideal) A.breed1 A.size1 A.energy1 A.temp1 A.age1 A.social1 A.weight1 A.breed2 A.size2 A.energy2 A.temp2 A.age2 A.social2 A.weight2 A.bemb A.temb A.W1 A.b1 (ix2 k j) - val_main_v57 (F := Ideal) A.breed1 A.size1 A.energy1 A.temp1 A.age1 A.social1 A.weight1 A.breed2 A.size2 A.energy2 A.temp2 A.age2 A.social2 A.weight2 A.bemb A.temb A.W1 A.b1 (ix1 j))
              * (val_main_v54 (F := Ideal) A.breed1 A.size1 A.energy1 A.temp1 A.age1 A.social1 A.weight1 A.breed2 A.size2 A.energy2 A.temp2 A.age2 A.social2 A.weight2 A.bemb A.temb A.W1 A.b1 (ix2 k j) - val_main_v57 (F := Ideal) A.breed1 A.size1 A.energy1 A.temp1 A.age1 A.social1 A.weight1 A.breed2 A.size2 A.energy2 A.temp2 A.age2 A.social2 A.weight2 A.bemb A.temb A.W1 A.b1 (ix1 j)))
          (Ideal.ofBits .f32 0x49800000#32) := by
  rw [val_main_v64_apply, val_main_v62_apply, val_main_v63_apply, val_main_cst_13_apply, val_main_cst_12_apply]
  have e : ∀ k : Fin 1048576, idx_main_v62 (ix1 j) k = ix2 k j := fun k => funext fun a => Fin.ext (by match a with | ⟨0, _⟩ => rfl | ⟨1, _⟩ => rfl)
  have eb : ∀ k : Fin 1048576, idx_main_v58 (idx_main_v59 (ix2 k j)) = ix1 j := fun k => funext fun a => Fin.ext (by match a with | ⟨0, _⟩ => rfl)
  simp only [e, val_main_v61_apply, val_main_v60_apply, val_main_v59_apply, val_main_v58_apply, eb,
    Ideal.hostDivf_def, Ideal.ofBits_def, Ideal.mulf_def, Ideal.subf_def]

theorem act1_stages (A : Arrays) (n : Fin NB) (j : Fin 128) :
    val_main_v80 (F := Ideal) A.breed1 A.size1 A.energy1 A.temp1 A.age1 A.social1 A.weight1 A.breed2 A.size2 A.energy2 A.temp2 A.age2 A.social2 A.weight2 A.bemb A.temb A.W1 A.b1 A.g1 A.bt1 (ix2 n j)
      = max (((val_main_v54 (F := Ideal) A.breed1 A.size1 A.energy1 A.temp1 A.age1 A.social1 A.weight1 A.breed2 A.size2 A.energy2 A.temp2 A.age2 A.social2 A.weight2 A.bemb A.temb A.W1 A.b1 (ix2 n j) - val_main_v57 (F := Ideal) A.breed1 A.size1 A.energy1 A.temp1 A.age1 A.social1 A.weight1 A.breed2 A.size2 A.energy2 A.temp2 A.age2 A.social2 A.weight2 A.bemb A.temb A.W1 A.b1 (ix1 j))
              * Ideal.rsqrt (val_main_v64 (F := Ideal) A.breed1 A.size1 A.energy1 A.temp1 A.age1 A.social1 A.weight1 A.breed2 A.size2 A.energy2 A.temp2 A.age2 A.social2 A.weight2 A.bemb A.temb A.W1 A.b1 (ix1 j) + Ideal.ofBits .f32 0x3727C5AC#32))
            * A.g1 (ix1 j) + A.bt1 (ix1 j)) (Ideal.ofBits .f32 0x00000000#32) := by
  rw [val_main_v80_apply, val_main_v79_apply, val_main_v76_apply, val_main_v73_apply, val_main_v67_apply,
    val_main_v66_apply, val_main_v65_apply, val_main_v72_apply, val_main_v71_apply, val_main_v70_apply,
    val_main_v69_apply, val_main_v68_apply, val_main_cst_14_apply, val_main_v75_apply, val_main_v74_apply,
    val_main_v78_apply, val_main_v77_apply, val_main_call4_v0_apply, val_main_call4_cst_apply]
  have e1 : idx_main_v65 (idx_main_v66 (ix2 n j)) = ix1 j := funext fun a => Fin.ext (by match a with | ⟨0, _⟩ => rfl)
  have e2 : idx_main_v71 (idx_main_v72 (ix2 n j)) = ix1 j := funext fun a => Fin.ext (by match a with | ⟨0, _⟩ => rfl)
  have e3 : idx_main_v74 (idx_main_v75 (ix2 n j)) = ix1 j := funext fun a => Fin.ext (by match a with | ⟨0, _⟩ => rfl)
  have e4 : idx_main_v77 (idx_main_v78 (ix2 n j)) = ix1 j := funext fun a => Fin.ext (by match a with | ⟨0, _⟩ => rfl)
  rw [e1, e2, e3, e4]
  simp only [Ideal.maximumf_def, Ideal.addf_def, Ideal.mulf_def, Ideal.subf_def, Ideal.hostUnary_rsqrt_def,
    Ideal.ofBits_def]

theorem layer1 (A : Arrays) (X : Fin NB → Fin 50 → EReal)
    (hX : ∀ (n : Fin NB) (k : Fin 50), val_main_v50 (F := Ideal) A.breed1 A.size1 A.energy1 A.temp1 A.age1 A.social1 A.weight1 A.breed2 A.size2 A.energy2 A.temp2 A.age2 A.social2 A.weight2 A.bemb A.temb (ix2 n k) = X n k)
    (n : Fin NB) (j : Fin 128) :
    val_main_v80 (F := Ideal) A.breed1 A.size1 A.energy1 A.temp1 A.age1 A.social1 A.weight1 A.breed2 A.size2 A.energy2 A.temp2 A.age2 A.social2 A.weight2 A.bemb A.temb A.W1 A.b1 A.g1 A.bt1 (ix2 n j)
      = actR cntE epsE (preR X (inpOf A).W1 (inpOf A).b1) (inpOf A).g1 (inpOf A).bt1 n j := by
  have hH : (fun (n : Fin NB) (j : Fin 128) => val_main_v54 (F := Ideal) A.breed1 A.size1 A.energy1 A.temp1 A.age1 A.social1 A.weight1 A.breed2 A.size2 A.energy2 A.temp2 A.age2 A.social2 A.weight2 A.bemb A.temb A.W1 A.b1 (ix2 n j))
      = preR X (inpOf A).W1 (inpOf A).b1 := funext fun n => funext fun j => pre1 A X hX n j
  rw [← hH]
  exact (act1_stages A n j).trans
    (act_of_stages (fun (n : Fin NB) (j : Fin 128) => val_main_v54 (F := Ideal) A.breed1 A.size1 A.energy1 A.temp1 A.age1 A.social1 A.weight1 A.breed2 A.size2 A.energy2 A.temp2 A.age2 A.social2 A.weight2 A.bemb A.temb A.W1 A.b1 (ix2 n j))
      (inpOf A).g1 (inpOf A).bt1 n j _ _ (mean1 A j) (var1 A j))

end Cert.ReferenceIdeal.RefValue

end
-- ==== Proof.RefValueL2.lean ====
import proofs.«412578_j66537633349983_3_alg».proof.Proof.RefStages
import proofs.«412578_j66537633349983_3_alg».proof.Proof.Arrays
import proofs.«412578_j66537633349983_3_alg».proof.Proof.RefValueMath

noncomputable section

namespace Cert.ReferenceIdeal.RefValue

open Cert.ReferenceIdeal Cert.ReferenceIdeal.Gen Cert.ReferenceIdeal.Read Idealize.ShloMosaic Idealize.ShloMosaic.ValueIdx Cert.Spec

theorem pre2 (A : Arrays) (X : Fin NB → Fin 128 → EReal)
    (hX : ∀ (n : Fin NB) (k : Fin 128), val_main_v80 (F := Ideal) A.breed1 A.size1 A.energy1 A.temp1 A.age1 A.social1 A.weight1 A.breed2 A.size2 A.energy2 A.temp2 A.age2 A.social2 A.weight2 A.bemb A.temb A.W1 A.b1 A.g1 A.bt1 (ix2 n k) = X n k)
    (n : Fin NB) (j : Fin 64) :
    val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 n j) = preR X (inpOf A).W2 (inpOf A).b2 n j := by
  rw [val_main_v84_apply, val_main_v81_apply, val_main_v83_apply, val_main_v82_apply]
  have el : ∀ k : Fin 128, lidx_main_v81 (ix2 n j) k = ix2 n k := fun k => funext fun a => Fin.ext (by match a with | ⟨0, _⟩ => rfl | ⟨1, _⟩ => rfl)
  have er : ∀ k : Fin 128, ridx_main_v81 (ix2 n j) k = ix2 k j := fun k => funext fun a => Fin.ext (by match a with | ⟨0, _⟩ => rfl | ⟨1, _⟩ => rfl)
  have eb : idx_main_v82 (idx_main_v83 (ix2 n j)) = ix1 j := funext fun a => Fin.ext (by match a with | ⟨0, _⟩ => rfl)
  simp only [el, er, eb, hX, Ideal.addf_def]
  rfl

theorem mean2 (A : Arrays) (j : Fin 64) :
    val_main_v87 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix1 j)
      = Ideal.div (Ideal.ofBits .f32 0x00000000#32 + ∑ k : Fin 1048576, val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 k j))
          (Ideal.ofBits .f32 0x49800000#32) := by
  rw [val_main_v87_apply, val_main_v85_apply, val_main_v86_apply, val_main_cst_16_apply, val_main_cst_15_apply]
  have e : ∀ k : Fin 1048576, idx_main_v85 (ix1 j) k = ix2 k j := fun k => funext fun a => Fin.ext (by match a with | ⟨0, _⟩ => rfl | ⟨1, _⟩ => rfl)
  simp only [e, Ideal.hostDivf_def, Ideal.ofBits_def]

theorem var2 (A : Arrays) (j : Fin 64) :
    val_main_v94 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix1 j)
      = Ideal.div (Ideal.ofBits .f32 0x00000000#32 + ∑ k : Fin 1048576,
            (val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 k j) - val_main_v87 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix1 j))
              * (val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 k j) - val_main_v87 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix1 j)))
          (Ideal.ofBits .f32 0x49800000#32) := by
  rw [val_main_v94_apply, val_main_v92_apply, val_main_v93_apply, val_main_cst_18_apply, val_main_cst_17_apply]
  have e : ∀ k : Fin 1048576, idx_main_v92 (ix1 j) k = ix2 k j := fun k => funext fun a => Fin.ext (by match a with | ⟨0, _⟩ => rfl | ⟨1, _⟩ => rfl)
  have eb : ∀ k : Fin 1048576, idx_main_v88 (idx_main_v89 (ix2 k j)) = ix1 j := fun k => funext fun a => Fin.ext (by match a with | ⟨0, _⟩ => rfl)
  simp only [e, val_main_v91_apply, val_main_v90_apply, val_main_v89_apply, val_main_v88_apply, eb,
    Ideal.hostDivf_def, Ideal.ofBits_def, Ideal.mulf_def, Ideal.subf_def]

theorem act2_stages (A : Arrays) (n : Fin NB) (j : Fin 64) :
    val_main_v110 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 (ix2 n j)
      = max (((val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 n j) - val_main_v87 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix1 j))
              * Ideal.rsqrt (val_main_v94 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix1 j) + Ideal.ofBits .f32 0x3727C5AC#32))
            * A.g2 (ix1 j) + A.bt2 (ix1 j)) (Ideal.ofBits .f32 0x00000000#32) := by
  rw [val_main_v110_apply, val_main_v109_apply, val_main_v106_apply, val_main_v103_apply, val_main_v97_apply,
    val_main_v96_apply, val_main_v95_apply, val_main_v102_apply, val_main_v101_apply, val_main_v100_apply,
    val_main_v99_apply, val_main_v98_apply, val_main_cst_19_apply, val_main_v105_apply, val_main_v104_apply,
    val_main_v108_apply, val_main_v107_apply, val_main_call5_v0_apply, val_main_call5_cst_apply]
  have e1 : idx_main_v95 (idx_main_v96 (ix2 n j)) = ix1 j := funext fun a => Fin.ext (by match a with | ⟨0, _⟩ => rfl)
  have e2 : idx_main_v101 (idx_main_v102 (ix2 n j)) = ix1 j := funext fun a => Fin.ext (by match a with | ⟨0, _⟩ => rfl)
  have e3 : idx_main_v104 (idx_main_v105 (ix2 n j)) = ix1 j := funext fun a => Fin.ext (by match a with | ⟨0, _⟩ => rfl)
  have e4 : idx_main_v107 (idx_main_v108 (ix2 n j)) = ix1 j := funext fun a => Fin.ext (by match a with | ⟨0, _⟩ => rfl)
  rw [e1, e2, e3, e4]
  simp only [Ideal.maximumf_def, Ideal.addf_def, Ideal.mulf_def, Ideal.subf_def, Ideal.hostUnary_rsqrt_def,
    Ideal.ofBits_def]

theorem layer2 (A : Arrays) (X : Fin NB → Fin 128 → EReal)
    (hX : ∀ (n : Fin NB) (k : Fin 128), val_main_v80 (F := Ideal) A.breed1 A.size1 A.energy1 A.temp1 A.age1 A.social1 A.weight1 A.breed2 A.size2 A.energy2 A.temp2 A.age2 A.social2 A.weight2 A.bemb A.temb A.W1 A.b1 A.g1 A.bt1 (ix2 n k) = X n k)
    (n : Fin NB) (j : Fin 64) :
    val_main_v110 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 (ix2 n j)
      = actR cntE epsE (preR X (inpOf A).W2 (inpOf A).b2) (inpOf A).g2 (inpOf A).bt2 n j := by
  have hH : (fun (n : Fin NB) (j : Fin 64) => val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 n j))
      = preR X (inpOf A).W2 (inpOf A).b2 := funext fun n => funext fun j => pre2 A X hX n j
  rw [← hH]
  exact (act2_stages A n j).trans
    (act_of_stages (fun (n : Fin NB) (j : Fin 64) => val_main_v84 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 (ix2 n j))
      (inpOf A).g2 (inpOf A).bt2 n j _ _ (mean2 A j) (var2 A j))

end Cert.ReferenceIdeal.RefValue

end
-- ==== Proof.RefValueL3.lean ====
import proofs.«412578_j66537633349983_3_alg».proof.Proof.RefStages
import proofs.«412578_j66537633349983_3_alg».proof.Proof.Arrays
import proofs.«412578_j66537633349983_3_alg».proof.Proof.RefValueMath

noncomputable section

namespace Cert.ReferenceIdeal.RefValue

open Cert.ReferenceIdeal Cert.ReferenceIdeal.Gen Cert.ReferenceIdeal.Read Idealize.ShloMosaic Idealize.ShloMosaic.ValueIdx Cert.Spec

theorem pre3 (A : Arrays) (X : Fin NB → Fin 64 → EReal)
    (hX : ∀ (n : Fin NB) (k : Fin 64), val_main_v110 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 (ix2 n k) = X n k)
    (n : Fin NB) (j : Fin 32) :
    val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 n j) = preR X (inpOf A).W3 (inpOf A).b3 n j := by
  rw [val_main_v114_apply, val_main_v111_apply, val_main_v113_apply, val_main_v112_apply]
  have el : ∀ k : Fin 64, lidx_main_v111 (ix2 n j) k = ix2 n k := fun k => funext fun a => Fin.ext (by match a with | ⟨0, _⟩ => rfl | ⟨1, _⟩ => rfl)
  have er : ∀ k : Fin 64, ridx_main_v111 (ix2 n j) k = ix2 k j := fun k => funext fun a => Fin.ext (by match a with | ⟨0, _⟩ => rfl | ⟨1, _⟩ => rfl)
  have eb : idx_main_v112 (idx_main_v113 (ix2 n j)) = ix1 j := funext fun a => Fin.ext (by match a with | ⟨0, _⟩ => rfl)
  simp only [el, er, eb, hX, Ideal.addf_def]
  rfl

theorem mean3 (A : Arrays) (j : Fin 32) :
    val_main_v117 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix1 j)
      = Ideal.div (Ideal.ofBits .f32 0x00000000#32 + ∑ k : Fin 1048576, val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 k j))
          (Ideal.ofBits .f32 0x49800000#32) := by
  rw [val_main_v117_apply, val_main_v115_apply, val_main_v116_apply, val_main_cst_21_apply, val_main_cst_20_apply]
  have e : ∀ k : Fin 1048576, idx_main_v115 (ix1 j) k = ix2 k j := fun k => funext fun a => Fin.ext (by match a with | ⟨0, _⟩ => rfl | ⟨1, _⟩ => rfl)
  simp only [e, Ideal.hostDivf_def, Ideal.ofBits_def]

theorem var3 (A : Arrays) (j : Fin 32) :
    val_main_v124 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix1 j)
      = Ideal.div (Ideal.ofBits .f32 0x00000000#32 + ∑ k : Fin 1048576,
            (val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 k j) - val_main_v117 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix1 j))
              * (val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 k j) - val_main_v117 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix1 j)))
          (Ideal.ofBits .f32 0x49800000#32) := by
  rw [val_main_v124_apply, val_main_v122_apply, val_main_v123_apply, val_main_cst_23_apply, val_main_cst_22_apply]
  have e : ∀ k : Fin 1048576, idx_main_v122 (ix1 j) k = ix2 k j := fun k => funext fun a => Fin.ext (by match a with | ⟨0, _⟩ => rfl | ⟨1, _⟩ => rfl)
  have eb : ∀ k : Fin 1048576, idx_main_v118 (idx_main_v119 (ix2 k j)) = ix1 j := fun k => funext fun a => Fin.ext (by match a with | ⟨0, _⟩ => rfl)
  simp only [e, val_main_v121_apply, val_main_v120_apply, val_main_v119_apply, val_main_v118_apply, eb,
    Ideal.hostDivf_def, Ideal.ofBits_def, Ideal.mulf_def, Ideal.subf_def]

theorem act3_stages (A : Arrays) (n : Fin NB) (j : Fin 32) :
    val_main_v140 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 A.g3 A.bt3 (ix2 n j)
      = max (((val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 n j) - val_main_v117 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix1 j))
              * Ideal.rsqrt (val_main_v124 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix1 j) + Ideal.ofBits .f32 0x3727C5AC#32))
            * A.g3 (ix1 j) + A.bt3 (ix1 j)) (Ideal.ofBits .f32 0x00000000#32) := by
  rw [val_main_v140_apply, val_main_v139_apply, val_main_v136_apply, val_main_v133_apply, val_main_v127_apply,
    val_main_v126_apply, val_main_v125_apply, val_main_v132_apply, val_main_v131_apply, val_main_v130_apply,
    val_main_v129_apply, val_main_v128_apply, val_main_cst_24_apply, val_main_v135_apply, val_main_v134_apply,
    val_main_v138_apply, val_main_v137_apply, val_main_call6_v0_apply, val_main_call6_cst_apply]
  have e1 : idx_main_v125 (idx_main_v126 (ix2 n j)) = ix1 j := funext fun a => Fin.ext (by match a with | ⟨0, _⟩ => rfl)
  have e2 : idx_main_v131 (idx_main_v132 (ix2 n j)) = ix1 j := funext fun a => Fin.ext (by match a with | ⟨0, _⟩ => rfl)
  have e3 : idx_main_v134 (idx_main_v135 (ix2 n j)) = ix1 j := funext fun a => Fin.ext (by match a with | ⟨0, _⟩ => rfl)
  have e4 : idx_main_v137 (idx_main_v138 (ix2 n j)) = ix1 j := funext fun a => Fin.ext (by match a with | ⟨0, _⟩ => rfl)
  rw [e1, e2, e3, e4]
  simp only [Ideal.maximumf_def, Ideal.addf_def, Ideal.mulf_def, Ideal.subf_def, Ideal.hostUnary_rsqrt_def,
    Ideal.ofBits_def]

theorem layer3 (A : Arrays) (X : Fin NB → Fin 64 → EReal)
    (hX : ∀ (n : Fin NB) (k : Fin 64), val_main_v110 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 (ix2 n k) = X n k)
    (n : Fin NB) (j : Fin 32) :
    val_main_v140 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 A.g3 A.bt3 (ix2 n j)
      = actR cntE epsE (preR X (inpOf A).W3 (inpOf A).b3) (inpOf A).g3 (inpOf A).bt3 n j := by
  have hH : (fun (n : Fin NB) (j : Fin 32) => val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 n j))
      = preR X (inpOf A).W3 (inpOf A).b3 := funext fun n => funext fun j => pre3 A X hX n j
  rw [← hH]
  exact (act3_stages A n j).trans
    (act_of_stages (fun (n : Fin NB) (j : Fin 32) => val_main_v114 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 (ix2 n j))
      (inpOf A).g3 (inpOf A).bt3 n j _ _ (mean3 A j) (var3 A j))

end Cert.ReferenceIdeal.RefValue

end
-- ==== Proof.RefValueHand.lean ====
import proofs.«412578_j66537633349983_3_alg».proof.Proof.RefStages
import proofs.«412578_j66537633349983_3_alg».proof.Proof.RefRunHand
import proofs.«412578_j66537633349983_3_alg».proof.Proof.Arrays
import proofs.«412578_j66537633349983_3_alg».proof.Proof.RefValueMath
import proofs.«412578_j66537633349983_3_alg».proof.Proof.RefValueFeat
import proofs.«412578_j66537633349983_3_alg».proof.Proof.RefValueL1
import proofs.«412578_j66537633349983_3_alg».proof.Proof.RefValueL2
import proofs.«412578_j66537633349983_3_alg».proof.Proof.RefValueL3

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Spec

def arraysOf (m : (ℓ : Loc nD τ sig) → Buf (Elt Ideal) ℓ) (c : Dev nD) : Cert.Spec.Arrays where
  breed1 := m ((c.tc : Thread nD τ).loc main_arg0)
  size1 := m ((c.tc : Thread nD τ).loc main_arg1)
  energy1 := m ((c.tc : Thread nD τ).loc main_arg2)
  temp1 := m ((c.tc : Thread nD τ).loc main_arg3)
  age1 := m ((c.tc : Thread nD τ).loc main_arg4)
  social1 := m ((c.tc : Thread nD τ).loc main_arg5)
  weight1 := m ((c.tc : Thread nD τ).loc main_arg6)
  breed2 := m ((c.tc : Thread nD τ).loc main_arg7)
  size2 := m ((c.tc : Thread nD τ).loc main_arg8)
  energy2 := m ((c.tc : Thread nD τ).loc main_arg9)
  temp2 := m ((c.tc : Thread nD τ).loc main_arg10)
  age2 := m ((c.tc : Thread nD τ).loc main_arg11)
  social2 := m ((c.tc : Thread nD τ).loc main_arg12)
  weight2 := m ((c.tc : Thread nD τ).loc main_arg13)
  bemb := m ((c.tc : Thread nD τ).loc main_arg14)
  temb := m ((c.tc : Thread nD τ).loc main_arg15)
  W1 := m ((c.tc : Thread nD τ).loc main_arg16)
  b1 := m ((c.tc : Thread nD τ).loc main_arg17)
  g1 := m ((c.tc : Thread nD τ).loc main_arg18)
  bt1 := m ((c.tc : Thread nD τ).loc main_arg19)
  W2 := m ((c.tc : Thread nD τ).loc main_arg20)
  b2 := m ((c.tc : Thread nD τ).loc main_arg21)
  g2 := m ((c.tc : Thread nD τ).loc main_arg22)
  bt2 := m ((c.tc : Thread nD τ).loc main_arg23)
  W3 := m ((c.tc : Thread nD τ).loc main_arg24)
  b3 := m ((c.tc : Thread nD τ).loc main_arg25)
  g3 := m ((c.tc : Thread nD τ).loc main_arg26)
  bt3 := m ((c.tc : Thread nD τ).loc main_arg27)
  W4 := m ((c.tc : Thread nD τ).loc main_arg28)
  b4 := m ((c.tc : Thread nD τ).loc main_arg29)

theorem tail (A : Arrays) (Y : Fin NB → Fin 32 → EReal)
    (hY : ∀ (n : Fin NB) (k : Fin 32), val_main_v140 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 A.g3 A.bt3 (ix2 n k) = Y n k)
    (n : Fin NB) :
    val_main_v151 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 A.g3 A.bt3 A.W4 A.b4 (ix1 n)
      = Ideal.logistic ((∑ k : Fin 32, Y n k * (inpOf A).W4 k) + (inpOf A).b4) := by
  rw [val_main_v151_apply]
  have e151 : idx_main_v151 (ix1 n) = ix2 n (0 : Fin 1) := funext fun a => Fin.ext (by
    match a with
    | ⟨0, _⟩ => exact Nat.div_one _
    | ⟨1, _⟩ => rfl)
  rw [e151, val_main_v150_apply, val_main_v149_apply, val_main_cst_26_apply, val_main_v148_apply, val_main_v147_apply,
    val_main_cst_25_apply, val_main_v146_apply, val_main_v145_apply, val_main_v144_apply, val_main_v141_apply,
    val_main_v143_apply, val_main_v142_apply]
  have el : ∀ k : Fin 32, lidx_main_v141 (ix2 n (0 : Fin 1)) k = ix2 n k := fun k => funext fun a => Fin.ext (by match a with | ⟨0, _⟩ => rfl | ⟨1, _⟩ => rfl)
  have er : ∀ k : Fin 32, ridx_main_v141 (ix2 n (0 : Fin 1)) k = ix2 k (0 : Fin 1) := fun k => funext fun a => Fin.ext (by match a with | ⟨0, _⟩ => rfl | ⟨1, _⟩ => rfl)
  have eb : idx_main_v142 (idx_main_v143 (ix2 n (0 : Fin 1))) = ix1 (0 : Fin 1) := funext fun a => Fin.ext (by match a with | ⟨0, _⟩ => rfl)
  simp only [el, er, eb, hY, Ideal.addf_def, Ideal.hostDivf_def, Ideal.ofBits_def, Ideal.hostUnary_exp_def,
    Ideal.hostNegf_def, Ideal.negf_def]
  exact logistic_of_stages _

theorem out_eq (A : Arrays) (hR : Range (inpOf A)) (n : Fin NB) :
    val_main_v151 (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 A.g3 A.bt3 A.W4 A.b4 (ix1 n) = outR (inpOf A) n :=
  tail A (a3R (inpOf A))
    (layer3 A (a2R (inpOf A))
      (layer2 A (a1R (inpOf A))
        (layer1 A (XR (inpOf A)) (feat A hR)))) n

theorem result_hand (m : (ℓ : Loc nD τ sig) → Buf (Elt Ideal) ℓ) (c : Dev nD)
    (hR : Cert.Spec.Range (Cert.Spec.inpOf (arraysOf m c))) :
    (val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) : FVec Ideal (Cert.Spec.Sh1 1048576) .f32)
      = Cert.Spec.resR (arraysOf m c) := by
  refine funext fun i => ?_
  obtain ⟨n, rfl⟩ : ∃ n : Fin 1048576, i = ix1 n := ⟨i 0, eq_ix1 i⟩
  exact out_eq (arraysOf m c) hR n

theorem run_value (m : (ℓ : Loc nD τ sig) → Buf (Elt Ideal) ℓ) (ρ : Dev nD → PrngReg)
    (hR : ∀ c : Dev nD, Cert.Spec.Range (Cert.Spec.inpOf (arraysOf m c))) :
    θ_run defs (onTc (τ := τ) (main (F := Ideal))) ⟨m, fun _ => 0, ρ⟩ fun r => ∀ c : Dev nD,
      (r.2.mem ((c.tc : Thread nD τ).loc main_v151) : FVec Ideal (Cert.Spec.Sh1 1048576) .f32) = Cert.Spec.resR (arraysOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c).1.trans (result_hand m c (hR c)), (h c).2⟩) (run_hand (F := Ideal) m ρ)

end Cert.ReferenceIdeal.RefValue

end
-- ==== Proof.PreFacts.lean ====
import proofs.«412578_j66537633349983_3_alg».proof.Defs
import proofs.«412578_j66537633349983_3_alg».proof.Proof.Gen.Pre_finite_inputs
import proofs.«412578_j66537633349983_3_alg».proof.Proof.KArrays
import Idealize.ShloMosaic.Lib.ReduceAll
import Idealize.ShloMosaic.Lib.ValueIdx

noncomputable section

namespace Cert.Proof.PreFacts

open Idealize.ShloMosaic Idealize.ShloMosaic.ValueIdx Idealize.ShloMosaic.TcCoe Idealize.SL.Sem
open Cert.KernelIdeal.Hand

abbrev S0 : Shape := ⟨0, ![]⟩

instance : Subsingleton S0.Idx := ⟨fun _ _ => funext fun d => d.elim0⟩

theorem inf_bits : Ideal.ofBits .f32 0x7F800000#32 = ⊤ := by simp [Ideal.ofBits, Ideal.ieee]

theorem cmp_olt_iff (a b : EReal) : Ideal.cmp .olt a b = 1#1 ↔ a < b := by
  show BitVec.ofBool (decide (a < b)) = 1#1 ↔ a < b
  cases h : decide (a < b) <;> simp_all

theorem real_of_abs_lt_top (x : EReal) (h : max x (-x) < ⊤) : ∃ r : ℝ, x = r := by
  induction x with
  | bot => exact absurd h (by simp)
  | coe r => exact ⟨r, rfl⟩
  | top => exact absurd h (by simp)

theorem toNat_lt (w C : BitVec 32) (n : Nat) (hn : C.toInt = n) (h0 : 0 ≤ w.toInt) (h1 : w.toInt < C.toInt) :
    w.toNat < n := by
  have h2 : 2 * w.toNat < 2 ^ 32 := BitVec.toInt_pos_iff.1 h0
  have h3 : w.toInt = w.toNat := BitVec.toInt_eq_toNat_of_lt h2
  omega

theorem all_finite {s : Shape} {axes : List (Fin s.rank)}
    (hb : S0.BroadcastsInDim s (![] : Fin 0 → Fin s.rank)) (hr : s.ReducesTo axes S0) (h0 : 0 < S0.numel)
    (x : FVec Ideal s .f32)
    (e : Host.reduce IntOp.andi
          (cmpf .olt (Host.absf x) (broadcastInDim s ![] hb (constant (F := Ideal) S0 .f32 0x7F800000#32)))
          (constantI S0 1 1#1) hr h0 ix0 = 1#1)
    (i : s.Idx) : ∃ r : ℝ, x i = r := by
  have hi := Host.reduce_andi_all _ _ hr h0 ix0 e i
  have hi' : Ideal.cmp .olt (max (x i) (-(x i))) (Ideal.ofBits .f32 0x7F800000#32) = 1#1 := hi
  rw [inf_bits, cmp_olt_iff] at hi'
  exact real_of_abs_lt_top _ hi'

theorem all_sge_zero {s : Shape} {axes : List (Fin s.rank)}
    (hb : S0.BroadcastsInDim s (![] : Fin 0 → Fin s.rank)) (hr : s.ReducesTo axes S0) (h0 : 0 < S0.numel)
    (x : IVec s 32)
    (e : Host.reduce IntOp.andi (cmpi .sge x (broadcastInDim s ![] hb (constantI S0 32 0#32)))
          (constantI S0 1 1#1) hr h0 ix0 = 1#1)
    (i : s.Idx) : 0 ≤ (x i).toInt := by
  have hi : IntOp.cmpi .sge (x i) 0#32 = 1#1 := Host.reduce_andi_all _ _ hr h0 ix0 e i
  have hz : (0#32 : BitVec 32).toInt = 0 := by decide
  rw [IntOp.cmpi_sge, hz] at hi
  exact hi

theorem all_slt {s : Shape} {axes : List (Fin s.rank)} (C : BitVec 32)
    (hb : S0.BroadcastsInDim s (![] : Fin 0 → Fin s.rank)) (hr : s.ReducesTo axes S0) (h0 : 0 < S0.numel)
    (x : IVec s 32)
    (e : Host.reduce IntOp.andi (cmpi .slt x (broadcastInDim s ![] hb (constantI S0 32 C)))
          (constantI S0 1 1#1) hr h0 ix0 = 1#1)
    (i : s.Idx) : (x i).toInt < C.toInt := by
  have hi : IntOp.cmpi .slt (x i) C = 1#1 := Host.reduce_andi_all _ _ hr h0 ix0 e i
  exact IntOp.cmpi_slt.1 hi

theorem facts_of_fn (A : Cert.Spec.Arrays)
    (h : Cert.Pre_finite_inputs.fn (F := Ideal) A.breed1 A.size1 A.energy1 A.temp1 A.age1 A.social1 A.weight1 A.breed2 A.size2 A.energy2 A.temp2 A.age2 A.social2 A.weight2 A.bemb A.temb A.W1 A.b1 A.g1 A.bt1 A.W2 A.b2 A.g2 A.bt2 A.W3 A.b3 A.g3 A.bt3 A.W4 A.b4 = fun _ => 1#1) :
    Cert.Spec.Finite (Cert.Spec.inpOf A) ∧ Cert.Spec.Range (Cert.Spec.inpOf A) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at e
  simp only [andi, IntOp.andi_eq_one] at e
  obtain ⟨⟨⟨⟨⟨⟨⟨⟨⟨⟨⟨⟨⟨⟨⟨⟨⟨⟨⟨⟨⟨⟨⟨⟨⟨⟨⟨⟨⟨f4, f5⟩, f6⟩, f11⟩, f12⟩, f13⟩, f14⟩, f15⟩, f16⟩, f17⟩, f18⟩, f19⟩, f20⟩, f21⟩, f22⟩, f23⟩, f24⟩, f25⟩, f26⟩, f27⟩, f28⟩, f29⟩, lo0⟩, hi0⟩, lo3⟩, hi3⟩, lo7⟩, hi7⟩, lo10⟩, hi10⟩ := e
  have F4 := all_finite _ _ _ _ f4
  have F5 := all_finite _ _ _ _ f5
  have F6 := all_finite _ _ _ _ f6
  have F11 := all_finite _ _ _ _ f11
  have F12 := all_finite _ _ _ _ f12
  have F13 := all_finite _ _ _ _ f13
  have F14 := all_finite _ _ _ _ f14
  have F15 := all_finite _ _ _ _ f15
  have F16 := all_finite _ _ _ _ f16
  have F17 := all_finite _ _ _ _ f17
  have F18 := all_finite _ _ _ _ f18
  have F19 := all_finite _ _ _ _ f19
  have F20 := all_finite _ _ _ _ f20
  have F21 := all_finite _ _ _ _ f21
  have F22 := all_finite _ _ _ _ f22
  have F23 := all_finite _ _ _ _ f23
  have F24 := all_finite _ _ _ _ f24
  have F25 := all_finite _ _ _ _ f25
  have F26 := all_finite _ _ _ _ f26
  have F27 := all_finite _ _ _ _ f27
  have F28 := all_finite _ _ _ _ f28
  have F29 := all_finite _ _ _ _ f29
  have L0 := all_sge_zero _ _ _ _ lo0
  have H0 := all_slt _ _ _ _ _ hi0
  have L3 := all_sge_zero _ _ _ _ lo3
  have H3 := all_slt _ _ _ _ _ hi3
  have L7 := all_sge_zero _ _ _ _ lo7
  have H7 := all_slt _ _ _ _ _ hi7
  have L10 := all_sge_zero _ _ _ _ lo10
  have H10 := all_slt _ _ _ _ _ hi10
  exact ⟨{
      age1 := fun n => F4 (ix1 n),
      social1 := fun n => F5 (ix1 n),
      weight1 := fun n => F6 (ix1 n),
      age2 := fun n => F11 (ix1 n),
      social2 := fun n => F12 (ix1 n),
      weight2 := fun n => F13 (ix1 n),
      bemb := fun a b => F14 (ix2 a b),
      temb := fun a b => F15 (ix2 a b),
      W1 := fun a b => F16 (ix2 a b),
      b1 := fun n => F17 (ix1 n),
      g1 := fun n => F18 (ix1 n),
      bt1 := fun n => F19 (ix1 n),
      W2 := fun a b => F20 (ix2 a b),
      b2 := fun n => F21 (ix1 n),
      g2 := fun n => F22 (ix1 n),
      bt2 := fun n => F23 (ix1 n),
      W3 := fun a b => F24 (ix2 a b),
      b3 := fun n => F25 (ix1 n),
      g3 := fun n => F26 (ix1 n),
      bt3 := fun n => F27 (ix1 n),
      W4 := fun k => F28 (ix2 k (0 : Fin 1)),
      b4 := F29 (ix1 (0 : Fin 1)) },
    { breed1 := fun n => toNat_lt _ _ 15 (by decide) (L0 (ix1 n)) (H0 (ix1 n))
      temp1 := fun n => toNat_lt _ _ 9 (by decide) (L3 (ix1 n)) (H3 (ix1 n))
      breed2 := fun n => toNat_lt _ _ 15 (by decide) (L7 (ix1 n)) (H7 (ix1 n))
      temp2 := fun n => toNat_lt _ _ 9 (by decide) (L10 (ix1 n)) (H10 (ix1 n)) }⟩

variable (m : (ℓ : Loc Cert.KernelIdeal.nD Cert.KernelIdeal.τ Cert.KernelIdeal.sig) → Buf (Elt Ideal) ℓ)

theorem finite_of_pre (h : Cert.Pre_KernelIdeal m) (c : Dev Cert.KernelIdeal.nD) :
    Cert.Spec.Finite (Cert.Spec.inpOf (arraysOfK m c)) := (facts_of_fn (arraysOfK m c) (h c)).1

theorem range_of_pre (h : Cert.Pre_KernelIdeal m) (c : Dev Cert.KernelIdeal.nD) :
    Cert.Spec.Range (Cert.Spec.inpOf (arraysOfK m c)) := (facts_of_fn (arraysOfK m c) (h c)).2

end Cert.Proof.PreFacts

end
-- ==== Proof.lean ====
import proofs.«412578_j66537633349983_3_alg».proof.Defs
import proofs.«412578_j66537633349983_3_alg».proof.Proof.Gen.Kernel
import proofs.«412578_j66537633349983_3_alg».proof.Proof.Gen.KernelIdeal
import proofs.«412578_j66537633349983_3_alg».proof.Proof.Gen.ReferenceIdeal
import proofs.«412578_j66537633349983_3_alg».proof.Proof.Gen.Pre_finite_inputs
import proofs.«412578_j66537633349983_3_alg».proof.Proof.KernelText
import proofs.«412578_j66537633349983_3_alg».proof.Proof.KFrame
import proofs.«412578_j66537633349983_3_alg».proof.Proof.KValue
import proofs.«412578_j66537633349983_3_alg».proof.Proof.RefValueHand
import proofs.«412578_j66537633349983_3_alg».proof.Proof.PreFacts
import proofs.«412578_j66537633349983_3_alg».proof.Proof.MathModel
import Idealize.ShloMosaic.Adequacy
import Idealize.ShloMosaic.Init

noncomputable section

namespace Cert.Proof

open Idealize.ShloMosaic Idealize.ShloMosaic.TcCoe Idealize.SL.Sem

theorem frame_ki : Cert.frame_KernelIdeal := fun m ρ _ =>
  (θ_run Cert.KernelIdeal.defs _ _).mono (fun _ h c => (h c).2) (Cert.KernelIdeal.Hand.run_value m ρ)

theorem frame_ri : Cert.frame_ReferenceIdeal := fun m ρ _ =>
  (θ_run Cert.ReferenceIdeal.defs _ _).mono (fun _ h c => (h c).2) (Cert.ReferenceIdeal.RefValue.run_hand (F := Ideal) m ρ)

theorem preserves : Cert.preserves_Kernel_KernelIdeal :=
  have a := IdealRules.named_const.statement Cert.KernelIdeal.κ "inv_15" .f32 0x3D888889#32 ((1 / 15 : ℝ) : EReal) rfl
  have b := IdealRules.named_const.statement Cert.KernelIdeal.κ "inv_100" .f32 0x3C23D70A#32 ((1 / 100 : ℝ) : EReal) rfl
  ⟨a, b, a, b, a, b, a, b, a, b, a, b, a, b, a, b⟩

theorem algebraic : Cert.algebraic_KernelIdeal_ReferenceIdeal := by
  intro m ρ m' ρ' hpre hagree
  have hA : ∀ c, Cert.ReferenceIdeal.RefValue.arraysOf m' c = Cert.KernelIdeal.Hand.arraysOfK m c := by
    intro c
    obtain ⟨h0, h1, h2, h3, h4, h5, h6, h7, h8, h9, h10, h11, h12, h13, h14, h15, h16, h17, h18, h19, h20, h21, h22, h23, h24, h25, h26, h27, h28, h29⟩ := hagree c
    simp only [Cert.ReferenceIdeal.RefValue.arraysOf, Cert.KernelIdeal.Hand.arraysOfK, h0, h1, h2, h3, h4, h5, h6, h7, h8, h9, h10, h11, h12, h13, h14, h15, h16, h17, h18, h19, h20, h21, h22, h23, h24, h25, h26, h27, h28, h29]
  have hF := fun c => Cert.Proof.PreFacts.finite_of_pre m hpre c
  have hR := fun c => Cert.Proof.PreFacts.range_of_pre m hpre c
  refine ⟨fun c => Cert.KernelIdeal.Gen.V9 m (Cert.KernelIdeal.Hand.outs m) c Cert.KernelIdeal.main_v102,
    Cert.KernelIdeal.Hand.run_value m ρ, ?_⟩
  refine (θ_run Cert.ReferenceIdeal.defs _ _).mono (fun _ h c => ⟨(h c).1.trans ?_, (h c).2⟩)
    (Cert.ReferenceIdeal.RefValue.run_value m' ρ' (fun c => (hA c) ▸ hR c))
  exact (congrArg Cert.Spec.resR (hA c)).trans
    ((Cert.Spec.resK_eq_resR _ (hF c) (hR c)).symm.trans (Cert.KernelIdeal.Hand.kernel_result m c).symm)

theorem claim : Cert.Claim := ⟨Cert.Kernel.Gen.facts, Cert.KernelIdeal.Gen.facts, Cert.ReferenceIdeal.Gen.facts, Cert.Pre_finite_inputs.Gen.facts,
  Cert.Kernel.Hand.frame_k, frame_ki, frame_ri, preserves, algebraic⟩

end Cert.Proof

end
